-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500x128 : Shape := ⟨2, ![500, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩
abbrev S1x600000 : Shape := ⟨2, ![1, 600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  bcast_S_S1x600000 : S_.BroadcastsInDim S1x600000 (![] : Fin 0 → Fin S1x600000.rank)
  reducesTo_S1x600000_S_d0_1 : S1x600000.ReducesTo [0, 1] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg3 : IVec S600000 32) (main_v28 : IVec S_ 1) (main_v31 : IVec S1x600000 1) (main_v32 : IVec S1x600000 32) (main_v33 : IVec S1x600000 32) : IVec S_ 1 :=
  let main_v34 : IVec S1x600000 1 := cmpi .slt main_v32 main_v33
  let main_v35 : IVec S1x600000 1 := andi main_v31 main_v34
  let main_c_12 : IVec S_ 1 := constantI S_ 1 1#1
  let main_v36 : IVec S_ 1 := (fun x v => Host.reduce IntOp.andi x v reducesTo_S1x600000_S_d0_1 h_S_) main_v35 main_c_12
  let main_v37 : IVec S_ 1 := andi main_v28 main_v36
  let main_c_13 : IVec S_ 32 := constantI S_ 32 0#32
  let main_v38 : IVec S600000 32 := broadcastInDim S600000 ![] bcast_S_S600000 main_c_13
  let main_v39 : IVec S600000 1 := cmpi .sge main_arg3 main_v38
  let main_c_14 : IVec S_ 32 := constantI S_ 32 500#32
  let main_v40 : IVec S600000 32 := broadcastInDim S600000 ![] bcast_S_S600000 main_c_14
  let main_v41 : IVec S600000 1 := cmpi .slt main_arg3 main_v40
  let main_v42 : IVec S600000 1 := andi main_v39 main_v41
  let main_c_15 : IVec S_ 1 := constantI S_ 1 1#1
  let main_v43 : IVec S_ 1 := (fun x v => Host.reduce IntOp.andi x v reducesTo_S600000_S_d0 h_S_) main_v42 main_c_15
  let main_v44 : IVec S_ 1 := andi main_v37 main_v43
  main_v44

def fn_part1 {F : FTy → Type} [FloatOps F] (main_arg2 : IVec S2x600000 32) (main_arg3 : IVec S600000 32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x600000 32 := (extractStridedSlice S1x600000 ![0, 0] · slices_S2x600000_S1x600000_0_0) main_arg2
  let main_c_10 : IVec S_ 32 := constantI S_ 32 0#32
  let main_v30 : IVec S1x600000 32 := broadcastInDim S1x600000 ![] bcast_S_S1x600000 main_c_10
  let main_v31 : IVec S1x600000 1 := cmpi .sge main_v29 main_v30
  let main_v32 : IVec S1x600000 32 := (extractStridedSlice S1x600000 ![0, 0] · slices_S2x600000_S1x600000_0_0) main_arg2
  let main_c_11 : IVec S_ 32 := constantI S_ 32 100000#32
  let main_v33 : IVec S1x600000 32 := broadcastInDim S1x600000 ![] bcast_S_S1x600000 main_c_11
  fn_part2 (F := F) main_arg3 main_v28 main_v31 main_v32 main_v33

def fn {F : FTy → Type} [FloatOps F] (main_arg0 : FVec F S100000x128 .f32) (main_arg1 : FVec F S500x128 .f32) (main_arg2 : IVec S2x600000 32) (main_arg3 : IVec S600000 32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_v13 main_v16
-- ==== Kernel.lean ====
abbrev S100000x128 : Shape := ⟨2, ![100000, 128]⟩
abbrev S500x128 : Shape := ⟨2, ![500, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S606208 : Shape := ⟨1, ![606208]⟩
abbrev S512x128 : Shape := ⟨2, ![512, 128]⟩
abbrev S606208x128 : Shape := ⟨2, ![606208, 128]⟩
abbrev S8192 : Shape := ⟨1, ![8192]⟩
abbrev S8192x128 : Shape := ⟨2, ![8192, 128]⟩
abbrev S32 : Shape := ⟨1, ![32]⟩
abbrev S1 : Shape := ⟨1, ![1]⟩
abbrev S1x128 : Shape := ⟨2, ![1, 128]⟩
abbrev S128x512 : Shape := ⟨2, ![128, 512]⟩
abbrev S128x1 : Shape := ⟨2, ![128, 1]⟩
abbrev S600000x128 : Shape := ⟨2, ![600000, 128]⟩
abbrev S600000x1 : Shape := ⟨2, ![600000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 29
  | .vmem => 16
  | .smem => 2
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S2x600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S_, .i32⟩
  | .hbm, ⟨14, _⟩ => ⟨S606208, .i32⟩
  | .hbm, ⟨15, _⟩ => ⟨S_, .i32⟩
  | .hbm, ⟨16, _⟩ => ⟨S_, .i32⟩
  | .hbm, ⟨17, _⟩ => ⟨S606208, .i32⟩
  | .hbm, ⟨18, _⟩ => ⟨S_, .i32⟩
  | .hbm, ⟨19, _⟩ => ⟨S_, .f32⟩
  | .hbm, ⟨20, _⟩ => ⟨S512x128, .f32⟩
  | .hbm, ⟨21, _⟩ => ⟨S606208x128, .f32⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S128x128, .f32⟩
  | .hbm, ⟨28, _⟩ => ⟨S100000x128, .f32⟩
  | .local _ .vmem, ⟨0, _⟩ => ⟨S8192, .i32⟩
  | .local _ .vmem, ⟨1, _⟩ => ⟨S8192, .i32⟩
  | .local _ .vmem, ⟨2, _⟩ => ⟨S512x128, .f32⟩
  | .local _ .vmem, ⟨3, _⟩ => ⟨S8192x128, .f32⟩
  | .local _ .vmem, ⟨4, _⟩ => ⟨S8192x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .smem, ⟨0, _⟩ => ⟨S8192, .i32⟩
  | .local _ .smem, ⟨1, _⟩ => ⟨S8192, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 39
abbrev cc1_sem0_1 : DmaSem sig := 40
abbrev cc1_sem1_0 : DmaSem sig := 41
abbrev cc1_sem1_1 : DmaSem sig := 42
abbrev cc1_sem2_0 : DmaSem sig := 43
abbrev cc1_sem3_0 : DmaSem sig := 44
abbrev cc1_sem4_0 : DmaSem sig := 45
abbrev cc1_sem5_0 : DmaSem sig := 46
abbrev cc1_sem6_0 : DmaSem sig := 47
abbrev cc1_sem6_1 : DmaSem sig := 48

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c0_i32_1 : BitVec 32 := 0#32
  let v2 : BitVec 32 := Scalar.addi v1 c0_i32_1
  let v3 : Index := Scalar.indexCast v2
  ![v3.toNat]
def k0_off2 (v4 : BitVec 32) : Fin 2 → Nat :=
  let c0_i32_5 : BitVec 32 := 0#32
  ![v4.toNat, 0]

def k0_chk1 (v4 : BitVec 32) : Prop :=
  (∀ a, (k0_off2 v4) a + S1x128.size a ≤ S100000x128.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S1x128.size a ≤ S100000x128.size a := fun v4 k0_hw1 => k0_hw1

def k0_off3 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c1_i32_6 : BitVec 32 := 1#32
  let v11 : BitVec 32 := Scalar.addi v1 c1_i32_6
  let v12 : Index := Scalar.indexCast v11
  ![v12.toNat]
def k0_off4 (v13 : BitVec 32) : Fin 2 → Nat :=
  let c0_i32_10 : BitVec 32 := 0#32
  ![v13.toNat, 0]

def k0_chk2 (v13 : BitVec 32) : Prop :=
  (∀ a, (k0_off4 v13) a + S1x128.size a ≤ S100000x128.size a)
instance k0_chk2.dec : ∀ (v13 : BitVec 32), Decidable (k0_chk2 v13) := fun v13 => decidable_of_iff' _ (Iff.of_eq (k0_chk2.eq_1 v13))
theorem k0_off4_inb : ∀ (v13 : BitVec 32) (k0_hw2 : k0_chk2 v13), ∀ a, (k0_off4 v13) a + S1x128.size a ≤ S100000x128.size a := fun v13 k0_hw2 => k0_hw2

def k0_off5 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c2_i32 : BitVec 32 := 2#32
  let v20 : BitVec 32 := Scalar.addi v1 c2_i32
  let v21 : Index := Scalar.indexCast v20
  ![v21.toNat]
def k0_off6 (v22 : BitVec 32) : Fin 2 → Nat :=
  let c0_i32_14 : BitVec 32 := 0#32
  ![v22.toNat, 0]

def k0_chk3 (v22 : BitVec 32) : Prop :=
  (∀ a, (k0_off6 v22) a + S1x128.size a ≤ S100000x128.size a)
instance k0_chk3.dec : ∀ (v22 : BitVec 32), Decidable (k0_chk3 v22) := fun v22 => decidable_of_iff' _ (Iff.of_eq (k0_chk3.eq_1 v22))
theorem k0_off6_inb : ∀ (v22 : BitVec 32) (k0_hw3 : k0_chk3 v22), ∀ a, (k0_off6 v22) a + S1x128.size a ≤ S100000x128.size a := fun v22 k0_hw3 => k0_hw3

def k0_off7 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c3_i32 : BitVec 32 := 3#32
  let v29 : BitVec 32 := Scalar.addi v1 c3_i32
  let v30 : Index := Scalar.indexCast v29
  ![v30.toNat]
def k0_off8 (v31 : BitVec 32) : Fin 2 → Nat :=
  let c0_i32_18 : BitVec 32 := 0#32
  ![v31.toNat, 0]

def k0_chk4 (v31 : BitVec 32) : Prop :=
  (∀ a, (k0_off8 v31) a + S1x128.size a ≤ S100000x128.size a)
instance k0_chk4.dec : ∀ (v31 : BitVec 32), Decidable (k0_chk4 v31) := fun v31 => decidable_of_iff' _ (Iff.of_eq (k0_chk4.eq_1 v31))
theorem k0_off8_inb : ∀ (v31 : BitVec 32) (k0_hw4 : k0_chk4 v31), ∀ a, (k0_off8 v31) a + S1x128.size a ≤ S100000x128.size a := fun v31 k0_hw4 => k0_hw4

def k0_off9 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c4_i32 : BitVec 32 := 4#32
  let v38 : BitVec 32 := Scalar.addi v1 c4_i32
  let v39 : Index := Scalar.indexCast v38
  ![v39.toNat]
def k0_off10 (v40 : BitVec 32) : Fin 2 → Nat :=
  let c0_i32_22 : BitVec 32 := 0#32
  ![v40.toNat, 0]

def k0_chk5 (v40 : BitVec 32) : Prop :=
  (∀ a, (k0_off10 v40) a + S1x128.size a ≤ S100000x128.size a)
instance k0_chk5.dec : ∀ (v40 : BitVec 32), Decidable (k0_chk5 v40) := fun v40 => decidable_of_iff' _ (Iff.of_eq (k0_chk5.eq_1 v40))
theorem k0_off10_inb : ∀ (v40 : BitVec 32) (k0_hw5 : k0_chk5 v40), ∀ a, (k0_off10 v40) a + S1x128.size a ≤ S100000x128.size a := fun v40 k0_hw5 => k0_hw5

def k0_off11 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c5_i32 : BitVec 32 := 5#32
  let v47 : BitVec 32 := Scalar.addi v1 c5_i32
  let v48 : Index := Scalar.indexCast v47
  ![v48.toNat]
def k0_off12 (v49 : BitVec 32) : Fin 2 → Nat :=
  let c0_i32_26 : BitVec 32 := 0#32
  ![v49.toNat, 0]

def k0_chk6 (v49 : BitVec 32) : Prop :=
  (∀ a, (k0_off12 v49) a + S1x128.size a ≤ S100000x128.size a)
instance k0_chk6.dec : ∀ (v49 : BitVec 32), Decidable (k0_chk6 v49) := fun v49 => decidable_of_iff' _ (Iff.of_eq (k0_chk6.eq_1 v49))
theorem k0_off12_inb : ∀ (v49 : BitVec 32) (k0_hw6 : k0_chk6 v49), ∀ a, (k0_off12 v49) a + S1x128.size a ≤ S100000x128.size a := fun v49 k0_hw6 => k0_hw6

def k0_off13 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c6_i32 : BitVec 32 := 6#32
  let v56 : BitVec 32 := Scalar.addi v1 c6_i32
  let v57 : Index := Scalar.indexCast v56
  ![v57.toNat]
def k0_off14 (v58 : BitVec 32) : Fin 2 → Nat :=
  let c0_i32_30 : BitVec 32 := 0#32
  ![v58.toNat, 0]

def k0_chk7 (v58 : BitVec 32) : Prop :=
  (∀ a, (k0_off14 v58) a + S1x128.size a ≤ S100000x128.size a)
instance k0_chk7.dec : ∀ (v58 : BitVec 32), Decidable (k0_chk7 v58) := fun v58 => decidable_of_iff' _ (Iff.of_eq (k0_chk7.eq_1 v58))
theorem k0_off14_inb : ∀ (v58 : BitVec 32) (k0_hw7 : k0_chk7 v58), ∀ a, (k0_off14 v58) a + S1x128.size a ≤ S100000x128.size a := fun v58 k0_hw7 => k0_hw7

def k0_off15 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c7_i32 : BitVec 32 := 7#32
  let v65 : BitVec 32 := Scalar.addi v1 c7_i32
  let v66 : Index := Scalar.indexCast v65
  ![v66.toNat]
def k0_off16 (v67 : BitVec 32) : Fin 2 → Nat :=
  let c0_i32_34 : BitVec 32 := 0#32
  ![v67.toNat, 0]

def k0_chk8 (v67 : BitVec 32) : Prop :=
  (∀ a, (k0_off16 v67) a + S1x128.size a ≤ S100000x128.size a)
instance k0_chk8.dec : ∀ (v67 : BitVec 32), Decidable (k0_chk8 v67) := fun v67 => decidable_of_iff' _ (Iff.of_eq (k0_chk8.eq_1 v67))
theorem k0_off16_inb : ∀ (v67 : BitVec 32) (k0_hw8 : k0_chk8 v67), ∀ a, (k0_off16 v67) a + S1x128.size a ≤ S100000x128.size a := fun v67 k0_hw8 => k0_hw8

def k0_off17 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c8_i32 : BitVec 32 := 8#32
  let v74 : BitVec 32 := Scalar.addi v1 c8_i32
  let v75 : Index := Scalar.indexCast v74
  ![v75.toNat]
def k0_off18 (v76 : BitVec 32) : Fin 2 → Nat :=
  let c0_i32_38 : BitVec 32 := 0#32
  ![v76.toNat, 0]

def k0_chk9 (v76 : BitVec 32) : Prop :=
  (∀ a, (k0_off18 v76) a + S1x128.size a ≤ S100000x128.size a)
instance k0_chk9.dec : ∀ (v76 : BitVec 32), Decidable (k0_chk9 v76) := fun v76 => decidable_of_iff' _ (Iff.of_eq (k0_chk9.eq_1 v76))
theorem k0_off18_inb : ∀ (v76 : BitVec 32) (k0_hw9 : k0_chk9 v76), ∀ a, (k0_off18 v76) a + S1x128.size a ≤ S100000x128.size a := fun v76 k0_hw9 => k0_hw9

def k0_off19 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c9_i32 : BitVec 32 := 9#32
  let v83 : BitVec 32 := Scalar.addi v1 c9_i32
  let v84 : Index := Scalar.indexCast v83
  ![v84.toNat]
def k0_off20 (v85 : BitVec 32) : Fin 2 → Nat :=
  let c0_i32_42 : BitVec 32 := 0#32
  ![v85.toNat, 0]

def k0_chk10 (v85 : BitVec 32) : Prop :=
  (∀ a, (k0_off20 v85) a + S1x128.size a ≤ S100000x128.size a)
instance k0_chk10.dec : ∀ (v85 : BitVec 32), Decidable (k0_chk10 v85) := fun v85 => decidable_of_iff' _ (Iff.of_eq (k0_chk10.eq_1 v85))
theorem k0_off20_inb : ∀ (v85 : BitVec 32) (k0_hw10 : k0_chk10 v85), ∀ a, (k0_off20 v85) a + S1x128.size a ≤ S100000x128.size a := fun v85 k0_hw10 => k0_hw10

def k0_off21 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c10_i32 : BitVec 32 := 10#32
  let v92 : BitVec 32 := Scalar.addi v1 c10_i32
  let v93 : Index := Scalar.indexCast v92
  ![v93.toNat]
def k0_off22 (v94 : BitVec 32) : Fin 2 → Nat :=
  let c0_i32_46 : BitVec 32 := 0#32
  ![v94.toNat, 0]

def k0_chk11 (v94 : BitVec 32) : Prop :=
  (∀ a, (k0_off22 v94) a + S1x128.size a ≤ S100000x128.size a)
instance k0_chk11.dec : ∀ (v94 : BitVec 32), Decidable (k0_chk11 v94) := fun v94 => decidable_of_iff' _ (Iff.of_eq (k0_chk11.eq_1 v94))
theorem k0_off22_inb : ∀ (v94 : BitVec 32) (k0_hw11 : k0_chk11 v94), ∀ a, (k0_off22 v94) a + S1x128.size a ≤ S100000x128.size a := fun v94 k0_hw11 => k0_hw11

def k0_off23 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c11_i32 : BitVec 32 := 11#32
  let v101 : BitVec 32 := Scalar.addi v1 c11_i32
  let v102 : Index := Scalar.indexCast v101
  ![v102.toNat]
def k0_off24 (v103 : BitVec 32) : Fin 2 → Nat :=
  let c0_i32_50 : BitVec 32 := 0#32
  ![v103.toNat, 0]

def k0_chk12 (v103 : BitVec 32) : Prop :=
  (∀ a, (k0_off24 v103) a + S1x128.size a ≤ S100000x128.size a)
instance k0_chk12.dec : ∀ (v103 : BitVec 32), Decidable (k0_chk12 v103) := fun v103 => decidable_of_iff' _ (Iff.of_eq (k0_chk12.eq_1 v103))
theorem k0_off24_inb : ∀ (v103 : BitVec 32) (k0_hw12 : k0_chk12 v103), ∀ a, (k0_off24 v103) a + S1x128.size a ≤ S100000x128.size a := fun v103 k0_hw12 => k0_hw12

def k0_off25 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c12_i32 : BitVec 32 := 12#32
  let v110 : BitVec 32 := Scalar.addi v1 c12_i32
  let v111 : Index := Scalar.indexCast v110
  ![v111.toNat]
def k0_off26 (v112 : BitVec 32) : Fin 2 → Nat :=
  let c0_i32_54 : BitVec 32 := 0#32
  ![v112.toNat, 0]

def k0_chk13 (v112 : BitVec 32) : Prop :=
  (∀ a, (k0_off26 v112) a + S1x128.size a ≤ S100000x128.size a)
instance k0_chk13.dec : ∀ (v112 : BitVec 32), Decidable (k0_chk13 v112) := fun v112 => decidable_of_iff' _ (Iff.of_eq (k0_chk13.eq_1 v112))
theorem k0_off26_inb : ∀ (v112 : BitVec 32) (k0_hw13 : k0_chk13 v112), ∀ a, (k0_off26 v112) a + S1x128.size a ≤ S100000x128.size a := fun v112 k0_hw13 => k0_hw13

def k0_off27 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c13_i32 : BitVec 32 := 13#32
  let v119 : BitVec 32 := Scalar.addi v1 c13_i32
  let v120 : Index := Scalar.indexCast v119
  ![v120.toNat]
def k0_off28 (v121 : BitVec 32) : Fin 2 → Nat :=
  let c0_i32_58 : BitVec 32 := 0#32
  ![v121.toNat, 0]

def k0_chk14 (v121 : BitVec 32) : Prop :=
  (∀ a, (k0_off28 v121) a + S1x128.size a ≤ S100000x128.size a)
instance k0_chk14.dec : ∀ (v121 : BitVec 32), Decidable (k0_chk14 v121) := fun v121 => decidable_of_iff' _ (Iff.of_eq (k0_chk14.eq_1 v121))
theorem k0_off28_inb : ∀ (v121 : BitVec 32) (k0_hw14 : k0_chk14 v121), ∀ a, (k0_off28 v121) a + S1x128.size a ≤ S100000x128.size a := fun v121 k0_hw14 => k0_hw14

def k0_off29 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c14_i32 : BitVec 32 := 14#32
  let v128 : BitVec 32 := Scalar.addi v1 c14_i32
  let v129 : Index := Scalar.indexCast v128
  ![v129.toNat]
def k0_off30 (v130 : BitVec 32) : Fin 2 → Nat :=
  let c0_i32_62 : BitVec 32 := 0#32
  ![v130.toNat, 0]

def k0_chk15 (v130 : BitVec 32) : Prop :=
  (∀ a, (k0_off30 v130) a + S1x128.size a ≤ S100000x128.size a)
instance k0_chk15.dec : ∀ (v130 : BitVec 32), Decidable (k0_chk15 v130) := fun v130 => decidable_of_iff' _ (Iff.of_eq (k0_chk15.eq_1 v130))
theorem k0_off30_inb : ∀ (v130 : BitVec 32) (k0_hw15 : k0_chk15 v130), ∀ a, (k0_off30 v130) a + S1x128.size a ≤ S100000x128.size a := fun v130 k0_hw15 => k0_hw15

def k0_off31 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c15_i32 : BitVec 32 := 15#32
  let v137 : BitVec 32 := Scalar.addi v1 c15_i32
  let v138 : Index := Scalar.indexCast v137
  ![v138.toNat]
def k0_off32 (v139 : BitVec 32) : Fin 2 → Nat :=
  let c0_i32_66 : BitVec 32 := 0#32
  ![v139.toNat, 0]

def k0_chk16 (v139 : BitVec 32) : Prop :=
  (∀ a, (k0_off32 v139) a + S1x128.size a ≤ S100000x128.size a)
instance k0_chk16.dec : ∀ (v139 : BitVec 32), Decidable (k0_chk16 v139) := fun v139 => decidable_of_iff' _ (Iff.of_eq (k0_chk16.eq_1 v139))
theorem k0_off32_inb : ∀ (v139 : BitVec 32) (k0_hw16 : k0_chk16 v139), ∀ a, (k0_off32 v139) a + S1x128.size a ≤ S100000x128.size a := fun v139 k0_hw16 => k0_hw16

def k0_off33 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c16_i32 : BitVec 32 := 16#32
  let v146 : BitVec 32 := Scalar.addi v1 c16_i32
  let v147 : Index := Scalar.indexCast v146
  ![v147.toNat]
def k0_off34 (v148 : BitVec 32) : Fin 2 → Nat :=
  let c0_i32_70 : BitVec 32 := 0#32
  ![v148.toNat, 0]

def k0_chk17 (v148 : BitVec 32) : Prop :=
  (∀ a, (k0_off34 v148) a + S1x128.size a ≤ S100000x128.size a)
instance k0_chk17.dec : ∀ (v148 : BitVec 32), Decidable (k0_chk17 v148) := fun v148 => decidable_of_iff' _ (Iff.of_eq (k0_chk17.eq_1 v148))
theorem k0_off34_inb : ∀ (v148 : BitVec 32) (k0_hw17 : k0_chk17 v148), ∀ a, (k0_off34 v148) a + S1x128.size a ≤ S100000x128.size a := fun v148 k0_hw17 => k0_hw17

def k0_off35 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c17_i32 : BitVec 32 := 17#32
  let v155 : BitVec 32 := Scalar.addi v1 c17_i32
  let v156 : Index := Scalar.indexCast v155
  ![v156.toNat]
def k0_off36 (v157 : BitVec 32) : Fin 2 → Nat :=
  let c0_i32_74 : BitVec 32 := 0#32
  ![v157.toNat, 0]

def k0_chk18 (v157 : BitVec 32) : Prop :=
  (∀ a, (k0_off36 v157) a + S1x128.size a ≤ S100000x128.size a)
instance k0_chk18.dec : ∀ (v157 : BitVec 32), Decidable (k0_chk18 v157) := fun v157 => decidable_of_iff' _ (Iff.of_eq (k0_chk18.eq_1 v157))
theorem k0_off36_inb : ∀ (v157 : BitVec 32) (k0_hw18 : k0_chk18 v157), ∀ a, (k0_off36 v157) a + S1x128.size a ≤ S100000x128.size a := fun v157 k0_hw18 => k0_hw18

def k0_off37 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c18_i32 : BitVec 32 := 18#32
  let v164 : BitVec 32 := Scalar.addi v1 c18_i32
  let v165 : Index := Scalar.indexCast v164
  ![v165.toNat]
def k0_off38 (v166 : BitVec 32) : Fin 2 → Nat :=
  let c0_i32_78 : BitVec 32 := 0#32
  ![v166.toNat, 0]

def k0_chk19 (v166 : BitVec 32) : Prop :=
  (∀ a, (k0_off38 v166) a + S1x128.size a ≤ S100000x128.size a)
instance k0_chk19.dec : ∀ (v166 : BitVec 32), Decidable (k0_chk19 v166) := fun v166 => decidable_of_iff' _ (Iff.of_eq (k0_chk19.eq_1 v166))
theorem k0_off38_inb : ∀ (v166 : BitVec 32) (k0_hw19 : k0_chk19 v166), ∀ a, (k0_off38 v166) a + S1x128.size a ≤ S100000x128.size a := fun v166 k0_hw19 => k0_hw19

def k0_off39 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c19_i32 : BitVec 32 := 19#32
  let v173 : BitVec 32 := Scalar.addi v1 c19_i32
  let v174 : Index := Scalar.indexCast v173
  ![v174.toNat]
def k0_off40 (v175 : BitVec 32) : Fin 2 → Nat :=
  let c0_i32_82 : BitVec 32 := 0#32
  ![v175.toNat, 0]

def k0_chk20 (v175 : BitVec 32) : Prop :=
  (∀ a, (k0_off40 v175) a + S1x128.size a ≤ S100000x128.size a)
instance k0_chk20.dec : ∀ (v175 : BitVec 32), Decidable (k0_chk20 v175) := fun v175 => decidable_of_iff' _ (Iff.of_eq (k0_chk20.eq_1 v175))
theorem k0_off40_inb : ∀ (v175 : BitVec 32) (k0_hw20 : k0_chk20 v175), ∀ a, (k0_off40 v175) a + S1x128.size a ≤ S100000x128.size a := fun v175 k0_hw20 => k0_hw20

def k0_off41 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c20_i32 : BitVec 32 := 20#32
  let v182 : BitVec 32 := Scalar.addi v1 c20_i32
  let v183 : Index := Scalar.indexCast v182
  ![v183.toNat]
def k0_off42 (v184 : BitVec 32) : Fin 2 → Nat :=
  let c0_i32_86 : BitVec 32 := 0#32
  ![v184.toNat, 0]

def k0_chk21 (v184 : BitVec 32) : Prop :=
  (∀ a, (k0_off42 v184) a + S1x128.size a ≤ S100000x128.size a)
instance k0_chk21.dec : ∀ (v184 : BitVec 32), Decidable (k0_chk21 v184) := fun v184 => decidable_of_iff' _ (Iff.of_eq (k0_chk21.eq_1 v184))
theorem k0_off42_inb : ∀ (v184 : BitVec 32) (k0_hw21 : k0_chk21 v184), ∀ a, (k0_off42 v184) a + S1x128.size a ≤ S100000x128.size a := fun v184 k0_hw21 => k0_hw21

def k0_off43 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c21_i32 : BitVec 32 := 21#32
  let v191 : BitVec 32 := Scalar.addi v1 c21_i32
  let v192 : Index := Scalar.indexCast v191
  ![v192.toNat]
def k0_off44 (v193 : BitVec 32) : Fin 2 → Nat :=
  let c0_i32_90 : BitVec 32 := 0#32
  ![v193.toNat, 0]

def k0_chk22 (v193 : BitVec 32) : Prop :=
  (∀ a, (k0_off44 v193) a + S1x128.size a ≤ S100000x128.size a)
instance k0_chk22.dec : ∀ (v193 : BitVec 32), Decidable (k0_chk22 v193) := fun v193 => decidable_of_iff' _ (Iff.of_eq (k0_chk22.eq_1 v193))
theorem k0_off44_inb : ∀ (v193 : BitVec 32) (k0_hw22 : k0_chk22 v193), ∀ a, (k0_off44 v193) a + S1x128.size a ≤ S100000x128.size a := fun v193 k0_hw22 => k0_hw22

def k0_off45 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c22_i32 : BitVec 32 := 22#32
  let v200 : BitVec 32 := Scalar.addi v1 c22_i32
  let v201 : Index := Scalar.indexCast v200
  ![v201.toNat]
def k0_off46 (v202 : BitVec 32) : Fin 2 → Nat :=
  let c0_i32_94 : BitVec 32 := 0#32
  ![v202.toNat, 0]

def k0_chk23 (v202 : BitVec 32) : Prop :=
  (∀ a, (k0_off46 v202) a + S1x128.size a ≤ S100000x128.size a)
instance k0_chk23.dec : ∀ (v202 : BitVec 32), Decidable (k0_chk23 v202) := fun v202 => decidable_of_iff' _ (Iff.of_eq (k0_chk23.eq_1 v202))
theorem k0_off46_inb : ∀ (v202 : BitVec 32) (k0_hw23 : k0_chk23 v202), ∀ a, (k0_off46 v202) a + S1x128.size a ≤ S100000x128.size a := fun v202 k0_hw23 => k0_hw23

def k0_off47 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c23_i32 : BitVec 32 := 23#32
  let v209 : BitVec 32 := Scalar.addi v1 c23_i32
  let v210 : Index := Scalar.indexCast v209
  ![v210.toNat]
def k0_off48 (v211 : BitVec 32) : Fin 2 → Nat :=
  let c0_i32_98 : BitVec 32 := 0#32
  ![v211.toNat, 0]

def k0_chk24 (v211 : BitVec 32) : Prop :=
  (∀ a, (k0_off48 v211) a + S1x128.size a ≤ S100000x128.size a)
instance k0_chk24.dec : ∀ (v211 : BitVec 32), Decidable (k0_chk24 v211) := fun v211 => decidable_of_iff' _ (Iff.of_eq (k0_chk24.eq_1 v211))
theorem k0_off48_inb : ∀ (v211 : BitVec 32) (k0_hw24 : k0_chk24 v211), ∀ a, (k0_off48 v211) a + S1x128.size a ≤ S100000x128.size a := fun v211 k0_hw24 => k0_hw24

def k0_off49 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c24_i32 : BitVec 32 := 24#32
  let v218 : BitVec 32 := Scalar.addi v1 c24_i32
  let v219 : Index := Scalar.indexCast v218
  ![v219.toNat]
def k0_off50 (v220 : BitVec 32) : Fin 2 → Nat :=
  let c0_i32_102 : BitVec 32 := 0#32
  ![v220.toNat, 0]

def k0_chk25 (v220 : BitVec 32) : Prop :=
  (∀ a, (k0_off50 v220) a + S1x128.size a ≤ S100000x128.size a)
instance k0_chk25.dec : ∀ (v220 : BitVec 32), Decidable (k0_chk25 v220) := fun v220 => decidable_of_iff' _ (Iff.of_eq (k0_chk25.eq_1 v220))
theorem k0_off50_inb : ∀ (v220 : BitVec 32) (k0_hw25 : k0_chk25 v220), ∀ a, (k0_off50 v220) a + S1x128.size a ≤ S100000x128.size a := fun v220 k0_hw25 => k0_hw25

def k0_off51 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c25_i32 : BitVec 32 := 25#32
  let v227 : BitVec 32 := Scalar.addi v1 c25_i32
  let v228 : Index := Scalar.indexCast v227
  ![v228.toNat]
def k0_off52 (v229 : BitVec 32) : Fin 2 → Nat :=
  let c0_i32_106 : BitVec 32 := 0#32
  ![v229.toNat, 0]

def k0_chk26 (v229 : BitVec 32) : Prop :=
  (∀ a, (k0_off52 v229) a + S1x128.size a ≤ S100000x128.size a)
instance k0_chk26.dec : ∀ (v229 : BitVec 32), Decidable (k0_chk26 v229) := fun v229 => decidable_of_iff' _ (Iff.of_eq (k0_chk26.eq_1 v229))
theorem k0_off52_inb : ∀ (v229 : BitVec 32) (k0_hw26 : k0_chk26 v229), ∀ a, (k0_off52 v229) a + S1x128.size a ≤ S100000x128.size a := fun v229 k0_hw26 => k0_hw26

def k0_off53 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c26_i32 : BitVec 32 := 26#32
  let v236 : BitVec 32 := Scalar.addi v1 c26_i32
  let v237 : Index := Scalar.indexCast v236
  ![v237.toNat]
def k0_off54 (v238 : BitVec 32) : Fin 2 → Nat :=
  let c0_i32_110 : BitVec 32 := 0#32
  ![v238.toNat, 0]

def k0_chk27 (v238 : BitVec 32) : Prop :=
  (∀ a, (k0_off54 v238) a + S1x128.size a ≤ S100000x128.size a)
instance k0_chk27.dec : ∀ (v238 : BitVec 32), Decidable (k0_chk27 v238) := fun v238 => decidable_of_iff' _ (Iff.of_eq (k0_chk27.eq_1 v238))
theorem k0_off54_inb : ∀ (v238 : BitVec 32) (k0_hw27 : k0_chk27 v238), ∀ a, (k0_off54 v238) a + S1x128.size a ≤ S100000x128.size a := fun v238 k0_hw27 => k0_hw27

def k0_off55 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c27_i32 : BitVec 32 := 27#32
  let v245 : BitVec 32 := Scalar.addi v1 c27_i32
  let v246 : Index := Scalar.indexCast v245
  ![v246.toNat]
def k0_off56 (v247 : BitVec 32) : Fin 2 → Nat :=
  let c0_i32_114 : BitVec 32 := 0#32
  ![v247.toNat, 0]

def k0_chk28 (v247 : BitVec 32) : Prop :=
  (∀ a, (k0_off56 v247) a + S1x128.size a ≤ S100000x128.size a)
instance k0_chk28.dec : ∀ (v247 : BitVec 32), Decidable (k0_chk28 v247) := fun v247 => decidable_of_iff' _ (Iff.of_eq (k0_chk28.eq_1 v247))
theorem k0_off56_inb : ∀ (v247 : BitVec 32) (k0_hw28 : k0_chk28 v247), ∀ a, (k0_off56 v247) a + S1x128.size a ≤ S100000x128.size a := fun v247 k0_hw28 => k0_hw28

def k0_off57 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c28_i32 : BitVec 32 := 28#32
  let v254 : BitVec 32 := Scalar.addi v1 c28_i32
  let v255 : Index := Scalar.indexCast v254
  ![v255.toNat]
def k0_off58 (v256 : BitVec 32) : Fin 2 → Nat :=
  let c0_i32_118 : BitVec 32 := 0#32
  ![v256.toNat, 0]

def k0_chk29 (v256 : BitVec 32) : Prop :=
  (∀ a, (k0_off58 v256) a + S1x128.size a ≤ S100000x128.size a)
instance k0_chk29.dec : ∀ (v256 : BitVec 32), Decidable (k0_chk29 v256) := fun v256 => decidable_of_iff' _ (Iff.of_eq (k0_chk29.eq_1 v256))
theorem k0_off58_inb : ∀ (v256 : BitVec 32) (k0_hw29 : k0_chk29 v256), ∀ a, (k0_off58 v256) a + S1x128.size a ≤ S100000x128.size a := fun v256 k0_hw29 => k0_hw29

def k0_off59 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c29_i32 : BitVec 32 := 29#32
  let v263 : BitVec 32 := Scalar.addi v1 c29_i32
  let v264 : Index := Scalar.indexCast v263
  ![v264.toNat]
def k0_off60 (v265 : BitVec 32) : Fin 2 → Nat :=
  let c0_i32_122 : BitVec 32 := 0#32
  ![v265.toNat, 0]

def k0_chk30 (v265 : BitVec 32) : Prop :=
  (∀ a, (k0_off60 v265) a + S1x128.size a ≤ S100000x128.size a)
instance k0_chk30.dec : ∀ (v265 : BitVec 32), Decidable (k0_chk30 v265) := fun v265 => decidable_of_iff' _ (Iff.of_eq (k0_chk30.eq_1 v265))
theorem k0_off60_inb : ∀ (v265 : BitVec 32) (k0_hw30 : k0_chk30 v265), ∀ a, (k0_off60 v265) a + S1x128.size a ≤ S100000x128.size a := fun v265 k0_hw30 => k0_hw30

def k0_off61 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c30_i32 : BitVec 32 := 30#32
  let v272 : BitVec 32 := Scalar.addi v1 c30_i32
  let v273 : Index := Scalar.indexCast v272
  ![v273.toNat]
def k0_off62 (v274 : BitVec 32) : Fin 2 → Nat :=
  let c0_i32_126 : BitVec 32 := 0#32
  ![v274.toNat, 0]

def k0_chk31 (v274 : BitVec 32) : Prop :=
  (∀ a, (k0_off62 v274) a + S1x128.size a ≤ S100000x128.size a)
instance k0_chk31.dec : ∀ (v274 : BitVec 32), Decidable (k0_chk31 v274) := fun v274 => decidable_of_iff' _ (Iff.of_eq (k0_chk31.eq_1 v274))
theorem k0_off62_inb : ∀ (v274 : BitVec 32) (k0_hw31 : k0_chk31 v274), ∀ a, (k0_off62 v274) a + S1x128.size a ≤ S100000x128.size a := fun v274 k0_hw31 => k0_hw31

def k0_off63 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c31_i32 : BitVec 32 := 31#32
  let v281 : BitVec 32 := Scalar.addi v1 c31_i32
  let v282 : Index := Scalar.indexCast v281
  ![v282.toNat]
def k0_off64 (v283 : BitVec 32) : Fin 2 → Nat :=
  let c0_i32_130 : BitVec 32 := 0#32
  ![v283.toNat, 0]

def k0_chk32 (v283 : BitVec 32) : Prop :=
  (∀ a, (k0_off64 v283) a + S1x128.size a ≤ S100000x128.size a)
instance k0_chk32.dec : ∀ (v283 : BitVec 32), Decidable (k0_chk32 v283) := fun v283 => decidable_of_iff' _ (Iff.of_eq (k0_chk32.eq_1 v283))
theorem k0_off64_inb : ∀ (v283 : BitVec 32) (k0_hw32 : k0_chk32 v283), ∀ a, (k0_off64 v283) a + S1x128.size a ≤ S100000x128.size a := fun v283 k0_hw32 => k0_hw32

def k0_off65 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c32_i32 : BitVec 32 := 32#32
  let v482 : BitVec 32 := Scalar.addi v1 c32_i32
  let v483 : Index := Scalar.indexCast v482
  ![v483.toNat]
def k0_off66 (v484 : BitVec 32) : Fin 2 → Nat :=
  let c0_i32_294 : BitVec 32 := 0#32
  ![v484.toNat, 0]

def k0_chk33 (v484 : BitVec 32) : Prop :=
  (∀ a, (k0_off66 v484) a + S1x128.size a ≤ S100000x128.size a)
instance k0_chk33.dec : ∀ (v484 : BitVec 32), Decidable (k0_chk33 v484) := fun v484 => decidable_of_iff' _ (Iff.of_eq (k0_chk33.eq_1 v484))
theorem k0_off66_inb : ∀ (v484 : BitVec 32) (k0_hw33 : k0_chk33 v484), ∀ a, (k0_off66 v484) a + S1x128.size a ≤ S100000x128.size a := fun v484 k0_hw33 => k0_hw33

def k0_off67 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c33_i32 : BitVec 32 := 33#32
  let v491 : BitVec 32 := Scalar.addi v1 c33_i32
  let v492 : Index := Scalar.indexCast v491
  ![v492.toNat]
def k0_off68 (v493 : BitVec 32) : Fin 2 → Nat :=
  let c0_i32_298 : BitVec 32 := 0#32
  ![v493.toNat, 0]

def k0_chk34 (v493 : BitVec 32) : Prop :=
  (∀ a, (k0_off68 v493) a + S1x128.size a ≤ S100000x128.size a)
instance k0_chk34.dec : ∀ (v493 : BitVec 32), Decidable (k0_chk34 v493) := fun v493 => decidable_of_iff' _ (Iff.of_eq (k0_chk34.eq_1 v493))
theorem k0_off68_inb : ∀ (v493 : BitVec 32) (k0_hw34 : k0_chk34 v493), ∀ a, (k0_off68 v493) a + S1x128.size a ≤ S100000x128.size a := fun v493 k0_hw34 => k0_hw34

def k0_off69 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c34_i32 : BitVec 32 := 34#32
  let v500 : BitVec 32 := Scalar.addi v1 c34_i32
  let v501 : Index := Scalar.indexCast v500
  ![v501.toNat]
def k0_off70 (v502 : BitVec 32) : Fin 2 → Nat :=
  let c0_i32_302 : BitVec 32 := 0#32
  ![v502.toNat, 0]

def k0_chk35 (v502 : BitVec 32) : Prop :=
  (∀ a, (k0_off70 v502) a + S1x128.size a ≤ S100000x128.size a)
instance k0_chk35.dec : ∀ (v502 : BitVec 32), Decidable (k0_chk35 v502) := fun v502 => decidable_of_iff' _ (Iff.of_eq (k0_chk35.eq_1 v502))
theorem k0_off70_inb : ∀ (v502 : BitVec 32) (k0_hw35 : k0_chk35 v502), ∀ a, (k0_off70 v502) a + S1x128.size a ≤ S100000x128.size a := fun v502 k0_hw35 => k0_hw35

def k0_off71 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c35_i32 : BitVec 32 := 35#32
  let v509 : BitVec 32 := Scalar.addi v1 c35_i32
  let v510 : Index := Scalar.indexCast v509
  ![v510.toNat]
def k0_off72 (v511 : BitVec 32) : Fin 2 → Nat :=
  let c0_i32_306 : BitVec 32 := 0#32
  ![v511.toNat, 0]

def k0_chk36 (v511 : BitVec 32) : Prop :=
  (∀ a, (k0_off72 v511) a + S1x128.size a ≤ S100000x128.size a)
instance k0_chk36.dec : ∀ (v511 : BitVec 32), Decidable (k0_chk36 v511) := fun v511 => decidable_of_iff' _ (Iff.of_eq (k0_chk36.eq_1 v511))
theorem k0_off72_inb : ∀ (v511 : BitVec 32) (k0_hw36 : k0_chk36 v511), ∀ a, (k0_off72 v511) a + S1x128.size a ≤ S100000x128.size a := fun v511 k0_hw36 => k0_hw36

def k0_off73 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c36_i32 : BitVec 32 := 36#32
  let v518 : BitVec 32 := Scalar.addi v1 c36_i32
  let v519 : Index := Scalar.indexCast v518
  ![v519.toNat]
def k0_off74 (v520 : BitVec 32) : Fin 2 → Nat :=
  let c0_i32_310 : BitVec 32 := 0#32
  ![v520.toNat, 0]

def k0_chk37 (v520 : BitVec 32) : Prop :=
  (∀ a, (k0_off74 v520) a + S1x128.size a ≤ S100000x128.size a)
instance k0_chk37.dec : ∀ (v520 : BitVec 32), Decidable (k0_chk37 v520) := fun v520 => decidable_of_iff' _ (Iff.of_eq (k0_chk37.eq_1 v520))
theorem k0_off74_inb : ∀ (v520 : BitVec 32) (k0_hw37 : k0_chk37 v520), ∀ a, (k0_off74 v520) a + S1x128.size a ≤ S100000x128.size a := fun v520 k0_hw37 => k0_hw37

def k0_off75 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c37_i32 : BitVec 32 := 37#32
  let v527 : BitVec 32 := Scalar.addi v1 c37_i32
  let v528 : Index := Scalar.indexCast v527
  ![v528.toNat]
def k0_off76 (v529 : BitVec 32) : Fin 2 → Nat :=
  let c0_i32_314 : BitVec 32 := 0#32
  ![v529.toNat, 0]

def k0_chk38 (v529 : BitVec 32) : Prop :=
  (∀ a, (k0_off76 v529) a + S1x128.size a ≤ S100000x128.size a)
instance k0_chk38.dec : ∀ (v529 : BitVec 32), Decidable (k0_chk38 v529) := fun v529 => decidable_of_iff' _ (Iff.of_eq (k0_chk38.eq_1 v529))
theorem k0_off76_inb : ∀ (v529 : BitVec 32) (k0_hw38 : k0_chk38 v529), ∀ a, (k0_off76 v529) a + S1x128.size a ≤ S100000x128.size a := fun v529 k0_hw38 => k0_hw38

def k0_off77 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c38_i32 : BitVec 32 := 38#32
  let v536 : BitVec 32 := Scalar.addi v1 c38_i32
  let v537 : Index := Scalar.indexCast v536
  ![v537.toNat]
def k0_off78 (v538 : BitVec 32) : Fin 2 → Nat :=
  let c0_i32_318 : BitVec 32 := 0#32
  ![v538.toNat, 0]

def k0_chk39 (v538 : BitVec 32) : Prop :=
  (∀ a, (k0_off78 v538) a + S1x128.size a ≤ S100000x128.size a)
instance k0_chk39.dec : ∀ (v538 : BitVec 32), Decidable (k0_chk39 v538) := fun v538 => decidable_of_iff' _ (Iff.of_eq (k0_chk39.eq_1 v538))
theorem k0_off78_inb : ∀ (v538 : BitVec 32) (k0_hw39 : k0_chk39 v538), ∀ a, (k0_off78 v538) a + S1x128.size a ≤ S100000x128.size a := fun v538 k0_hw39 => k0_hw39

def k0_off79 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c39_i32 : BitVec 32 := 39#32
  let v545 : BitVec 32 := Scalar.addi v1 c39_i32
  let v546 : Index := Scalar.indexCast v545
  ![v546.toNat]
def k0_off80 (v547 : BitVec 32) : Fin 2 → Nat :=
  let c0_i32_322 : BitVec 32 := 0#32
  ![v547.toNat, 0]

def k0_chk40 (v547 : BitVec 32) : Prop :=
  (∀ a, (k0_off80 v547) a + S1x128.size a ≤ S100000x128.size a)
instance k0_chk40.dec : ∀ (v547 : BitVec 32), Decidable (k0_chk40 v547) := fun v547 => decidable_of_iff' _ (Iff.of_eq (k0_chk40.eq_1 v547))
theorem k0_off80_inb : ∀ (v547 : BitVec 32) (k0_hw40 : k0_chk40 v547), ∀ a, (k0_off80 v547) a + S1x128.size a ≤ S100000x128.size a := fun v547 k0_hw40 => k0_hw40

def k0_off81 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c40_i32 : BitVec 32 := 40#32
  let v554 : BitVec 32 := Scalar.addi v1 c40_i32
  let v555 : Index := Scalar.indexCast v554
  ![v555.toNat]
def k0_off82 (v556 : BitVec 32) : Fin 2 → Nat :=
  let c0_i32_326 : BitVec 32 := 0#32
  ![v556.toNat, 0]

def k0_chk41 (v556 : BitVec 32) : Prop :=
  (∀ a, (k0_off82 v556) a + S1x128.size a ≤ S100000x128.size a)
instance k0_chk41.dec : ∀ (v556 : BitVec 32), Decidable (k0_chk41 v556) := fun v556 => decidable_of_iff' _ (Iff.of_eq (k0_chk41.eq_1 v556))
theorem k0_off82_inb : ∀ (v556 : BitVec 32) (k0_hw41 : k0_chk41 v556), ∀ a, (k0_off82 v556) a + S1x128.size a ≤ S100000x128.size a := fun v556 k0_hw41 => k0_hw41

def k0_off83 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c41_i32 : BitVec 32 := 41#32
  let v563 : BitVec 32 := Scalar.addi v1 c41_i32
  let v564 : Index := Scalar.indexCast v563
  ![v564.toNat]
def k0_off84 (v565 : BitVec 32) : Fin 2 → Nat :=
  let c0_i32_330 : BitVec 32 := 0#32
  ![v565.toNat, 0]

def k0_chk42 (v565 : BitVec 32) : Prop :=
  (∀ a, (k0_off84 v565) a + S1x128.size a ≤ S100000x128.size a)
instance k0_chk42.dec : ∀ (v565 : BitVec 32), Decidable (k0_chk42 v565) := fun v565 => decidable_of_iff' _ (Iff.of_eq (k0_chk42.eq_1 v565))
theorem k0_off84_inb : ∀ (v565 : BitVec 32) (k0_hw42 : k0_chk42 v565), ∀ a, (k0_off84 v565) a + S1x128.size a ≤ S100000x128.size a := fun v565 k0_hw42 => k0_hw42

def k0_off85 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c42_i32 : BitVec 32 := 42#32
  let v572 : BitVec 32 := Scalar.addi v1 c42_i32
  let v573 : Index := Scalar.indexCast v572
  ![v573.toNat]
def k0_off86 (v574 : BitVec 32) : Fin 2 → Nat :=
  let c0_i32_334 : BitVec 32 := 0#32
  ![v574.toNat, 0]

def k0_chk43 (v574 : BitVec 32) : Prop :=
  (∀ a, (k0_off86 v574) a + S1x128.size a ≤ S100000x128.size a)
instance k0_chk43.dec : ∀ (v574 : BitVec 32), Decidable (k0_chk43 v574) := fun v574 => decidable_of_iff' _ (Iff.of_eq (k0_chk43.eq_1 v574))
theorem k0_off86_inb : ∀ (v574 : BitVec 32) (k0_hw43 : k0_chk43 v574), ∀ a, (k0_off86 v574) a + S1x128.size a ≤ S100000x128.size a := fun v574 k0_hw43 => k0_hw43

def k0_off87 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c43_i32 : BitVec 32 := 43#32
  let v581 : BitVec 32 := Scalar.addi v1 c43_i32
  let v582 : Index := Scalar.indexCast v581
  ![v582.toNat]
def k0_off88 (v583 : BitVec 32) : Fin 2 → Nat :=
  let c0_i32_338 : BitVec 32 := 0#32
  ![v583.toNat, 0]

def k0_chk44 (v583 : BitVec 32) : Prop :=
  (∀ a, (k0_off88 v583) a + S1x128.size a ≤ S100000x128.size a)
instance k0_chk44.dec : ∀ (v583 : BitVec 32), Decidable (k0_chk44 v583) := fun v583 => decidable_of_iff' _ (Iff.of_eq (k0_chk44.eq_1 v583))
theorem k0_off88_inb : ∀ (v583 : BitVec 32) (k0_hw44 : k0_chk44 v583), ∀ a, (k0_off88 v583) a + S1x128.size a ≤ S100000x128.size a := fun v583 k0_hw44 => k0_hw44

def k0_off89 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c44_i32 : BitVec 32 := 44#32
  let v590 : BitVec 32 := Scalar.addi v1 c44_i32
  let v591 : Index := Scalar.indexCast v590
  ![v591.toNat]
def k0_off90 (v592 : BitVec 32) : Fin 2 → Nat :=
  let c0_i32_342 : BitVec 32 := 0#32
  ![v592.toNat, 0]

def k0_chk45 (v592 : BitVec 32) : Prop :=
  (∀ a, (k0_off90 v592) a + S1x128.size a ≤ S100000x128.size a)
instance k0_chk45.dec : ∀ (v592 : BitVec 32), Decidable (k0_chk45 v592) := fun v592 => decidable_of_iff' _ (Iff.of_eq (k0_chk45.eq_1 v592))
theorem k0_off90_inb : ∀ (v592 : BitVec 32) (k0_hw45 : k0_chk45 v592), ∀ a, (k0_off90 v592) a + S1x128.size a ≤ S100000x128.size a := fun v592 k0_hw45 => k0_hw45

def k0_off91 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c45_i32 : BitVec 32 := 45#32
  let v599 : BitVec 32 := Scalar.addi v1 c45_i32
  let v600 : Index := Scalar.indexCast v599
  ![v600.toNat]
def k0_off92 (v601 : BitVec 32) : Fin 2 → Nat :=
  let c0_i32_346 : BitVec 32 := 0#32
  ![v601.toNat, 0]

def k0_chk46 (v601 : BitVec 32) : Prop :=
  (∀ a, (k0_off92 v601) a + S1x128.size a ≤ S100000x128.size a)
instance k0_chk46.dec : ∀ (v601 : BitVec 32), Decidable (k0_chk46 v601) := fun v601 => decidable_of_iff' _ (Iff.of_eq (k0_chk46.eq_1 v601))
theorem k0_off92_inb : ∀ (v601 : BitVec 32) (k0_hw46 : k0_chk46 v601), ∀ a, (k0_off92 v601) a + S1x128.size a ≤ S100000x128.size a := fun v601 k0_hw46 => k0_hw46

def k0_off93 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c46_i32 : BitVec 32 := 46#32
  let v608 : BitVec 32 := Scalar.addi v1 c46_i32
  let v609 : Index := Scalar.indexCast v608
  ![v609.toNat]
def k0_off94 (v610 : BitVec 32) : Fin 2 → Nat :=
  let c0_i32_350 : BitVec 32 := 0#32
  ![v610.toNat, 0]

def k0_chk47 (v610 : BitVec 32) : Prop :=
  (∀ a, (k0_off94 v610) a + S1x128.size a ≤ S100000x128.size a)
instance k0_chk47.dec : ∀ (v610 : BitVec 32), Decidable (k0_chk47 v610) := fun v610 => decidable_of_iff' _ (Iff.of_eq (k0_chk47.eq_1 v610))
theorem k0_off94_inb : ∀ (v610 : BitVec 32) (k0_hw47 : k0_chk47 v610), ∀ a, (k0_off94 v610) a + S1x128.size a ≤ S100000x128.size a := fun v610 k0_hw47 => k0_hw47

def k0_off95 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c47_i32 : BitVec 32 := 47#32
  let v617 : BitVec 32 := Scalar.addi v1 c47_i32
  let v618 : Index := Scalar.indexCast v617
  ![v618.toNat]
def k0_off96 (v619 : BitVec 32) : Fin 2 → Nat :=
  let c0_i32_354 : BitVec 32 := 0#32
  ![v619.toNat, 0]

def k0_chk48 (v619 : BitVec 32) : Prop :=
  (∀ a, (k0_off96 v619) a + S1x128.size a ≤ S100000x128.size a)
instance k0_chk48.dec : ∀ (v619 : BitVec 32), Decidable (k0_chk48 v619) := fun v619 => decidable_of_iff' _ (Iff.of_eq (k0_chk48.eq_1 v619))
theorem k0_off96_inb : ∀ (v619 : BitVec 32) (k0_hw48 : k0_chk48 v619), ∀ a, (k0_off96 v619) a + S1x128.size a ≤ S100000x128.size a := fun v619 k0_hw48 => k0_hw48

def k0_off97 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c48_i32 : BitVec 32 := 48#32
  let v626 : BitVec 32 := Scalar.addi v1 c48_i32
  let v627 : Index := Scalar.indexCast v626
  ![v627.toNat]
def k0_off98 (v628 : BitVec 32) : Fin 2 → Nat :=
  let c0_i32_358 : BitVec 32 := 0#32
  ![v628.toNat, 0]

def k0_chk49 (v628 : BitVec 32) : Prop :=
  (∀ a, (k0_off98 v628) a + S1x128.size a ≤ S100000x128.size a)
instance k0_chk49.dec : ∀ (v628 : BitVec 32), Decidable (k0_chk49 v628) := fun v628 => decidable_of_iff' _ (Iff.of_eq (k0_chk49.eq_1 v628))
theorem k0_off98_inb : ∀ (v628 : BitVec 32) (k0_hw49 : k0_chk49 v628), ∀ a, (k0_off98 v628) a + S1x128.size a ≤ S100000x128.size a := fun v628 k0_hw49 => k0_hw49

def k0_off99 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c49_i32 : BitVec 32 := 49#32
  let v635 : BitVec 32 := Scalar.addi v1 c49_i32
  let v636 : Index := Scalar.indexCast v635
  ![v636.toNat]
def k0_off100 (v637 : BitVec 32) : Fin 2 → Nat :=
  let c0_i32_362 : BitVec 32 := 0#32
  ![v637.toNat, 0]

def k0_chk50 (v637 : BitVec 32) : Prop :=
  (∀ a, (k0_off100 v637) a + S1x128.size a ≤ S100000x128.size a)
instance k0_chk50.dec : ∀ (v637 : BitVec 32), Decidable (k0_chk50 v637) := fun v637 => decidable_of_iff' _ (Iff.of_eq (k0_chk50.eq_1 v637))
theorem k0_off100_inb : ∀ (v637 : BitVec 32) (k0_hw50 : k0_chk50 v637), ∀ a, (k0_off100 v637) a + S1x128.size a ≤ S100000x128.size a := fun v637 k0_hw50 => k0_hw50

def k0_off101 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c50_i32 : BitVec 32 := 50#32
  let v644 : BitVec 32 := Scalar.addi v1 c50_i32
  let v645 : Index := Scalar.indexCast v644
  ![v645.toNat]
def k0_off102 (v646 : BitVec 32) : Fin 2 → Nat :=
  let c0_i32_366 : BitVec 32 := 0#32
  ![v646.toNat, 0]

def k0_chk51 (v646 : BitVec 32) : Prop :=
  (∀ a, (k0_off102 v646) a + S1x128.size a ≤ S100000x128.size a)
instance k0_chk51.dec : ∀ (v646 : BitVec 32), Decidable (k0_chk51 v646) := fun v646 => decidable_of_iff' _ (Iff.of_eq (k0_chk51.eq_1 v646))
theorem k0_off102_inb : ∀ (v646 : BitVec 32) (k0_hw51 : k0_chk51 v646), ∀ a, (k0_off102 v646) a + S1x128.size a ≤ S100000x128.size a := fun v646 k0_hw51 => k0_hw51

def k0_off103 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c51_i32 : BitVec 32 := 51#32
  let v653 : BitVec 32 := Scalar.addi v1 c51_i32
  let v654 : Index := Scalar.indexCast v653
  ![v654.toNat]
def k0_off104 (v655 : BitVec 32) : Fin 2 → Nat :=
  let c0_i32_370 : BitVec 32 := 0#32
  ![v655.toNat, 0]

def k0_chk52 (v655 : BitVec 32) : Prop :=
  (∀ a, (k0_off104 v655) a + S1x128.size a ≤ S100000x128.size a)
instance k0_chk52.dec : ∀ (v655 : BitVec 32), Decidable (k0_chk52 v655) := fun v655 => decidable_of_iff' _ (Iff.of_eq (k0_chk52.eq_1 v655))
theorem k0_off104_inb : ∀ (v655 : BitVec 32) (k0_hw52 : k0_chk52 v655), ∀ a, (k0_off104 v655) a + S1x128.size a ≤ S100000x128.size a := fun v655 k0_hw52 => k0_hw52

def k0_off105 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c52_i32 : BitVec 32 := 52#32
  let v662 : BitVec 32 := Scalar.addi v1 c52_i32
  let v663 : Index := Scalar.indexCast v662
  ![v663.toNat]
def k0_off106 (v664 : BitVec 32) : Fin 2 → Nat :=
  let c0_i32_374 : BitVec 32 := 0#32
  ![v664.toNat, 0]

def k0_chk53 (v664 : BitVec 32) : Prop :=
  (∀ a, (k0_off106 v664) a + S1x128.size a ≤ S100000x128.size a)
instance k0_chk53.dec : ∀ (v664 : BitVec 32), Decidable (k0_chk53 v664) := fun v664 => decidable_of_iff' _ (Iff.of_eq (k0_chk53.eq_1 v664))
theorem k0_off106_inb : ∀ (v664 : BitVec 32) (k0_hw53 : k0_chk53 v664), ∀ a, (k0_off106 v664) a + S1x128.size a ≤ S100000x128.size a := fun v664 k0_hw53 => k0_hw53

def k0_off107 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c53_i32 : BitVec 32 := 53#32
  let v671 : BitVec 32 := Scalar.addi v1 c53_i32
  let v672 : Index := Scalar.indexCast v671
  ![v672.toNat]
def k0_off108 (v673 : BitVec 32) : Fin 2 → Nat :=
  let c0_i32_378 : BitVec 32 := 0#32
  ![v673.toNat, 0]

def k0_chk54 (v673 : BitVec 32) : Prop :=
  (∀ a, (k0_off108 v673) a + S1x128.size a ≤ S100000x128.size a)
instance k0_chk54.dec : ∀ (v673 : BitVec 32), Decidable (k0_chk54 v673) := fun v673 => decidable_of_iff' _ (Iff.of_eq (k0_chk54.eq_1 v673))
theorem k0_off108_inb : ∀ (v673 : BitVec 32) (k0_hw54 : k0_chk54 v673), ∀ a, (k0_off108 v673) a + S1x128.size a ≤ S100000x128.size a := fun v673 k0_hw54 => k0_hw54

def k0_off109 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c54_i32 : BitVec 32 := 54#32
  let v680 : BitVec 32 := Scalar.addi v1 c54_i32
  let v681 : Index := Scalar.indexCast v680
  ![v681.toNat]
def k0_off110 (v682 : BitVec 32) : Fin 2 → Nat :=
  let c0_i32_382 : BitVec 32 := 0#32
  ![v682.toNat, 0]

def k0_chk55 (v682 : BitVec 32) : Prop :=
  (∀ a, (k0_off110 v682) a + S1x128.size a ≤ S100000x128.size a)
instance k0_chk55.dec : ∀ (v682 : BitVec 32), Decidable (k0_chk55 v682) := fun v682 => decidable_of_iff' _ (Iff.of_eq (k0_chk55.eq_1 v682))
theorem k0_off110_inb : ∀ (v682 : BitVec 32) (k0_hw55 : k0_chk55 v682), ∀ a, (k0_off110 v682) a + S1x128.size a ≤ S100000x128.size a := fun v682 k0_hw55 => k0_hw55

def k0_off111 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c55_i32 : BitVec 32 := 55#32
  let v689 : BitVec 32 := Scalar.addi v1 c55_i32
  let v690 : Index := Scalar.indexCast v689
  ![v690.toNat]
def k0_off112 (v691 : BitVec 32) : Fin 2 → Nat :=
  let c0_i32_386 : BitVec 32 := 0#32
  ![v691.toNat, 0]

def k0_chk56 (v691 : BitVec 32) : Prop :=
  (∀ a, (k0_off112 v691) a + S1x128.size a ≤ S100000x128.size a)
instance k0_chk56.dec : ∀ (v691 : BitVec 32), Decidable (k0_chk56 v691) := fun v691 => decidable_of_iff' _ (Iff.of_eq (k0_chk56.eq_1 v691))
theorem k0_off112_inb : ∀ (v691 : BitVec 32) (k0_hw56 : k0_chk56 v691), ∀ a, (k0_off112 v691) a + S1x128.size a ≤ S100000x128.size a := fun v691 k0_hw56 => k0_hw56

def k0_off113 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c56_i32 : BitVec 32 := 56#32
  let v698 : BitVec 32 := Scalar.addi v1 c56_i32
  let v699 : Index := Scalar.indexCast v698
  ![v699.toNat]
def k0_off114 (v700 : BitVec 32) : Fin 2 → Nat :=
  let c0_i32_390 : BitVec 32 := 0#32
  ![v700.toNat, 0]

def k0_chk57 (v700 : BitVec 32) : Prop :=
  (∀ a, (k0_off114 v700) a + S1x128.size a ≤ S100000x128.size a)
instance k0_chk57.dec : ∀ (v700 : BitVec 32), Decidable (k0_chk57 v700) := fun v700 => decidable_of_iff' _ (Iff.of_eq (k0_chk57.eq_1 v700))
theorem k0_off114_inb : ∀ (v700 : BitVec 32) (k0_hw57 : k0_chk57 v700), ∀ a, (k0_off114 v700) a + S1x128.size a ≤ S100000x128.size a := fun v700 k0_hw57 => k0_hw57

def k0_off115 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c57_i32 : BitVec 32 := 57#32
  let v707 : BitVec 32 := Scalar.addi v1 c57_i32
  let v708 : Index := Scalar.indexCast v707
  ![v708.toNat]
def k0_off116 (v709 : BitVec 32) : Fin 2 → Nat :=
  let c0_i32_394 : BitVec 32 := 0#32
  ![v709.toNat, 0]

def k0_chk58 (v709 : BitVec 32) : Prop :=
  (∀ a, (k0_off116 v709) a + S1x128.size a ≤ S100000x128.size a)
instance k0_chk58.dec : ∀ (v709 : BitVec 32), Decidable (k0_chk58 v709) := fun v709 => decidable_of_iff' _ (Iff.of_eq (k0_chk58.eq_1 v709))
theorem k0_off116_inb : ∀ (v709 : BitVec 32) (k0_hw58 : k0_chk58 v709), ∀ a, (k0_off116 v709) a + S1x128.size a ≤ S100000x128.size a := fun v709 k0_hw58 => k0_hw58

def k0_off117 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c58_i32 : BitVec 32 := 58#32
  let v716 : BitVec 32 := Scalar.addi v1 c58_i32
  let v717 : Index := Scalar.indexCast v716
  ![v717.toNat]
def k0_off118 (v718 : BitVec 32) : Fin 2 → Nat :=
  let c0_i32_398 : BitVec 32 := 0#32
  ![v718.toNat, 0]

def k0_chk59 (v718 : BitVec 32) : Prop :=
  (∀ a, (k0_off118 v718) a + S1x128.size a ≤ S100000x128.size a)
instance k0_chk59.dec : ∀ (v718 : BitVec 32), Decidable (k0_chk59 v718) := fun v718 => decidable_of_iff' _ (Iff.of_eq (k0_chk59.eq_1 v718))
theorem k0_off118_inb : ∀ (v718 : BitVec 32) (k0_hw59 : k0_chk59 v718), ∀ a, (k0_off118 v718) a + S1x128.size a ≤ S100000x128.size a := fun v718 k0_hw59 => k0_hw59

def k0_off119 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c59_i32 : BitVec 32 := 59#32
  let v725 : BitVec 32 := Scalar.addi v1 c59_i32
  let v726 : Index := Scalar.indexCast v725
  ![v726.toNat]
def k0_off120 (v727 : BitVec 32) : Fin 2 → Nat :=
  let c0_i32_402 : BitVec 32 := 0#32
  ![v727.toNat, 0]

def k0_chk60 (v727 : BitVec 32) : Prop :=
  (∀ a, (k0_off120 v727) a + S1x128.size a ≤ S100000x128.size a)
instance k0_chk60.dec : ∀ (v727 : BitVec 32), Decidable (k0_chk60 v727) := fun v727 => decidable_of_iff' _ (Iff.of_eq (k0_chk60.eq_1 v727))
theorem k0_off120_inb : ∀ (v727 : BitVec 32) (k0_hw60 : k0_chk60 v727), ∀ a, (k0_off120 v727) a + S1x128.size a ≤ S100000x128.size a := fun v727 k0_hw60 => k0_hw60

def k0_off121 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c60_i32 : BitVec 32 := 60#32
  let v734 : BitVec 32 := Scalar.addi v1 c60_i32
  let v735 : Index := Scalar.indexCast v734
  ![v735.toNat]
def k0_off122 (v736 : BitVec 32) : Fin 2 → Nat :=
  let c0_i32_406 : BitVec 32 := 0#32
  ![v736.toNat, 0]

def k0_chk61 (v736 : BitVec 32) : Prop :=
  (∀ a, (k0_off122 v736) a + S1x128.size a ≤ S100000x128.size a)
instance k0_chk61.dec : ∀ (v736 : BitVec 32), Decidable (k0_chk61 v736) := fun v736 => decidable_of_iff' _ (Iff.of_eq (k0_chk61.eq_1 v736))
theorem k0_off122_inb : ∀ (v736 : BitVec 32) (k0_hw61 : k0_chk61 v736), ∀ a, (k0_off122 v736) a + S1x128.size a ≤ S100000x128.size a := fun v736 k0_hw61 => k0_hw61

def k0_off123 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c61_i32 : BitVec 32 := 61#32
  let v743 : BitVec 32 := Scalar.addi v1 c61_i32
  let v744 : Index := Scalar.indexCast v743
  ![v744.toNat]
def k0_off124 (v745 : BitVec 32) : Fin 2 → Nat :=
  let c0_i32_410 : BitVec 32 := 0#32
  ![v745.toNat, 0]

def k0_chk62 (v745 : BitVec 32) : Prop :=
  (∀ a, (k0_off124 v745) a + S1x128.size a ≤ S100000x128.size a)
instance k0_chk62.dec : ∀ (v745 : BitVec 32), Decidable (k0_chk62 v745) := fun v745 => decidable_of_iff' _ (Iff.of_eq (k0_chk62.eq_1 v745))
theorem k0_off124_inb : ∀ (v745 : BitVec 32) (k0_hw62 : k0_chk62 v745), ∀ a, (k0_off124 v745) a + S1x128.size a ≤ S100000x128.size a := fun v745 k0_hw62 => k0_hw62

def k0_off125 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c62_i32 : BitVec 32 := 62#32
  let v752 : BitVec 32 := Scalar.addi v1 c62_i32
  let v753 : Index := Scalar.indexCast v752
  ![v753.toNat]
def k0_off126 (v754 : BitVec 32) : Fin 2 → Nat :=
  let c0_i32_414 : BitVec 32 := 0#32
  ![v754.toNat, 0]

def k0_chk63 (v754 : BitVec 32) : Prop :=
  (∀ a, (k0_off126 v754) a + S1x128.size a ≤ S100000x128.size a)
instance k0_chk63.dec : ∀ (v754 : BitVec 32), Decidable (k0_chk63 v754) := fun v754 => decidable_of_iff' _ (Iff.of_eq (k0_chk63.eq_1 v754))
theorem k0_off126_inb : ∀ (v754 : BitVec 32) (k0_hw63 : k0_chk63 v754), ∀ a, (k0_off126 v754) a + S1x128.size a ≤ S100000x128.size a := fun v754 k0_hw63 => k0_hw63

def k0_off127 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c63_i32 : BitVec 32 := 63#32
  let v761 : BitVec 32 := Scalar.addi v1 c63_i32
  let v762 : Index := Scalar.indexCast v761
  ![v762.toNat]
def k0_off128 (v763 : BitVec 32) : Fin 2 → Nat :=
  let c0_i32_418 : BitVec 32 := 0#32
  ![v763.toNat, 0]

def k0_chk64 (v763 : BitVec 32) : Prop :=
  (∀ a, (k0_off128 v763) a + S1x128.size a ≤ S100000x128.size a)
instance k0_chk64.dec : ∀ (v763 : BitVec 32), Decidable (k0_chk64 v763) := fun v763 => decidable_of_iff' _ (Iff.of_eq (k0_chk64.eq_1 v763))
theorem k0_off128_inb : ∀ (v763 : BitVec 32) (k0_hw64 : k0_chk64 v763), ∀ a, (k0_off128 v763) a + S1x128.size a ≤ S100000x128.size a := fun v763 k0_hw64 => k0_hw64

def k0_off129 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c64_i32_579 : BitVec 32 := 64#32
  let v962 : BitVec 32 := Scalar.addi v1 c64_i32_579
  let v963 : Index := Scalar.indexCast v962
  ![v963.toNat]
def k0_off130 (v964 : BitVec 32) : Fin 2 → Nat :=
  let c0_i32_583 : BitVec 32 := 0#32
  ![v964.toNat, 0]

def k0_chk65 (v964 : BitVec 32) : Prop :=
  (∀ a, (k0_off130 v964) a + S1x128.size a ≤ S100000x128.size a)
instance k0_chk65.dec : ∀ (v964 : BitVec 32), Decidable (k0_chk65 v964) := fun v964 => decidable_of_iff' _ (Iff.of_eq (k0_chk65.eq_1 v964))
theorem k0_off130_inb : ∀ (v964 : BitVec 32) (k0_hw65 : k0_chk65 v964), ∀ a, (k0_off130 v964) a + S1x128.size a ≤ S100000x128.size a := fun v964 k0_hw65 => k0_hw65

def k0_off131 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c65_i32 : BitVec 32 := 65#32
  let v971 : BitVec 32 := Scalar.addi v1 c65_i32
  let v972 : Index := Scalar.indexCast v971
  ![v972.toNat]
def k0_off132 (v973 : BitVec 32) : Fin 2 → Nat :=
  let c0_i32_587 : BitVec 32 := 0#32
  ![v973.toNat, 0]

def k0_chk66 (v973 : BitVec 32) : Prop :=
  (∀ a, (k0_off132 v973) a + S1x128.size a ≤ S100000x128.size a)
instance k0_chk66.dec : ∀ (v973 : BitVec 32), Decidable (k0_chk66 v973) := fun v973 => decidable_of_iff' _ (Iff.of_eq (k0_chk66.eq_1 v973))
theorem k0_off132_inb : ∀ (v973 : BitVec 32) (k0_hw66 : k0_chk66 v973), ∀ a, (k0_off132 v973) a + S1x128.size a ≤ S100000x128.size a := fun v973 k0_hw66 => k0_hw66

def k0_off133 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c66_i32 : BitVec 32 := 66#32
  let v980 : BitVec 32 := Scalar.addi v1 c66_i32
  let v981 : Index := Scalar.indexCast v980
  ![v981.toNat]
def k0_off134 (v982 : BitVec 32) : Fin 2 → Nat :=
  let c0_i32_591 : BitVec 32 := 0#32
  ![v982.toNat, 0]

def k0_chk67 (v982 : BitVec 32) : Prop :=
  (∀ a, (k0_off134 v982) a + S1x128.size a ≤ S100000x128.size a)
instance k0_chk67.dec : ∀ (v982 : BitVec 32), Decidable (k0_chk67 v982) := fun v982 => decidable_of_iff' _ (Iff.of_eq (k0_chk67.eq_1 v982))
theorem k0_off134_inb : ∀ (v982 : BitVec 32) (k0_hw67 : k0_chk67 v982), ∀ a, (k0_off134 v982) a + S1x128.size a ≤ S100000x128.size a := fun v982 k0_hw67 => k0_hw67

def k0_off135 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c67_i32 : BitVec 32 := 67#32
  let v989 : BitVec 32 := Scalar.addi v1 c67_i32
  let v990 : Index := Scalar.indexCast v989
  ![v990.toNat]
def k0_off136 (v991 : BitVec 32) : Fin 2 → Nat :=
  let c0_i32_595 : BitVec 32 := 0#32
  ![v991.toNat, 0]

def k0_chk68 (v991 : BitVec 32) : Prop :=
  (∀ a, (k0_off136 v991) a + S1x128.size a ≤ S100000x128.size a)
instance k0_chk68.dec : ∀ (v991 : BitVec 32), Decidable (k0_chk68 v991) := fun v991 => decidable_of_iff' _ (Iff.of_eq (k0_chk68.eq_1 v991))
theorem k0_off136_inb : ∀ (v991 : BitVec 32) (k0_hw68 : k0_chk68 v991), ∀ a, (k0_off136 v991) a + S1x128.size a ≤ S100000x128.size a := fun v991 k0_hw68 => k0_hw68

def k0_off137 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c68_i32 : BitVec 32 := 68#32
  let v998 : BitVec 32 := Scalar.addi v1 c68_i32
  let v999 : Index := Scalar.indexCast v998
  ![v999.toNat]
def k0_off138 (v1000 : BitVec 32) : Fin 2 → Nat :=
  let c0_i32_599 : BitVec 32 := 0#32
  ![v1000.toNat, 0]

def k0_chk69 (v1000 : BitVec 32) : Prop :=
  (∀ a, (k0_off138 v1000) a + S1x128.size a ≤ S100000x128.size a)
instance k0_chk69.dec : ∀ (v1000 : BitVec 32), Decidable (k0_chk69 v1000) := fun v1000 => decidable_of_iff' _ (Iff.of_eq (k0_chk69.eq_1 v1000))
theorem k0_off138_inb : ∀ (v1000 : BitVec 32) (k0_hw69 : k0_chk69 v1000), ∀ a, (k0_off138 v1000) a + S1x128.size a ≤ S100000x128.size a := fun v1000 k0_hw69 => k0_hw69

def k0_off139 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c69_i32 : BitVec 32 := 69#32
  let v1007 : BitVec 32 := Scalar.addi v1 c69_i32
  let v1008 : Index := Scalar.indexCast v1007
  ![v1008.toNat]
def k0_off140 (v1009 : BitVec 32) : Fin 2 → Nat :=
  let c0_i32_603 : BitVec 32 := 0#32
  ![v1009.toNat, 0]

def k0_chk70 (v1009 : BitVec 32) : Prop :=
  (∀ a, (k0_off140 v1009) a + S1x128.size a ≤ S100000x128.size a)
instance k0_chk70.dec : ∀ (v1009 : BitVec 32), Decidable (k0_chk70 v1009) := fun v1009 => decidable_of_iff' _ (Iff.of_eq (k0_chk70.eq_1 v1009))
theorem k0_off140_inb : ∀ (v1009 : BitVec 32) (k0_hw70 : k0_chk70 v1009), ∀ a, (k0_off140 v1009) a + S1x128.size a ≤ S100000x128.size a := fun v1009 k0_hw70 => k0_hw70

def k0_off141 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c70_i32 : BitVec 32 := 70#32
  let v1016 : BitVec 32 := Scalar.addi v1 c70_i32
  let v1017 : Index := Scalar.indexCast v1016
  ![v1017.toNat]
def k0_off142 (v1018 : BitVec 32) : Fin 2 → Nat :=
  let c0_i32_607 : BitVec 32 := 0#32
  ![v1018.toNat, 0]

def k0_chk71 (v1018 : BitVec 32) : Prop :=
  (∀ a, (k0_off142 v1018) a + S1x128.size a ≤ S100000x128.size a)
instance k0_chk71.dec : ∀ (v1018 : BitVec 32), Decidable (k0_chk71 v1018) := fun v1018 => decidable_of_iff' _ (Iff.of_eq (k0_chk71.eq_1 v1018))
theorem k0_off142_inb : ∀ (v1018 : BitVec 32) (k0_hw71 : k0_chk71 v1018), ∀ a, (k0_off142 v1018) a + S1x128.size a ≤ S100000x128.size a := fun v1018 k0_hw71 => k0_hw71

def k0_off143 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c71_i32 : BitVec 32 := 71#32
  let v1025 : BitVec 32 := Scalar.addi v1 c71_i32
  let v1026 : Index := Scalar.indexCast v1025
  ![v1026.toNat]
def k0_off144 (v1027 : BitVec 32) : Fin 2 → Nat :=
  let c0_i32_611 : BitVec 32 := 0#32
  ![v1027.toNat, 0]

def k0_chk72 (v1027 : BitVec 32) : Prop :=
  (∀ a, (k0_off144 v1027) a + S1x128.size a ≤ S100000x128.size a)
instance k0_chk72.dec : ∀ (v1027 : BitVec 32), Decidable (k0_chk72 v1027) := fun v1027 => decidable_of_iff' _ (Iff.of_eq (k0_chk72.eq_1 v1027))
theorem k0_off144_inb : ∀ (v1027 : BitVec 32) (k0_hw72 : k0_chk72 v1027), ∀ a, (k0_off144 v1027) a + S1x128.size a ≤ S100000x128.size a := fun v1027 k0_hw72 => k0_hw72

def k0_off145 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c72_i32 : BitVec 32 := 72#32
  let v1034 : BitVec 32 := Scalar.addi v1 c72_i32
  let v1035 : Index := Scalar.indexCast v1034
  ![v1035.toNat]
def k0_off146 (v1036 : BitVec 32) : Fin 2 → Nat :=
  let c0_i32_615 : BitVec 32 := 0#32
  ![v1036.toNat, 0]

def k0_chk73 (v1036 : BitVec 32) : Prop :=
  (∀ a, (k0_off146 v1036) a + S1x128.size a ≤ S100000x128.size a)
instance k0_chk73.dec : ∀ (v1036 : BitVec 32), Decidable (k0_chk73 v1036) := fun v1036 => decidable_of_iff' _ (Iff.of_eq (k0_chk73.eq_1 v1036))
theorem k0_off146_inb : ∀ (v1036 : BitVec 32) (k0_hw73 : k0_chk73 v1036), ∀ a, (k0_off146 v1036) a + S1x128.size a ≤ S100000x128.size a := fun v1036 k0_hw73 => k0_hw73

def k0_off147 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c73_i32 : BitVec 32 := 73#32
  let v1043 : BitVec 32 := Scalar.addi v1 c73_i32
  let v1044 : Index := Scalar.indexCast v1043
  ![v1044.toNat]
def k0_off148 (v1045 : BitVec 32) : Fin 2 → Nat :=
  let c0_i32_619 : BitVec 32 := 0#32
  ![v1045.toNat, 0]

def k0_chk74 (v1045 : BitVec 32) : Prop :=
  (∀ a, (k0_off148 v1045) a + S1x128.size a ≤ S100000x128.size a)
instance k0_chk74.dec : ∀ (v1045 : BitVec 32), Decidable (k0_chk74 v1045) := fun v1045 => decidable_of_iff' _ (Iff.of_eq (k0_chk74.eq_1 v1045))
theorem k0_off148_inb : ∀ (v1045 : BitVec 32) (k0_hw74 : k0_chk74 v1045), ∀ a, (k0_off148 v1045) a + S1x128.size a ≤ S100000x128.size a := fun v1045 k0_hw74 => k0_hw74

def k0_off149 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c74_i32 : BitVec 32 := 74#32
  let v1052 : BitVec 32 := Scalar.addi v1 c74_i32
  let v1053 : Index := Scalar.indexCast v1052
  ![v1053.toNat]
def k0_off150 (v1054 : BitVec 32) : Fin 2 → Nat :=
  let c0_i32_623 : BitVec 32 := 0#32
  ![v1054.toNat, 0]

def k0_chk75 (v1054 : BitVec 32) : Prop :=
  (∀ a, (k0_off150 v1054) a + S1x128.size a ≤ S100000x128.size a)
instance k0_chk75.dec : ∀ (v1054 : BitVec 32), Decidable (k0_chk75 v1054) := fun v1054 => decidable_of_iff' _ (Iff.of_eq (k0_chk75.eq_1 v1054))
theorem k0_off150_inb : ∀ (v1054 : BitVec 32) (k0_hw75 : k0_chk75 v1054), ∀ a, (k0_off150 v1054) a + S1x128.size a ≤ S100000x128.size a := fun v1054 k0_hw75 => k0_hw75

def k0_off151 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c75_i32 : BitVec 32 := 75#32
  let v1061 : BitVec 32 := Scalar.addi v1 c75_i32
  let v1062 : Index := Scalar.indexCast v1061
  ![v1062.toNat]
def k0_off152 (v1063 : BitVec 32) : Fin 2 → Nat :=
  let c0_i32_627 : BitVec 32 := 0#32
  ![v1063.toNat, 0]

def k0_chk76 (v1063 : BitVec 32) : Prop :=
  (∀ a, (k0_off152 v1063) a + S1x128.size a ≤ S100000x128.size a)
instance k0_chk76.dec : ∀ (v1063 : BitVec 32), Decidable (k0_chk76 v1063) := fun v1063 => decidable_of_iff' _ (Iff.of_eq (k0_chk76.eq_1 v1063))
theorem k0_off152_inb : ∀ (v1063 : BitVec 32) (k0_hw76 : k0_chk76 v1063), ∀ a, (k0_off152 v1063) a + S1x128.size a ≤ S100000x128.size a := fun v1063 k0_hw76 => k0_hw76

def k0_off153 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c76_i32 : BitVec 32 := 76#32
  let v1070 : BitVec 32 := Scalar.addi v1 c76_i32
  let v1071 : Index := Scalar.indexCast v1070
  ![v1071.toNat]
def k0_off154 (v1072 : BitVec 32) : Fin 2 → Nat :=
  let c0_i32_631 : BitVec 32 := 0#32
  ![v1072.toNat, 0]

def k0_chk77 (v1072 : BitVec 32) : Prop :=
  (∀ a, (k0_off154 v1072) a + S1x128.size a ≤ S100000x128.size a)
instance k0_chk77.dec : ∀ (v1072 : BitVec 32), Decidable (k0_chk77 v1072) := fun v1072 => decidable_of_iff' _ (Iff.of_eq (k0_chk77.eq_1 v1072))
theorem k0_off154_inb : ∀ (v1072 : BitVec 32) (k0_hw77 : k0_chk77 v1072), ∀ a, (k0_off154 v1072) a + S1x128.size a ≤ S100000x128.size a := fun v1072 k0_hw77 => k0_hw77

def k0_off155 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c77_i32 : BitVec 32 := 77#32
  let v1079 : BitVec 32 := Scalar.addi v1 c77_i32
  let v1080 : Index := Scalar.indexCast v1079
  ![v1080.toNat]
def k0_off156 (v1081 : BitVec 32) : Fin 2 → Nat :=
  let c0_i32_635 : BitVec 32 := 0#32
  ![v1081.toNat, 0]

def k0_chk78 (v1081 : BitVec 32) : Prop :=
  (∀ a, (k0_off156 v1081) a + S1x128.size a ≤ S100000x128.size a)
instance k0_chk78.dec : ∀ (v1081 : BitVec 32), Decidable (k0_chk78 v1081) := fun v1081 => decidable_of_iff' _ (Iff.of_eq (k0_chk78.eq_1 v1081))
theorem k0_off156_inb : ∀ (v1081 : BitVec 32) (k0_hw78 : k0_chk78 v1081), ∀ a, (k0_off156 v1081) a + S1x128.size a ≤ S100000x128.size a := fun v1081 k0_hw78 => k0_hw78

def k0_off157 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c78_i32 : BitVec 32 := 78#32
  let v1088 : BitVec 32 := Scalar.addi v1 c78_i32
  let v1089 : Index := Scalar.indexCast v1088
  ![v1089.toNat]
def k0_off158 (v1090 : BitVec 32) : Fin 2 → Nat :=
  let c0_i32_639 : BitVec 32 := 0#32
  ![v1090.toNat, 0]

def k0_chk79 (v1090 : BitVec 32) : Prop :=
  (∀ a, (k0_off158 v1090) a + S1x128.size a ≤ S100000x128.size a)
instance k0_chk79.dec : ∀ (v1090 : BitVec 32), Decidable (k0_chk79 v1090) := fun v1090 => decidable_of_iff' _ (Iff.of_eq (k0_chk79.eq_1 v1090))
theorem k0_off158_inb : ∀ (v1090 : BitVec 32) (k0_hw79 : k0_chk79 v1090), ∀ a, (k0_off158 v1090) a + S1x128.size a ≤ S100000x128.size a := fun v1090 k0_hw79 => k0_hw79

def k0_off159 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c79_i32 : BitVec 32 := 79#32
  let v1097 : BitVec 32 := Scalar.addi v1 c79_i32
  let v1098 : Index := Scalar.indexCast v1097
  ![v1098.toNat]
def k0_off160 (v1099 : BitVec 32) : Fin 2 → Nat :=
  let c0_i32_643 : BitVec 32 := 0#32
  ![v1099.toNat, 0]

def k0_chk80 (v1099 : BitVec 32) : Prop :=
  (∀ a, (k0_off160 v1099) a + S1x128.size a ≤ S100000x128.size a)
instance k0_chk80.dec : ∀ (v1099 : BitVec 32), Decidable (k0_chk80 v1099) := fun v1099 => decidable_of_iff' _ (Iff.of_eq (k0_chk80.eq_1 v1099))
theorem k0_off160_inb : ∀ (v1099 : BitVec 32) (k0_hw80 : k0_chk80 v1099), ∀ a, (k0_off160 v1099) a + S1x128.size a ≤ S100000x128.size a := fun v1099 k0_hw80 => k0_hw80

def k0_off161 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c80_i32 : BitVec 32 := 80#32
  let v1106 : BitVec 32 := Scalar.addi v1 c80_i32
  let v1107 : Index := Scalar.indexCast v1106
  ![v1107.toNat]
def k0_off162 (v1108 : BitVec 32) : Fin 2 → Nat :=
  let c0_i32_647 : BitVec 32 := 0#32
  ![v1108.toNat, 0]

def k0_chk81 (v1108 : BitVec 32) : Prop :=
  (∀ a, (k0_off162 v1108) a + S1x128.size a ≤ S100000x128.size a)
instance k0_chk81.dec : ∀ (v1108 : BitVec 32), Decidable (k0_chk81 v1108) := fun v1108 => decidable_of_iff' _ (Iff.of_eq (k0_chk81.eq_1 v1108))
theorem k0_off162_inb : ∀ (v1108 : BitVec 32) (k0_hw81 : k0_chk81 v1108), ∀ a, (k0_off162 v1108) a + S1x128.size a ≤ S100000x128.size a := fun v1108 k0_hw81 => k0_hw81

def k0_off163 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c81_i32 : BitVec 32 := 81#32
  let v1115 : BitVec 32 := Scalar.addi v1 c81_i32
  let v1116 : Index := Scalar.indexCast v1115
  ![v1116.toNat]
def k0_off164 (v1117 : BitVec 32) : Fin 2 → Nat :=
  let c0_i32_651 : BitVec 32 := 0#32
  ![v1117.toNat, 0]

def k0_chk82 (v1117 : BitVec 32) : Prop :=
  (∀ a, (k0_off164 v1117) a + S1x128.size a ≤ S100000x128.size a)
instance k0_chk82.dec : ∀ (v1117 : BitVec 32), Decidable (k0_chk82 v1117) := fun v1117 => decidable_of_iff' _ (Iff.of_eq (k0_chk82.eq_1 v1117))
theorem k0_off164_inb : ∀ (v1117 : BitVec 32) (k0_hw82 : k0_chk82 v1117), ∀ a, (k0_off164 v1117) a + S1x128.size a ≤ S100000x128.size a := fun v1117 k0_hw82 => k0_hw82

def k0_off165 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c82_i32 : BitVec 32 := 82#32
  let v1124 : BitVec 32 := Scalar.addi v1 c82_i32
  let v1125 : Index := Scalar.indexCast v1124
  ![v1125.toNat]
def k0_off166 (v1126 : BitVec 32) : Fin 2 → Nat :=
  let c0_i32_655 : BitVec 32 := 0#32
  ![v1126.toNat, 0]

def k0_chk83 (v1126 : BitVec 32) : Prop :=
  (∀ a, (k0_off166 v1126) a + S1x128.size a ≤ S100000x128.size a)
instance k0_chk83.dec : ∀ (v1126 : BitVec 32), Decidable (k0_chk83 v1126) := fun v1126 => decidable_of_iff' _ (Iff.of_eq (k0_chk83.eq_1 v1126))
theorem k0_off166_inb : ∀ (v1126 : BitVec 32) (k0_hw83 : k0_chk83 v1126), ∀ a, (k0_off166 v1126) a + S1x128.size a ≤ S100000x128.size a := fun v1126 k0_hw83 => k0_hw83

def k0_off167 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c83_i32 : BitVec 32 := 83#32
  let v1133 : BitVec 32 := Scalar.addi v1 c83_i32
  let v1134 : Index := Scalar.indexCast v1133
  ![v1134.toNat]
def k0_off168 (v1135 : BitVec 32) : Fin 2 → Nat :=
  let c0_i32_659 : BitVec 32 := 0#32
  ![v1135.toNat, 0]

def k0_chk84 (v1135 : BitVec 32) : Prop :=
  (∀ a, (k0_off168 v1135) a + S1x128.size a ≤ S100000x128.size a)
instance k0_chk84.dec : ∀ (v1135 : BitVec 32), Decidable (k0_chk84 v1135) := fun v1135 => decidable_of_iff' _ (Iff.of_eq (k0_chk84.eq_1 v1135))
theorem k0_off168_inb : ∀ (v1135 : BitVec 32) (k0_hw84 : k0_chk84 v1135), ∀ a, (k0_off168 v1135) a + S1x128.size a ≤ S100000x128.size a := fun v1135 k0_hw84 => k0_hw84

def k0_off169 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c84_i32 : BitVec 32 := 84#32
  let v1142 : BitVec 32 := Scalar.addi v1 c84_i32
  let v1143 : Index := Scalar.indexCast v1142
  ![v1143.toNat]
def k0_off170 (v1144 : BitVec 32) : Fin 2 → Nat :=
  let c0_i32_663 : BitVec 32 := 0#32
  ![v1144.toNat, 0]

def k0_chk85 (v1144 : BitVec 32) : Prop :=
  (∀ a, (k0_off170 v1144) a + S1x128.size a ≤ S100000x128.size a)
instance k0_chk85.dec : ∀ (v1144 : BitVec 32), Decidable (k0_chk85 v1144) := fun v1144 => decidable_of_iff' _ (Iff.of_eq (k0_chk85.eq_1 v1144))
theorem k0_off170_inb : ∀ (v1144 : BitVec 32) (k0_hw85 : k0_chk85 v1144), ∀ a, (k0_off170 v1144) a + S1x128.size a ≤ S100000x128.size a := fun v1144 k0_hw85 => k0_hw85

def k0_off171 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c85_i32 : BitVec 32 := 85#32
  let v1151 : BitVec 32 := Scalar.addi v1 c85_i32
  let v1152 : Index := Scalar.indexCast v1151
  ![v1152.toNat]
def k0_off172 (v1153 : BitVec 32) : Fin 2 → Nat :=
  let c0_i32_667 : BitVec 32 := 0#32
  ![v1153.toNat, 0]

def k0_chk86 (v1153 : BitVec 32) : Prop :=
  (∀ a, (k0_off172 v1153) a + S1x128.size a ≤ S100000x128.size a)
instance k0_chk86.dec : ∀ (v1153 : BitVec 32), Decidable (k0_chk86 v1153) := fun v1153 => decidable_of_iff' _ (Iff.of_eq (k0_chk86.eq_1 v1153))
theorem k0_off172_inb : ∀ (v1153 : BitVec 32) (k0_hw86 : k0_chk86 v1153), ∀ a, (k0_off172 v1153) a + S1x128.size a ≤ S100000x128.size a := fun v1153 k0_hw86 => k0_hw86

def k0_off173 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c86_i32 : BitVec 32 := 86#32
  let v1160 : BitVec 32 := Scalar.addi v1 c86_i32
  let v1161 : Index := Scalar.indexCast v1160
  ![v1161.toNat]
def k0_off174 (v1162 : BitVec 32) : Fin 2 → Nat :=
  let c0_i32_671 : BitVec 32 := 0#32
  ![v1162.toNat, 0]

def k0_chk87 (v1162 : BitVec 32) : Prop :=
  (∀ a, (k0_off174 v1162) a + S1x128.size a ≤ S100000x128.size a)
instance k0_chk87.dec : ∀ (v1162 : BitVec 32), Decidable (k0_chk87 v1162) := fun v1162 => decidable_of_iff' _ (Iff.of_eq (k0_chk87.eq_1 v1162))
theorem k0_off174_inb : ∀ (v1162 : BitVec 32) (k0_hw87 : k0_chk87 v1162), ∀ a, (k0_off174 v1162) a + S1x128.size a ≤ S100000x128.size a := fun v1162 k0_hw87 => k0_hw87

def k0_off175 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c87_i32 : BitVec 32 := 87#32
  let v1169 : BitVec 32 := Scalar.addi v1 c87_i32
  let v1170 : Index := Scalar.indexCast v1169
  ![v1170.toNat]
def k0_off176 (v1171 : BitVec 32) : Fin 2 → Nat :=
  let c0_i32_675 : BitVec 32 := 0#32
  ![v1171.toNat, 0]

def k0_chk88 (v1171 : BitVec 32) : Prop :=
  (∀ a, (k0_off176 v1171) a + S1x128.size a ≤ S100000x128.size a)
instance k0_chk88.dec : ∀ (v1171 : BitVec 32), Decidable (k0_chk88 v1171) := fun v1171 => decidable_of_iff' _ (Iff.of_eq (k0_chk88.eq_1 v1171))
theorem k0_off176_inb : ∀ (v1171 : BitVec 32) (k0_hw88 : k0_chk88 v1171), ∀ a, (k0_off176 v1171) a + S1x128.size a ≤ S100000x128.size a := fun v1171 k0_hw88 => k0_hw88

def k0_off177 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c88_i32 : BitVec 32 := 88#32
  let v1178 : BitVec 32 := Scalar.addi v1 c88_i32
  let v1179 : Index := Scalar.indexCast v1178
  ![v1179.toNat]
def k0_off178 (v1180 : BitVec 32) : Fin 2 → Nat :=
  let c0_i32_679 : BitVec 32 := 0#32
  ![v1180.toNat, 0]

def k0_chk89 (v1180 : BitVec 32) : Prop :=
  (∀ a, (k0_off178 v1180) a + S1x128.size a ≤ S100000x128.size a)
instance k0_chk89.dec : ∀ (v1180 : BitVec 32), Decidable (k0_chk89 v1180) := fun v1180 => decidable_of_iff' _ (Iff.of_eq (k0_chk89.eq_1 v1180))
theorem k0_off178_inb : ∀ (v1180 : BitVec 32) (k0_hw89 : k0_chk89 v1180), ∀ a, (k0_off178 v1180) a + S1x128.size a ≤ S100000x128.size a := fun v1180 k0_hw89 => k0_hw89

def k0_off179 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c89_i32 : BitVec 32 := 89#32
  let v1187 : BitVec 32 := Scalar.addi v1 c89_i32
  let v1188 : Index := Scalar.indexCast v1187
  ![v1188.toNat]
def k0_off180 (v1189 : BitVec 32) : Fin 2 → Nat :=
  let c0_i32_683 : BitVec 32 := 0#32
  ![v1189.toNat, 0]

def k0_chk90 (v1189 : BitVec 32) : Prop :=
  (∀ a, (k0_off180 v1189) a + S1x128.size a ≤ S100000x128.size a)
instance k0_chk90.dec : ∀ (v1189 : BitVec 32), Decidable (k0_chk90 v1189) := fun v1189 => decidable_of_iff' _ (Iff.of_eq (k0_chk90.eq_1 v1189))
theorem k0_off180_inb : ∀ (v1189 : BitVec 32) (k0_hw90 : k0_chk90 v1189), ∀ a, (k0_off180 v1189) a + S1x128.size a ≤ S100000x128.size a := fun v1189 k0_hw90 => k0_hw90

def k0_off181 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c90_i32 : BitVec 32 := 90#32
  let v1196 : BitVec 32 := Scalar.addi v1 c90_i32
  let v1197 : Index := Scalar.indexCast v1196
  ![v1197.toNat]
def k0_off182 (v1198 : BitVec 32) : Fin 2 → Nat :=
  let c0_i32_687 : BitVec 32 := 0#32
  ![v1198.toNat, 0]

def k0_chk91 (v1198 : BitVec 32) : Prop :=
  (∀ a, (k0_off182 v1198) a + S1x128.size a ≤ S100000x128.size a)
instance k0_chk91.dec : ∀ (v1198 : BitVec 32), Decidable (k0_chk91 v1198) := fun v1198 => decidable_of_iff' _ (Iff.of_eq (k0_chk91.eq_1 v1198))
theorem k0_off182_inb : ∀ (v1198 : BitVec 32) (k0_hw91 : k0_chk91 v1198), ∀ a, (k0_off182 v1198) a + S1x128.size a ≤ S100000x128.size a := fun v1198 k0_hw91 => k0_hw91

def k0_off183 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c91_i32 : BitVec 32 := 91#32
  let v1205 : BitVec 32 := Scalar.addi v1 c91_i32
  let v1206 : Index := Scalar.indexCast v1205
  ![v1206.toNat]
def k0_off184 (v1207 : BitVec 32) : Fin 2 → Nat :=
  let c0_i32_691 : BitVec 32 := 0#32
  ![v1207.toNat, 0]

def k0_chk92 (v1207 : BitVec 32) : Prop :=
  (∀ a, (k0_off184 v1207) a + S1x128.size a ≤ S100000x128.size a)
instance k0_chk92.dec : ∀ (v1207 : BitVec 32), Decidable (k0_chk92 v1207) := fun v1207 => decidable_of_iff' _ (Iff.of_eq (k0_chk92.eq_1 v1207))
theorem k0_off184_inb : ∀ (v1207 : BitVec 32) (k0_hw92 : k0_chk92 v1207), ∀ a, (k0_off184 v1207) a + S1x128.size a ≤ S100000x128.size a := fun v1207 k0_hw92 => k0_hw92

def k0_off185 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c92_i32 : BitVec 32 := 92#32
  let v1214 : BitVec 32 := Scalar.addi v1 c92_i32
  let v1215 : Index := Scalar.indexCast v1214
  ![v1215.toNat]
def k0_off186 (v1216 : BitVec 32) : Fin 2 → Nat :=
  let c0_i32_695 : BitVec 32 := 0#32
  ![v1216.toNat, 0]

def k0_chk93 (v1216 : BitVec 32) : Prop :=
  (∀ a, (k0_off186 v1216) a + S1x128.size a ≤ S100000x128.size a)
instance k0_chk93.dec : ∀ (v1216 : BitVec 32), Decidable (k0_chk93 v1216) := fun v1216 => decidable_of_iff' _ (Iff.of_eq (k0_chk93.eq_1 v1216))
theorem k0_off186_inb : ∀ (v1216 : BitVec 32) (k0_hw93 : k0_chk93 v1216), ∀ a, (k0_off186 v1216) a + S1x128.size a ≤ S100000x128.size a := fun v1216 k0_hw93 => k0_hw93

def k0_off187 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c93_i32 : BitVec 32 := 93#32
  let v1223 : BitVec 32 := Scalar.addi v1 c93_i32
  let v1224 : Index := Scalar.indexCast v1223
  ![v1224.toNat]
def k0_off188 (v1225 : BitVec 32) : Fin 2 → Nat :=
  let c0_i32_699 : BitVec 32 := 0#32
  ![v1225.toNat, 0]

def k0_chk94 (v1225 : BitVec 32) : Prop :=
  (∀ a, (k0_off188 v1225) a + S1x128.size a ≤ S100000x128.size a)
instance k0_chk94.dec : ∀ (v1225 : BitVec 32), Decidable (k0_chk94 v1225) := fun v1225 => decidable_of_iff' _ (Iff.of_eq (k0_chk94.eq_1 v1225))
theorem k0_off188_inb : ∀ (v1225 : BitVec 32) (k0_hw94 : k0_chk94 v1225), ∀ a, (k0_off188 v1225) a + S1x128.size a ≤ S100000x128.size a := fun v1225 k0_hw94 => k0_hw94

def k0_off189 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c94_i32 : BitVec 32 := 94#32
  let v1232 : BitVec 32 := Scalar.addi v1 c94_i32
  let v1233 : Index := Scalar.indexCast v1232
  ![v1233.toNat]
def k0_off190 (v1234 : BitVec 32) : Fin 2 → Nat :=
  let c0_i32_703 : BitVec 32 := 0#32
  ![v1234.toNat, 0]

def k0_chk95 (v1234 : BitVec 32) : Prop :=
  (∀ a, (k0_off190 v1234) a + S1x128.size a ≤ S100000x128.size a)
instance k0_chk95.dec : ∀ (v1234 : BitVec 32), Decidable (k0_chk95 v1234) := fun v1234 => decidable_of_iff' _ (Iff.of_eq (k0_chk95.eq_1 v1234))
theorem k0_off190_inb : ∀ (v1234 : BitVec 32) (k0_hw95 : k0_chk95 v1234), ∀ a, (k0_off190 v1234) a + S1x128.size a ≤ S100000x128.size a := fun v1234 k0_hw95 => k0_hw95

def k0_off191 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c95_i32 : BitVec 32 := 95#32
  let v1241 : BitVec 32 := Scalar.addi v1 c95_i32
  let v1242 : Index := Scalar.indexCast v1241
  ![v1242.toNat]
def k0_off192 (v1243 : BitVec 32) : Fin 2 → Nat :=
  let c0_i32_707 : BitVec 32 := 0#32
  ![v1243.toNat, 0]

def k0_chk96 (v1243 : BitVec 32) : Prop :=
  (∀ a, (k0_off192 v1243) a + S1x128.size a ≤ S100000x128.size a)
instance k0_chk96.dec : ∀ (v1243 : BitVec 32), Decidable (k0_chk96 v1243) := fun v1243 => decidable_of_iff' _ (Iff.of_eq (k0_chk96.eq_1 v1243))
theorem k0_off192_inb : ∀ (v1243 : BitVec 32) (k0_hw96 : k0_chk96 v1243), ∀ a, (k0_off192 v1243) a + S1x128.size a ≤ S100000x128.size a := fun v1243 k0_hw96 => k0_hw96

def k0_off193 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c96_i32 : BitVec 32 := 96#32
  let v1442 : BitVec 32 := Scalar.addi v1 c96_i32
  let v1443 : Index := Scalar.indexCast v1442
  ![v1443.toNat]
def k0_off194 (v1444 : BitVec 32) : Fin 2 → Nat :=
  let c0_i32_871 : BitVec 32 := 0#32
  ![v1444.toNat, 0]

def k0_chk97 (v1444 : BitVec 32) : Prop :=
  (∀ a, (k0_off194 v1444) a + S1x128.size a ≤ S100000x128.size a)
instance k0_chk97.dec : ∀ (v1444 : BitVec 32), Decidable (k0_chk97 v1444) := fun v1444 => decidable_of_iff' _ (Iff.of_eq (k0_chk97.eq_1 v1444))
theorem k0_off194_inb : ∀ (v1444 : BitVec 32) (k0_hw97 : k0_chk97 v1444), ∀ a, (k0_off194 v1444) a + S1x128.size a ≤ S100000x128.size a := fun v1444 k0_hw97 => k0_hw97

def k0_off195 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c97_i32 : BitVec 32 := 97#32
  let v1451 : BitVec 32 := Scalar.addi v1 c97_i32
  let v1452 : Index := Scalar.indexCast v1451
  ![v1452.toNat]
def k0_off196 (v1453 : BitVec 32) : Fin 2 → Nat :=
  let c0_i32_875 : BitVec 32 := 0#32
  ![v1453.toNat, 0]

def k0_chk98 (v1453 : BitVec 32) : Prop :=
  (∀ a, (k0_off196 v1453) a + S1x128.size a ≤ S100000x128.size a)
instance k0_chk98.dec : ∀ (v1453 : BitVec 32), Decidable (k0_chk98 v1453) := fun v1453 => decidable_of_iff' _ (Iff.of_eq (k0_chk98.eq_1 v1453))
theorem k0_off196_inb : ∀ (v1453 : BitVec 32) (k0_hw98 : k0_chk98 v1453), ∀ a, (k0_off196 v1453) a + S1x128.size a ≤ S100000x128.size a := fun v1453 k0_hw98 => k0_hw98

def k0_off197 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c98_i32 : BitVec 32 := 98#32
  let v1460 : BitVec 32 := Scalar.addi v1 c98_i32
  let v1461 : Index := Scalar.indexCast v1460
  ![v1461.toNat]
def k0_off198 (v1462 : BitVec 32) : Fin 2 → Nat :=
  let c0_i32_879 : BitVec 32 := 0#32
  ![v1462.toNat, 0]

def k0_chk99 (v1462 : BitVec 32) : Prop :=
  (∀ a, (k0_off198 v1462) a + S1x128.size a ≤ S100000x128.size a)
instance k0_chk99.dec : ∀ (v1462 : BitVec 32), Decidable (k0_chk99 v1462) := fun v1462 => decidable_of_iff' _ (Iff.of_eq (k0_chk99.eq_1 v1462))
theorem k0_off198_inb : ∀ (v1462 : BitVec 32) (k0_hw99 : k0_chk99 v1462), ∀ a, (k0_off198 v1462) a + S1x128.size a ≤ S100000x128.size a := fun v1462 k0_hw99 => k0_hw99

def k0_off199 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c99_i32 : BitVec 32 := 99#32
  let v1469 : BitVec 32 := Scalar.addi v1 c99_i32
  let v1470 : Index := Scalar.indexCast v1469
  ![v1470.toNat]
def k0_off200 (v1471 : BitVec 32) : Fin 2 → Nat :=
  let c0_i32_883 : BitVec 32 := 0#32
  ![v1471.toNat, 0]

def k0_chk100 (v1471 : BitVec 32) : Prop :=
  (∀ a, (k0_off200 v1471) a + S1x128.size a ≤ S100000x128.size a)
instance k0_chk100.dec : ∀ (v1471 : BitVec 32), Decidable (k0_chk100 v1471) := fun v1471 => decidable_of_iff' _ (Iff.of_eq (k0_chk100.eq_1 v1471))
theorem k0_off200_inb : ∀ (v1471 : BitVec 32) (k0_hw100 : k0_chk100 v1471), ∀ a, (k0_off200 v1471) a + S1x128.size a ≤ S100000x128.size a := fun v1471 k0_hw100 => k0_hw100

def k0_off201 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c100_i32 : BitVec 32 := 100#32
  let v1478 : BitVec 32 := Scalar.addi v1 c100_i32
  let v1479 : Index := Scalar.indexCast v1478
  ![v1479.toNat]
def k0_off202 (v1480 : BitVec 32) : Fin 2 → Nat :=
  let c0_i32_887 : BitVec 32 := 0#32
  ![v1480.toNat, 0]

def k0_chk101 (v1480 : BitVec 32) : Prop :=
  (∀ a, (k0_off202 v1480) a + S1x128.size a ≤ S100000x128.size a)
instance k0_chk101.dec : ∀ (v1480 : BitVec 32), Decidable (k0_chk101 v1480) := fun v1480 => decidable_of_iff' _ (Iff.of_eq (k0_chk101.eq_1 v1480))
theorem k0_off202_inb : ∀ (v1480 : BitVec 32) (k0_hw101 : k0_chk101 v1480), ∀ a, (k0_off202 v1480) a + S1x128.size a ≤ S100000x128.size a := fun v1480 k0_hw101 => k0_hw101

def k0_off203 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c101_i32 : BitVec 32 := 101#32
  let v1487 : BitVec 32 := Scalar.addi v1 c101_i32
  let v1488 : Index := Scalar.indexCast v1487
  ![v1488.toNat]
def k0_off204 (v1489 : BitVec 32) : Fin 2 → Nat :=
  let c0_i32_891 : BitVec 32 := 0#32
  ![v1489.toNat, 0]

def k0_chk102 (v1489 : BitVec 32) : Prop :=
  (∀ a, (k0_off204 v1489) a + S1x128.size a ≤ S100000x128.size a)
instance k0_chk102.dec : ∀ (v1489 : BitVec 32), Decidable (k0_chk102 v1489) := fun v1489 => decidable_of_iff' _ (Iff.of_eq (k0_chk102.eq_1 v1489))
theorem k0_off204_inb : ∀ (v1489 : BitVec 32) (k0_hw102 : k0_chk102 v1489), ∀ a, (k0_off204 v1489) a + S1x128.size a ≤ S100000x128.size a := fun v1489 k0_hw102 => k0_hw102

def k0_off205 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c102_i32 : BitVec 32 := 102#32
  let v1496 : BitVec 32 := Scalar.addi v1 c102_i32
  let v1497 : Index := Scalar.indexCast v1496
  ![v1497.toNat]
def k0_off206 (v1498 : BitVec 32) : Fin 2 → Nat :=
  let c0_i32_895 : BitVec 32 := 0#32
  ![v1498.toNat, 0]

def k0_chk103 (v1498 : BitVec 32) : Prop :=
  (∀ a, (k0_off206 v1498) a + S1x128.size a ≤ S100000x128.size a)
instance k0_chk103.dec : ∀ (v1498 : BitVec 32), Decidable (k0_chk103 v1498) := fun v1498 => decidable_of_iff' _ (Iff.of_eq (k0_chk103.eq_1 v1498))
theorem k0_off206_inb : ∀ (v1498 : BitVec 32) (k0_hw103 : k0_chk103 v1498), ∀ a, (k0_off206 v1498) a + S1x128.size a ≤ S100000x128.size a := fun v1498 k0_hw103 => k0_hw103

def k0_off207 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c103_i32 : BitVec 32 := 103#32
  let v1505 : BitVec 32 := Scalar.addi v1 c103_i32
  let v1506 : Index := Scalar.indexCast v1505
  ![v1506.toNat]
def k0_off208 (v1507 : BitVec 32) : Fin 2 → Nat :=
  let c0_i32_899 : BitVec 32 := 0#32
  ![v1507.toNat, 0]

def k0_chk104 (v1507 : BitVec 32) : Prop :=
  (∀ a, (k0_off208 v1507) a + S1x128.size a ≤ S100000x128.size a)
instance k0_chk104.dec : ∀ (v1507 : BitVec 32), Decidable (k0_chk104 v1507) := fun v1507 => decidable_of_iff' _ (Iff.of_eq (k0_chk104.eq_1 v1507))
theorem k0_off208_inb : ∀ (v1507 : BitVec 32) (k0_hw104 : k0_chk104 v1507), ∀ a, (k0_off208 v1507) a + S1x128.size a ≤ S100000x128.size a := fun v1507 k0_hw104 => k0_hw104

def k0_off209 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c104_i32 : BitVec 32 := 104#32
  let v1514 : BitVec 32 := Scalar.addi v1 c104_i32
  let v1515 : Index := Scalar.indexCast v1514
  ![v1515.toNat]
def k0_off210 (v1516 : BitVec 32) : Fin 2 → Nat :=
  let c0_i32_903 : BitVec 32 := 0#32
  ![v1516.toNat, 0]

def k0_chk105 (v1516 : BitVec 32) : Prop :=
  (∀ a, (k0_off210 v1516) a + S1x128.size a ≤ S100000x128.size a)
instance k0_chk105.dec : ∀ (v1516 : BitVec 32), Decidable (k0_chk105 v1516) := fun v1516 => decidable_of_iff' _ (Iff.of_eq (k0_chk105.eq_1 v1516))
theorem k0_off210_inb : ∀ (v1516 : BitVec 32) (k0_hw105 : k0_chk105 v1516), ∀ a, (k0_off210 v1516) a + S1x128.size a ≤ S100000x128.size a := fun v1516 k0_hw105 => k0_hw105

def k0_off211 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c105_i32 : BitVec 32 := 105#32
  let v1523 : BitVec 32 := Scalar.addi v1 c105_i32
  let v1524 : Index := Scalar.indexCast v1523
  ![v1524.toNat]
def k0_off212 (v1525 : BitVec 32) : Fin 2 → Nat :=
  let c0_i32_907 : BitVec 32 := 0#32
  ![v1525.toNat, 0]

def k0_chk106 (v1525 : BitVec 32) : Prop :=
  (∀ a, (k0_off212 v1525) a + S1x128.size a ≤ S100000x128.size a)
instance k0_chk106.dec : ∀ (v1525 : BitVec 32), Decidable (k0_chk106 v1525) := fun v1525 => decidable_of_iff' _ (Iff.of_eq (k0_chk106.eq_1 v1525))
theorem k0_off212_inb : ∀ (v1525 : BitVec 32) (k0_hw106 : k0_chk106 v1525), ∀ a, (k0_off212 v1525) a + S1x128.size a ≤ S100000x128.size a := fun v1525 k0_hw106 => k0_hw106

def k0_off213 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c106_i32 : BitVec 32 := 106#32
  let v1532 : BitVec 32 := Scalar.addi v1 c106_i32
  let v1533 : Index := Scalar.indexCast v1532
  ![v1533.toNat]
def k0_off214 (v1534 : BitVec 32) : Fin 2 → Nat :=
  let c0_i32_911 : BitVec 32 := 0#32
  ![v1534.toNat, 0]

def k0_chk107 (v1534 : BitVec 32) : Prop :=
  (∀ a, (k0_off214 v1534) a + S1x128.size a ≤ S100000x128.size a)
instance k0_chk107.dec : ∀ (v1534 : BitVec 32), Decidable (k0_chk107 v1534) := fun v1534 => decidable_of_iff' _ (Iff.of_eq (k0_chk107.eq_1 v1534))
theorem k0_off214_inb : ∀ (v1534 : BitVec 32) (k0_hw107 : k0_chk107 v1534), ∀ a, (k0_off214 v1534) a + S1x128.size a ≤ S100000x128.size a := fun v1534 k0_hw107 => k0_hw107

def k0_off215 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c107_i32 : BitVec 32 := 107#32
  let v1541 : BitVec 32 := Scalar.addi v1 c107_i32
  let v1542 : Index := Scalar.indexCast v1541
  ![v1542.toNat]
def k0_off216 (v1543 : BitVec 32) : Fin 2 → Nat :=
  let c0_i32_915 : BitVec 32 := 0#32
  ![v1543.toNat, 0]

def k0_chk108 (v1543 : BitVec 32) : Prop :=
  (∀ a, (k0_off216 v1543) a + S1x128.size a ≤ S100000x128.size a)
instance k0_chk108.dec : ∀ (v1543 : BitVec 32), Decidable (k0_chk108 v1543) := fun v1543 => decidable_of_iff' _ (Iff.of_eq (k0_chk108.eq_1 v1543))
theorem k0_off216_inb : ∀ (v1543 : BitVec 32) (k0_hw108 : k0_chk108 v1543), ∀ a, (k0_off216 v1543) a + S1x128.size a ≤ S100000x128.size a := fun v1543 k0_hw108 => k0_hw108

def k0_off217 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c108_i32 : BitVec 32 := 108#32
  let v1550 : BitVec 32 := Scalar.addi v1 c108_i32
  let v1551 : Index := Scalar.indexCast v1550
  ![v1551.toNat]
def k0_off218 (v1552 : BitVec 32) : Fin 2 → Nat :=
  let c0_i32_919 : BitVec 32 := 0#32
  ![v1552.toNat, 0]

def k0_chk109 (v1552 : BitVec 32) : Prop :=
  (∀ a, (k0_off218 v1552) a + S1x128.size a ≤ S100000x128.size a)
instance k0_chk109.dec : ∀ (v1552 : BitVec 32), Decidable (k0_chk109 v1552) := fun v1552 => decidable_of_iff' _ (Iff.of_eq (k0_chk109.eq_1 v1552))
theorem k0_off218_inb : ∀ (v1552 : BitVec 32) (k0_hw109 : k0_chk109 v1552), ∀ a, (k0_off218 v1552) a + S1x128.size a ≤ S100000x128.size a := fun v1552 k0_hw109 => k0_hw109

def k0_off219 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c109_i32 : BitVec 32 := 109#32
  let v1559 : BitVec 32 := Scalar.addi v1 c109_i32
  let v1560 : Index := Scalar.indexCast v1559
  ![v1560.toNat]
def k0_off220 (v1561 : BitVec 32) : Fin 2 → Nat :=
  let c0_i32_923 : BitVec 32 := 0#32
  ![v1561.toNat, 0]

def k0_chk110 (v1561 : BitVec 32) : Prop :=
  (∀ a, (k0_off220 v1561) a + S1x128.size a ≤ S100000x128.size a)
instance k0_chk110.dec : ∀ (v1561 : BitVec 32), Decidable (k0_chk110 v1561) := fun v1561 => decidable_of_iff' _ (Iff.of_eq (k0_chk110.eq_1 v1561))
theorem k0_off220_inb : ∀ (v1561 : BitVec 32) (k0_hw110 : k0_chk110 v1561), ∀ a, (k0_off220 v1561) a + S1x128.size a ≤ S100000x128.size a := fun v1561 k0_hw110 => k0_hw110

def k0_off221 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c110_i32 : BitVec 32 := 110#32
  let v1568 : BitVec 32 := Scalar.addi v1 c110_i32
  let v1569 : Index := Scalar.indexCast v1568
  ![v1569.toNat]
def k0_off222 (v1570 : BitVec 32) : Fin 2 → Nat :=
  let c0_i32_927 : BitVec 32 := 0#32
  ![v1570.toNat, 0]

def k0_chk111 (v1570 : BitVec 32) : Prop :=
  (∀ a, (k0_off222 v1570) a + S1x128.size a ≤ S100000x128.size a)
instance k0_chk111.dec : ∀ (v1570 : BitVec 32), Decidable (k0_chk111 v1570) := fun v1570 => decidable_of_iff' _ (Iff.of_eq (k0_chk111.eq_1 v1570))
theorem k0_off222_inb : ∀ (v1570 : BitVec 32) (k0_hw111 : k0_chk111 v1570), ∀ a, (k0_off222 v1570) a + S1x128.size a ≤ S100000x128.size a := fun v1570 k0_hw111 => k0_hw111

def k0_off223 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c111_i32 : BitVec 32 := 111#32
  let v1577 : BitVec 32 := Scalar.addi v1 c111_i32
  let v1578 : Index := Scalar.indexCast v1577
  ![v1578.toNat]
def k0_off224 (v1579 : BitVec 32) : Fin 2 → Nat :=
  let c0_i32_931 : BitVec 32 := 0#32
  ![v1579.toNat, 0]

def k0_chk112 (v1579 : BitVec 32) : Prop :=
  (∀ a, (k0_off224 v1579) a + S1x128.size a ≤ S100000x128.size a)
instance k0_chk112.dec : ∀ (v1579 : BitVec 32), Decidable (k0_chk112 v1579) := fun v1579 => decidable_of_iff' _ (Iff.of_eq (k0_chk112.eq_1 v1579))
theorem k0_off224_inb : ∀ (v1579 : BitVec 32) (k0_hw112 : k0_chk112 v1579), ∀ a, (k0_off224 v1579) a + S1x128.size a ≤ S100000x128.size a := fun v1579 k0_hw112 => k0_hw112

def k0_off225 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c112_i32 : BitVec 32 := 112#32
  let v1586 : BitVec 32 := Scalar.addi v1 c112_i32
  let v1587 : Index := Scalar.indexCast v1586
  ![v1587.toNat]
def k0_off226 (v1588 : BitVec 32) : Fin 2 → Nat :=
  let c0_i32_935 : BitVec 32 := 0#32
  ![v1588.toNat, 0]

def k0_chk113 (v1588 : BitVec 32) : Prop :=
  (∀ a, (k0_off226 v1588) a + S1x128.size a ≤ S100000x128.size a)
instance k0_chk113.dec : ∀ (v1588 : BitVec 32), Decidable (k0_chk113 v1588) := fun v1588 => decidable_of_iff' _ (Iff.of_eq (k0_chk113.eq_1 v1588))
theorem k0_off226_inb : ∀ (v1588 : BitVec 32) (k0_hw113 : k0_chk113 v1588), ∀ a, (k0_off226 v1588) a + S1x128.size a ≤ S100000x128.size a := fun v1588 k0_hw113 => k0_hw113

def k0_off227 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c113_i32 : BitVec 32 := 113#32
  let v1595 : BitVec 32 := Scalar.addi v1 c113_i32
  let v1596 : Index := Scalar.indexCast v1595
  ![v1596.toNat]
def k0_off228 (v1597 : BitVec 32) : Fin 2 → Nat :=
  let c0_i32_939 : BitVec 32 := 0#32
  ![v1597.toNat, 0]

def k0_chk114 (v1597 : BitVec 32) : Prop :=
  (∀ a, (k0_off228 v1597) a + S1x128.size a ≤ S100000x128.size a)
instance k0_chk114.dec : ∀ (v1597 : BitVec 32), Decidable (k0_chk114 v1597) := fun v1597 => decidable_of_iff' _ (Iff.of_eq (k0_chk114.eq_1 v1597))
theorem k0_off228_inb : ∀ (v1597 : BitVec 32) (k0_hw114 : k0_chk114 v1597), ∀ a, (k0_off228 v1597) a + S1x128.size a ≤ S100000x128.size a := fun v1597 k0_hw114 => k0_hw114

def k0_off229 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c114_i32 : BitVec 32 := 114#32
  let v1604 : BitVec 32 := Scalar.addi v1 c114_i32
  let v1605 : Index := Scalar.indexCast v1604
  ![v1605.toNat]
def k0_off230 (v1606 : BitVec 32) : Fin 2 → Nat :=
  let c0_i32_943 : BitVec 32 := 0#32
  ![v1606.toNat, 0]

def k0_chk115 (v1606 : BitVec 32) : Prop :=
  (∀ a, (k0_off230 v1606) a + S1x128.size a ≤ S100000x128.size a)
instance k0_chk115.dec : ∀ (v1606 : BitVec 32), Decidable (k0_chk115 v1606) := fun v1606 => decidable_of_iff' _ (Iff.of_eq (k0_chk115.eq_1 v1606))
theorem k0_off230_inb : ∀ (v1606 : BitVec 32) (k0_hw115 : k0_chk115 v1606), ∀ a, (k0_off230 v1606) a + S1x128.size a ≤ S100000x128.size a := fun v1606 k0_hw115 => k0_hw115

def k0_off231 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c115_i32 : BitVec 32 := 115#32
  let v1613 : BitVec 32 := Scalar.addi v1 c115_i32
  let v1614 : Index := Scalar.indexCast v1613
  ![v1614.toNat]
def k0_off232 (v1615 : BitVec 32) : Fin 2 → Nat :=
  let c0_i32_947 : BitVec 32 := 0#32
  ![v1615.toNat, 0]

def k0_chk116 (v1615 : BitVec 32) : Prop :=
  (∀ a, (k0_off232 v1615) a + S1x128.size a ≤ S100000x128.size a)
instance k0_chk116.dec : ∀ (v1615 : BitVec 32), Decidable (k0_chk116 v1615) := fun v1615 => decidable_of_iff' _ (Iff.of_eq (k0_chk116.eq_1 v1615))
theorem k0_off232_inb : ∀ (v1615 : BitVec 32) (k0_hw116 : k0_chk116 v1615), ∀ a, (k0_off232 v1615) a + S1x128.size a ≤ S100000x128.size a := fun v1615 k0_hw116 => k0_hw116

def k0_off233 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c116_i32 : BitVec 32 := 116#32
  let v1622 : BitVec 32 := Scalar.addi v1 c116_i32
  let v1623 : Index := Scalar.indexCast v1622
  ![v1623.toNat]
def k0_off234 (v1624 : BitVec 32) : Fin 2 → Nat :=
  let c0_i32_951 : BitVec 32 := 0#32
  ![v1624.toNat, 0]

def k0_chk117 (v1624 : BitVec 32) : Prop :=
  (∀ a, (k0_off234 v1624) a + S1x128.size a ≤ S100000x128.size a)
instance k0_chk117.dec : ∀ (v1624 : BitVec 32), Decidable (k0_chk117 v1624) := fun v1624 => decidable_of_iff' _ (Iff.of_eq (k0_chk117.eq_1 v1624))
theorem k0_off234_inb : ∀ (v1624 : BitVec 32) (k0_hw117 : k0_chk117 v1624), ∀ a, (k0_off234 v1624) a + S1x128.size a ≤ S100000x128.size a := fun v1624 k0_hw117 => k0_hw117

def k0_off235 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c117_i32 : BitVec 32 := 117#32
  let v1631 : BitVec 32 := Scalar.addi v1 c117_i32
  let v1632 : Index := Scalar.indexCast v1631
  ![v1632.toNat]
def k0_off236 (v1633 : BitVec 32) : Fin 2 → Nat :=
  let c0_i32_955 : BitVec 32 := 0#32
  ![v1633.toNat, 0]

def k0_chk118 (v1633 : BitVec 32) : Prop :=
  (∀ a, (k0_off236 v1633) a + S1x128.size a ≤ S100000x128.size a)
instance k0_chk118.dec : ∀ (v1633 : BitVec 32), Decidable (k0_chk118 v1633) := fun v1633 => decidable_of_iff' _ (Iff.of_eq (k0_chk118.eq_1 v1633))
theorem k0_off236_inb : ∀ (v1633 : BitVec 32) (k0_hw118 : k0_chk118 v1633), ∀ a, (k0_off236 v1633) a + S1x128.size a ≤ S100000x128.size a := fun v1633 k0_hw118 => k0_hw118

def k0_off237 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c118_i32 : BitVec 32 := 118#32
  let v1640 : BitVec 32 := Scalar.addi v1 c118_i32
  let v1641 : Index := Scalar.indexCast v1640
  ![v1641.toNat]
def k0_off238 (v1642 : BitVec 32) : Fin 2 → Nat :=
  let c0_i32_959 : BitVec 32 := 0#32
  ![v1642.toNat, 0]

def k0_chk119 (v1642 : BitVec 32) : Prop :=
  (∀ a, (k0_off238 v1642) a + S1x128.size a ≤ S100000x128.size a)
instance k0_chk119.dec : ∀ (v1642 : BitVec 32), Decidable (k0_chk119 v1642) := fun v1642 => decidable_of_iff' _ (Iff.of_eq (k0_chk119.eq_1 v1642))
theorem k0_off238_inb : ∀ (v1642 : BitVec 32) (k0_hw119 : k0_chk119 v1642), ∀ a, (k0_off238 v1642) a + S1x128.size a ≤ S100000x128.size a := fun v1642 k0_hw119 => k0_hw119

def k0_off239 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c119_i32 : BitVec 32 := 119#32
  let v1649 : BitVec 32 := Scalar.addi v1 c119_i32
  let v1650 : Index := Scalar.indexCast v1649
  ![v1650.toNat]
def k0_off240 (v1651 : BitVec 32) : Fin 2 → Nat :=
  let c0_i32_963 : BitVec 32 := 0#32
  ![v1651.toNat, 0]

def k0_chk120 (v1651 : BitVec 32) : Prop :=
  (∀ a, (k0_off240 v1651) a + S1x128.size a ≤ S100000x128.size a)
instance k0_chk120.dec : ∀ (v1651 : BitVec 32), Decidable (k0_chk120 v1651) := fun v1651 => decidable_of_iff' _ (Iff.of_eq (k0_chk120.eq_1 v1651))
theorem k0_off240_inb : ∀ (v1651 : BitVec 32) (k0_hw120 : k0_chk120 v1651), ∀ a, (k0_off240 v1651) a + S1x128.size a ≤ S100000x128.size a := fun v1651 k0_hw120 => k0_hw120

def k0_off241 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c120_i32 : BitVec 32 := 120#32
  let v1658 : BitVec 32 := Scalar.addi v1 c120_i32
  let v1659 : Index := Scalar.indexCast v1658
  ![v1659.toNat]
def k0_off242 (v1660 : BitVec 32) : Fin 2 → Nat :=
  let c0_i32_967 : BitVec 32 := 0#32
  ![v1660.toNat, 0]

def k0_chk121 (v1660 : BitVec 32) : Prop :=
  (∀ a, (k0_off242 v1660) a + S1x128.size a ≤ S100000x128.size a)
instance k0_chk121.dec : ∀ (v1660 : BitVec 32), Decidable (k0_chk121 v1660) := fun v1660 => decidable_of_iff' _ (Iff.of_eq (k0_chk121.eq_1 v1660))
theorem k0_off242_inb : ∀ (v1660 : BitVec 32) (k0_hw121 : k0_chk121 v1660), ∀ a, (k0_off242 v1660) a + S1x128.size a ≤ S100000x128.size a := fun v1660 k0_hw121 => k0_hw121

def k0_off243 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c121_i32 : BitVec 32 := 121#32
  let v1667 : BitVec 32 := Scalar.addi v1 c121_i32
  let v1668 : Index := Scalar.indexCast v1667
  ![v1668.toNat]
def k0_off244 (v1669 : BitVec 32) : Fin 2 → Nat :=
  let c0_i32_971 : BitVec 32 := 0#32
  ![v1669.toNat, 0]

def k0_chk122 (v1669 : BitVec 32) : Prop :=
  (∀ a, (k0_off244 v1669) a + S1x128.size a ≤ S100000x128.size a)
instance k0_chk122.dec : ∀ (v1669 : BitVec 32), Decidable (k0_chk122 v1669) := fun v1669 => decidable_of_iff' _ (Iff.of_eq (k0_chk122.eq_1 v1669))
theorem k0_off244_inb : ∀ (v1669 : BitVec 32) (k0_hw122 : k0_chk122 v1669), ∀ a, (k0_off244 v1669) a + S1x128.size a ≤ S100000x128.size a := fun v1669 k0_hw122 => k0_hw122

def k0_off245 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c122_i32 : BitVec 32 := 122#32
  let v1676 : BitVec 32 := Scalar.addi v1 c122_i32
  let v1677 : Index := Scalar.indexCast v1676
  ![v1677.toNat]
def k0_off246 (v1678 : BitVec 32) : Fin 2 → Nat :=
  let c0_i32_975 : BitVec 32 := 0#32
  ![v1678.toNat, 0]

def k0_chk123 (v1678 : BitVec 32) : Prop :=
  (∀ a, (k0_off246 v1678) a + S1x128.size a ≤ S100000x128.size a)
instance k0_chk123.dec : ∀ (v1678 : BitVec 32), Decidable (k0_chk123 v1678) := fun v1678 => decidable_of_iff' _ (Iff.of_eq (k0_chk123.eq_1 v1678))
theorem k0_off246_inb : ∀ (v1678 : BitVec 32) (k0_hw123 : k0_chk123 v1678), ∀ a, (k0_off246 v1678) a + S1x128.size a ≤ S100000x128.size a := fun v1678 k0_hw123 => k0_hw123

def k0_off247 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c123_i32 : BitVec 32 := 123#32
  let v1685 : BitVec 32 := Scalar.addi v1 c123_i32
  let v1686 : Index := Scalar.indexCast v1685
  ![v1686.toNat]
def k0_off248 (v1687 : BitVec 32) : Fin 2 → Nat :=
  let c0_i32_979 : BitVec 32 := 0#32
  ![v1687.toNat, 0]

def k0_chk124 (v1687 : BitVec 32) : Prop :=
  (∀ a, (k0_off248 v1687) a + S1x128.size a ≤ S100000x128.size a)
instance k0_chk124.dec : ∀ (v1687 : BitVec 32), Decidable (k0_chk124 v1687) := fun v1687 => decidable_of_iff' _ (Iff.of_eq (k0_chk124.eq_1 v1687))
theorem k0_off248_inb : ∀ (v1687 : BitVec 32) (k0_hw124 : k0_chk124 v1687), ∀ a, (k0_off248 v1687) a + S1x128.size a ≤ S100000x128.size a := fun v1687 k0_hw124 => k0_hw124

def k0_off249 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c124_i32 : BitVec 32 := 124#32
  let v1694 : BitVec 32 := Scalar.addi v1 c124_i32
  let v1695 : Index := Scalar.indexCast v1694
  ![v1695.toNat]
def k0_off250 (v1696 : BitVec 32) : Fin 2 → Nat :=
  let c0_i32_983 : BitVec 32 := 0#32
  ![v1696.toNat, 0]

def k0_chk125 (v1696 : BitVec 32) : Prop :=
  (∀ a, (k0_off250 v1696) a + S1x128.size a ≤ S100000x128.size a)
instance k0_chk125.dec : ∀ (v1696 : BitVec 32), Decidable (k0_chk125 v1696) := fun v1696 => decidable_of_iff' _ (Iff.of_eq (k0_chk125.eq_1 v1696))
theorem k0_off250_inb : ∀ (v1696 : BitVec 32) (k0_hw125 : k0_chk125 v1696), ∀ a, (k0_off250 v1696) a + S1x128.size a ≤ S100000x128.size a := fun v1696 k0_hw125 => k0_hw125

def k0_off251 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c125_i32 : BitVec 32 := 125#32
  let v1703 : BitVec 32 := Scalar.addi v1 c125_i32
  let v1704 : Index := Scalar.indexCast v1703
  ![v1704.toNat]
def k0_off252 (v1705 : BitVec 32) : Fin 2 → Nat :=
  let c0_i32_987 : BitVec 32 := 0#32
  ![v1705.toNat, 0]

def k0_chk126 (v1705 : BitVec 32) : Prop :=
  (∀ a, (k0_off252 v1705) a + S1x128.size a ≤ S100000x128.size a)
instance k0_chk126.dec : ∀ (v1705 : BitVec 32), Decidable (k0_chk126 v1705) := fun v1705 => decidable_of_iff' _ (Iff.of_eq (k0_chk126.eq_1 v1705))
theorem k0_off252_inb : ∀ (v1705 : BitVec 32) (k0_hw126 : k0_chk126 v1705), ∀ a, (k0_off252 v1705) a + S1x128.size a ≤ S100000x128.size a := fun v1705 k0_hw126 => k0_hw126

def k0_off253 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c126_i32 : BitVec 32 := 126#32
  let v1712 : BitVec 32 := Scalar.addi v1 c126_i32
  let v1713 : Index := Scalar.indexCast v1712
  ![v1713.toNat]
def k0_off254 (v1714 : BitVec 32) : Fin 2 → Nat :=
  let c0_i32_991 : BitVec 32 := 0#32
  ![v1714.toNat, 0]

def k0_chk127 (v1714 : BitVec 32) : Prop :=
  (∀ a, (k0_off254 v1714) a + S1x128.size a ≤ S100000x128.size a)
instance k0_chk127.dec : ∀ (v1714 : BitVec 32), Decidable (k0_chk127 v1714) := fun v1714 => decidable_of_iff' _ (Iff.of_eq (k0_chk127.eq_1 v1714))
theorem k0_off254_inb : ∀ (v1714 : BitVec 32) (k0_hw127 : k0_chk127 v1714), ∀ a, (k0_off254 v1714) a + S1x128.size a ≤ S100000x128.size a := fun v1714 k0_hw127 => k0_hw127

def k0_off255 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let c127_i32 : BitVec 32 := 127#32
  let v1721 : BitVec 32 := Scalar.addi v1 c127_i32
  let v1722 : Index := Scalar.indexCast v1721
  ![v1722.toNat]
def k0_off256 (v1723 : BitVec 32) : Fin 2 → Nat :=
  let c0_i32_995 : BitVec 32 := 0#32
  ![v1723.toNat, 0]

def k0_chk128 (v1723 : BitVec 32) : Prop :=
  (∀ a, (k0_off256 v1723) a + S1x128.size a ≤ S100000x128.size a)
instance k0_chk128.dec : ∀ (v1723 : BitVec 32), Decidable (k0_chk128 v1723) := fun v1723 => decidable_of_iff' _ (Iff.of_eq (k0_chk128.eq_1 v1723))
theorem k0_off256_inb : ∀ (v1723 : BitVec 32) (k0_hw128 : k0_chk128 v1723), ∀ a, (k0_off256 v1723) a + S1x128.size a ≤ S100000x128.size a := fun v1723 k0_hw128 => k0_hw128

def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  v1
def k0_off257 (k0_t1 : Fin k0_t1_loop.trips) : Fin 1 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v1923 : BitVec 32 := v1
  let v1924 : Index := Scalar.indexCast v1923
  ![v1924.toNat]
def k0_off258 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v1923 : BitVec 32 := v1
  let v1937 : Index := Scalar.indexCast v1923
  let c0_1159 : Index := 0#32
  ![v1937.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S606208_062080 : S600000.Pads (![0] : Fin 1 → Nat) ![6208] ![0] S606208
  h_S_ : 0 < S_.numel
  pads_S500x128_S512x128_0120_000 : S500x128.Pads (![0, 0] : Fin 2 → Nat) ![12, 0] ![0, 0] S512x128
  numel1_S1 : S1.numel = 1
  inb_S32_S1_0 : ∀ a, (![0] : Fin 1 → Nat) a + S1.size a ≤ S32.size a
  squeezes_S1_S_ : S1.Squeezes S_
  inb_S128x128_S1x128_0_0 : ∀ a, (![0, 0] : Fin 2 → Nat) a + S1x128.size a ≤ S128x128.size a
  squeezes_S1x128_S128 : S1x128.Squeezes S128
  inb_S32_S1_1 : ∀ a, (![1] : Fin 1 → Nat) a + S1.size a ≤ S32.size a
  inb_S128x128_S1x128_1_0 : ∀ a, (![1, 0] : Fin 2 → Nat) a + S1x128.size a ≤ S128x128.size a
  inb_S32_S1_2 : ∀ a, (![2] : Fin 1 → Nat) a + S1.size a ≤ S32.size a
  inb_S128x128_S1x128_2_0 : ∀ a, (![2, 0] : Fin 2 → Nat) a + S1x128.size a ≤ S128x128.size a
  inb_S32_S1_3 : ∀ a, (![3] : Fin 1 → Nat) a + S1.size a ≤ S32.size a
  inb_S128x128_S1x128_3_0 : ∀ a, (![3, 0] : Fin 2 → Nat) a + S1x128.size a ≤ S128x128.size a
  inb_S32_S1_4 : ∀ a, (![4] : Fin 1 → Nat) a + S1.size a ≤ S32.size a
  inb_S128x128_S1x128_4_0 : ∀ a, (![4, 0] : Fin 2 → Nat) a + S1x128.size a ≤ S128x128.size a
  inb_S32_S1_5 : ∀ a, (![5] : Fin 1 → Nat) a + S1.size a ≤ S32.size a
  inb_S128x128_S1x128_5_0 : ∀ a, (![5, 0] : Fin 2 → Nat) a + S1x128.size a ≤ S128x128.size a
  inb_S32_S1_6 : ∀ a, (![6] : Fin 1 → Nat) a + S1.size a ≤ S32.size a
  inb_S128x128_S1x128_6_0 : ∀ a, (![6, 0] : Fin 2 → Nat) a + S1x128.size a ≤ S128x128.size a
  inb_S32_S1_7 : ∀ a, (![7] : Fin 1 → Nat) a + S1.size a ≤ S32.size a
  inb_S128x128_S1x128_7_0 : ∀ a, (![7, 0] : Fin 2 → Nat) a + S1x128.size a ≤ S128x128.size a
  inb_S32_S1_8 : ∀ a, (![8] : Fin 1 → Nat) a + S1.size a ≤ S32.size a
  inb_S128x128_S1x128_8_0 : ∀ a, (![8, 0] : Fin 2 → Nat) a + S1x128.size a ≤ S128x128.size a
  inb_S32_S1_9 : ∀ a, (![9] : Fin 1 → Nat) a + S1.size a ≤ S32.size a
  inb_S128x128_S1x128_9_0 : ∀ a, (![9, 0] : Fin 2 → Nat) a + S1x128.size a ≤ S128x128.size a
  inb_S32_S1_10 : ∀ a, (![10] : Fin 1 → Nat) a + S1.size a ≤ S32.size a
  inb_S128x128_S1x128_10_0 : ∀ a, (![10, 0] : Fin 2 → Nat) a + S1x128.size a ≤ S128x128.size a
  inb_S32_S1_11 : ∀ a, (![11] : Fin 1 → Nat) a + S1.size a ≤ S32.size a
  inb_S128x128_S1x128_11_0 : ∀ a, (![11, 0] : Fin 2 → Nat) a + S1x128.size a ≤ S128x128.size a
  inb_S32_S1_12 : ∀ a, (![12] : Fin 1 → Nat) a + S1.size a ≤ S32.size a
  inb_S128x128_S1x128_12_0 : ∀ a, (![12, 0] : Fin 2 → Nat) a + S1x128.size a ≤ S128x128.size a
  inb_S32_S1_13 : ∀ a, (![13] : Fin 1 → Nat) a + S1.size a ≤ S32.size a
  inb_S128x128_S1x128_13_0 : ∀ a, (![13, 0] : Fin 2 → Nat) a + S1x128.size a ≤ S128x128.size a
  inb_S32_S1_14 : ∀ a, (![14] : Fin 1 → Nat) a + S1.size a ≤ S32.size a
  inb_S128x128_S1x128_14_0 : ∀ a, (![14, 0] : Fin 2 → Nat) a + S1x128.size a ≤ S128x128.size a
  inb_S32_S1_15 : ∀ a, (![15] : Fin 1 → Nat) a + S1.size a ≤ S32.size a
  inb_S128x128_S1x128_15_0 : ∀ a, (![15, 0] : Fin 2 → Nat) a + S1x128.size a ≤ S128x128.size a
  inb_S32_S1_16 : ∀ a, (![16] : Fin 1 → Nat) a + S1.size a ≤ S32.size a
  inb_S128x128_S1x128_16_0 : ∀ a, (![16, 0] : Fin 2 → Nat) a + S1x128.size a ≤ S128x128.size a
  inb_S32_S1_17 : ∀ a, (![17] : Fin 1 → Nat) a + S1.size a ≤ S32.size a
  inb_S128x128_S1x128_17_0 : ∀ a, (![17, 0] : Fin 2 → Nat) a + S1x128.size a ≤ S128x128.size a
  inb_S32_S1_18 : ∀ a, (![18] : Fin 1 → Nat) a + S1.size a ≤ S32.size a
  inb_S128x128_S1x128_18_0 : ∀ a, (![18, 0] : Fin 2 → Nat) a + S1x128.size a ≤ S128x128.size a
  inb_S32_S1_19 : ∀ a, (![19] : Fin 1 → Nat) a + S1.size a ≤ S32.size a
  inb_S128x128_S1x128_19_0 : ∀ a, (![19, 0] : Fin 2 → Nat) a + S1x128.size a ≤ S128x128.size a
  inb_S32_S1_20 : ∀ a, (![20] : Fin 1 → Nat) a + S1.size a ≤ S32.size a
  inb_S128x128_S1x128_20_0 : ∀ a, (![20, 0] : Fin 2 → Nat) a + S1x128.size a ≤ S128x128.size a
  inb_S32_S1_21 : ∀ a, (![21] : Fin 1 → Nat) a + S1.size a ≤ S32.size a
  inb_S128x128_S1x128_21_0 : ∀ a, (![21, 0] : Fin 2 → Nat) a + S1x128.size a ≤ S128x128.size a
  inb_S32_S1_22 : ∀ a, (![22] : Fin 1 → Nat) a + S1.size a ≤ S32.size a
  inb_S128x128_S1x128_22_0 : ∀ a, (![22, 0] : Fin 2 → Nat) a + S1x128.size a ≤ S128x128.size a
  inb_S32_S1_23 : ∀ a, (![23] : Fin 1 → Nat) a + S1.size a ≤ S32.size a
  inb_S128x128_S1x128_23_0 : ∀ a, (![23, 0] : Fin 2 → Nat) a + S1x128.size a ≤ S128x128.size a
  inb_S32_S1_24 : ∀ a, (![24] : Fin 1 → Nat) a + S1.size a ≤ S32.size a
  inb_S128x128_S1x128_24_0 : ∀ a, (![24, 0] : Fin 2 → Nat) a + S1x128.size a ≤ S128x128.size a
  inb_S32_S1_25 : ∀ a, (![25] : Fin 1 → Nat) a + S1.size a ≤ S32.size a
  inb_S128x128_S1x128_25_0 : ∀ a, (![25, 0] : Fin 2 → Nat) a + S1x128.size a ≤ S128x128.size a
  inb_S32_S1_26 : ∀ a, (![26] : Fin 1 → Nat) a + S1.size a ≤ S32.size a
  inb_S128x128_S1x128_26_0 : ∀ a, (![26, 0] : Fin 2 → Nat) a + S1x128.size a ≤ S128x128.size a
  inb_S32_S1_27 : ∀ a, (![27] : Fin 1 → Nat) a + S1.size a ≤ S32.size a
  inb_S128x128_S1x128_27_0 : ∀ a, (![27, 0] : Fin 2 → Nat) a + S1x128.size a ≤ S128x128.size a
  inb_S32_S1_28 : ∀ a, (![28] : Fin 1 → Nat) a + S1.size a ≤ S32.size a
  inb_S128x128_S1x128_28_0 : ∀ a, (![28, 0] : Fin 2 → Nat) a + S1x128.size a ≤ S128x128.size a
  inb_S32_S1_29 : ∀ a, (![29] : Fin 1 → Nat) a + S1.size a ≤ S32.size a
  inb_S128x128_S1x128_29_0 : ∀ a, (![29, 0] : Fin 2 → Nat) a + S1x128.size a ≤ S128x128.size a
  inb_S32_S1_30 : ∀ a, (![30] : Fin 1 → Nat) a + S1.size a ≤ S32.size a
  inb_S128x128_S1x128_30_0 : ∀ a, (![30, 0] : Fin 2 → Nat) a + S1x128.size a ≤ S128x128.size a
  inb_S32_S1_31 : ∀ a, (![31] : Fin 1 → Nat) a + S1.size a ≤ S32.size a
  inb_S128x128_S1x128_31_0 : ∀ a, (![31, 0] : Fin 2 → Nat) a + S1x128.size a ≤ S128x128.size a
  inb_S100000x128_S1x128_0_0 : ∀ a, (![0, 0] : Fin 2 → Nat) a + S1x128.size a ≤ S100000x128.size a
  inb_S128x128_S1x128_32_0 : ∀ a, (![32, 0] : Fin 2 → Nat) a + S1x128.size a ≤ S128x128.size a
  inb_S128x128_S1x128_33_0 : ∀ a, (![33, 0] : Fin 2 → Nat) a + S1x128.size a ≤ S128x128.size a
  inb_S128x128_S1x128_34_0 : ∀ a, (![34, 0] : Fin 2 → Nat) a + S1x128.size a ≤ S128x128.size a
  inb_S128x128_S1x128_35_0 : ∀ a, (![35, 0] : Fin 2 → Nat) a + S1x128.size a ≤ S128x128.size a
  inb_S128x128_S1x128_36_0 : ∀ a, (![36, 0] : Fin 2 → Nat) a + S1x128.size a ≤ S128x128.size a
  inb_S128x128_S1x128_37_0 : ∀ a, (![37, 0] : Fin 2 → Nat) a + S1x128.size a ≤ S128x128.size a
  inb_S128x128_S1x128_38_0 : ∀ a, (![38, 0] : Fin 2 → Nat) a + S1x128.size a ≤ S128x128.size a
  inb_S128x128_S1x128_39_0 : ∀ a, (![39, 0] : Fin 2 → Nat) a + S1x128.size a ≤ S128x128.size a
  inb_S128x128_S1x128_40_0 : ∀ a, (![40, 0] : Fin 2 → Nat) a + S1x128.size a ≤ S128x128.size a
  inb_S128x128_S1x128_41_0 : ∀ a, (![41, 0] : Fin 2 → Nat) a + S1x128.size a ≤ S128x128.size a
  inb_S128x128_S1x128_42_0 : ∀ a, (![42, 0] : Fin 2 → Nat) a + S1x128.size a ≤ S128x128.size a
  inb_S128x128_S1x128_43_0 : ∀ a, (![43, 0] : Fin 2 → Nat) a + S1x128.size a ≤ S128x128.size a
  inb_S128x128_S1x128_44_0 : ∀ a, (![44, 0] : Fin 2 → Nat) a + S1x128.size a ≤ S128x128.size a
  inb_S128x128_S1x128_45_0 : ∀ a, (![45, 0] : Fin 2 → Nat) a + S1x128.size a ≤ S128x128.size a
  inb_S128x128_S1x128_46_0 : ∀ a, (![46, 0] : Fin 2 → Nat) a + S1x128.size a ≤ S128x128.size a
  inb_S128x128_S1x128_47_0 : ∀ a, (![47, 0] : Fin 2 → Nat) a + S1x128.size a ≤ S128x128.size a
  inb_S128x128_S1x128_48_0 : ∀ a, (![48, 0] : Fin 2 → Nat) a + S1x128.size a ≤ S128x128.size a
  inb_S128x128_S1x128_49_0 : ∀ a, (![49, 0] : Fin 2 → Nat) a + S1x128.size a ≤ S128x128.size a
  inb_S128x128_S1x128_50_0 : ∀ a, (![50, 0] : Fin 2 → Nat) a + S1x128.size a ≤ S128x128.size a
  inb_S128x128_S1x128_51_0 : ∀ a, (![51, 0] : Fin 2 → Nat) a + S1x128.size a ≤ S128x128.size a
  inb_S128x128_S1x128_52_0 : ∀ a, (![52, 0] : Fin 2 → Nat) a + S1x128.size a ≤ S128x128.size a
  inb_S128x128_S1x128_53_0 : ∀ a, (![53, 0] : Fin 2 → Nat) a + S1x128.size a ≤ S128x128.size a
  inb_S128x128_S1x128_54_0 : ∀ a, (![54, 0] : Fin 2 → Nat) a + S1x128.size a ≤ S128x128.size a
  inb_S128x128_S1x128_55_0 : ∀ a, (![55, 0] : Fin 2 → Nat) a + S1x128.size a ≤ S128x128.size a
  inb_S128x128_S1x128_56_0 : ∀ a, (![56, 0] : Fin 2 → Nat) a + S1x128.size a ≤ S128x128.size a
  inb_S128x128_S1x128_57_0 : ∀ a, (![57, 0] : Fin 2 → Nat) a + S1x128.size a ≤ S128x128.size a
  inb_S128x128_S1x128_58_0 : ∀ a, (![58, 0] : Fin 2 → Nat) a + S1x128.size a ≤ S128x128.size a
  inb_S128x128_S1x128_59_0 : ∀ a, (![59, 0] : Fin 2 → Nat) a + S1x128.size a ≤ S128x128.size a
  inb_S128x128_S1x128_60_0 : ∀ a, (![60, 0] : Fin 2 → Nat) a + S1x128.size a ≤ S128x128.size a
  inb_S128x128_S1x128_61_0 : ∀ a, (![61, 0] : Fin 2 → Nat) a + S1x128.size a ≤ S128x128.size a
  inb_S128x128_S1x128_62_0 : ∀ a, (![62, 0] : Fin 2 → Nat) a + S1x128.size a ≤ S128x128.size a
  inb_S128x128_S1x128_63_0 : ∀ a, (![63, 0] : Fin 2 → Nat) a + S1x128.size a ≤ S128x128.size a
  inb_S128x128_S1x128_64_0 : ∀ a, (![64, 0] : Fin 2 → Nat) a + S1x128.size a ≤ S128x128.size a
  inb_S128x128_S1x128_65_0 : ∀ a, (![65, 0] : Fin 2 → Nat) a + S1x128.size a ≤ S128x128.size a
  inb_S128x128_S1x128_66_0 : ∀ a, (![66, 0] : Fin 2 → Nat) a + S1x128.size a ≤ S128x128.size a
  inb_S128x128_S1x128_67_0 : ∀ a, (![67, 0] : Fin 2 → Nat) a + S1x128.size a ≤ S128x128.size a
  inb_S128x128_S1x128_68_0 : ∀ a, (![68, 0] : Fin 2 → Nat) a + S1x128.size a ≤ S128x128.size a
  inb_S128x128_S1x128_69_0 : ∀ a, (![69, 0] : Fin 2 → Nat) a + S1x128.size a ≤ S128x128.size a
  inb_S128x128_S1x128_70_0 : ∀ a, (![70, 0] : Fin 2 → Nat) a + S1x128.size a ≤ S128x128.size a
  inb_S128x128_S1x128_71_0 : ∀ a, (![71, 0] : Fin 2 → Nat) a + S1x128.size a ≤ S128x128.size a
  inb_S128x128_S1x128_72_0 : ∀ a, (![72, 0] : Fin 2 → Nat) a + S1x128.size a ≤ S128x128.size a
  inb_S128x128_S1x128_73_0 : ∀ a, (![73, 0] : Fin 2 → Nat) a + S1x128.size a ≤ S128x128.size a
  inb_S128x128_S1x128_74_0 : ∀ a, (![74, 0] : Fin 2 → Nat) a + S1x128.size a ≤ S128x128.size a
  inb_S128x128_S1x128_75_0 : ∀ a, (![75, 0] : Fin 2 → Nat) a + S1x128.size a ≤ S128x128.size a
  inb_S128x128_S1x128_76_0 : ∀ a, (![76, 0] : Fin 2 → Nat) a + S1x128.size a ≤ S128x128.size a
  inb_S128x128_S1x128_77_0 : ∀ a, (![77, 0] : Fin 2 → Nat) a + S1x128.size a ≤ S128x128.size a
  inb_S128x128_S1x128_78_0 : ∀ a, (![78, 0] : Fin 2 → Nat) a + S1x128.size a ≤ S128x128.size a
  inb_S128x128_S1x128_79_0 : ∀ a, (![79, 0] : Fin 2 → Nat) a + S1x128.size a ≤ S128x128.size a
  inb_S128x128_S1x128_80_0 : ∀ a, (![80, 0] : Fin 2 → Nat) a + S1x128.size a ≤ S128x128.size a
  inb_S128x128_S1x128_81_0 : ∀ a, (![81, 0] : Fin 2 → Nat) a + S1x128.size a ≤ S128x128.size a
  inb_S128x128_S1x128_82_0 : ∀ a, (![82, 0] : Fin 2 → Nat) a + S1x128.size a ≤ S128x128.size a
  inb_S128x128_S1x128_83_0 : ∀ a, (![83, 0] : Fin 2 → Nat) a + S1x128.size a ≤ S128x128.size a
  inb_S128x128_S1x128_84_0 : ∀ a, (![84, 0] : Fin 2 → Nat) a + S1x128.size a ≤ S128x128.size a
  inb_S128x128_S1x128_85_0 : ∀ a, (![85, 0] : Fin 2 → Nat) a + S1x128.size a ≤ S128x128.size a
  inb_S128x128_S1x128_86_0 : ∀ a, (![86, 0] : Fin 2 → Nat) a + S1x128.size a ≤ S128x128.size a
  inb_S128x128_S1x128_87_0 : ∀ a, (![87, 0] : Fin 2 → Nat) a + S1x128.size a ≤ S128x128.size a
  inb_S128x128_S1x128_88_0 : ∀ a, (![88, 0] : Fin 2 → Nat) a + S1x128.size a ≤ S128x128.size a
  inb_S128x128_S1x128_89_0 : ∀ a, (![89, 0] : Fin 2 → Nat) a + S1x128.size a ≤ S128x128.size a
  inb_S128x128_S1x128_90_0 : ∀ a, (![90, 0] : Fin 2 → Nat) a + S1x128.size a ≤ S128x128.size a
  inb_S128x128_S1x128_91_0 : ∀ a, (![91, 0] : Fin 2 → Nat) a + S1x128.size a ≤ S128x128.size a
  inb_S128x128_S1x128_92_0 : ∀ a, (![92, 0] : Fin 2 → Nat) a + S1x128.size a ≤ S128x128.size a
  inb_S128x128_S1x128_93_0 : ∀ a, (![93, 0] : Fin 2 → Nat) a + S1x128.size a ≤ S128x128.size a
  inb_S128x128_S1x128_94_0 : ∀ a, (![94, 0] : Fin 2 → Nat) a + S1x128.size a ≤ S128x128.size a
  inb_S128x128_S1x128_95_0 : ∀ a, (![95, 0] : Fin 2 → Nat) a + S1x128.size a ≤ S128x128.size a
  inb_S128x128_S1x128_96_0 : ∀ a, (![96, 0] : Fin 2 → Nat) a + S1x128.size a ≤ S128x128.size a
  inb_S128x128_S1x128_97_0 : ∀ a, (![97, 0] : Fin 2 → Nat) a + S1x128.size a ≤ S128x128.size a
  inb_S128x128_S1x128_98_0 : ∀ a, (![98, 0] : Fin 2 → Nat) a + S1x128.size a ≤ S128x128.size a
  inb_S128x128_S1x128_99_0 : ∀ a, (![99, 0] : Fin 2 → Nat) a + S1x128.size a ≤ S128x128.size a
  inb_S128x128_S1x128_100_0 : ∀ a, (![100, 0] : Fin 2 → Nat) a + S1x128.size a ≤ S128x128.size a
  inb_S128x128_S1x128_101_0 : ∀ a, (![101, 0] : Fin 2 → Nat) a + S1x128.size a ≤ S128x128.size a
  inb_S128x128_S1x128_102_0 : ∀ a, (![102, 0] : Fin 2 → Nat) a + S1x128.size a ≤ S128x128.size a
  inb_S128x128_S1x128_103_0 : ∀ a, (![103, 0] : Fin 2 → Nat) a + S1x128.size a ≤ S128x128.size a
  inb_S128x128_S1x128_104_0 : ∀ a, (![104, 0] : Fin 2 → Nat) a + S1x128.size a ≤ S128x128.size a
  inb_S128x128_S1x128_105_0 : ∀ a, (![105, 0] : Fin 2 → Nat) a + S1x128.size a ≤ S128x128.size a
  inb_S128x128_S1x128_106_0 : ∀ a, (![106, 0] : Fin 2 → Nat) a + S1x128.size a ≤ S128x128.size a
  inb_S128x128_S1x128_107_0 : ∀ a, (![107, 0] : Fin 2 → Nat) a + S1x128.size a ≤ S128x128.size a
  inb_S128x128_S1x128_108_0 : ∀ a, (![108, 0] : Fin 2 → Nat) a + S1x128.size a ≤ S128x128.size a
  inb_S128x128_S1x128_109_0 : ∀ a, (![109, 0] : Fin 2 → Nat) a + S1x128.size a ≤ S128x128.size a
  inb_S128x128_S1x128_110_0 : ∀ a, (![110, 0] : Fin 2 → Nat) a + S1x128.size a ≤ S128x128.size a
  inb_S128x128_S1x128_111_0 : ∀ a, (![111, 0] : Fin 2 → Nat) a + S1x128.size a ≤ S128x128.size a
  inb_S128x128_S1x128_112_0 : ∀ a, (![112, 0] : Fin 2 → Nat) a + S1x128.size a ≤ S128x128.size a
  inb_S128x128_S1x128_113_0 : ∀ a, (![113, 0] : Fin 2 → Nat) a + S1x128.size a ≤ S128x128.size a
  inb_S128x128_S1x128_114_0 : ∀ a, (![114, 0] : Fin 2 → Nat) a + S1x128.size a ≤ S128x128.size a
  inb_S128x128_S1x128_115_0 : ∀ a, (![115, 0] : Fin 2 → Nat) a + S1x128.size a ≤ S128x128.size a
  inb_S128x128_S1x128_116_0 : ∀ a, (![116, 0] : Fin 2 → Nat) a + S1x128.size a ≤ S128x128.size a
  inb_S128x128_S1x128_117_0 : ∀ a, (![117, 0] : Fin 2 → Nat) a + S1x128.size a ≤ S128x128.size a
  inb_S128x128_S1x128_118_0 : ∀ a, (![118, 0] : Fin 2 → Nat) a + S1x128.size a ≤ S128x128.size a
  inb_S128x128_S1x128_119_0 : ∀ a, (![119, 0] : Fin 2 → Nat) a + S1x128.size a ≤ S128x128.size a
  inb_S128x128_S1x128_120_0 : ∀ a, (![120, 0] : Fin 2 → Nat) a + S1x128.size a ≤ S128x128.size a
  inb_S128x128_S1x128_121_0 : ∀ a, (![121, 0] : Fin 2 → Nat) a + S1x128.size a ≤ S128x128.size a
  inb_S128x128_S1x128_122_0 : ∀ a, (![122, 0] : Fin 2 → Nat) a + S1x128.size a ≤ S128x128.size a
  inb_S128x128_S1x128_123_0 : ∀ a, (![123, 0] : Fin 2 → Nat) a + S1x128.size a ≤ S128x128.size a
  inb_S128x128_S1x128_124_0 : ∀ a, (![124, 0] : Fin 2 → Nat) a + S1x128.size a ≤ S128x128.size a
  inb_S128x128_S1x128_125_0 : ∀ a, (![125, 0] : Fin 2 → Nat) a + S1x128.size a ≤ S128x128.size a
  inb_S128x128_S1x128_126_0 : ∀ a, (![126, 0] : Fin 2 → Nat) a + S1x128.size a ≤ S128x128.size a
  inb_S128x128_S1x128_127_0 : ∀ a, (![127, 0] : Fin 2 → Nat) a + S1x128.size a ≤ S128x128.size a
  inb_S128x128_S128x128_0_0 : ∀ a, (![0, 0] : Fin 2 → Nat) a + S128x128.size a ≤ S128x128.size a
  h_S128x128 : 0 < S128x128.numel
  h_S128 : 0 < S128.numel
  shapeCasts_S128_S128 : S128.ShapeCasts S128
  iota_S128x512_d1_w32 : S128x512.Iotas .tc 32 [1]
  shapeCasts_S128_S128x1 : S128.ShapeCasts S128x1
  broadcasts_S128x1_S128x512 : S128x1.Broadcasts S128x512
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S606208x128_S600000x128_0_0 : S606208x128.Slices ![0, 0] S600000x128
  bcast_S_S100000x128 : S_.BroadcastsInDim S100000x128 (![] : Fin 0 → Fin S100000x128.rank)
  bcast_S600000_S600000x1_0 : S600000.BroadcastsInDim S600000x1 (![0] : Fin 1 → Fin S600000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  shapeCasts_S128x128_S128x128 : S128x128.ShapeCasts S128x128
  inb_S128_S128_0 : ∀ a, (![0] : Fin 1 → Nat) a + S128.size a ≤ S128.size a
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  dot_S128x512_S512x128_S128x128_1_0_0_1_n_n_wf : DotDims.WF S128x512 S512x128 S128x128 [1] [0] [0] [1] [] []
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hcc0_scratch1 : 7 + S32.numel ≤ 49
  hrank0 : 0 < grid0.rank
  k0_t1_ok : k0_t1_loop.OK
  k0_off1_inb : ∀ k0_t1 : Fin k0_t1_loop.trips, ∀ a, (k0_off1 k0_t1) a + S1.size a ≤ S8192.size a
  k0_off3_inb : ∀ k0_t1 : Fin k0_t1_loop.trips, ∀ a, (k0_off3 k0_t1) a + S1.size a ≤ S8192.size a
  k0_off5_inb : ∀ k0_t1 : Fin k0_t1_loop.trips, ∀ a, (k0_off5 k0_t1) a + S1.size a ≤ S8192.size a
  k0_off7_inb : ∀ k0_t1 : Fin k0_t1_loop.trips, ∀ a, (k0_off7 k0_t1) a + S1.size a ≤ S8192.size a
  k0_off9_inb : ∀ k0_t1 : Fin k0_t1_loop.trips, ∀ a, (k0_off9 k0_t1) a + S1.size a ≤ S8192.size a
  k0_off11_inb : ∀ k0_t1 : Fin k0_t1_loop.trips, ∀ a, (k0_off11 k0_t1) a + S1.size a ≤ S8192.size a
  k0_off13_inb : ∀ k0_t1 : Fin k0_t1_loop.trips, ∀ a, (k0_off13 k0_t1) a + S1.size a ≤ S8192.size a
  k0_off15_inb : ∀ k0_t1 : Fin k0_t1_loop.trips, ∀ a, (k0_off15 k0_t1) a + S1.size a ≤ S8192.size a
  k0_off17_inb : ∀ k0_t1 : Fin k0_t1_loop.trips, ∀ a, (k0_off17 k0_t1) a + S1.size a ≤ S8192.size a
  k0_off19_inb : ∀ k0_t1 : Fin k0_t1_loop.trips, ∀ a, (k0_off19 k0_t1) a + S1.size a ≤ S8192.size a
  k0_off21_inb : ∀ k0_t1 : Fin k0_t1_loop.trips, ∀ a, (k0_off21 k0_t1) a + S1.size a ≤ S8192.size a
  k0_off23_inb : ∀ k0_t1 : Fin k0_t1_loop.trips, ∀ a, (k0_off23 k0_t1) a + S1.size a ≤ S8192.size a
  k0_off25_inb : ∀ k0_t1 : Fin k0_t1_loop.trips, ∀ a, (k0_off25 k0_t1) a + S1.size a ≤ S8192.size a
  k0_off27_inb : ∀ k0_t1 : Fin k0_t1_loop.trips, ∀ a, (k0_off27 k0_t1) a + S1.size a ≤ S8192.size a
  k0_off29_inb : ∀ k0_t1 : Fin k0_t1_loop.trips, ∀ a, (k0_off29 k0_t1) a + S1.size a ≤ S8192.size a
  k0_off31_inb : ∀ k0_t1 : Fin k0_t1_loop.trips, ∀ a, (k0_off31 k0_t1) a + S1.size a ≤ S8192.size a
  k0_off33_inb : ∀ k0_t1 : Fin k0_t1_loop.trips, ∀ a, (k0_off33 k0_t1) a + S1.size a ≤ S8192.size a
  k0_off35_inb : ∀ k0_t1 : Fin k0_t1_loop.trips, ∀ a, (k0_off35 k0_t1) a + S1.size a ≤ S8192.size a
  k0_off37_inb : ∀ k0_t1 : Fin k0_t1_loop.trips, ∀ a, (k0_off37 k0_t1) a + S1.size a ≤ S8192.size a
  k0_off39_inb : ∀ k0_t1 : Fin k0_t1_loop.trips, ∀ a, (k0_off39 k0_t1) a + S1.size a ≤ S8192.size a
  k0_off41_inb : ∀ k0_t1 : Fin k0_t1_loop.trips, ∀ a, (k0_off41 k0_t1) a + S1.size a ≤ S8192.size a
  k0_off43_inb : ∀ k0_t1 : Fin k0_t1_loop.trips, ∀ a, (k0_off43 k0_t1) a + S1.size a ≤ S8192.size a
  k0_off45_inb : ∀ k0_t1 : Fin k0_t1_loop.trips, ∀ a, (k0_off45 k0_t1) a + S1.size a ≤ S8192.size a
  k0_off47_inb : ∀ k0_t1 : Fin k0_t1_loop.trips, ∀ a, (k0_off47 k0_t1) a + S1.size a ≤ S8192.size a
  k0_off49_inb : ∀ k0_t1 : Fin k0_t1_loop.trips, ∀ a, (k0_off49 k0_t1) a + S1.size a ≤ S8192.size a
  k0_off51_inb : ∀ k0_t1 : Fin k0_t1_loop.trips, ∀ a, (k0_off51 k0_t1) a + S1.size a ≤ S8192.size a
  k0_off53_inb : ∀ k0_t1 : Fin k0_t1_loop.trips, ∀ a, (k0_off53 k0_t1) a + S1.size a ≤ S8192.size a
  k0_off55_inb : ∀ k0_t1 : Fin k0_t1_loop.trips, ∀ a, (k0_off55 k0_t1) a + S1.size a ≤ S8192.size a
  k0_off57_inb : ∀ k0_t1 : Fin k0_t1_loop.trips, ∀ a, (k0_off57 k0_t1) a + S1.size a ≤ S8192.size a
  k0_off59_inb : ∀ k0_t1 : Fin k0_t1_loop.trips, ∀ a, (k0_off59 k0_t1) a + S1.size a ≤ S8192.size a
  k0_off61_inb : ∀ k0_t1 : Fin k0_t1_loop.trips, ∀ a, (k0_off61 k0_t1) a + S1.size a ≤ S8192.size a
  k0_off63_inb : ∀ k0_t1 : Fin k0_t1_loop.trips, ∀ a, (k0_off63 k0_t1) a + S1.size a ≤ S8192.size a
  k0_off65_inb : ∀ k0_t1 : Fin k0_t1_loop.trips, ∀ a, (k0_off65 k0_t1) a + S1.size a ≤ S8192.size a
  k0_off67_inb : ∀ k0_t1 : Fin k0_t1_loop.trips, ∀ a, (k0_off67 k0_t1) a + S1.size a ≤ S8192.size a
  k0_off69_inb : ∀ k0_t1 : Fin k0_t1_loop.trips, ∀ a, (k0_off69 k0_t1) a + S1.size a ≤ S8192.size a
  k0_off71_inb : ∀ k0_t1 : Fin k0_t1_loop.trips, ∀ a, (k0_off71 k0_t1) a + S1.size a ≤ S8192.size a
  k0_off73_inb : ∀ k0_t1 : Fin k0_t1_loop.trips, ∀ a, (k0_off73 k0_t1) a + S1.size a ≤ S8192.size a
  k0_off75_inb : ∀ k0_t1 : Fin k0_t1_loop.trips, ∀ a, (k0_off75 k0_t1) a + S1.size a ≤ S8192.size a
  k0_off77_inb : ∀ k0_t1 : Fin k0_t1_loop.trips, ∀ a, (k0_off77 k0_t1) a + S1.size a ≤ S8192.size a
  k0_off79_inb : ∀ k0_t1 : Fin k0_t1_loop.trips, ∀ a, (k0_off79 k0_t1) a + S1.size a ≤ S8192.size a
  k0_off81_inb : ∀ k0_t1 : Fin k0_t1_loop.trips, ∀ a, (k0_off81 k0_t1) a + S1.size a ≤ S8192.size a
  k0_off83_inb : ∀ k0_t1 : Fin k0_t1_loop.trips, ∀ a, (k0_off83 k0_t1) a + S1.size a ≤ S8192.size a
  k0_off85_inb : ∀ k0_t1 : Fin k0_t1_loop.trips, ∀ a, (k0_off85 k0_t1) a + S1.size a ≤ S8192.size a
  k0_off87_inb : ∀ k0_t1 : Fin k0_t1_loop.trips, ∀ a, (k0_off87 k0_t1) a + S1.size a ≤ S8192.size a
  k0_off89_inb : ∀ k0_t1 : Fin k0_t1_loop.trips, ∀ a, (k0_off89 k0_t1) a + S1.size a ≤ S8192.size a
  k0_off91_inb : ∀ k0_t1 : Fin k0_t1_loop.trips, ∀ a, (k0_off91 k0_t1) a + S1.size a ≤ S8192.size a
  k0_off93_inb : ∀ k0_t1 : Fin k0_t1_loop.trips, ∀ a, (k0_off93 k0_t1) a + S1.size a ≤ S8192.size a
  k0_off95_inb : ∀ k0_t1 : Fin k0_t1_loop.trips, ∀ a, (k0_off95 k0_t1) a + S1.size a ≤ S8192.size a
  k0_off97_inb : ∀ k0_t1 : Fin k0_t1_loop.trips, ∀ a, (k0_off97 k0_t1) a + S1.size a ≤ S8192.size a
  k0_off99_inb : ∀ k0_t1 : Fin k0_t1_loop.trips, ∀ a, (k0_off99 k0_t1) a + S1.size a ≤ S8192.size a
  k0_off101_inb : ∀ k0_t1 : Fin k0_t1_loop.trips, ∀ a, (k0_off101 k0_t1) a + S1.size a ≤ S8192.size a
  k0_off103_inb : ∀ k0_t1 : Fin k0_t1_loop.trips, ∀ a, (k0_off103 k0_t1) a + S1.size a ≤ S8192.size a
  k0_off105_inb : ∀ k0_t1 : Fin k0_t1_loop.trips, ∀ a, (k0_off105 k0_t1) a + S1.size a ≤ S8192.size a
  k0_off107_inb : ∀ k0_t1 : Fin k0_t1_loop.trips, ∀ a, (k0_off107 k0_t1) a + S1.size a ≤ S8192.size a
  k0_off109_inb : ∀ k0_t1 : Fin k0_t1_loop.trips, ∀ a, (k0_off109 k0_t1) a + S1.size a ≤ S8192.size a
  k0_off111_inb : ∀ k0_t1 : Fin k0_t1_loop.trips, ∀ a, (k0_off111 k0_t1) a + S1.size a ≤ S8192.size a
  k0_off113_inb : ∀ k0_t1 : Fin k0_t1_loop.trips, ∀ a, (k0_off113 k0_t1) a + S1.size a ≤ S8192.size a
  k0_off115_inb : ∀ k0_t1 : Fin k0_t1_loop.trips, ∀ a, (k0_off115 k0_t1) a + S1.size a ≤ S8192.size a
  k0_off117_inb : ∀ k0_t1 : Fin k0_t1_loop.trips, ∀ a, (k0_off117 k0_t1) a + S1.size a ≤ S8192.size a
  k0_off119_inb : ∀ k0_t1 : Fin k0_t1_loop.trips, ∀ a, (k0_off119 k0_t1) a + S1.size a ≤ S8192.size a
  k0_off121_inb : ∀ k0_t1 : Fin k0_t1_loop.trips, ∀ a, (k0_off121 k0_t1) a + S1.size a ≤ S8192.size a
  k0_off123_inb : ∀ k0_t1 : Fin k0_t1_loop.trips, ∀ a, (k0_off123 k0_t1) a + S1.size a ≤ S8192.size a
  k0_off125_inb : ∀ k0_t1 : Fin k0_t1_loop.trips, ∀ a, (k0_off125 k0_t1) a + S1.size a ≤ S8192.size a
  k0_off127_inb : ∀ k0_t1 : Fin k0_t1_loop.trips, ∀ a, (k0_off127 k0_t1) a + S1.size a ≤ S8192.size a
  k0_off129_inb : ∀ k0_t1 : Fin k0_t1_loop.trips, ∀ a, (k0_off129 k0_t1) a + S1.size a ≤ S8192.size a
  k0_off131_inb : ∀ k0_t1 : Fin k0_t1_loop.trips, ∀ a, (k0_off131 k0_t1) a + S1.size a ≤ S8192.size a
  k0_off133_inb : ∀ k0_t1 : Fin k0_t1_loop.trips, ∀ a, (k0_off133 k0_t1) a + S1.size a ≤ S8192.size a
  k0_off135_inb : ∀ k0_t1 : Fin k0_t1_loop.trips, ∀ a, (k0_off135 k0_t1) a + S1.size a ≤ S8192.size a
  k0_off137_inb : ∀ k0_t1 : Fin k0_t1_loop.trips, ∀ a, (k0_off137 k0_t1) a + S1.size a ≤ S8192.size a
  k0_off139_inb : ∀ k0_t1 : Fin k0_t1_loop.trips, ∀ a, (k0_off139 k0_t1) a + S1.size a ≤ S8192.size a
  k0_off141_inb : ∀ k0_t1 : Fin k0_t1_loop.trips, ∀ a, (k0_off141 k0_t1) a + S1.size a ≤ S8192.size a
  k0_off143_inb : ∀ k0_t1 : Fin k0_t1_loop.trips, ∀ a, (k0_off143 k0_t1) a + S1.size a ≤ S8192.size a
  k0_off145_inb : ∀ k0_t1 : Fin k0_t1_loop.trips, ∀ a, (k0_off145 k0_t1) a + S1.size a ≤ S8192.size a
  k0_off147_inb : ∀ k0_t1 : Fin k0_t1_loop.trips, ∀ a, (k0_off147 k0_t1) a + S1.size a ≤ S8192.size a
  k0_off149_inb : ∀ k0_t1 : Fin k0_t1_loop.trips, ∀ a, (k0_off149 k0_t1) a + S1.size a ≤ S8192.size a
  k0_off151_inb : ∀ k0_t1 : Fin k0_t1_loop.trips, ∀ a, (k0_off151 k0_t1) a + S1.size a ≤ S8192.size a
  k0_off153_inb : ∀ k0_t1 : Fin k0_t1_loop.trips, ∀ a, (k0_off153 k0_t1) a + S1.size a ≤ S8192.size a
  k0_off155_inb : ∀ k0_t1 : Fin k0_t1_loop.trips, ∀ a, (k0_off155 k0_t1) a + S1.size a ≤ S8192.size a
  k0_off157_inb : ∀ k0_t1 : Fin k0_t1_loop.trips, ∀ a, (k0_off157 k0_t1) a + S1.size a ≤ S8192.size a
  k0_off159_inb : ∀ k0_t1 : Fin k0_t1_loop.trips, ∀ a, (k0_off159 k0_t1) a + S1.size a ≤ S8192.size a
  k0_off161_inb : ∀ k0_t1 : Fin k0_t1_loop.trips, ∀ a, (k0_off161 k0_t1) a + S1.size a ≤ S8192.size a
  k0_off163_inb : ∀ k0_t1 : Fin k0_t1_loop.trips, ∀ a, (k0_off163 k0_t1) a + S1.size a ≤ S8192.size a
  k0_off165_inb : ∀ k0_t1 : Fin k0_t1_loop.trips, ∀ a, (k0_off165 k0_t1) a + S1.size a ≤ S8192.size a
  k0_off167_inb : ∀ k0_t1 : Fin k0_t1_loop.trips, ∀ a, (k0_off167 k0_t1) a + S1.size a ≤ S8192.size a
  k0_off169_inb : ∀ k0_t1 : Fin k0_t1_loop.trips, ∀ a, (k0_off169 k0_t1) a + S1.size a ≤ S8192.size a
  k0_off171_inb : ∀ k0_t1 : Fin k0_t1_loop.trips, ∀ a, (k0_off171 k0_t1) a + S1.size a ≤ S8192.size a
  k0_off173_inb : ∀ k0_t1 : Fin k0_t1_loop.trips, ∀ a, (k0_off173 k0_t1) a + S1.size a ≤ S8192.size a
  k0_off175_inb : ∀ k0_t1 : Fin k0_t1_loop.trips, ∀ a, (k0_off175 k0_t1) a + S1.size a ≤ S8192.size a
  k0_off177_inb : ∀ k0_t1 : Fin k0_t1_loop.trips, ∀ a, (k0_off177 k0_t1) a + S1.size a ≤ S8192.size a
  k0_off179_inb : ∀ k0_t1 : Fin k0_t1_loop.trips, ∀ a, (k0_off179 k0_t1) a + S1.size a ≤ S8192.size a
  k0_off181_inb : ∀ k0_t1 : Fin k0_t1_loop.trips, ∀ a, (k0_off181 k0_t1) a + S1.size a ≤ S8192.size a
  k0_off183_inb : ∀ k0_t1 : Fin k0_t1_loop.trips, ∀ a, (k0_off183 k0_t1) a + S1.size a ≤ S8192.size a
  k0_off185_inb : ∀ k0_t1 : Fin k0_t1_loop.trips, ∀ a, (k0_off185 k0_t1) a + S1.size a ≤ S8192.size a
  k0_off187_inb : ∀ k0_t1 : Fin k0_t1_loop.trips, ∀ a, (k0_off187 k0_t1) a + S1.size a ≤ S8192.size a
  k0_off189_inb : ∀ k0_t1 : Fin k0_t1_loop.trips, ∀ a, (k0_off189 k0_t1) a + S1.size a ≤ S8192.size a
  k0_off191_inb : ∀ k0_t1 : Fin k0_t1_loop.trips, ∀ a, (k0_off191 k0_t1) a + S1.size a ≤ S8192.size a
  k0_off193_inb : ∀ k0_t1 : Fin k0_t1_loop.trips, ∀ a, (k0_off193 k0_t1) a + S1.size a ≤ S8192.size a
  k0_off195_inb : ∀ k0_t1 : Fin k0_t1_loop.trips, ∀ a, (k0_off195 k0_t1) a + S1.size a ≤ S8192.size a
  k0_off197_inb : ∀ k0_t1 : Fin k0_t1_loop.trips, ∀ a, (k0_off197 k0_t1) a + S1.size a ≤ S8192.size a
  k0_off199_inb : ∀ k0_t1 : Fin k0_t1_loop.trips, ∀ a, (k0_off199 k0_t1) a + S1.size a ≤ S8192.size a
  k0_off201_inb : ∀ k0_t1 : Fin k0_t1_loop.trips, ∀ a, (k0_off201 k0_t1) a + S1.size a ≤ S8192.size a
  k0_off203_inb : ∀ k0_t1 : Fin k0_t1_loop.trips, ∀ a, (k0_off203 k0_t1) a + S1.size a ≤ S8192.size a
  k0_off205_inb : ∀ k0_t1 : Fin k0_t1_loop.trips, ∀ a, (k0_off205 k0_t1) a + S1.size a ≤ S8192.size a
  k0_off207_inb : ∀ k0_t1 : Fin k0_t1_loop.trips, ∀ a, (k0_off207 k0_t1) a + S1.size a ≤ S8192.size a
  k0_off209_inb : ∀ k0_t1 : Fin k0_t1_loop.trips, ∀ a, (k0_off209 k0_t1) a + S1.size a ≤ S8192.size a
  k0_off211_inb : ∀ k0_t1 : Fin k0_t1_loop.trips, ∀ a, (k0_off211 k0_t1) a + S1.size a ≤ S8192.size a
  k0_off213_inb : ∀ k0_t1 : Fin k0_t1_loop.trips, ∀ a, (k0_off213 k0_t1) a + S1.size a ≤ S8192.size a
  k0_off215_inb : ∀ k0_t1 : Fin k0_t1_loop.trips, ∀ a, (k0_off215 k0_t1) a + S1.size a ≤ S8192.size a
  k0_off217_inb : ∀ k0_t1 : Fin k0_t1_loop.trips, ∀ a, (k0_off217 k0_t1) a + S1.size a ≤ S8192.size a
  k0_off219_inb : ∀ k0_t1 : Fin k0_t1_loop.trips, ∀ a, (k0_off219 k0_t1) a + S1.size a ≤ S8192.size a
  k0_off221_inb : ∀ k0_t1 : Fin k0_t1_loop.trips, ∀ a, (k0_off221 k0_t1) a + S1.size a ≤ S8192.size a
  k0_off223_inb : ∀ k0_t1 : Fin k0_t1_loop.trips, ∀ a, (k0_off223 k0_t1) a + S1.size a ≤ S8192.size a
  k0_off225_inb : ∀ k0_t1 : Fin k0_t1_loop.trips, ∀ a, (k0_off225 k0_t1) a + S1.size a ≤ S8192.size a
  k0_off227_inb : ∀ k0_t1 : Fin k0_t1_loop.trips, ∀ a, (k0_off227 k0_t1) a + S1.size a ≤ S8192.size a
  k0_off229_inb : ∀ k0_t1 : Fin k0_t1_loop.trips, ∀ a, (k0_off229 k0_t1) a + S1.size a ≤ S8192.size a
  k0_off231_inb : ∀ k0_t1 : Fin k0_t1_loop.trips, ∀ a, (k0_off231 k0_t1) a + S1.size a ≤ S8192.size a
  k0_off233_inb : ∀ k0_t1 : Fin k0_t1_loop.trips, ∀ a, (k0_off233 k0_t1) a + S1.size a ≤ S8192.size a
  k0_off235_inb : ∀ k0_t1 : Fin k0_t1_loop.trips, ∀ a, (k0_off235 k0_t1) a + S1.size a ≤ S8192.size a
  k0_off237_inb : ∀ k0_t1 : Fin k0_t1_loop.trips, ∀ a, (k0_off237 k0_t1) a + S1.size a ≤ S8192.size a
  k0_off239_inb : ∀ k0_t1 : Fin k0_t1_loop.trips, ∀ a, (k0_off239 k0_t1) a + S1.size a ≤ S8192.size a
  k0_off241_inb : ∀ k0_t1 : Fin k0_t1_loop.trips, ∀ a, (k0_off241 k0_t1) a + S1.size a ≤ S8192.size a
  k0_off243_inb : ∀ k0_t1 : Fin k0_t1_loop.trips, ∀ a, (k0_off243 k0_t1) a + S1.size a ≤ S8192.size a
  k0_off245_inb : ∀ k0_t1 : Fin k0_t1_loop.trips, ∀ a, (k0_off245 k0_t1) a + S1.size a ≤ S8192.size a
  k0_off247_inb : ∀ k0_t1 : Fin k0_t1_loop.trips, ∀ a, (k0_off247 k0_t1) a + S1.size a ≤ S8192.size a
  k0_off249_inb : ∀ k0_t1 : Fin k0_t1_loop.trips, ∀ a, (k0_off249 k0_t1) a + S1.size a ≤ S8192.size a
  k0_off251_inb : ∀ k0_t1 : Fin k0_t1_loop.trips, ∀ a, (k0_off251 k0_t1) a + S1.size a ≤ S8192.size a
  k0_off253_inb : ∀ k0_t1 : Fin k0_t1_loop.trips, ∀ a, (k0_off253 k0_t1) a + S1.size a ≤ S8192.size a
  k0_off255_inb : ∀ k0_t1 : Fin k0_t1_loop.trips, ∀ a, (k0_off255 k0_t1) a + S1.size a ≤ S8192.size a
  k0_mult1_dvd : ∀ k0_t1 : Fin k0_t1_loop.trips, 128 ∣ (k0_mult1 k0_t1).toNat
  k0_off257_inb : ∀ k0_t1 : Fin k0_t1_loop.trips, ∀ a, (k0_off257 k0_t1) a + S128.size a ≤ S8192.size a
  k0_off258_inb : ∀ k0_t1 : Fin k0_t1_loop.trips, ∀ a, (k0_off258 k0_t1) a + S128x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S606208.size a
  hwx0_0 : ∀ i : grid0.Coords, EltTy.bits .i32 = 32 ∨ (Rect.block (s := S606208) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S606208.size a
  hwx0_1 : ∀ i : grid0.Coords, EltTy.bits .i32 = 32 ∨ (Rect.block (s := S606208) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S8192x128.size a ≤ S606208x128.size a
  hwx0_3 : ∀ i : grid0.Coords, EltTy.bits .f32 = 32 ∨ (Rect.block (s := S606208x128) S8192x128.size (cc0_transform_4 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

abbrev cc0_scratch1 : DmaSems sig S32 := SemArray.consecutive 7 S32 hcc0_scratch1
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8192x128.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S500x128 : Shape := ⟨2, ![500, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S2x600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  gather_S500x128_S600000x1_S600000x128_1_0_n_n_0_1_1128_wf : GatherDims.WF S500x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S500x128_S600000x1_S600000x128_1_0_n_n_0_1_1128 : GatherDims S500x128 S600000x1 S600000x128 where
  offsetDims := [1]
  collapsedSliceDims := [0]
  operandBatchingDims := []
  startIndicesBatchingDims := []
  startIndexMap := [0]
  indexVectorDim := 1
  sliceSizes := ![1, 128]
  wf := gather_S500x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.R1Body.lean ====
import proofs.«421265_j15204184228262_2_alg».proof.Proof.Gen.KernelIdeal.Launch
import proofs.«421265_j15204184228262_2_alg».proof.Proof.Gen.KernelIdeal.Skeleton
import Idealize.ShloMosaic.Lib.Transfers
import Idealize.ShloMosaic.Lib.Tactic
import Idealize.ShloMosaic.Lib.Pipeline.Kit
import Idealize.ShloMosaic.Lib.Pipeline.Value
import Idealize.ShloMosaic.Lib.Pipeline.Routed

noncomputable section

namespace Cert.Proof.KI.R1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def lnRun (c : Dev nD) (i : grid1.Coords)
    (M1 : Memref sig .tc .vmem S2000x128 .f32) (h1 : M1.IsWhole) (M2 : Memref sig .tc .vmem S2000x128 .f32) (h2 : M2.IsWhole)
    (M3 : Memref sig .tc .vmem S128x128 .f32) (h3 : M3.IsWhole) (M4 : Memref sig .tc .vmem S128 .f32) (h4 : M4.IsWhole)
    (M5 : Memref sig .tc .vmem S128 .f32) (h5 : M5.IsWhole) (M6 : Memref sig .tc .vmem S128 .f32) (h6 : M6.IsWhole)
    (M7 : Memref sig .tc .vmem S2000x128 .f32) (h7 : M7.IsWhole)
    (f1 : Bf (F := F) c M1) (f2 : Bf (F := F) c M2) (f3 : Bf (F := F) c M3) (f4 : Bf (F := F) c M4)
    (f5 : Bf (F := F) c M5) (f6 : Bf (F := F) c M6) :
    { W : Bf (F := F) c M7 // ∀ (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7
            ∗ (iprop(pt c M1 f1 ∗ pt c M2 f2 ∗ pt c M3 f3 ∗ pt c M4 f4 ∗ pt c M5 f5 ∗ pt c M6 f6 ∗ pt c M7 W) -∗ Q ⟨⟩))
          ⊢ wp frame (wpE (defs₀ (F := F)) Variants.none c none) E (cc1__linear_norm_kernel i M1 h1 M2 h2 M3 h3 M4 h4 M5 h5 M6 h6 M7 h7) Q } := by
  refine ⟨?_, fun f7 E Q => ?run⟩
  case run =>
    iintro ⟨H1, H2, H3, H4, H5, H6, H7, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    iexact H7

theorem hz2 : (![0, 0] : Fin 2 → Nat) = fun _ => 0 := funext fun a => by fin_cases a <;> rfl
theorem hz1 : (![0] : Fin 1 → Nat) = fun _ => 0 := funext fun a => by fin_cases a; rfl

theorem lnRun_val (c : Dev nD) (i : grid1.Coords)
    (M1 : Memref sig .tc .vmem S2000x128 .f32) (h1 : M1.IsWhole) (M2 : Memref sig .tc .vmem S2000x128 .f32) (h2 : M2.IsWhole)
    (M3 : Memref sig .tc .vmem S128x128 .f32) (h3 : M3.IsWhole) (M4 : Memref sig .tc .vmem S128 .f32) (h4 : M4.IsWhole)
    (M5 : Memref sig .tc .vmem S128 .f32) (h5 : M5.IsWhole) (M6 : Memref sig .tc .vmem S128 .f32) (h6 : M6.IsWhole)
    (M7 : Memref sig .tc .vmem S2000x128 .f32) (h7 : M7.IsWhole)
    (f1 : Bf (F := F) c M1) (f2 : Bf (F := F) c M2) (f3 : Bf (F := F) c M3) (f4 : Bf (F := F) c M4)
    (f5 : Bf (F := F) c M5) (f6 : Bf (F := F) c M6) :
    M7.view.read (Elt F) (lnRun c i M1 h1 M2 h2 M3 h3 M4 h4 M5 h5 M6 h6 M7 h7 f1 f2 f3 f4 f5 f6).1
      = k1_pay1 (F := F) (M1.view.read (Elt F) f1) (M3.view.read (Elt F) f3) (M4.view.read (Elt F) f4)
          (M2.view.read (Elt F) f2) (M5.view.read (Elt F) f5) (M6.view.read (Elt F) f6) := by
  unfold lnRun
  dsimp only
  rw [View.read_writes_junk_eq_canon]
  sl_unfold_words
  rw [View.canon_unit_zero hz2]
  simp only [View.readAt_eq_ld, View.ld_unit_zero (S := S2000x128) hz2, View.ld_unit_zero (S := S128x128) hz2,
    View.ld_unit_zero (S := S128) hz1]

end Cert.Proof.KI.R1

end
-- ==== Proof.KIRegion1.lean ====
import proofs.«421265_j15204184228262_2_alg».proof.Proof.Gen.KernelIdeal.Regions
import proofs.«421265_j15204184228262_2_alg».proof.Proof.Gen.KernelIdeal.Points
import proofs.«421265_j15204184228262_2_alg».proof.Proof.R1Body
import Idealize.ShloMosaic.Lib.Pipeline.RegionsLoop
import Idealize.ShloMosaic.Lib.Pipeline.FrameBody
import Idealize.ShloMosaic.Lib.Pipeline.Routed
import Idealize.ShloMosaic.Lib.Tactic

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI.R1 (Bf pt lnRun lnRun_val)

variable {F : FTy → Type} [FloatOps F]

local notation "𝕄" => MT nD τ sig Unit (Elt F) ℕ (Pipeline.UC sig nD τ) ℕ

abbrev L : GSem nD τ sig → Finset Unit := fun _ => ∅
abbrev lv : GSem nD τ sig → Unit → ℕ := fun _ _ => 0
abbrev 𝒱₀ : Variants := Variants.none

abbrev Eo (c : Dev nD) : sProp 𝕄 := iprop(∃ W, owes (c : Thread nD τ) (0 : CellTallies nD τ sig Unit) W)

theorem owns_elim {c : Dev nD} {sp : Space} {S : Shape} {e : EltTy} {M : Memref sig .tc sp S e} (h : M.IsWhole)
    (X : S.Idx → Elt F e) :
    (owns (c : Thread nD τ) M fullShare X : sProp 𝕄)
      ⊢ iprop(∃ f : Bf (F := F) c M, ⌜M.view.read (Elt F) f = X⌝ ∗ pt c M f) := by
  unfold owns; rw [h.set_eq_univ]

theorem owns_intro {c : Dev nD} {sp : Space} {S : Shape} {e : EltTy} {M : Memref sig .tc sp S e} (h : M.IsWhole)
    (f : Bf (F := F) c M) {X : S.Idx → Elt F e} (hX : M.view.read (Elt F) f = X) :
    (pt c M f : sProp 𝕄) ⊢ owns (c : Thread nD τ) M fullShare X := by
  unfold owns; rw [h.set_eq_univ]
  iintro H; iexists f; isplitr; · ipureintro; exact hX
  iexact H

end Cert.Proof.KI

namespace Cert.Proof.KI.Reg1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI.R1 (Bf pt lnRun lnRun_val)
open Cert.Proof.KI (L lv 𝒱₀ Eo owns_elim owns_intro)

variable {F : FTy → Type} [FloatOps F]

local notation "𝕄" => MT nD τ sig Unit (Elt F) ℕ (Pipeline.UC sig nD τ) ℕ

variable (V : (c : Dev nD) → (b : Ref sig .tc) → Buf (Elt F) ((c : Thread nD τ).loc b))

def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

def dat (c : Dev nD) : Dat τ (Elt F) Unit ℕ (Pipeline.UC sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k1_pay1 (F := F) (iblk V c 0 t) (iblk V c 2 t) (iblk V c 3 t) (iblk V c 1 t) (iblk V c 4 t) (iblk V c 5 t)
  Φ _ := Pipeline.scopedRest (Ix := Unit) (Name := ℕ) (U := Pipeline.UC sig nD τ) (Lvl := ℕ) (Val := Elt F) spec1 c
  q _ := fullShare
  owed _ := 0

theorem before_0 (c : Dev nD) (t : Fin cfg1.N) (d) : (dat V c).before 0 t d = iblk V c 0 t :=
  ((dat V c).before_in_eq_fetched 0 rfl (fun _ => rfl) (fun _ _ _ => rfl)
    (fun t => by dsimp only [dat]; unfold Dat.blockOf iblk; rfl) t d).trans
    (by unfold Dat.fetched Dat.blockOf iblk; rfl)

theorem before_1 (c : Dev nD) (t : Fin cfg1.N) (d) : (dat V c).before 1 t d = iblk V c 1 t :=
  ((dat V c).before_in_eq_fetched 1 rfl (fun _ => rfl) (fun _ _ _ => rfl)
    (fun t => by dsimp only [dat]; unfold Dat.blockOf iblk; rfl) t d).trans
    (by unfold Dat.fetched Dat.blockOf iblk; rfl)

theorem before_2 (c : Dev nD) (t : Fin cfg1.N) (d) : (dat V c).before 2 t d = iblk V c 2 t :=
  ((dat V c).before_in_eq_fetched 2 rfl (fun _ => rfl) (fun _ _ _ => rfl)
    (fun t => by dsimp only [dat]; unfold Dat.blockOf iblk; rfl) t d).trans
    (by unfold Dat.fetched Dat.blockOf iblk; rfl)

theorem before_3 (c : Dev nD) (t : Fin cfg1.N) (d) : (dat V c).before 3 t d = iblk V c 3 t :=
  ((dat V c).before_in_eq_fetched 3 rfl (fun _ => rfl) (fun _ _ _ => rfl)
    (fun t => by dsimp only [dat]; unfold Dat.blockOf iblk; rfl) t d).trans
    (by unfold Dat.fetched Dat.blockOf iblk; rfl)

theorem before_4 (c : Dev nD) (t : Fin cfg1.N) (d) : (dat V c).before 4 t d = iblk V c 4 t :=
  ((dat V c).before_in_eq_fetched 4 rfl (fun _ => rfl) (fun _ _ _ => rfl)
    (fun t => by dsimp only [dat]; unfold Dat.blockOf iblk; rfl) t d).trans
    (by unfold Dat.fetched Dat.blockOf iblk; rfl)

theorem before_5 (c : Dev nD) (t : Fin cfg1.N) (d) : (dat V c).before 5 t d = iblk V c 5 t :=
  ((dat V c).before_in_eq_fetched 5 rfl (fun _ => rfl) (fun _ _ _ => rfl)
    (fun t => by dsimp only [dat]; unfold Dat.blockOf iblk; rfl) t d).trans
    (by unfold Dat.fetched Dat.blockOf iblk; rfl)

theorem hst (w : Fin cfg1.W) (t : Fin cfg1.N) : ((cfg1.win w).stage (cfg1.slots t w)).IsWhole :=
  stage_whole1 w (cfg1.slots t w)

abbrev K (c : Dev nD) (t : Fin cfg1.N) (f0 : Bf (F := F) c (st1_0 t)) (f1 : Bf (F := F) c (st1_1 t)) (f2 : Bf (F := F) c (st1_2 t))
    (f3 : Bf (F := F) c (st1_3 t)) (f4 : Bf (F := F) c (st1_4 t)) (f5 : Bf (F := F) c (st1_5 t)) :=
  lnRun (F := F) c (grid1.coords t) (st1_0 t) (hst 0 t) (st1_1 t) (hst 1 t) (st1_2 t) (hst 2 t) (st1_3 t) (hst 3 t)
    (st1_4 t) (hst 4 t) (st1_5 t) (hst 5 t) (st1_6 t) (hst 6 t) f0 f1 f2 f3 f4 f5

theorem body_obligation (c : Dev nD) : BodyObligation (dat V c) (defs₀ (F := F)) 𝒱₀ () Set.univ := fun t => by
  rw [bigSep_W1, bigSep_W1]
  rw [show (dat V c).Φ t.succ = (dat V c).Φ t.castSucc from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  ihave H0 := (owns_elim (hst 0 t) _) $$ H0; icases H0 with ⟨%f0, %hf0, H0⟩
  ihave H1 := (owns_elim (hst 1 t) _) $$ H1; icases H1 with ⟨%f1, %hf1, H1⟩
  ihave H2 := (owns_elim (hst 2 t) _) $$ H2; icases H2 with ⟨%f2, %hf2, H2⟩
  ihave H3 := (owns_elim (hst 3 t) _) $$ H3; icases H3 with ⟨%f3, %hf3, H3⟩
  ihave H4 := (owns_elim (hst 4 t) _) $$ H4; icases H4 with ⟨%f4, %hf4, H4⟩
  ihave H5 := (owns_elim (hst 5 t) _) $$ H5; icases H5 with ⟨%f5, %hf5, H5⟩
  ihave H6 := (owns_elim (hst 6 t) _) $$ H6; icases H6 with ⟨%f6, -, H6⟩
  rw [before_0] at hf0; rw [before_1] at hf1; rw [before_2] at hf2
  rw [before_3] at hf3; rw [before_4] at hf4; rw [before_5] at hf5
  have e0 : (st1_0 t).view.read (Elt F) f0 = (dat V c).after 0 t := by dsimp only [dat]; exact hf0
  have e1 : (st1_1 t).view.read (Elt F) f1 = (dat V c).after 1 t := by dsimp only [dat]; exact hf1
  have e2 : (st1_2 t).view.read (Elt F) f2 = (dat V c).after 2 t := by dsimp only [dat]; exact hf2
  have e3 : (st1_3 t).view.read (Elt F) f3 = (dat V c).after 3 t := by dsimp only [dat]; exact hf3
  have e4 : (st1_4 t).view.read (Elt F) f4 = (dat V c).after 4 t := by dsimp only [dat]; exact hf4
  have e5 : (st1_5 t).view.read (Elt F) f5 = (dat V c).after 5 t := by dsimp only [dat]; exact hf5
  have e6 : (st1_6 t).view.read (Elt F) (K c t f0 f1 f2 f3 f4 f5).1 = (dat V c).after 6 t := by
    dsimp only [dat]; rw [lnRun_val, hf0, hf1, hf2, hf3, hf4, hf5]
  iapply ((K c t f0 f1 f2 f3 f4 f5).2 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iapply (owns_intro (hst 0 t) f0 e0); iexact H0
  isplitl [H1]; · iapply (owns_intro (hst 1 t) f1 e1); iexact H1
  isplitl [H2]; · iapply (owns_intro (hst 2 t) f2 e2); iexact H2
  isplitl [H3]; · iapply (owns_intro (hst 3 t) f3 e3); iexact H3
  isplitl [H4]; · iapply (owns_intro (hst 4 t) f4 e4); iexact H4
  isplitl [H5]; · iapply (owns_intro (hst 5 t) f5 e5); iexact H5
  iapply (owns_intro (hst 6 t) _ e6); iexact H6

theorem owesAt_intro (c : Dev nD) (t : Fin (cfg1.N + 1)) :
    (Eo c : sProp 𝕄) ⊢ (dat V c).owesAt () t := by
  unfold Pipeline.Dat.owesAt Pipeline.owesWithin
  iintro ⟨%W, HO⟩; iexists W
  isplitr; · ipureintro; exact fun _ _ => Or.inl trivial
  iexact HO

theorem owesAt_elim (c : Dev nD) (t : Fin (cfg1.N + 1)) :
    ((dat V c).owesAt () t : sProp 𝕄) ⊢ Eo c := by
  unfold Pipeline.Dat.owesAt Pipeline.owesWithin
  iintro ⟨%W, -, HO⟩; iexists W; iexact HO

variable (m : (ℓ : Loc nD τ sig) → Buf (Elt F) ℓ) (outs : Outs (F := F))

abbrev V8r (c : Dev nD) (b : Ref sig .tc) : Buf (Elt F) ((c : Thread nD τ).loc b) := V8 m outs c b
abbrev V9r (c : Dev nD) (b : Ref sig .tc) : Buf (Elt F) ((c : Thread nD τ).loc b) := V9 m outs c b

theorem V9_main_v13 (c : Dev nD) : V9 m outs c main_v13 = outs 9 main_v13 c := by
  simp only [V9, Function.update_self]

variable (d0 : (c : Dev nD) → Dat τ (Elt F) Unit ℕ (Pipeline.UC sig nD τ) ℕ cfg0 c)

def pdats : (p : Fin 2) → (c : Dev nD) → Dat τ (Elt F) Unit ℕ (Pipeline.UC sig nD τ) ℕ (cfgs p) c
  | ⟨0, _⟩ => fun c => d0 c
  | ⟨1, _⟩ => fun c => dat V c

set_option backward.isDefEq.respectTransparency.types false in
def reg1 (hout13 : ∀ c, outs 9 main_v13 c = (dat (V8r m outs) c).arrAt 6 cfg1.N) :
    Pipeline.RegionSeg (pcfgs (F := F)) adm (pdats (V8r m outs) d0) () defs₀ 𝒱₀ L lv 1 where
  win := launch1.win.to₀
  block_pos := launch1.block_pos
  stage_whole := launch1.stage_whole
  K := PEmpty
  osem k := k.elim
  ho := Pipeline.OwnSemFacts.none _
  hbody c := (body_obligation (V8r m outs) c).loose
  hwaits := Pipeline.hwaits_of_owed_zero _ _ _ _ L lv 1 fun _ _ => rfl
  pre c := iprop(StableHlo.held (c : Thread nD τ) (Pipeline.ucRefs τ sig) (V8 m outs c) ∗ Eo c)
  post c := iprop(StableHlo.held (c : Thread nD τ) (Pipeline.ucRefs τ sig) (V9 m outs c) ∗ Eo c)
  X _ := BI.emp
  Y _ := BI.emp
  Z c := Pipeline.unscopedRest (Ix := Unit) (Name := ℕ) (U := Pipeline.UC sig nD τ) (Lvl := ℕ) spec1 c (V8r m outs c)
  hentry c := by
    rw [Pipeline.ownSems0_none,
      ← Pipeline.unscopedBufs_held (Ix := Unit) (Name := ℕ) (U := Pipeline.UC sig nD τ) (Lvl := ℕ) c (V8 m outs c)]
    have hsplit := Pipeline.arrays_of_unscopedBufs (p := 1) (pcfgs (F := F)) adm (pdats (V8r m outs) d0) launch1.win launch1.arr_whole c
      ((pdats (V8r m outs) d0 1 c).share_full fun _ => rfl) (V8r m outs c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]; · iapply (owesAt_intro (V8r m outs) c 0); iexact HO
    isplitr; · iempintro
    iexact Hrest
  hin c := by
    rw [show (pdats (V8r m outs) d0 1 c).Φ 0 = Pipeline.scopedRest (Ix := Unit) (Name := ℕ) (U := Pipeline.UC sig nD τ) (Lvl := ℕ) (Val := Elt F) spec1 c from rfl]
    iintro ⟨-, -, Hr⟩; iexact Hr
  hout c := by
    rw [Pipeline.ownSems0_none,
      show (pdats (V8r m outs) d0 1 c).Φ (Fin.last _) = Pipeline.scopedRest (Ix := Unit) (Name := ℕ) (U := Pipeline.UC sig nD τ) (Lvl := ℕ) (Val := Elt F) spec1 c from rfl]
    iintro Hr
    isplitr; · iempintro
    isplitr; · iempintro
    iexact Hr
  hexit c := by
    rw [← Pipeline.unscopedBufs_held (Ix := Unit) (Name := ℕ) (U := Pipeline.UC sig nD τ) (Lvl := ℕ) c (V9 m outs c)]
    have hjoin := Pipeline.unscopedBufs_of_arrays (p := 1) (pcfgs (F := F)) adm (Ix := Unit) (Name := ℕ) (U := Pipeline.UC sig nD τ) (Lvl := ℕ) launch1.win launch1.arr_whole c
      (pdats (V8r m outs) d0) ((pdats (V8r m outs) d0 1 c).share_full fun _ => rfl) (V8r m outs c) (V9r m outs c)
      ((pdats (V8r m outs) d0 1 c).arrAt · cfg1.N)
      (fun w => by
        fin_cases w
        · exact ((pdats (V8r m outs) d0 1 c).arrAt_in 0 rfl _).trans (V9_of m outs c (Pipeline.arrRef spec1 0) (by decide)).symm
        · exact ((pdats (V8r m outs) d0 1 c).arrAt_in 1 rfl _).trans (V9_of m outs c (Pipeline.arrRef spec1 1) (by decide)).symm
        · exact ((pdats (V8r m outs) d0 1 c).arrAt_in 2 rfl _).trans (V9_of m outs c (Pipeline.arrRef spec1 2) (by decide)).symm
        · exact ((pdats (V8r m outs) d0 1 c).arrAt_in 3 rfl _).trans (V9_of m outs c (Pipeline.arrRef spec1 3) (by decide)).symm
        · exact ((pdats (V8r m outs) d0 1 c).arrAt_in 4 rfl _).trans (V9_of m outs c (Pipeline.arrRef spec1 4) (by decide)).symm
        · exact ((pdats (V8r m outs) d0 1 c).arrAt_in 5 rfl _).trans (V9_of m outs c (Pipeline.arrRef spec1 5) (by decide)).symm
        · exact (hout13 c).symm.trans (V9_main_v13 m outs c).symm)
      (fun b hb => V9_of m outs c b fun h =>
        hb (List.mem_singleton.mp h ▸ Finset.mem_image.mpr ⟨6, Finset.mem_univ _, rfl⟩))
    iintro ⟨Ha, HO, -, Hrest⟩
    imodintro
    isplitl [Ha Hrest]
    · iapply hjoin; isplitl [Ha] <;> iassumption
    iapply (owesAt_elim (V8r m outs) c (Fin.last _)); iexact HO

end Cert.Proof.KI.Reg1

end
-- ==== Proof.R0Spec.lean ====
import proofs.«421265_j15204184228262_2_alg».proof.Proof.Gen.KernelIdeal.Skeleton
import Idealize.ShloMosaic.Lib.ValueIdx

noncomputable section

namespace Cert.Proof.KI.R0Spec

open Cert.KernelIdeal Cert.KernelIdeal.Gen
open Idealize.ShloMosaic Idealize.ShloMosaic.ValueIdx

variable {F : FTy → Type} [FloatOps F]

def entRow (w : BitVec 32) : Fin 100000 := ⟨min w.toNat 99999, by omega⟩

def edgeAt (k : Fin 64) (j : Fin 128) : Fin 8192 := ⟨128 * k.val + j.val, by omega⟩

def gathered (s : IVec S8192 32) (ent : Vec F S100000x128 .f32) (k : Fin 64) : Vec F S128x128 .f32 :=
  fun j => ent (ix2 (entRow (s (ix1 (edgeAt k (j 0))))) (j 1))

def chunk (e : IVec S8192 32) (k : Fin 64) : Vec F S128 .i32 :=
  fun j => e (ix1 (edgeAt k (j 0)))

def tripOut (s e : IVec S8192 32) (rel : Vec F S512x128 .f32) (ent : Vec F S100000x128 .f32) (k : Fin 64) : FVec F S128x128 .f32 :=
  k0_pay1 (F := F) (gathered s ent k) (k0_pay2 (F := F) (chunk (F := F) e k)) rel

def blockOut (s e : IVec S8192 32) (rel : Vec F S512x128 .f32) (ent : Vec F S100000x128 .f32) : Vec F S8192x128 .f32 :=
  fun idx => tripOut s e rel ent ⟨(idx 0).val / 128, by have h : (idx 0).val < 8192 := (idx 0).isLt; omega⟩
    (ix2 (⟨(idx 0).val % 128, Nat.mod_lt _ (by decide)⟩ : Fin 128) (⟨(idx 1).val, (idx 1).isLt⟩ : Fin 128))

end Cert.Proof.KI.R0Spec

end
-- ==== Proof.RowsWritten.lean ====
import proofs.«421265_j15204184228262_2_alg».proof.Proof.Gen.KernelIdeal.Launch
import Idealize.ShloMosaic.Lib.ValueIdx
import Idealize.ShloMosaic.Lib.Pipeline.Value

noncomputable section

namespace Cert.Proof.KI.Rows

open Idealize.ShloMosaic Idealize.SL.Sem Idealize.ShloMosaic.ValueIdx
open Cert.KernelIdeal Cert.KernelIdeal.Facts₀

variable {F : FTy → Type} [FloatOps F]

section General
variable {sig : RefSig} {κ : Kind} {Val : EltTy → Type} {sp : Space} {s s3 : Shape} {e : EltTy}

theorem read_write_reshaped_mem (v : View sig κ sp s e) (R : Rect s) (hn : s3.numel = R.shape.numel)
    (f : v.ty.Contents Val) (w : s3.Idx → Val e) (y : s3.Idx) :
    v.read Val (((v.slice R).reshape s3 hn).write Val f w Finset.univ) (R.emb (Shape.reshapeEquiv hn y)) = w y := by
  rw [View.read_apply, show v.emb (R.emb (Shape.reshapeEquiv hn y)) = ((v.slice R).reshape s3 hn).emb y from rfl,
    View.write_emb_of_mem _ _ (Finset.mem_univ y), cast_cast, cast_eq]

theorem read_write_reshaped_not_mem (v : View sig κ sp s e) (R : Rect s) (hn : s3.numel = R.shape.numel)
    (f : v.ty.Contents Val) (w : s3.Idx → Val e) {x : s.Idx} (hx : x ∉ R.set) :
    v.read Val (((v.slice R).reshape s3 hn).write Val f w Finset.univ) x = v.read Val f x := by
  rw [View.read_apply, View.read_apply, View.write_of_not_mem]
  intro hm
  obtain ⟨y, -, hy⟩ := Finset.mem_map.mp hm
  have hxy : R.emb (Shape.reshapeEquiv hn y) = x := v.emb.injective hy
  exact hx (hxy ▸ R.idx_mem _)

end General

theorem row_inb (j : Fin 128) : ∀ a, (![j.val, 0] : Fin 2 → Nat) a + S1x128.size a ≤ S128x128.size a :=
  Rect.inb₂ (show j.val + 1 ≤ 128 from j.isLt) (show 0 + 128 ≤ 128 from Nat.le_refl _)

abbrev rowView (M : Memref sig .tc .vmem S128x128 .f32) (j : Fin 128) : View sig .tc .vmem S128 .f32 :=
  ((M.slice (Rect.unit (s := S128x128) ![j.val, 0] S1x128.size (row_inb j)) (fun _ => rfl)).squeeze S128 squeezes_S1x128_S128).view

def rowsWritten (M : Memref sig .tc .vmem S128x128 .f32) (P : Fin 128 → S128.Idx → Elt F .f32)
    (f : M.view.ty.Contents (Elt F)) : ℕ → M.view.ty.Contents (Elt F)
  | 0 => f
  | n + 1 => if h : n < 128 then View.write (Elt F) (rowView M ⟨n, h⟩) (rowsWritten M P f n) (P ⟨n, h⟩) Finset.univ
      else rowsWritten M P f n

theorem rowsWritten_succ (M : Memref sig .tc .vmem S128x128 .f32) (P : Fin 128 → S128.Idx → Elt F .f32)
    (f : M.view.ty.Contents (Elt F)) {n : ℕ} (h : n < 128) :
    rowsWritten M P f (n + 1) = View.write (Elt F) (rowView M ⟨n, h⟩) (rowsWritten M P f n) (P ⟨n, h⟩) Finset.univ := by
  rw [rowsWritten, dif_pos h]

theorem row_emb (j d : Fin 128) :
    (Rect.unit (s := S128x128) ![j.val, 0] S1x128.size (row_inb j)).emb
      (Shape.reshapeEquiv (squeezes_S1x128_S128 : S1x128.Squeezes S128).numel_eq (ix1 d)) = ix2 j d := by
  have e : Shape.reshapeEquiv (squeezes_S1x128_S128 : S1x128.Squeezes S128).numel_eq (ix1 d) = ix2 (0 : Fin 1) d :=
    Shape.reshapeEquiv_eq_of_rowMajor _ (by
      rw [Shape.rowMajor_val_two, Shape.rowMajor_val_one]
      show 0 * 128 + d.val = d.val
      rw [Nat.zero_mul, Nat.zero_add])
  rw [e]
  exact Shape.idx_ext₂ (show j.val + 1 * 0 = j.val by rw [Nat.mul_zero, Nat.add_zero])
    (show 0 + 1 * d.val = d.val by rw [Nat.one_mul, Nat.zero_add])

theorem not_mem_row {j r : Fin 128} (d : Fin 128) (h : r ≠ j) :
    ix2 r d ∉ (Rect.unit (s := S128x128) ![j.val, 0] S1x128.size (row_inb j)).set := by
  intro hm
  have h0 := (Rect.mem_set_unit.mp hm) 0
  have h1 : j.val ≤ r.val ∧ r.val < j.val + 1 := h0
  exact h (Fin.ext (by omega))

theorem read_row_self (M : Memref sig .tc .vmem S128x128 .f32) (g : M.view.ty.Contents (Elt F))
    (w : S128.Idx → Elt F .f32) (j d : Fin 128) :
    M.view.read (Elt F) (View.write (Elt F) (rowView M j) g w Finset.univ) (ix2 j d) = w (ix1 d) := by
  rw [← row_emb j d]
  exact read_write_reshaped_mem M.view _ _ g w (ix1 d)

theorem read_row_other (M : Memref sig .tc .vmem S128x128 .f32) (g : M.view.ty.Contents (Elt F))
    (w : S128.Idx → Elt F .f32) {j r : Fin 128} (d : Fin 128) (h : r ≠ j) :
    M.view.read (Elt F) (View.write (Elt F) (rowView M j) g w Finset.univ) (ix2 r d) = M.view.read (Elt F) g (ix2 r d) :=
  read_write_reshaped_not_mem M.view _ _ g w (not_mem_row d h)

theorem rows_below (M : Memref sig .tc .vmem S128x128 .f32) (P : Fin 128 → S128.Idx → Elt F .f32)
    (f : M.view.ty.Contents (Elt F)) : ∀ n : ℕ, n ≤ 128 → ∀ r d : Fin 128, r.val < n →
      M.view.read (Elt F) (rowsWritten M P f n) (ix2 r d) = P r (ix1 d)
  | 0, _, r, _, h => absurd h (Nat.not_lt_zero _)
  | n + 1, hn, r, d, h => by
    have hlt : n < 128 := hn
    rw [rowsWritten_succ M P f hlt]
    by_cases hr : r = ⟨n, hlt⟩
    · rw [hr]; exact read_row_self M _ _ _ d
    · rw [read_row_other M _ _ d hr]
      exact rows_below M P f n (Nat.le_of_lt hlt) r d (by
        have : r.val ≠ n := fun e => hr (Fin.ext e)
        omega)

-- Rows are disjoint, so after all 128 are written entry (r, d) of the buffer is entry d of row r's payload.
theorem rows_read (M : Memref sig .tc .vmem S128x128 .f32) (P : Fin 128 → S128.Idx → Elt F .f32)
    (f : M.view.ty.Contents (Elt F)) (r d : Fin 128) :
    M.view.readAt (Elt F) (Rect.unit (s := S128x128) ![0, 0] S128x128.size inb_S128x128_S128x128_0_0).toLoadRect
      (rowsWritten M P f 128) (ix2 r d) = P r (ix1 d) := by
  rw [View.readAt_apply]
  have e : (Rect.unit (s := S128x128) ![0, 0] S128x128.size inb_S128x128_S128x128_0_0).toLoadRect.idx (ix2 r d) = ix2 r d :=
    Shape.idx_ext₂ (show 0 + 1 * r.val = r.val by rw [Nat.one_mul, Nat.zero_add])
      (show 0 + 1 * d.val = d.val by rw [Nat.one_mul, Nat.zero_add])
  rw [e]
  exact rows_below M P f 128 (Nat.le_refl _) r d r.isLt

end Cert.Proof.KI.Rows
-- ==== Proof.RowsSep.lean ====
import proofs.«421265_j15204184228262_2_alg».proof.Proof.RowsWritten
import Idealize.ShloMosaic.Lib.Transfers
import Idealize.ShloMosaic.Lib.Pipeline.Kit
import Idealize.ShloMosaic.Lib.Pipeline.Routed

noncomputable section

namespace Cert.Proof.KI.Rows

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F]

local notation "𝕄" => MT nD τ sig Unit (Elt F) ℕ (Pipeline.UC sig nD τ) ℕ

-- Row n of the buffer, held outright by its own entries at the contents g (only g's entries on that row matter).
abbrev rowPt (M : Memref sig .tc .vmem S128x128 .f32) (c : Dev nD) (n : ℕ) (h : n < 128) (g : M.view.ty.Contents (Elt F)) : sProp 𝕄 :=
  ((M.slice (Rect.unit (s := S128x128) ![n, 0] S1x128.size (row_inb ⟨n, h⟩)) (fun _ => rfl)).squeeze S128 squeezes_S1x128_S128).view.loc (c : Thread nD τ)
    ↦[((M.slice (Rect.unit (s := S128x128) ![n, 0] S1x128.size (row_inb ⟨n, h⟩)) (fun _ => rfl)).squeeze S128 squeezes_S1x128_S128).view.set]{fullShare} g

-- Rows 0, …, n-1 held outright, row r at the contents G r; row n-1 first.
def rowsAll (M : Memref sig .tc .vmem S128x128 .f32) (c : Dev nD) (G : Fin 128 → M.view.ty.Contents (Elt F)) : ℕ → sProp 𝕄
  | 0 => iprop(emp)
  | n + 1 => iprop((if h : n < 128 then rowPt M c n h (G ⟨n, h⟩) else iprop(emp)) ∗ rowsAll M c G n)

abbrev rowRect (r : Fin 128) : Rect S128x128 := Rect.unit (s := S128x128) ![r.val, 0] S1x128.size (row_inb r)

theorem mem_rowRect (r : Fin 128) (x : S128x128.Idx) : x ∈ (rowRect r).set ↔ (x 0).val = r.val := by
  rw [Rect.mem_set_unit]
  constructor
  · intro h
    have h0 : r.val ≤ (x 0).val ∧ (x 0).val < r.val + 1 := h 0
    omega
  · intro h a
    match a with
    | ⟨0, _⟩ =>
      show r.val ≤ (x 0).val ∧ (x 0).val < r.val + 1
      omega
    | ⟨1, _⟩ =>
      show 0 ≤ (x 1).val ∧ (x 1).val < 0 + 128
      have := idx2_lt1 x
      omega

def belowIdx (n : ℕ) : Finset S128x128.Idx := Finset.univ.filter fun x => (x 0).val < n

theorem mem_belowIdx {n : ℕ} {x : S128x128.Idx} : x ∈ belowIdx n ↔ (x 0).val < n := by
  rw [belowIdx, Finset.mem_filter]
  exact ⟨fun h => h.2, fun h => ⟨Finset.mem_univ _, h⟩⟩

theorem belowIdx_zero : belowIdx 0 = ∅ :=
  Finset.eq_empty_of_forall_notMem fun x hx => Nat.not_lt_zero _ (mem_belowIdx.mp hx)

theorem belowIdx_succ {n : ℕ} (h : n < 128) : belowIdx (n + 1) = (rowRect ⟨n, h⟩).set ∪ belowIdx n := by
  ext x
  rw [Finset.mem_union, mem_belowIdx, mem_belowIdx, mem_rowRect]
  show (x 0).val < n + 1 ↔ (x 0).val = n ∨ (x 0).val < n
  omega

theorem disjoint_row_below {n : ℕ} (h : n < 128) : Disjoint (rowRect ⟨n, h⟩).set (belowIdx n) :=
  Finset.disjoint_left.mpr fun x hx hb => by
    have h1 : (x 0).val = n := (mem_rowRect ⟨n, h⟩ x).mp hx
    have h2 := mem_belowIdx.mp hb
    omega

theorem belowIdx_all : belowIdx 128 = Finset.univ :=
  Finset.eq_univ_of_forall fun x => mem_belowIdx.mpr (idx2_lt0 x)

theorem rowView_set (M : Memref sig .tc .vmem S128x128 .f32) (r : Fin 128) :
    (rowView M r).set = (rowRect r).set.map M.view.emb := by
  show ((M.view.slice (rowRect r)).reshape S128 _).set = _
  rw [View.set_reshape, View.set_slice]

theorem rowsAll_zero (M : Memref sig .tc .vmem S128x128 .f32) (c : Dev nD) (G : Fin 128 → M.view.ty.Contents (Elt F)) :
    rowsAll M c G 0 = iprop(emp) := rfl

theorem rowsAll_succ (M : Memref sig .tc .vmem S128x128 .f32) (c : Dev nD) (G : Fin 128 → M.view.ty.Contents (Elt F))
    {n : ℕ} (h : n < 128) : rowsAll M c G (n + 1) = iprop(rowPt M c n h (G ⟨n, h⟩) ∗ rowsAll M c G n) := by
  rw [rowsAll, dif_pos h]

theorem rowPt_eq (M : Memref sig .tc .vmem S128x128 .f32) (c : Dev nD) (r : Fin 128) (g : M.view.ty.Contents (Elt F)) :
    rowPt M c r.val r.isLt g = (M.view.loc (c : Thread nD τ) ↦[(rowRect r).set.map M.view.emb]{fullShare} g : sProp 𝕄) := by
  show ((rowView M r).loc (c : Thread nD τ) ↦[(rowView M r).set]{fullShare} g : sProp 𝕄) = _
  rw [rowView_set]

theorem write_row_on (M : Memref sig .tc .vmem S128x128 .f32) (r : Fin 128) (g g' : M.view.ty.Contents (Elt F))
    (w : S128.Idx → Elt F .f32) {i : M.view.ty.Idx} (hi : i ∈ (rowRect r).set.map M.view.emb) :
    View.write (Elt F) (rowView M r) g w Finset.univ i = View.write (Elt F) (rowView M r) g' w Finset.univ i := by
  rw [← rowView_set] at hi
  obtain ⟨y, -, rfl⟩ := Finset.mem_map.mp hi
  rw [View.write_emb_of_mem _ _ (Finset.mem_univ y), View.write_emb_of_mem _ _ (Finset.mem_univ y)]

theorem write_row_off (M : Memref sig .tc .vmem S128x128 .f32) (r : Fin 128) (g : M.view.ty.Contents (Elt F))
    (w : S128.Idx → Elt F .f32) {i : M.view.ty.Idx} (hi : i ∉ (rowRect r).set.map M.view.emb) :
    View.write (Elt F) (rowView M r) g w Finset.univ i = g i :=
  View.write_of_not_mem _ _ _ (by rw [View.setOn_univ, rowView_set]; exact hi)

theorem split_below (M : Memref sig .tc .vmem S128x128 .f32) (c : Dev nD) (f : M.view.ty.Contents (Elt F)) :
    ∀ n : ℕ, n ≤ 128 →
      (M.view.loc (c : Thread nD τ) ↦[(belowIdx n).map M.view.emb]{fullShare} f : sProp 𝕄) ⊢ rowsAll M c (fun _ => f) n
  | 0, _ => by
    rw [belowIdx_zero, Finset.map_empty, pointsTo_empty, rowsAll_zero]
  | n + 1, hn => by
    have h : n < 128 := hn
    rw [belowIdx_succ h, Finset.map_union, rowsAll_succ M c _ h, rowPt_eq M c ⟨n, h⟩]
    exact (pointsTo_union ((Finset.disjoint_map _).mpr (disjoint_row_below h))).1.trans
      (sep_mono .rfl (split_below M c f n (Nat.le_of_lt h)))

theorem join_below (M : Memref sig .tc .vmem S128x128 .f32) (c : Dev nD) (f : M.view.ty.Contents (Elt F))
    (P : Fin 128 → S128.Idx → Elt F .f32) :
    ∀ n : ℕ, n ≤ 128 →
      rowsAll M c (fun r => (rowView M r).writes (Elt F) f [⟨Rect.whole S128, P r⟩]) n
        ⊢ (M.view.loc (c : Thread nD τ) ↦[(belowIdx n).map M.view.emb]{fullShare} rowsWritten M P f n : sProp 𝕄)
  | 0, _ => by
    rw [belowIdx_zero, Finset.map_empty, pointsTo_empty, rowsAll_zero]
  | n + 1, hn => by
    have h : n < 128 := hn
    have hd : Disjoint ((rowRect ⟨n, h⟩).set.map M.view.emb) ((belowIdx n).map M.view.emb) :=
      (Finset.disjoint_map _).mpr (disjoint_row_below h)
    rw [belowIdx_succ h, Finset.map_union, rowsAll_succ M c _ h, rowPt_eq M c ⟨n, h⟩, rowsWritten_succ M P f h]
    have hrow : (M.view.loc (c : Thread nD τ) ↦[(rowRect ⟨n, h⟩).set.map M.view.emb]{fullShare}
          (rowView M ⟨n, h⟩).writes (Elt F) f [⟨Rect.whole S128, P ⟨n, h⟩⟩] : sProp 𝕄)
        = M.view.loc (c : Thread nD τ) ↦[(rowRect ⟨n, h⟩).set.map M.view.emb]{fullShare}
          View.write (Elt F) (rowView M ⟨n, h⟩) (rowsWritten M P f n) (P ⟨n, h⟩) Finset.univ :=
      pointsTo_congr fun i hi => by
        rw [← View.write_univ_eq_writes_whole, View.writes_nil]
        exact write_row_on M ⟨n, h⟩ _ _ _ hi
    have hrest : (M.view.loc (c : Thread nD τ) ↦[(belowIdx n).map M.view.emb]{fullShare} rowsWritten M P f n : sProp 𝕄)
        = M.view.loc (c : Thread nD τ) ↦[(belowIdx n).map M.view.emb]{fullShare}
          View.write (Elt F) (rowView M ⟨n, h⟩) (rowsWritten M P f n) (P ⟨n, h⟩) Finset.univ :=
      pointsTo_congr fun i hi =>
        (write_row_off M ⟨n, h⟩ _ _ (Finset.disjoint_right.mp hd hi)).symm
    rw [hrow]
    exact (sep_mono .rfl ((join_below M c f P n (Nat.le_of_lt h)).trans (Entails.of_eq hrest))).trans
      (pointsTo_union hd).2

theorem below_all (M : Memref sig .tc .vmem S128x128 .f32) (hM : M.IsWhole) :
    (belowIdx 128).map M.view.emb = Finset.univ := by
  rw [belowIdx_all]
  exact hM.set_eq_univ

theorem rows_split (M : Memref sig .tc .vmem S128x128 .f32) (hM : M.IsWhole) (c : Dev nD) (f : M.view.ty.Contents (Elt F)) :
    (M.view.loc (c : Thread nD τ) ↦{fullShare} f : sProp 𝕄) ⊢ rowsAll M c (fun _ => f) 128 := by
  have h := split_below M c f 128 (Nat.le_refl _)
  rw [below_all M hM] at h
  exact h

theorem rows_join (M : Memref sig .tc .vmem S128x128 .f32) (hM : M.IsWhole) (c : Dev nD) (f : M.view.ty.Contents (Elt F))
    (P : Fin 128 → S128.Idx → Elt F .f32) :
    rowsAll M c (fun r => (rowView M r).writes (Elt F) f [⟨Rect.whole S128, P r⟩]) 128
      ⊢ (M.view.loc (c : Thread nD τ) ↦{fullShare} rowsWritten M P f 128 : sProp 𝕄) := by
  have h := join_below M c f P 128 (Nat.le_refl _)
  rw [below_all M hM] at h
  exact h

end Cert.Proof.KI.Rows
-- ==== Proof.GatherRows.lean ====
import proofs.«421265_j15204184228262_2_alg».proof.Proof.Gen.KernelIdeal.Launch
import Idealize.ShloMosaic.Lib.ValueIdx

noncomputable section

namespace Cert.Proof.KI.Gather

open Cert.KernelIdeal Cert.KernelIdeal.Gen Idealize.ShloMosaic Idealize.ShloMosaic.ValueIdx

variable {F : FTy → Type} [FloatOps F]

-- The position, in the chunk of source indices, of the word trip k reads for row r: 128·k + r, in the program's own arithmetic.
def offW (r : Fin 128) (k : Fin k0_t1_loop.trips) : Fin 1 → ℕ :=
  ![(Scalar.indexCast (Scalar.addi (Scalar.muli (Scf.iv 0#32 1#32 k) 128#32) (BitVec.ofNat 32 r.val))).toNat]

theorem offW_eq (r : Fin 128) (k : Fin k0_t1_loop.trips) : offW r k = ![128 * k.val + r.val] := by
  have hk : k.val < 64 := Nat.lt_of_lt_of_le k.isLt k0_t1_abs.2.1
  have hr := r.isLt
  unfold offW
  congr 1
  simp only [Scalar.indexCast, Scalar.addi, Scalar.muli, IntOp.addi, IntOp.muli, Scf.iv, BitVec.toNat_add,
    BitVec.toNat_mul, BitVec.toNat_ofNat]
  omega

theorem offW_inb (r : Fin 128) (k : Fin k0_t1_loop.trips) : ∀ a, offW r k a + S1.size a ≤ S8192.size a := by
  intro a
  have hk : k.val < 64 := Nat.lt_of_lt_of_le k.isLt k0_t1_abs.2.1
  have hr := r.isLt
  rw [offW_eq]
  match a with
  | ⟨0, _⟩ =>
    show 128 * k.val + r.val + 1 ≤ 8192
    omega

def wordAt (M0 : Memref sig .tc .smem S8192 .i32) (X1 : M0.view.ty.Contents (Elt F)) (off : Fin 1 → ℕ)
    (hin : ∀ a, off a + S1.size a ≤ S8192.size a) : Elt F .i32 :=
  M0.view.readAt (Elt F) (Rect.unit (s := S8192) off S1.size hin).toLoadRect X1
    (Shape.Idx.first (numel1_S1.symm ▸ Nat.one_pos))

theorem wordAt_congr (M0 : Memref sig .tc .smem S8192 .i32) (X1 : M0.view.ty.Contents (Elt F)) {off off' : Fin 1 → ℕ}
    (h : off = off') (hin : ∀ a, off a + S1.size a ≤ S8192.size a) (hin' : ∀ a, off' a + S1.size a ≤ S8192.size a) :
    wordAt M0 X1 off hin = wordAt M0 X1 off' hin' := by
  subst h
  rfl

theorem wordAt_eq (M0 : Memref sig .tc .smem S8192 .i32) (X1 : M0.view.ty.Contents (Elt F)) (o : ℕ) (ho : o < 8192)
    (hin : ∀ a, (![o] : Fin 1 → ℕ) a + S1.size a ≤ S8192.size a) :
    wordAt M0 X1 ![o] hin = M0.view.read (Elt F) X1 (ix1 ⟨o, ho⟩) := by
  unfold wordAt
  rw [View.readAt_apply]
  congr 1
  funext a
  match a with
  | ⟨0, _⟩ => exact Fin.ext (by show o + 1 * 0 = o; omega)

theorem row_lt (w : BitVec 32)
    (hw : ∀ a, (![w.toNat, 0] : Fin 2 → ℕ) a + S1x128.size a ≤ S100000x128.size a) : w.toNat < 100000 := hw 0

def rowOf (M4 : Memref sig .tc .hbm S100000x128 .f32) (X4 : M4.view.ty.Contents (Elt F)) (w : BitVec 32)
    (hw : ∀ a, (![w.toNat, 0] : Fin 2 → ℕ) a + S1x128.size a ≤ S100000x128.size a) : S128.Idx → Elt F .f32 :=
  ReadAs.same.apply (((M4.slice (Rect.unit (s := S100000x128) ![w.toNat, 0] S1x128.size hw) (fun _ => rfl)).squeeze S128
    squeezes_S1x128_S128).view.read (Elt F) X4)

theorem rowOf_apply (M4 : Memref sig .tc .hbm S100000x128 .f32) (X4 : M4.view.ty.Contents (Elt F)) (w : BitVec 32)
    (hw : ∀ a, (![w.toNat, 0] : Fin 2 → ℕ) a + S1x128.size a ≤ S100000x128.size a) (d : Fin 128) :
    rowOf M4 X4 w hw (ix1 d) = M4.view.read (Elt F) X4 (ix2 ⟨w.toNat, row_lt w hw⟩ d) := by
  show M4.view.read (Elt F) X4 ((Rect.unit (s := S100000x128) ![w.toNat, 0] S1x128.size hw).emb
      (Shape.reshapeEquiv squeezes_S1x128_S128.numel_eq (ix1 d))) = _
  congr 1
  rw [Shape.reshapeEquiv_cons_one]
  funext a
  match a with
  | ⟨0, _⟩ => exact Fin.ext (by show w.toNat + 1 * 0 = w.toNat; omega)
  | ⟨1, _⟩ => exact Fin.ext (by show 0 + 1 * d.val = d.val; omega)

end Cert.Proof.KI.Gather

end
-- ==== Proof.R0Trip.lean ====
import proofs.«421265_j15204184228262_2_alg».proof.Proof.Gen.KernelIdeal.Loops
import proofs.«421265_j15204184228262_2_alg».proof.Proof.Gen.KernelIdeal.Launch
import proofs.«421265_j15204184228262_2_alg».proof.Proof.RowsSep
import proofs.«421265_j15204184228262_2_alg».proof.Proof.GatherRows
import Idealize.ShloMosaic.Lib.Transfers
import Idealize.ShloMosaic.Lib.Tactic
import Idealize.ShloMosaic.Lib.Pipeline.Kit
import Idealize.ShloMosaic.Lib.Pipeline.Routed

set_option maxRecDepth 8192
set_option maxHeartbeats 8000000

noncomputable section

namespace Cert.Proof.KI.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KI

variable {F : FTy → Type} [FloatOps F]

local notation "𝕄" => MT nD τ sig Unit (Elt F) ℕ (Pipeline.UC sig nD τ) ℕ

-- The kernel's 32 copy semaphores, each at zero.
abbrev cells0 (c : Dev nD) : sProp 𝕄 :=
  iprop(semVal ((c : Thread nD τ), SemLoc.dma (7 : DmaSem sig)) 0 ∗ semVal ((c : Thread nD τ), SemLoc.dma (8 : DmaSem sig)) 0 ∗ semVal ((c : Thread nD τ), SemLoc.dma (9 : DmaSem sig)) 0 ∗ semVal ((c : Thread nD τ), SemLoc.dma (10 : DmaSem sig)) 0 ∗ semVal ((c : Thread nD τ), SemLoc.dma (11 : DmaSem sig)) 0 ∗ semVal ((c : Thread nD τ), SemLoc.dma (12 : DmaSem sig)) 0 ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0 ∗ semVal ((c : Thread nD τ), SemLoc.dma (17 : DmaSem sig)) 0 ∗ semVal ((c : Thread nD τ), SemLoc.dma (18 : DmaSem sig)) 0 ∗ semVal ((c : Thread nD τ), SemLoc.dma (19 : DmaSem sig)) 0 ∗ semVal ((c : Thread nD τ), SemLoc.dma (20 : DmaSem sig)) 0 ∗ semVal ((c : Thread nD τ), SemLoc.dma (21 : DmaSem sig)) 0 ∗ semVal ((c : Thread nD τ), SemLoc.dma (22 : DmaSem sig)) 0 ∗ semVal ((c : Thread nD τ), SemLoc.dma (23 : DmaSem sig)) 0 ∗ semVal ((c : Thread nD τ), SemLoc.dma (24 : DmaSem sig)) 0 ∗ semVal ((c : Thread nD τ), SemLoc.dma (25 : DmaSem sig)) 0 ∗ semVal ((c : Thread nD τ), SemLoc.dma (26 : DmaSem sig)) 0 ∗ semVal ((c : Thread nD τ), SemLoc.dma (27 : DmaSem sig)) 0 ∗ semVal ((c : Thread nD τ), SemLoc.dma (28 : DmaSem sig)) 0 ∗ semVal ((c : Thread nD τ), SemLoc.dma (29 : DmaSem sig)) 0 ∗ semVal ((c : Thread nD τ), SemLoc.dma (30 : DmaSem sig)) 0 ∗ semVal ((c : Thread nD τ), SemLoc.dma (31 : DmaSem sig)) 0 ∗ semVal ((c : Thread nD τ), SemLoc.dma (32 : DmaSem sig)) 0 ∗ semVal ((c : Thread nD τ), SemLoc.dma (33 : DmaSem sig)) 0 ∗ semVal ((c : Thread nD τ), SemLoc.dma (34 : DmaSem sig)) 0 ∗ semVal ((c : Thread nD τ), SemLoc.dma (35 : DmaSem sig)) 0 ∗ semVal ((c : Thread nD τ), SemLoc.dma (36 : DmaSem sig)) 0 ∗ semVal ((c : Thread nD τ), SemLoc.dma (37 : DmaSem sig)) 0 ∗ semVal ((c : Thread nD τ), SemLoc.dma (38 : DmaSem sig)) 0)

-- The entity table held as 32 read shares, one per copy semaphore.
abbrev shares (c : Dev nD) (arg4 : Memref sig .tc .hbm S100000x128 .f32) (q : PosShare TreeShare) (X4 : BufTy.Contents (Elt F) arg4.view.ty) : sProp 𝕄 :=
  iprop((arg4.view.loc (c : Thread nD τ) ↦{Transfers.shareTokN q 7} X4) ∗ (arg4.view.loc (c : Thread nD τ) ↦{Transfers.shareTokN q 8} X4) ∗ (arg4.view.loc (c : Thread nD τ) ↦{Transfers.shareTokN q 9} X4) ∗ (arg4.view.loc (c : Thread nD τ) ↦{Transfers.shareTokN q 10} X4) ∗ (arg4.view.loc (c : Thread nD τ) ↦{Transfers.shareTokN q 11} X4) ∗ (arg4.view.loc (c : Thread nD τ) ↦{Transfers.shareTokN q 12} X4) ∗ (arg4.view.loc (c : Thread nD τ) ↦{Transfers.shareTokN q 13} X4) ∗ (arg4.view.loc (c : Thread nD τ) ↦{Transfers.shareTokN q 14} X4) ∗ (arg4.view.loc (c : Thread nD τ) ↦{Transfers.shareTokN q 15} X4) ∗ (arg4.view.loc (c : Thread nD τ) ↦{Transfers.shareTokN q 16} X4) ∗ (arg4.view.loc (c : Thread nD τ) ↦{Transfers.shareTokN q 17} X4) ∗ (arg4.view.loc (c : Thread nD τ) ↦{Transfers.shareTokN q 18} X4) ∗ (arg4.view.loc (c : Thread nD τ) ↦{Transfers.shareTokN q 19} X4) ∗ (arg4.view.loc (c : Thread nD τ) ↦{Transfers.shareTokN q 20} X4) ∗ (arg4.view.loc (c : Thread nD τ) ↦{Transfers.shareTokN q 21} X4) ∗ (arg4.view.loc (c : Thread nD τ) ↦{Transfers.shareTokN q 22} X4) ∗ (arg4.view.loc (c : Thread nD τ) ↦{Transfers.shareTokN q 23} X4) ∗ (arg4.view.loc (c : Thread nD τ) ↦{Transfers.shareTokN q 24} X4) ∗ (arg4.view.loc (c : Thread nD τ) ↦{Transfers.shareTokN q 25} X4) ∗ (arg4.view.loc (c : Thread nD τ) ↦{Transfers.shareTokN q 26} X4) ∗ (arg4.view.loc (c : Thread nD τ) ↦{Transfers.shareTokN q 27} X4) ∗ (arg4.view.loc (c : Thread nD τ) ↦{Transfers.shareTokN q 28} X4) ∗ (arg4.view.loc (c : Thread nD τ) ↦{Transfers.shareTokN q 29} X4) ∗ (arg4.view.loc (c : Thread nD τ) ↦{Transfers.shareTokN q 30} X4) ∗ (arg4.view.loc (c : Thread nD τ) ↦{Transfers.shareTokN q 31} X4) ∗ (arg4.view.loc (c : Thread nD τ) ↦{Transfers.shareTokN q 32} X4) ∗ (arg4.view.loc (c : Thread nD τ) ↦{Transfers.shareTokN q 33} X4) ∗ (arg4.view.loc (c : Thread nD τ) ↦{Transfers.shareTokN q 34} X4) ∗ (arg4.view.loc (c : Thread nD τ) ↦{Transfers.shareTokN q 35} X4) ∗ (arg4.view.loc (c : Thread nD τ) ↦{Transfers.shareTokN q 36} X4) ∗ (arg4.view.loc (c : Thread nD τ) ↦{Transfers.shareTokN q 37} X4) ∗ (arg4.view.loc (c : Thread nD τ) ↦{Transfers.shareTokN q 38} X4))

theorem chk_of (w : BitVec 32) (h : w.toNat + 1 ≤ 100000) :
    ∀ a : Fin 2, (![w.toNat, 0] : Fin 2 → Nat) a + S1x128.size a ≤ S100000x128.size a := by
  intro a; match a with | ⟨0, _⟩ => exact h | ⟨1, _⟩ => exact Nat.le_refl 128

def WordsIn (arg1 : Memref sig .tc .smem S8192 .i32) (X1 : BufTy.Contents (Elt F) arg1.view.ty) : Prop :=
  ∀ (off : Fin 1 → Nat) (hin : ∀ a, off a + S1.size a ≤ S8192.size a),
    (arg1.view.readAt (Elt F) (Rect.unit (s := S8192) off S1.size hin).toLoadRect X1 (Shape.Idx.first (numel1_S1.symm ▸ Nat.one_pos)) : BitVec 32).toNat + 1 ≤ 100000

abbrev rowIn (arg1 : Memref sig .tc .smem S8192 .i32) (X1 : BufTy.Contents (Elt F) arg1.view.ty)
    (arg4 : Memref sig .tc .hbm S100000x128 .f32) (X4 : BufTy.Contents (Elt F) arg4.view.ty)
    (k : Fin k0_t1_loop.trips) (hX1 : WordsIn arg1 X1) (r : Fin 128) : S128.Idx → Elt F .f32 :=
  Gather.rowOf arg4 X4 (Gather.wordAt arg1 X1 (Gather.offW r k) (Gather.offW_inb r k)) (chk_of _ (hX1 _ _))

abbrev tripStored (arg1 : Memref sig .tc .smem S8192 .i32) (X1 : BufTy.Contents (Elt F) arg1.view.ty)
    (arg2 : Memref sig .tc .vmem S8192 .i32) (X2 : BufTy.Contents (Elt F) arg2.view.ty)
    (arg3 : Memref sig .tc .vmem S512x128 .f32) (X3 : BufTy.Contents (Elt F) arg3.view.ty)
    (arg4 : Memref sig .tc .hbm S100000x128 .f32) (X4 : BufTy.Contents (Elt F) arg4.view.ty)
    (arg6 : Memref sig .tc .vmem S128x128 .f32) (f6 : BufTy.Contents (Elt F) arg6.view.ty)
    (k : Fin k0_t1_loop.trips) (hX1 : WordsIn arg1 X1) : FVec F S128x128 .f32 :=
  k0_pay1 (F := F)
    (arg6.view.readAt (Elt F) (Rect.unit (s := S128x128) ![0, 0] S128x128.size inb_S128x128_S128x128_0_0).toLoadRect
      (Rows.rowsWritten arg6 (rowIn arg1 X1 arg4 X4 k hX1) f6 128))
    (k0_pay2 (F := F) (arg2.view.readAt (Elt F) (Rect.unit (s := S8192) (k0_off257 k) S128.size (k0_off257_inb k)).toLoadRect X2))
    (arg3.view.readAt (Elt F) (Rect.unit (s := S512x128) ![0, 0] S512x128.size inb_S512x128_S512x128_0_0).toLoadRect X3)

-- One trip: 128 source words read, the rows they name copied into the scratch's 128 rows held one by one, the scratch read whole, the product stored.
theorem tripRun (c : Dev nD) (i : grid0.Coords) (arg1 : Memref sig .tc .smem S8192 .i32) (harg1 : arg1.IsWhole) (arg2 : Memref sig .tc .vmem S8192 .i32) (harg2 : arg2.IsWhole) (arg3 : Memref sig .tc .vmem S512x128 .f32) (harg3 : arg3.IsWhole) (arg4 : Memref sig .tc .hbm S100000x128 .f32) (harg4 : arg4.IsWhole) (arg5 : Memref sig .tc .vmem S8192x128 .f32) (harg5 : arg5.IsWhole) (arg6 : Memref sig .tc .vmem S128x128 .f32) (harg6 : arg6.IsWhole)
    (k : Fin k0_t1_loop.trips) (q : PosShare TreeShare)
    (X1 : BufTy.Contents (Elt F) arg1.view.ty) (X2 : BufTy.Contents (Elt F) arg2.view.ty) (X3 : BufTy.Contents (Elt F) arg3.view.ty) (X4 : BufTy.Contents (Elt F) arg4.view.ty)
    (hX1 : WordsIn arg1 X1)
    (f5 : BufTy.Contents (Elt F) arg5.view.ty) (f6 : BufTy.Contents (Elt F) arg6.view.ty) (W : Waits sig Unit) :
    (iprop((arg1.view.loc (c : Thread nD τ) ↦{fullShare} X1) ∗ (arg2.view.loc (c : Thread nD τ) ↦{fullShare} X2) ∗ (arg3.view.loc (c : Thread nD τ) ↦{fullShare} X3)
        ∗ shares c arg4 q X4
        ∗ (arg5.view.loc (c : Thread nD τ) ↦{fullShare} f5) ∗ (arg6.view.loc (c : Thread nD τ) ↦{fullShare} f6)
        ∗ cells0 c
        ∗ owes (c : Thread nD τ) 0 W) : sProp 𝕄)
      ⊢ wp frame (wpE (defs₀ (F := F)) Variants.none (c : Thread nD τ) none) Set.univ
          (k0_t1_body (F := F) i arg1 harg1 arg2 harg2 arg3 harg3 arg4 harg4 arg5 harg5 arg6 harg6 cc0_scratch1 k ())
          (fun _ => iprop((arg1.view.loc (c : Thread nD τ) ↦{fullShare} X1) ∗ (arg2.view.loc (c : Thread nD τ) ↦{fullShare} X2) ∗ (arg3.view.loc (c : Thread nD τ) ↦{fullShare} X3)
            ∗ shares c arg4 q X4
            ∗ (arg5.view.loc (c : Thread nD τ) ↦{fullShare} arg5.view.writes (Elt F) f5
                [⟨Rect.unit (s := S8192x128) (k0_off258 k) S128x128.size (k0_off258_inb k), tripStored arg1 X1 arg2 X2 arg3 X3 arg4 X4 arg6 f6 k hX1⟩])
            ∗ (∃ g, arg6.view.loc (c : Thread nD τ) ↦{fullShare} g)
            ∗ cells0 c
            ∗ ∃ W', owes (c : Thread nD τ) 0 W')) := by
  iintro ⟨H1, H2, H3, ⟨H4_0, H4_1, H4_2, H4_3, H4_4, H4_5, H4_6, H4_7, H4_8, H4_9, H4_10, H4_11, H4_12, H4_13, H4_14, H4_15, H4_16, H4_17, H4_18, H4_19, H4_20, H4_21, H4_22, H4_23, H4_24, H4_25, H4_26, H4_27, H4_28, H4_29, H4_30, H4_31⟩, H5, H6, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31⟩, HO⟩

  ihave HR := (Rows.rows_split arg6 harg6 c f6) $$ H6
  simp only [Rows.rowsAll, Nat.reduceLT, ↓reduceDIte]
  icases HR with ⟨R127, R126, R125, R124, R123, R122, R121, R120, R119, R118, R117, R116, R115, R114, R113, R112, R111, R110, R109, R108, R107, R106, R105, R104, R103, R102, R101, R100, R99, R98, R97, R96, R95, R94, R93, R92, R91, R90, R89, R88, R87, R86, R85, R84, R83, R82, R81, R80, R79, R78, R77, R76, R75, R74, R73, R72, R71, R70, R69, R68, R67, R66, R65, R64, R63, R62, R61, R60, R59, R58, R57, R56, R55, R54, R53, R52, R51, R50, R49, R48, R47, R46, R45, R44, R43, R42, R41, R40, R39, R38, R37, R36, R35, R34, R33, R32, R31, R30, R29, R28, R27, R26, R25, R24, R23, R22, R21, R20, R19, R18, R17, R16, R15, R14, R13, R12, R11, R10, R9, R8, R7, R6, R5, R4, R3, R2, R1, R0, -⟩
  unfold k0_t1_body

  sl_exec (disch := exact chk_of _ (hX1 _ _))

  ihave H6 := (Rows.rows_join arg6 harg6 c f6 (rowIn arg1 X1 arg4 X4 k hX1)) $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127]
  · simp only [Rows.rowsAll, Nat.reduceLT, ↓reduceDIte]
    isplitl [R127]; · iexact R127
    isplitl [R126]; · iexact R126
    isplitl [R125]; · iexact R125
    isplitl [R124]; · iexact R124
    isplitl [R123]; · iexact R123
    isplitl [R122]; · iexact R122
    isplitl [R121]; · iexact R121
    isplitl [R120]; · iexact R120
    isplitl [R119]; · iexact R119
    isplitl [R118]; · iexact R118
    isplitl [R117]; · iexact R117
    isplitl [R116]; · iexact R116
    isplitl [R115]; · iexact R115
    isplitl [R114]; · iexact R114
    isplitl [R113]; · iexact R113
    isplitl [R112]; · iexact R112
    isplitl [R111]; · iexact R111
    isplitl [R110]; · iexact R110
    isplitl [R109]; · iexact R109
    isplitl [R108]; · iexact R108
    isplitl [R107]; · iexact R107
    isplitl [R106]; · iexact R106
    isplitl [R105]; · iexact R105
    isplitl [R104]; · iexact R104
    isplitl [R103]; · iexact R103
    isplitl [R102]; · iexact R102
    isplitl [R101]; · iexact R101
    isplitl [R100]; · iexact R100
    isplitl [R99]; · iexact R99
    isplitl [R98]; · iexact R98
    isplitl [R97]; · iexact R97
    isplitl [R96]; · iexact R96
    isplitl [R95]; · iexact R95
    isplitl [R94]; · iexact R94
    isplitl [R93]; · iexact R93
    isplitl [R92]; · iexact R92
    isplitl [R91]; · iexact R91
    isplitl [R90]; · iexact R90
    isplitl [R89]; · iexact R89
    isplitl [R88]; · iexact R88
    isplitl [R87]; · iexact R87
    isplitl [R86]; · iexact R86
    isplitl [R85]; · iexact R85
    isplitl [R84]; · iexact R84
    isplitl [R83]; · iexact R83
    isplitl [R82]; · iexact R82
    isplitl [R81]; · iexact R81
    isplitl [R80]; · iexact R80
    isplitl [R79]; · iexact R79
    isplitl [R78]; · iexact R78
    isplitl [R77]; · iexact R77
    isplitl [R76]; · iexact R76
    isplitl [R75]; · iexact R75
    isplitl [R74]; · iexact R74
    isplitl [R73]; · iexact R73
    isplitl [R72]; · iexact R72
    isplitl [R71]; · iexact R71
    isplitl [R70]; · iexact R70
    isplitl [R69]; · iexact R69
    isplitl [R68]; · iexact R68
    isplitl [R67]; · iexact R67
    isplitl [R66]; · iexact R66
    isplitl [R65]; · iexact R65
    isplitl [R64]; · iexact R64
    isplitl [R63]; · iexact R63
    isplitl [R62]; · iexact R62
    isplitl [R61]; · iexact R61
    isplitl [R60]; · iexact R60
    isplitl [R59]; · iexact R59
    isplitl [R58]; · iexact R58
    isplitl [R57]; · iexact R57
    isplitl [R56]; · iexact R56
    isplitl [R55]; · iexact R55
    isplitl [R54]; · iexact R54
    isplitl [R53]; · iexact R53
    isplitl [R52]; · iexact R52
    isplitl [R51]; · iexact R51
    isplitl [R50]; · iexact R50
    isplitl [R49]; · iexact R49
    isplitl [R48]; · iexact R48
    isplitl [R47]; · iexact R47
    isplitl [R46]; · iexact R46
    isplitl [R45]; · iexact R45
    isplitl [R44]; · iexact R44
    isplitl [R43]; · iexact R43
    isplitl [R42]; · iexact R42
    isplitl [R41]; · iexact R41
    isplitl [R40]; · iexact R40
    isplitl [R39]; · iexact R39
    isplitl [R38]; · iexact R38
    isplitl [R37]; · iexact R37
    isplitl [R36]; · iexact R36
    isplitl [R35]; · iexact R35
    isplitl [R34]; · iexact R34
    isplitl [R33]; · iexact R33
    isplitl [R32]; · iexact R32
    isplitl [R31]; · iexact R31
    isplitl [R30]; · iexact R30
    isplitl [R29]; · iexact R29
    isplitl [R28]; · iexact R28
    isplitl [R27]; · iexact R27
    isplitl [R26]; · iexact R26
    isplitl [R25]; · iexact R25
    isplitl [R24]; · iexact R24
    isplitl [R23]; · iexact R23
    isplitl [R22]; · iexact R22
    isplitl [R21]; · iexact R21
    isplitl [R20]; · iexact R20
    isplitl [R19]; · iexact R19
    isplitl [R18]; · iexact R18
    isplitl [R17]; · iexact R17
    isplitl [R16]; · iexact R16
    isplitl [R15]; · iexact R15
    isplitl [R14]; · iexact R14
    isplitl [R13]; · iexact R13
    isplitl [R12]; · iexact R12
    isplitl [R11]; · iexact R11
    isplitl [R10]; · iexact R10
    isplitl [R9]; · iexact R9
    isplitl [R8]; · iexact R8
    isplitl [R7]; · iexact R7
    isplitl [R6]; · iexact R6
    isplitl [R5]; · iexact R5
    isplitl [R4]; · iexact R4
    isplitl [R3]; · iexact R3
    isplitl [R2]; · iexact R2
    isplitl [R1]; · iexact R1
    isplitl [R0]; · iexact R0
    iempintro
  sl_exec
  sl_step
  delta shares cells0
  iframe
  isplitl [H5]; · iexact H5
  isplitl [H6]; · iexists _; iexact H6
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    iexact Hc31
  iexists _; iexact HO

end Cert.Proof.KI.R0

end
-- ==== Proof.TripValue.lean ====
import proofs.«421265_j15204184228262_2_alg».proof.Proof.GatherRows
import proofs.«421265_j15204184228262_2_alg».proof.Proof.R0Spec
import Idealize.ShloMosaic.Lib.Writes
import Idealize.ShloMosaic.Lib.Pipeline.Frame

noncomputable section

namespace Cert.Proof.KI.Trip

open Cert.KernelIdeal Cert.KernelIdeal.Gen Cert.Proof.KI.Gather Idealize.ShloMosaic Idealize.ShloMosaic.ValueIdx

variable {F : FTy → Type} [FloatOps F]

abbrev k64 (k : Fin k0_t1_loop.trips) : Fin 64 := ⟨k.val, Nat.lt_of_lt_of_le k.isLt k0_t1_abs.2.1⟩

theorem off257_eq (k : Fin k0_t1_loop.trips) : k0_off257 k = ![128 * k.val] := by
  have hk : k.val < 64 := Nat.lt_of_lt_of_le k.isLt k0_t1_abs.2.1
  show ![(Scalar.indexCast (Scalar.muli (Scf.iv 0#32 1#32 k) 128#32)).toNat] = ![128 * k.val]
  congr 1
  simp only [Scalar.indexCast, Scalar.muli, IntOp.muli, Scf.iv, BitVec.toNat_add, BitVec.toNat_mul,
    BitVec.toNat_ofNat]
  omega

theorem off258_eq (k : Fin k0_t1_loop.trips) : k0_off258 k = ![128 * k.val, 0] := by
  have hk : k.val < 64 := Nat.lt_of_lt_of_le k.isLt k0_t1_abs.2.1
  show ![(Scalar.indexCast (Scalar.muli (Scf.iv 0#32 1#32 k) 128#32)).toNat, 0] = ![128 * k.val, 0]
  congr 1
  simp only [Scalar.indexCast, Scalar.muli, IntOp.muli, Scf.iv, BitVec.toNat_add, BitVec.toNat_mul,
    BitVec.toNat_ofNat]
  omega

theorem rel_read (M2 : Memref sig .tc .vmem S512x128 .f32) (X3 : M2.view.ty.Contents (Elt F)) :
    View.readAt (Elt F) M2.view (Rect.unit (s := S512x128) ![0, 0] S512x128.size inb_S512x128_S512x128_0_0).toLoadRect X3
      = M2.view.read (Elt F) X3 := by
  funext x
  rw [View.readAt_apply]
  congr 1
  funext a
  match a with
  | ⟨0, _⟩ => exact Fin.ext (by show 0 + 1 * (x 0).val = (x 0).val; omega)
  | ⟨1, _⟩ => exact Fin.ext (by show 0 + 1 * (x 1).val = (x 1).val; omega)

theorem chunk_eq (M1 : Memref sig .tc .vmem S8192 .i32) (X2 : M1.view.ty.Contents (Elt F)) (k : Fin k0_t1_loop.trips) :
    View.readAt (Elt F) M1.view (Rect.unit (s := S8192) (k0_off257 k) S128.size (k0_off257_inb k)).toLoadRect X2
      = R0Spec.chunk (F := F) (M1.view.read (Elt F) X2) (k64 k) := by
  funext x
  rw [View.readAt_apply]
  show M1.view.read (Elt F) X2 _ = M1.view.read (Elt F) X2 (ix1 (R0Spec.edgeAt (k64 k) (x 0)))
  congr 1
  funext a
  match a with
  | ⟨0, _⟩ =>
    refine Fin.ext ?_
    have e : k0_off257 k 0 = 128 * k.val := congrFun (off257_eq k) 0
    show k0_off257 k 0 + 1 * (x 0).val = 128 * k.val + (x 0).val
    omega

theorem row_inb (w : BitVec 32) (h : w.toNat + 1 ≤ 100000) :
    ∀ a, (![w.toNat, 0] : Fin 2 → ℕ) a + S1x128.size a ≤ S100000x128.size a := fun a =>
  match a with
  | ⟨0, _⟩ => h
  | ⟨1, _⟩ => Nat.le_refl 128

theorem gathered_eq (M0 : Memref sig .tc .smem S8192 .i32) (X1 : M0.view.ty.Contents (Elt F))
    (M4 : Memref sig .tc .hbm S100000x128 .f32) (X4 : M4.view.ty.Contents (Elt F)) (k : Fin k0_t1_loop.trips)
    (hw : ∀ (off : Fin 1 → ℕ) (hin : ∀ a, off a + S1.size a ≤ S8192.size a),
      (wordAt M0 X1 off hin : BitVec 32).toNat + 1 ≤ 100000) :
    (fun idx : S128x128.Idx => rowOf M4 X4 (wordAt M0 X1 (offW (idx 0) k) (offW_inb (idx 0) k))
        (row_inb _ (hw _ _)) (ix1 (idx 1)))
      = R0Spec.gathered (F := F) (M0.view.read (Elt F) X1) (M4.view.read (Elt F) X4) (k64 k) := by
  funext idx
  obtain ⟨r, d, rfl⟩ : ∃ (r d : Fin 128), idx = ix2 r d := ⟨idx 0, idx 1, eq_ix2 idx⟩
  show rowOf M4 X4 (wordAt M0 X1 (offW r k) (offW_inb r k)) (row_inb _ (hw _ _)) (ix1 d)
    = M4.view.read (Elt F) X4 (ix2 (R0Spec.entRow (M0.view.read (Elt F) X1 (ix1 (R0Spec.edgeAt (k64 k) r)))) d)
  have hk : k.val < 64 := Nat.lt_of_lt_of_le k.isLt k0_t1_abs.2.1
  have hr : r.val < 128 := r.isLt
  have hin : ∀ a, (![128 * k.val + r.val] : Fin 1 → ℕ) a + S1.size a ≤ S8192.size a := by
    rw [← offW_eq r k]
    exact offW_inb r k
  have hword : wordAt M0 X1 (offW r k) (offW_inb r k)
      = M0.view.read (Elt F) X1 (ix1 (R0Spec.edgeAt (k64 k) r)) :=
    (wordAt_congr M0 X1 (offW_eq r k) _ hin).trans (wordAt_eq M0 X1 _ (by omega) hin)
  have hlt := hw _ (offW_inb r k)
  refine (rowOf_apply M4 X4 _ _ d).trans ?_
  refine congrArg (fun t : Fin 100000 => M4.view.read (Elt F) X4 (ix2 t d)) (Fin.ext ?_)
  show (wordAt M0 X1 (offW r k) (offW_inb r k) : BitVec 32).toNat
    = min (M0.view.read (Elt F) X1 (ix1 (R0Spec.edgeAt (k64 k) r)) : BitVec 32).toNat 99999
  rw [← hword]
  omega

theorem store_read (M3 : Memref sig .tc .vmem S8192x128 .f32) (f5 : M3.view.ty.Contents (Elt F))
    (k : Fin k0_t1_loop.trips) (p : FVec F S128x128 .f32) (q : Fin 8192) (d : Fin 128) :
    M3.view.read (Elt F) (M3.view.writes (Elt F) f5
        [⟨Rect.unit (s := S8192x128) (k0_off258 k) S128x128.size (k0_off258_inb k), p⟩]) (ix2 q d)
      = if h : 128 * k.val ≤ q.val ∧ q.val < 128 * k.val + 128 then p (ix2 ⟨q.val - 128 * k.val, by omega⟩ d)
        else M3.view.read (Elt F) f5 (ix2 q d) := by
  have hk : k.val < 64 := Nat.lt_of_lt_of_le k.isLt k0_t1_abs.2.1
  have e0 : k0_off258 k 0 = 128 * k.val := congrFun (off258_eq k) 0
  have e1 : k0_off258 k 1 = 0 := congrFun (off258_eq k) 1
  rw [View.writes_singleton]
  by_cases h : 128 * k.val ≤ q.val ∧ q.val < 128 * k.val + 128
  · rw [dif_pos h]
    have hq : ix2 q d = (Rect.unit (s := S8192x128) (k0_off258 k) S128x128.size (k0_off258_inb k)).emb
        (ix2 (⟨q.val - 128 * k.val, by omega⟩ : Fin 128) d) := by
      funext a
      match a with
      | ⟨0, _⟩ =>
        refine Fin.ext ?_
        show q.val = k0_off258 k 0 + 1 * (q.val - 128 * k.val)
        omega
      | ⟨1, _⟩ =>
        refine Fin.ext ?_
        show d.val = k0_off258 k 1 + 1 * d.val
        omega
    rw [hq]
    exact View.read_slice_write_emb _ _ _ (Finset.mem_univ _)
  · rw [dif_neg h]
    refine View.read_slice_write_of_not_mem _ _ _ _ ?_
    intro hm
    obtain ⟨x, -, hx⟩ := Finset.mem_map.mp hm
    have h0 : k0_off258 k 0 + 1 * (x 0).val = q.val := congrArg (fun i : S8192x128.Idx => (i 0).val) hx
    have hx0 : (x 0).val < 128 := (x 0).isLt
    omega

def Done (M3 : Memref sig .tc .vmem S8192x128 .f32) (B : Vec F S8192x128 .f32) (n : ℕ)
    (f5 : M3.view.ty.Contents (Elt F)) : Prop :=
  ∀ (q : Fin 8192) (d : Fin 128), q.val < 128 * n → M3.view.read (Elt F) f5 (ix2 q d) = B (ix2 q d)

theorem done_zero (M3 : Memref sig .tc .vmem S8192x128 .f32) (B : Vec F S8192x128 .f32)
    (f5 : M3.view.ty.Contents (Elt F)) : Done M3 B 0 f5 := by
  intro q d hq
  omega

theorem done_step (M3 : Memref sig .tc .vmem S8192x128 .f32) (B : Vec F S8192x128 .f32)
    (f5 : M3.view.ty.Contents (Elt F)) (k : Fin k0_t1_loop.trips) (p : FVec F S128x128 .f32)
    (hB : ∀ (r : Fin 128) (d : Fin 128), B (ix2 (R0Spec.edgeAt (k64 k) r) d) = p (ix2 r d)) :
    Done M3 B k.val f5 → Done M3 B (k.val + 1) (M3.view.writes (Elt F) f5
      [⟨Rect.unit (s := S8192x128) (k0_off258 k) S128x128.size (k0_off258_inb k), p⟩]) := by
  intro hD q d hq
  have hk : k.val < 64 := Nat.lt_of_lt_of_le k.isLt k0_t1_abs.2.1
  rw [store_read]
  by_cases h : 128 * k.val ≤ q.val ∧ q.val < 128 * k.val + 128
  · rw [dif_pos h, ← hB]
    refine congrArg (fun r : Fin 8192 => B (ix2 r d)) (Fin.ext ?_)
    show 128 * k.val + (q.val - 128 * k.val) = q.val
    omega
  · rw [dif_neg h]
    exact hD q d (by omega)

theorem done_all (M3 : Memref sig .tc .vmem S8192x128 .f32) (B : Vec F S8192x128 .f32)
    (f5 : M3.view.ty.Contents (Elt F)) (h3 : M3.IsWhole) : Done M3 B 64 f5 → f5 = h3.unread B := by
  intro hD
  refine h3.eq_unread (funext fun i => ?_)
  have h0 : (i 0).val < 8192 := (i 0).isLt
  rw [eq_ix2 i]
  exact hD (i 0) (i 1) (by show (i 0).val < 128 * 64; omega)

theorem blockOut_row (s e : IVec S8192 32) (rel : Vec F S512x128 .f32) (ent : Vec F S100000x128 .f32) (k : Fin 64)
    (r : Fin 128) (d : Fin 128) :
    R0Spec.blockOut s e rel ent (ix2 (R0Spec.edgeAt k r) d) = R0Spec.tripOut s e rel ent k (ix2 r d) := by
  have hk := k.isLt
  have hr := r.isLt
  have key : ∀ (k' : Fin 64) (i i' : S128x128.Idx), k' = k → i' = i →
      R0Spec.tripOut s e rel ent k' i' = R0Spec.tripOut s e rel ent k i := by
    intro k' i i' h1 h2
    subst h1 h2
    rfl
  refine key _ _ _ (Fin.ext ?_) ?_
  · show (128 * k.val + r.val) / 128 = k.val
    omega
  · funext a
    match a with
    | ⟨0, _⟩ =>
      refine Fin.ext ?_
      show (128 * k.val + r.val) % 128 = r.val
      omega
    | ⟨1, _⟩ => rfl

end Cert.Proof.KI.Trip

end
-- ==== Proof.TokSep.lean ====
import proofs.«421265_j15204184228262_2_alg».proof.Proof.Gen.KernelIdeal
import Idealize.ShloMosaic.Lib.Transfers
import Idealize.ShloMosaic.Lib.Pipeline.Routed

noncomputable section

namespace Cert.Proof.KI.Tok

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.KernelIdeal

variable {F : FTy → Type} [FloatOps F]

local notation "𝕄" => MT nD τ sig Unit (Elt F) ℕ (Pipeline.UC sig nD τ) ℕ

def toksAll (ℓ : Loc nD τ sig) (f : Buf (Elt F) ℓ) (q : PosShare TreeShare) : ℕ → sProp 𝕄
  | 0 => iprop(emp)
  | n + 1 => iprop((ℓ ↦{Transfers.shareTokN q n} f) ∗ toksAll ℓ f q n)

theorem toksAll_eq (ℓ : Loc nD τ sig) (f : Buf (Elt F) ℓ) (q : PosShare TreeShare) (n : ℕ) :
    toksAll ℓ f q n = BI.bigSep (Finset.range n) (fun i => (ℓ ↦{Transfers.shareTokN q i} f : sProp 𝕄)) := by
  induction n with
  | zero => rw [Finset.range_zero, BI.bigSep_empty]; rfl
  | succ k ih => rw [Finset.range_add_one, BI.bigSep_insert Finset.notMem_range_self, ← ih]; rfl

-- A points-to at share q is n read tokens halved off it beside the remainder.
theorem toks_iff (ℓ : Loc nD τ sig) (f : Buf (Elt F) ℓ) (q : PosShare TreeShare) (n : ℕ) :
    (ℓ ↦{q} f : sProp 𝕄) ⊣⊢ iprop((ℓ ↦{Transfers.shareDrop q n} f) ∗ toksAll ℓ f q n) := by
  rw [toksAll_eq]
  exact Transfers.pointsTo_toks_range q n

end Cert.Proof.KI.Tok

end
-- ==== Proof.R0Body.lean ====
import proofs.«421265_j15204184228262_2_alg».proof.Proof.Gen.KernelIdeal.Loops
import proofs.«421265_j15204184228262_2_alg».proof.Proof.Gen.KernelIdeal.Launch
import proofs.«421265_j15204184228262_2_alg».proof.Proof.R0Spec
import Idealize.ShloMosaic.Lib.Transfers
import Idealize.ShloMosaic.Lib.Tactic
import Idealize.ShloMosaic.Lib.Pipeline.Kit
import Idealize.ShloMosaic.Lib.Pipeline.Routed
import proofs.«421265_j15204184228262_2_alg».proof.Proof.R0Trip
import proofs.«421265_j15204184228262_2_alg».proof.Proof.TripValue
import proofs.«421265_j15204184228262_2_alg».proof.Proof.TokSep

noncomputable section

namespace Cert.Proof.KI.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

def WordsOk (c : Dev nD) (M0 : Memref sig .tc .smem S8192 .i32) (f0 : Bf (F := F) c M0) : Prop :=
  ∀ (off : Fin 1 → Nat) (hin : ∀ a, off a + S1.size a ≤ S8192.size a),
    (M0.view.readAt (Elt F) (Rect.unit (s := S8192) off S1.size hin).toLoadRect f0 (Shape.Idx.first (numel1_S1.symm ▸ Nat.one_pos)) : BitVec 32).toNat + 1 ≤ 100000

abbrev outBlock (c : Dev nD) (M0 : Memref sig .tc .smem S8192 .i32) (M1 : Memref sig .tc .vmem S8192 .i32) (M2 : Memref sig .tc .vmem S512x128 .f32)
    (f0 : Bf (F := F) c M0) (f1 : Bf (F := F) c M1) (f2 : Bf (F := F) c M2) (ent : Bf (F := F) c (Memref.whole main_arg0)) : Vec F S8192x128 .f32 :=
  R0Spec.blockOut (F := F) (M0.view.read (Elt F) f0) (M1.view.read (Elt F) f1) (M2.view.read (Elt F) f2) ((Memref.whole main_arg0).view.read (Elt F) ent)

theorem trips64 : Scf.trips k0_t1_loop.lb k0_t1_loop.ub k0_t1_loop.st = 64 := by decide

theorem tripStored_eq (M0 : Memref sig .tc .smem S8192 .i32) (X1 : BufTy.Contents (Elt F) M0.view.ty)
    (M1 : Memref sig .tc .vmem S8192 .i32) (X2 : BufTy.Contents (Elt F) M1.view.ty)
    (M2 : Memref sig .tc .vmem S512x128 .f32) (X3 : BufTy.Contents (Elt F) M2.view.ty)
    (M4 : Memref sig .tc .hbm S100000x128 .f32) (X4 : BufTy.Contents (Elt F) M4.view.ty)
    (M6 : Memref sig .tc .vmem S128x128 .f32) (f6 : BufTy.Contents (Elt F) M6.view.ty)
    (k : Fin k0_t1_loop.trips) (hX1 : WordsIn M0 X1) :
    tripStored M0 X1 M1 X2 M2 X3 M4 X4 M6 f6 k hX1
      = R0Spec.tripOut (F := F) (M0.view.read (Elt F) X1) (M1.view.read (Elt F) X2) (M2.view.read (Elt F) X3)
          (M4.view.read (Elt F) X4) (Trip.k64 k) := by
  have hg : M6.view.readAt (Elt F) (Rect.unit (s := S128x128) ![0, 0] S128x128.size inb_S128x128_S128x128_0_0).toLoadRect
      (Rows.rowsWritten M6 (rowIn M0 X1 M4 X4 k hX1) f6 128)
      = R0Spec.gathered (F := F) (M0.view.read (Elt F) X1) (M4.view.read (Elt F) X4) (Trip.k64 k) := by
    rw [← Trip.gathered_eq M0 X1 M4 X4 k hX1]
    funext idx
    obtain ⟨r, d, rfl⟩ : ∃ (r d : Fin 128), idx = ValueIdx.ix2 r d := ⟨idx 0, idx 1, ValueIdx.eq_ix2 idx⟩
    exact Rows.rows_read M6 (rowIn M0 X1 M4 X4 k hX1) f6 r d
  show k0_pay1 (F := F) _ (k0_pay2 (F := F) _) _ = k0_pay1 (F := F) _ (k0_pay2 (F := F) _) _
  rw [hg, Trip.chunk_eq, Trip.rel_read]

abbrev tripRes (c : Dev nD) (M0 : Memref sig .tc .smem S8192 .i32) (M1 : Memref sig .tc .vmem S8192 .i32)
    (M2 : Memref sig .tc .vmem S512x128 .f32) (M3 : Memref sig .tc .vmem S8192x128 .f32)
    (f0 : Bf (F := F) c M0) (f1 : Bf (F := F) c M1) (f2 : Bf (F := F) c M2) (ent : Bf (F := F) c (Memref.whole main_arg0))
    (f5 : Bf (F := F) c M3) (g : Bf (F := F) c (Memref.whole cc0_scratch0)) (W : Waits sig Unit) : sProp 𝕄 :=
  iprop((M0.view.loc (c : Thread nD τ) ↦{fullShare} f0) ∗ (M1.view.loc (c : Thread nD τ) ↦{fullShare} f1) ∗ (M2.view.loc (c : Thread nD τ) ↦{fullShare} f2)
    ∗ shares c (Memref.whole main_arg0) fullShare ent
    ∗ (M3.view.loc (c : Thread nD τ) ↦{fullShare} f5) ∗ ((Memref.whole cc0_scratch0).view.loc (c : Thread nD τ) ↦{fullShare} g)
    ∗ cells0 c
    ∗ owes (c : Thread nD τ) 0 W)

def loopInv (c : Dev nD) (M0 : Memref sig .tc .smem S8192 .i32) (M1 : Memref sig .tc .vmem S8192 .i32)
    (M2 : Memref sig .tc .vmem S512x128 .f32) (M3 : Memref sig .tc .vmem S8192x128 .f32)
    (f0 : Bf (F := F) c M0) (f1 : Bf (F := F) c M1) (f2 : Bf (F := F) c M2) (ent : Bf (F := F) c (Memref.whole main_arg0)) (n : ℕ) (_ : Unit) : sProp 𝕄 :=
  iprop(∃ (f5 : Bf (F := F) c M3), ∃ (g : Bf (F := F) c (Memref.whole cc0_scratch0)), ∃ (W : Waits sig Unit),
    ⌜Trip.Done M3 (outBlock c M0 M1 M2 f0 f1 f2 ent) n f5⌝ ∗ tripRes c M0 M1 M2 M3 f0 f1 f2 ent f5 g W)

set_option maxRecDepth 8192 in
set_option maxHeartbeats 4000000 in
-- One trip keeps the invariant: it stores rows 128·k … 128·k + 127 of the specified block.
theorem loopStep (c : Dev nD) (i : grid0.Coords) (M0 : Memref sig .tc .smem S8192 .i32) (h0 : M0.IsWhole)
    (M1 : Memref sig .tc .vmem S8192 .i32) (h1 : M1.IsWhole) (M2 : Memref sig .tc .vmem S512x128 .f32) (h2 : M2.IsWhole)
    (M3 : Memref sig .tc .vmem S8192x128 .f32) (h3 : M3.IsWhole)
    (f0 : Bf (F := F) c M0) (f1 : Bf (F := F) c M1) (f2 : Bf (F := F) c M2) (ent : Bf (F := F) c (Memref.whole main_arg0))
    (hw : WordsOk c M0 f0) (k : Fin k0_t1_loop.trips) (acc : Unit) :
    loopInv c M0 M1 M2 M3 f0 f1 f2 ent k.val acc
      ⊢ wp frame (wpE (defs₀ (F := F)) Variants.none (c : Thread nD τ) none) Set.univ
          (k0_t1_body (F := F) i M0 h0 M1 h1 M2 h2 (Memref.whole main_arg0) (Memref.isWhole_whole _) M3 h3 (Memref.whole cc0_scratch0) (Memref.isWhole_whole _) cc0_scratch1 k acc)
          (loopInv c M0 M1 M2 M3 f0 f1 f2 ent (k.val + 1)) := by
  obtain ⟨⟩ := acc
  unfold loopInv
  iintro ⟨%f5, %g, %W, %hD, H⟩
  iapply (wp_wand_r frame (wpE (defs₀ (F := F)) Variants.none (c : Thread nD τ) none) Set.univ)
  isplitl [H]
  · iapply (tripRun c i M0 h0 M1 h1 M2 h2 (Memref.whole main_arg0) (Memref.isWhole_whole _) M3 h3 (Memref.whole cc0_scratch0) (Memref.isWhole_whole _) k fullShare f0 f1 f2 ent hw f5 g W)
    iexact H
  · iintro %u Hpost
    icases Hpost with ⟨H0, H1, H2, ⟨T7, T8, T9, T10, T11, T12, T13, T14, T15, T16, T17, T18, T19, T20, T21, T22, T23, T24, T25, T26, T27, T28, T29, T30, T31, T32, T33, T34, T35, T36, T37, T38⟩, H5, ⟨%g', H6⟩, ⟨C7, C8, C9, C10, C11, C12, C13, C14, C15, C16, C17, C18, C19, C20, C21, C22, C23, C24, C25, C26, C27, C28, C29, C30, C31, C32, C33, C34, C35, C36, C37, C38⟩, ⟨%W', HO⟩⟩
    iexists (M3.view.writes (Elt F) f5 [⟨Rect.unit (s := S8192x128) (k0_off258 k) S128x128.size (k0_off258_inb k), tripStored M0 f0 M1 f1 M2 f2 (Memref.whole main_arg0) ent (Memref.whole cc0_scratch0) g k hw⟩]), g', W'
    isplitr
    · ipureintro
      exact Trip.done_step M3 _ f5 k _ (fun r d => (Trip.blockOut_row _ _ _ _ (Trip.k64 k) r d).trans
        (congrFun (tripStored_eq M0 f0 M1 f1 M2 f2 (Memref.whole main_arg0) ent (Memref.whole cc0_scratch0) g k hw)
          (ValueIdx.ix2 r d)).symm) hD
    · delta tripRes shares cells0
      iframe

set_option maxRecDepth 65536 in
set_option maxHeartbeats 8000000 in
-- The gather kernel at one grid point: 64 trips under the invariant leave the specified block in the output buffer.
theorem gmRun (c : Dev nD) (i : grid0.Coords) (M0 : Memref sig .tc .smem S8192 .i32) (h0 : M0.IsWhole) (M1 : Memref sig .tc .vmem S8192 .i32) (h1 : M1.IsWhole)
    (M2 : Memref sig .tc .vmem S512x128 .f32) (h2 : M2.IsWhole) (M3 : Memref sig .tc .vmem S8192x128 .f32) (h3 : M3.IsWhole)
    (f0 : Bf (F := F) c M0) (f1 : Bf (F := F) c M1) (f2 : Bf (F := F) c M2) (ent : Bf (F := F) c (Memref.whole main_arg0)) (hw : WordsOk c M0 f0)
    (f3 : Bf (F := F) c M3) (g : Bf (F := F) c (Memref.whole cc0_scratch0)) (W₀ : Waits sig Unit) (Q : PUnit → sProp 𝕄) :
    iprop(pt c M0 f0 ∗ pt c M1 f1 ∗ pt c M2 f2 ∗ pt c M3 f3 ∗ pt c (Memref.whole main_arg0) ent ∗ pt c (Memref.whole cc0_scratch0) g ∗ cells0 c ∗ owes (c : Thread nD τ) 0 W₀
        ∗ (iprop(pt c M0 f0 ∗ pt c M1 f1 ∗ pt c M2 f2 ∗ pt c M3 (h3.unread (outBlock c M0 M1 M2 f0 f1 f2 ent)) ∗ pt c (Memref.whole main_arg0) ent
            ∗ (∃ g', pt c (Memref.whole cc0_scratch0) g') ∗ cells0 c ∗ ∃ W', owes (c : Thread nD τ) 0 W') -∗ Q ⟨⟩))
      ⊢ wp frame (wpE (defs₀ (F := F)) Variants.none (c : Thread nD τ) none) Set.univ
          (cc0__gather_mul_kernel (F := F) i M0 h0 M1 h1 M2 h2 (Memref.whole main_arg0) (Memref.isWhole_whole _) M3 h3 (Memref.whole cc0_scratch0) (Memref.isWhole_whole _) cc0_scratch1) Q := by
  iintro ⟨H0, H1, H2, H3, He, Hg, Hc, HO, Hk⟩
  icases Hc with ⟨C7, C8, C9, C10, C11, C12, C13, C14, C15, C16, C17, C18, C19, C20, C21, C22, C23, C24, C25, C26, C27, C28, C29, C30, C31, C32, C33, C34, C35, C36, C37, C38⟩
  ihave Ht := (Tok.toks_iff _ ent fullShare 39).1 $$ He
  simp only [Tok.toksAll]
  icases Ht with ⟨Hd, T38, T37, T36, T35, T34, T33, T32, T31, T30, T29, T28, T27, T26, T25, T24, T23, T22, T21, T20, T19, T18, T17, T16, T15, T14, T13, T12, T11, T10, T9, T8, T7, T6, T5, T4, T3, T2, T1, T0, -⟩
  simp only [cc0__gather_mul_kernel_eq_skeleton]
  unfold cc0__gather_mul_kernel_skel
  iapply (Scf.wp_for_bind frame (wpE (defs₀ (F := F)) Variants.none (c : Thread nD τ) none) Set.univ
    k0_t1_loop.lb k0_t1_loop.ub k0_t1_loop.st k0_t1_ok ⟨⟩
    (k0_t1_body (F := F) i M0 h0 M1 h1 M2 h2 (Memref.whole main_arg0) (Memref.isWhole_whole _) M3 h3 (Memref.whole cc0_scratch0) (Memref.isWhole_whole _) cc0_scratch1)
    (loopInv c M0 M1 M2 M3 f0 f1 f2 ent)
    (loopStep c i M0 h0 M1 h1 M2 h2 M3 h3 f0 f1 f2 ent hw)) $$ [H0 H1 H2 H3 Hg HO T7 T8 T9 T10 T11 T12 T13 T14 T15 T16 T17 T18 T19 T20 T21 T22 T23 T24 T25 T26 T27 T28 T29 T30 T31 T32 T33 T34 T35 T36 T37 T38 C7 C8 C9 C10 C11 C12 C13 C14 C15 C16 C17 C18 C19 C20 C21 C22 C23 C24 C25 C26 C27 C28 C29 C30 C31 C32 C33 C34 C35 C36 C37 C38]
  · unfold loopInv
    iexists f3, g, W₀
    isplitr
    · ipureintro
      exact Trip.done_zero M3 _ f3
    · delta tripRes shares cells0
      iframe
  iintro %acc Hinv
  unfold loopInv
  icases Hinv with ⟨%f5, %g', %W', %hD, H0, H1, H2, ⟨T7, T8, T9, T10, T11, T12, T13, T14, T15, T16, T17, T18, T19, T20, T21, T22, T23, T24, T25, T26, T27, T28, T29, T30, T31, T32, T33, T34, T35, T36, T37, T38⟩, H3, Hg, ⟨C7, C8, C9, C10, C11, C12, C13, C14, C15, C16, C17, C18, C19, C20, C21, C22, C23, C24, C25, C26, C27, C28, C29, C30, C31, C32, C33, C34, C35, C36, C37, C38⟩, HO⟩
  have hD' : Trip.Done M3 (outBlock c M0 M1 M2 f0 f1 f2 ent) 64 f5 :=
    Eq.mp (congrArg (fun n => Trip.Done M3 (outBlock c M0 M1 M2 f0 f1 f2 ent) n f5) trips64) hD
  obtain rfl := Trip.done_all M3 _ f5 h3 hD'
  ihave He := (Tok.toks_iff _ ent fullShare 39).2 $$ [Hd T38 T37 T36 T35 T34 T33 T32 T31 T30 T29 T28 T27 T26 T25 T24 T23 T22 T21 T20 T19 T18 T17 T16 T15 T14 T13 T12 T11 T10 T9 T8 T7 T6 T5 T4 T3 T2 T1 T0]
  · simp only [Tok.toksAll]
    iframe
  simp only [Prog.pure_eq_ret]
  rw [wp_ret]
  imodintro
  iapply Hk
  iframe
  isplitl [Hg]; · iexists g'; iexact Hg
  isplitl [C7 C8 C9 C10 C11 C12 C13 C14 C15 C16 C17 C18 C19 C20 C21 C22 C23 C24 C25 C26 C27 C28 C29 C30 C31 C32 C33 C34 C35 C36 C37 C38]
  · delta cells0
    iframe
  iexists W'; iexact HO

end Cert.Proof.KI.R0

end
-- ==== Proof.KIRegion0.lean ====
import proofs.«421265_j15204184228262_2_alg».proof.Proof.KIRegion1
import proofs.«421265_j15204184228262_2_alg».proof.Proof.R0Body

noncomputable section

namespace Cert.Proof.KI.Reg0

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI.R1 (Bf pt)
open Cert.Proof.KI (L lv 𝒱₀ Eo owns_elim owns_intro)

variable {F : FTy → Type} [FloatOps F]

local notation "𝕄" => MT nD τ sig Unit (Elt F) ℕ (Pipeline.UC sig nD τ) ℕ

abbrev osem0 : Fin 32 → SemLoc sig := fun k => .dma ⟨7 + k.val, by have := k.isLt; show 7 + k.val < 49; omega⟩

theorem ownSemFacts0 : Pipeline.OwnSemFacts spec0 osem0 := by decide

abbrev sems0 (c : Dev nD) : sProp 𝕄 :=
  Pipeline.ownSems0 (Ix := Unit) (Name := ℕ) (U := Pipeline.UC sig nD τ) (Lvl := ℕ) (Val := Elt F) (τ := τ) osem0 c

omit [FloatOps F] in
theorem sems0_eq (c : Dev nD) : (sems0 c : sProp 𝕄) = R0.cells0 c :=
  Pipeline.ownSems0_eq_of_list c osem0
    [0, 1, 2, 3, 4, 5, 6, 7, 8, 9, 10, 11, 12, 13, 14, 15, 16, 17, 18, 19, 20, 21, 22, 23, 24, 25, 26, 27, 28, 29, 30, 31]
    (by decide) (by decide)

variable (V : (c : Dev nD) → (b : Ref sig .tc) → Buf (Elt F) ((c : Thread nD τ).loc b))

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev Φ0 (c : Dev nD) : sProp 𝕄 :=
  iprop(pt c (Memref.whole main_arg0) (V c main_arg0) ∗ sems0 c
    ∗ Pipeline.scopedRest (Ix := Unit) (Name := ℕ) (U := Pipeline.UC sig nD τ) (Lvl := ℕ) (Val := Elt F) spec0 c)

def dat (c : Dev nD) : Dat τ (Elt F) Unit ℕ (Pipeline.UC sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => R0Spec.blockOut (F := F) (((cfg0.win 0).blk t).view.read (Elt F) (V c main_v4))
        (((cfg0.win 1).blk t).view.read (Elt F) (V c main_v5)) (V c main_v6) (V c main_arg0)
  Φ _ := Φ0 V c
  q _ := fullShare
  owed _ := 0

theorem before_0 (c : Dev nD) (t : Fin cfg0.N) (d) : (dat V c).before 0 t d = iblk V c 0 t :=
  ((dat V c).before_in_eq_fetched 0 rfl (fun _ => rfl) (fun _ _ _ => rfl)
    (fun t => by dsimp only [dat]; unfold Dat.blockOf iblk; rfl) t d).trans
    (by unfold Dat.fetched Dat.blockOf iblk; rfl)

theorem before_1 (c : Dev nD) (t : Fin cfg0.N) (d) : (dat V c).before 1 t d = iblk V c 1 t :=
  ((dat V c).before_in_eq_fetched 1 rfl (fun _ => rfl) (fun _ _ _ => rfl)
    (fun t => by dsimp only [dat]; unfold Dat.blockOf iblk; rfl) t d).trans
    (by unfold Dat.fetched Dat.blockOf iblk; rfl)

theorem before_2 (c : Dev nD) (t : Fin cfg0.N) (d) : (dat V c).before 2 t d = iblk V c 2 t :=
  ((dat V c).before_in_eq_fetched 2 rfl (fun _ => rfl) (fun _ _ _ => rfl)
    (fun t => by dsimp only [dat]; unfold Dat.blockOf iblk; rfl) t d).trans
    (by unfold Dat.fetched Dat.blockOf iblk; rfl)

theorem before_3 (c : Dev nD) (t : Fin cfg0.N) (d) : (dat V c).before 3 t d = d :=
  (dat V c).before_out_reset 3 rfl t
    (if h0 : t.val = 0 then .inl h0 else .inr ⟨h0, flush0_3 _⟩) d

theorem hst (w : Fin cfg0.W) (t : Fin cfg0.N) : ((cfg0.win w).stage (cfg0.slots t w)).IsWhole :=
  stage_whole0 w (cfg0.slots t w)

theorem owesAt_intro (c : Dev nD) (t : Fin (cfg0.N + 1)) :
    (Eo c : sProp 𝕄) ⊢ (dat V c).owesAt () t := by
  unfold Pipeline.Dat.owesAt Pipeline.owesWithin
  iintro ⟨%W, HO⟩; iexists W
  isplitr; · ipureintro; exact fun _ _ => Or.inl trivial
  iexact HO

theorem owesAt_elim (c : Dev nD) (t : Fin (cfg0.N + 1)) :
    ((dat V c).owesAt () t : sProp 𝕄) ⊢ Eo c := by
  unfold Pipeline.Dat.owesAt Pipeline.owesWithin
  iintro ⟨%W, -, HO⟩; iexists W; iexact HO

theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem iblk_2 (c : Dev nD) (t : Fin cfg0.N) : iblk V c 2 t = V c main_v6 := by
  funext j
  show (V c main_v6 : Vec F S512x128 .f32) (((cfg0.win 2).blk t).view.emb j) = (V c main_v6 : Vec F S512x128 .f32) j
  congr 1
  funext a; apply Fin.ext
  obtain ⟨e0, e1⟩ := index_2 t
  match a with
  | ⟨0, _⟩ => show win0_2.index t (0 : Fin 2) * 512 + 1 * (j 0).val = (j 0).val; rw [e0]; omega
  | ⟨1, _⟩ => show win0_2.index t (1 : Fin 2) * 128 + 1 * (j 1).val = (j 1).val; rw [e1]; omega

theorem body_obligation (c : Dev nD)
    (hblk0 : ∀ (t : Fin cfg0.N) (j : S8192.Idx), ((iblk V c 0 t j : Elt F .i32) : BitVec 32).toNat + 1 ≤ 100000) :
    BodyObligation (dat V c) (defs₀ (F := F)) 𝒱₀ () Set.univ := fun t => by
  rw [bigSep_W0, bigSep_W0]
  rw [show (dat V c).Φ t.succ = Φ0 V c from rfl, show (dat V c).Φ t.castSucc = Φ0 V c from rfl]
  unfold Φ0
  rw [scopedRest0_eq, sems0_eq]
  iintro ⟨⟨Hent, Hsem, ⟨%g, Hg⟩, Hrest⟩, Howes, ⟨%d0, H0⟩, ⟨%d1, H1⟩, ⟨%d2, H2⟩, ⟨%d3, H3⟩⟩
  ihave G0 := (owns_elim (hst 0 t) _) $$ [H0]
  · iexact H0
  icases G0 with ⟨%f0, %hf0, H0⟩
  ihave G1 := (owns_elim (hst 1 t) _) $$ [H1]
  · iexact H1
  icases G1 with ⟨%f1, %hf1, H1⟩
  ihave G2 := (owns_elim (hst 2 t) _) $$ [H2]
  · iexact H2
  icases G2 with ⟨%f2, %hf2, H2⟩
  ihave G3 := (owns_elim (hst 3 t) _) $$ [H3]
  · iexact H3
  icases G3 with ⟨%f3, -, H3⟩
  ihave GO := (owesAt_elim V c t.castSucc) $$ [Howes]
  · iexact Howes
  icases GO with ⟨%W₀, HO⟩
  rw [before_0] at hf0; rw [before_1] at hf1; rw [before_2] at hf2
  have e0 : (st0_0 t).view.read (Elt F) f0 = (dat V c).after 0 t := by dsimp only [dat]; exact hf0
  have e1 : (st0_1 t).view.read (Elt F) f1 = (dat V c).after 1 t := by dsimp only [dat]; exact hf1
  have e2 : (st0_2 t).view.read (Elt F) f2 = (dat V c).after 2 t := by dsimp only [dat]; exact hf2
  have hall : ∀ j : S8192.Idx, (((st0_0 t).view.read (Elt F) f0 j : Elt F .i32) : BitVec 32).toNat + 1 ≤ 100000 :=
    fun j => by rw [hf0]; exact hblk0 t j
  have hw : R0.WordsOk c (st0_0 t) f0 := fun off hin => hall _
  have e3 : (st0_3 t).view.read (Elt F)
        ((hst 3 t).unread (R0.outBlock c (st0_0 t) (st0_1 t) (st0_2 t) f0 f1 f2 (V c main_arg0)))
      = (dat V c).after 3 t := by
    rw [Memref.IsWhole.read_unread]
    dsimp only [dat, R0.outBlock]
    rw [hf0, hf1, hf2, iblk_2]
    rfl
  iapply (R0.gmRun c (grid0.coords t) (st0_0 t) (hst 0 t) (st0_1 t) (hst 1 t) (st0_2 t) (hst 2 t) (st0_3 t) (hst 3 t)
    f0 f1 f2 (V c main_arg0) hw f3 g W₀ _)
  isplitl [H0]; · iexact H0
  isplitl [H1]; · iexact H1
  isplitl [H2]; · iexact H2
  isplitl [H3]; · iexact H3
  isplitl [Hent]; · iexact Hent
  isplitl [Hg]; · iexact Hg
  isplitl [Hsem]; · iexact Hsem
  isplitl [HO]; · iexact HO
  iintro ⟨H0, H1, H2, H3, Hent, Hg, Hsem, HO⟩
  isplitl [Hent Hsem Hg Hrest]
  · isplitl [Hent]; · iexact Hent
    isplitl [Hsem]; · iexact Hsem
    isplitl [Hg]; · iexact Hg
    iexact Hrest
  isplitl [HO]; · iapply (owesAt_intro V c t.succ); iexact HO
  isplitl [H0]; · iapply (owns_intro (hst 0 t) f0 e0); iexact H0
  isplitl [H1]; · iapply (owns_intro (hst 1 t) f1 e1); iexact H1
  isplitl [H2]; · iapply (owns_intro (hst 2 t) f2 e2); iexact H2
  iapply (owns_intro (hst 3 t) _ e3); iexact H3

variable (m : (ℓ : Loc nD τ sig) → Buf (Elt F) ℓ) (outs : Outs (F := F))

abbrev V6r (c : Dev nD) (b : Ref sig .tc) : Buf (Elt F) ((c : Thread nD τ).loc b) := V6 m c b
abbrev V7r (c : Dev nD) (b : Ref sig .tc) : Buf (Elt F) ((c : Thread nD τ).loc b) := V7 m outs c b

theorem V7_main_v7 (c : Dev nD) : V7 m outs c main_v7 = outs 7 main_v7 c := by
  simp only [V7, Function.update_self]

abbrev pdats := Reg1.pdats (F := F) (Reg1.V8r m outs) (dat (V6r m))

theorem hR : ({main_arg0} : Finset (Ref sig .tc)) ⊆ Pipeline.restRefs sig spec0 :=
  Finset.singleton_subset_iff.mpr (Pipeline.mem_restRefs_of main_arg0 rfl (by decide))

abbrev bypass (c : Dev nD) (W : (b : Ref sig .tc) → Buf (Elt F) ((c : Thread nD τ).loc b)) : sProp 𝕄 :=
  bigSep (Pipeline.restRefs sig spec0 \ {main_arg0}) fun b => (((c : Thread nD τ).loc b) ↦{fullShare} W b : sProp 𝕄)

theorem unscopedRest_split (c : Dev nD) (W : (b : Ref sig .tc) → Buf (Elt F) ((c : Thread nD τ).loc b)) :
    (Pipeline.unscopedRest (Ix := Unit) (Name := ℕ) (U := Pipeline.UC sig nD τ) (Lvl := ℕ) spec0 c W : sProp 𝕄)
      = iprop(pt c (Memref.whole main_arg0) (W main_arg0) ∗ bypass c W) := by
  unfold Pipeline.unscopedRest bypass
  rw [show ((Finset.univ.filter fun b : Ref sig .tc => ¬ b.isScoped) \ Finset.univ.image (Pipeline.arrRef spec0))
      = Pipeline.restRefs sig spec0 from rfl, BI.bigSep_sdiff_split hR, BI.bigSep_singleton]
  rfl

set_option backward.isDefEq.respectTransparency.types false in
def reg0 (hblk0 : ∀ (c : Dev nD) (t : Fin cfg0.N) (j : S8192.Idx), ((iblk (V6r m) c 0 t j : Elt F .i32) : BitVec 32).toNat + 1 ≤ 100000)
    (hout7 : ∀ c, outs 7 main_v7 c = (dat (V6r m) c).arrAt 3 cfg0.N) :
    Pipeline.RegionSeg (pcfgs (F := F)) adm (pdats m outs) () defs₀ 𝒱₀ L lv 0 where
  win := launch0.win.to₀
  block_pos := launch0.block_pos
  stage_whole := launch0.stage_whole
  K := Fin 32
  osem := osem0
  ho := ownSemFacts0
  hbody c := (body_obligation (V6r m) c (hblk0 c)).loose
  hwaits := Pipeline.hwaits_of_owed_zero _ _ _ _ L lv 0 fun _ _ => rfl
  pre c := iprop(StableHlo.held (c : Thread nD τ) (Pipeline.ucRefs τ sig) (V6 m c) ∗ Eo c)
  post c := iprop(StableHlo.held (c : Thread nD τ) (Pipeline.ucRefs τ sig) (V7 m outs c) ∗ Eo c)
  X c := iprop(pt c (Memref.whole main_arg0) (V6r m c main_arg0) ∗ sems0 c)
  Y c := pt c (Memref.whole main_arg0) (V6r m c main_arg0)
  Z c := bypass c (V6r m c)
  hentry c := by
    rw [← Pipeline.unscopedBufs_held (Ix := Unit) (Name := ℕ) (U := Pipeline.UC sig nD τ) (Lvl := ℕ) c (V6 m c)]
    have hsplit : (unscopedBufs c (V6r m c) : sProp 𝕄)
        ⊢ iprop((pdats m outs 0 c).arrays ((pdats m outs 0 c).arrAt · 0)
            ∗ Pipeline.unscopedRest (Ix := Unit) (Name := ℕ) (U := Pipeline.UC sig nD τ) (Lvl := ℕ) spec0 c (V6r m c)) :=
      Pipeline.arrays_of_unscopedBufs (p := 0) (pcfgs (F := F)) adm (pdats m outs) launch0.win launch0.arr_whole c
      ((pdats m outs 0 c).share_full fun _ => rfl) (V6r m c) fun _ => rfl
    rw [unscopedRest_split] at hsplit
    iintro ⟨⟨Hub, HO⟩, Hsem, -⟩
    ihave H := hsplit $$ [Hub]
    · iexact Hub
    icases H with ⟨Ha, Hent, Hby⟩
    imodintro
    isplitl [Ha]; · iexact Ha
    isplitr
    · unfold Pipeline.prefHeld; rw [show (Finset.univ : Finset (Fin 0)) = ∅ from rfl, BI.bigSep_empty]; iempintro
    isplitl [HO]; · iapply (owesAt_intro (V6r m) c 0); iexact HO
    isplitl [Hent Hsem]
    · isplitl [Hent]; · iexact Hent
      iexact Hsem
    iexact Hby
  hin c := by
    rw [show (pdats m outs 0 c).Φ 0 = Φ0 (V6r m) c from rfl]
    iintro ⟨⟨Hent, Hsem⟩, -, Hr⟩
    isplitl [Hent]; · iexact Hent
    isplitl [Hsem]; · iexact Hsem
    iexact Hr
  hout c := by
    rw [show (pdats m outs 0 c).Φ (Fin.last _) = Φ0 (V6r m) c from rfl]
    iintro ⟨Hent, Hsem, Hr⟩
    isplitl [Hent]; · iexact Hent
    isplitl [Hsem]; · iexact Hsem
    iexact Hr
  hexit c := by
    rw [← Pipeline.unscopedBufs_held (Ix := Unit) (Name := ℕ) (U := Pipeline.UC sig nD τ) (Lvl := ℕ) c (V7 m outs c)]
    have hjoin : iprop((pdats m outs 0 c).arrays ((pdats m outs 0 c).arrAt · cfg0.N)
          ∗ Pipeline.unscopedRest (Ix := Unit) (Name := ℕ) (U := Pipeline.UC sig nD τ) (Lvl := ℕ) spec0 c (V6r m c))
        ⊢ (unscopedBufs c (V7r m outs c) : sProp 𝕄) :=
      Pipeline.unscopedBufs_of_arrays (p := 0) (pcfgs (F := F)) adm (Ix := Unit) (Name := ℕ) (U := Pipeline.UC sig nD τ) (Lvl := ℕ) launch0.win launch0.arr_whole c
      (pdats m outs) ((pdats m outs 0 c).share_full fun _ => rfl) (V6r m c) (V7r m outs c)
      ((pdats m outs 0 c).arrAt · cfg0.N)
      (fun w => by
        fin_cases w
        · exact ((pdats m outs 0 c).arrAt_in 0 rfl _).trans (V7_of m outs c (Pipeline.arrRef spec0 0) (by decide)).symm
        · exact ((pdats m outs 0 c).arrAt_in 1 rfl _).trans (V7_of m outs c (Pipeline.arrRef spec0 1) (by decide)).symm
        · exact ((pdats m outs 0 c).arrAt_in 2 rfl _).trans (V7_of m outs c (Pipeline.arrRef spec0 2) (by decide)).symm
        · exact (hout7 c).symm.trans (V7_main_v7 m outs c).symm)
      (fun b hb => V7_of m outs c b fun h =>
        hb (List.mem_singleton.mp h ▸ Finset.mem_image.mpr ⟨3, Finset.mem_univ _, rfl⟩))
    rw [unscopedRest_split] at hjoin
    iintro ⟨Ha, HO, Hent, Hby⟩
    imodintro
    isplitl [Ha Hent Hby]
    · iapply hjoin
      isplitl [Ha]; · iexact Ha
      isplitl [Hent]; · iexact Hent
      iexact Hby
    iapply (owesAt_elim (V6r m) c (Fin.last _)); iexact HO

end Cert.Proof.KI.Reg0

end
-- ==== Proof.KIFrame.lean ====
import proofs.«421265_j15204184228262_2_alg».proof.Proof.KIRegion0

noncomputable section

namespace Cert.Proof.KI.Frame

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (L lv 𝒱₀ Eo)

variable {F : FTy → Type} [FloatOps F]

local notation "𝕄" => MT nD τ sig Unit (Elt F) ℕ (Pipeline.UC sig nD τ) ℕ

variable (m : (ℓ : Loc nD τ sig) → Buf (Elt F) ℓ)

def o7 (c : Dev nD) : Buf (Elt F) ((c : Thread nD τ).loc main_v7) := (Reg0.dat (Reg0.V6r m) c).arrAt 3 cfg0.N

def W7 (c : Dev nD) : Valuation τ sig (Elt F) := Function.update (V6 m c) main_v7 (o7 m c)

def W8 (c : Dev nD) : Valuation τ sig (Elt F) := StableHlo.after hostOps1 (W7 m c)

abbrev W8r (c : Dev nD) (b : Ref sig .tc) : Buf (Elt F) ((c : Thread nD τ).loc b) := W8 m c b

def o13 (c : Dev nD) : Buf (Elt F) ((c : Thread nD τ).loc main_v13) := (Reg1.dat (W8r m) c).arrAt 6 cfg1.N

def W9 (c : Dev nD) : Valuation τ sig (Elt F) := Function.update (W8 m c) main_v13 (o13 m c)

def outs : Outs (F := F) := fun _ r c => W9 m c r

theorem outs_v7 (c : Dev nD) : outs m 7 main_v7 c = o7 m c := by
  show W9 m c main_v7 = o7 m c
  unfold W9
  rw [Function.update_of_ne (StableHlo.devRef_ne_of_ne (by decide : main_v7 ≠ main_v13)
    : (Proc.devRef .tc main_v7 : DevRef τ sig) ≠ Proc.devRef .tc main_v13)]
  show StableHlo.after hostOps1 (W7 m c) main_v7 = o7 m c
  rw [StableHlo.after_of_writes_sub hostOps1 _ hostOps1_writes (by decide : main_v7 ∉ hostOps1_W)]
  exact Function.update_self ..

theorem outs_v13 (c : Dev nD) : outs m 9 main_v13 c = o13 m c := by
  show W9 m c main_v13 = o13 m c
  unfold W9
  exact Function.update_self ..

theorem V7_eq (c : Dev nD) : V7 m (outs m) c = W7 m c := by
  show Function.update (V6 m c) main_v7 (outs m 7 main_v7 c) = W7 m c
  rw [outs_v7]; rfl

theorem V8_eq (c : Dev nD) : V8 m (outs m) c = W8 m c := by
  show StableHlo.after hostOps1 (V7 m (outs m) c) = W8 m c
  rw [V7_eq]; rfl

theorem V8r_eq : Reg1.V8r m (outs m) = W8r m :=
  funext fun c => funext fun b => by
    show V8 m (outs m) c b = W8 m c b
    rw [V8_eq]

theorem hout7 (c : Dev nD) : outs m 7 main_v7 c = (Reg0.dat (Reg0.V6r m) c).arrAt 3 cfg0.N := outs_v7 m c

theorem hout13 (c : Dev nD) : outs m 9 main_v13 c = (Reg1.dat (Reg1.V8r m (outs m)) c).arrAt 6 cfg1.N := by
  rw [V8r_eq]; exact outs_v13 m c

abbrev u₀ : Pipeline.UC sig nD τ :=
  (initOf (Pipeline.cells cfgs cellOf_inj) (Pipeline.launchToks cfgs cellOf_inj), 1)

omit [FloatOps F] in
theorem hu₀ : (ownU (u₀ : Pipeline.UC sig nD τ) : sProp 𝕄)
    ⊢ |={Set.univ}=> iprop(BI.own (embL (initOf (Pipeline.cells cfgs cellOf_inj) (Pipeline.launchToks cfgs cellOf_inj)))
        ∗ bigSep Finset.univ fun _ : Dev nD => (iprop(emp) : sProp 𝕄)) := by
  iintro Hu
  ihave H := (ownU_pair _ _) $$ [Hu]
  · iexact Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

variable (ρ : Dev nD → PrngReg)

set_option backward.isDefEq.respectTransparency.types false in
-- The frame: the generated conditional frame at unknowns chosen without a cycle, first launch, host stretch, second launch.
theorem frame (hblk0 : ∀ (c : Dev nD) (t : Fin cfg0.N) (j : S8192.Idx),
      ((Reg0.iblk (Reg0.V6r m) c 0 t j : Elt F .i32) : BitVec 32).toNat + 1 ≤ 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (EP := embL) (ι := ()) (𝒱₀ := 𝒱₀) (L := L) (lv := lv) (hL := fun _ _ => rfl) (ρ := ρ)
    (outs := outs m) (pdats := Reg0.pdats m (outs m)) (O₀ := 0) (G := fun _ => iprop(emp)) (u₀ := u₀) (hu₀ := hu₀)
    (E := fun _ c => Eo c)
    (hE0 := by
      refine Pipeline.initEach L lv fun c => ?_
      iintro ⟨⟨-, HO, -, -, -⟩, -⟩
      imodintro
      iexists ∅; iexact HO)
    (hE2 := fun _ => .rfl)
    (R0 := Reg0.reg0 m (outs m) hblk0 (hout7 m)) (hpre0 := fun _ => .rfl) (hpost0 := fun _ => .rfl)
    (R1 := Reg1.reg1 m (outs m) (Reg0.dat (Reg0.V6r m)) (hout13 m)) (hpre1 := fun _ => .rfl) (hpost1 := fun _ => .rfl)

end Cert.Proof.KI.Frame

end
-- ==== Proof.KIFrameVal.lean ====
import proofs.«421265_j15204184228262_2_alg».proof.Proof.KIFrame
import proofs.«421265_j15204184228262_2_alg».proof.Proof.KIFrameCond

noncomputable section

namespace Cert.Proof.KI.Frame

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (L lv 𝒱₀ Eo)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

set_option backward.isDefEq.respectTransparency.types false in
theorem frame_val (hblk0 : ∀ (c : Dev nD) (t : Fin cfg0.N) (j : S8192.Idx),
      ((Reg0.iblk (Reg0.V6r m) c 0 t j : Elt F .i32) : BitVec 32).toNat + 1 ≤ 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v13) = outs m 9 main_v13 c) :=
  frame_cond_val m (EP := embL) (ι := ()) (𝒱₀ := 𝒱₀) (L := L) (lv := lv) (hL := fun _ _ => rfl) (ρ := ρ)
    (outs := outs m) (pdats := Reg0.pdats m (outs m)) (O₀ := 0) (G := fun _ => iprop(emp)) (u₀ := u₀) (hu₀ := hu₀)
    (E := fun _ c => Eo c)
    (hE0 := by
      refine Pipeline.initEach L lv fun c => ?_
      iintro ⟨⟨-, HO, -, -, -⟩, -⟩
      imodintro
      iexists ∅; iexact HO)
    (hE2 := fun _ => .rfl)
    (R0 := Reg0.reg0 m (outs m) hblk0 (hout7 m)) (hpre0 := fun _ => .rfl) (hpost0 := fun _ => .rfl)
    (R1 := Reg1.reg1 m (outs m) (Reg0.dat (Reg0.V6r m)) (hout13 m)) (hpre1 := fun _ => .rfl) (hpost1 := fun _ => .rfl)

end Cert.Proof.KI.Frame

end
-- ==== Proof.MsgValue.lean ====
import proofs.«421265_j15204184228262_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Proof.KI.Msg

open Idealize.ShloMosaic Idealize.SL.Sem Idealize.ShloMosaic.ValueIdx
open Cert.KernelIdeal

theorem toInt_setWidth_of_bit : ∀ b : BitVec 1, (b.setWidth 32).toInt = (b.toNat : ℤ) := by decide

theorem column_apply {α : Type} (x : S128.Idx → α) (h : S128.ShapeCasts S128x1) (r : Fin 128) (u : Fin 1) :
    shapeCast S128x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem spread_apply {α : Type} (y : S128x1.Idx → α) (h : S128x1.Broadcasts S128x512) (r : Fin 128) (k : Fin 512) :
    broadcastTo S128x512 y h (ix2 r k) = y (ix2 r (0 : Fin 1)) :=
  broadcastTo_apply y h _ _ (fun a => match a with
    | ⟨0, _⟩ => rfl
    | ⟨1, _⟩ => rfl)

theorem eq_word_toInt (x : BitVec 32) (k : Fin 512) :
    ((IntOp.cmpi .eq x (BitVec.ofNat 32 k.val)).setWidth 32).toInt = if x.toNat = k.val then 1 else 0 := by
  rw [toInt_setWidth_of_bit]
  have hk : (BitVec.ofNat 32 k.val).toNat = k.val := by
    rw [BitVec.toNat_ofNat]; exact Nat.mod_eq_of_lt (by have := k.isLt; omega)
  by_cases hx : x.toNat = k.val
  · have e : x = BitVec.ofNat 32 k.val := BitVec.eq_of_toNat_eq (hx.trans hk.symm)
    rw [if_pos hx, e]
    simp [IntOp.cmpi]
  · have e : x ≠ BitVec.ofNat 32 k.val := fun e => hx (by rw [e]; exact hk)
    rw [if_neg hx]
    simp [IntOp.cmpi, e]

theorem onehot_apply (et : IVec S128 32) (r : Fin 128) (k : Fin 512) :
    Gen.k0_pay2 (F := Ideal) et (ix2 r k) = if (et (ix1 r)).toNat = k.val then (1 : EReal) else 0 := by
  unfold Gen.k0_pay2
  show ((((IntOp.cmpi .eq
      (broadcastTo S128x512 (shapeCast S128x1 (shapeCast S128 et _) _) _ (ix2 r k))
      (iota .tc S128x512 32 [1] _ (ix2 r k))).setWidth 32).toInt : ℝ) : EReal) = _
  rw [spread_apply, column_apply, shapeCast_self, iota_single_apply]
  show (((((IntOp.cmpi .eq (et (ix1 r)) (BitVec.ofNat 32 k.val)).setWidth 32).toInt : ℤ) : ℝ) : EReal) = _
  rw [eq_word_toInt]
  by_cases hx : (et (ix1 r)).toNat = k.val
  · rw [if_pos hx, if_pos hx]; norm_num
  · rw [if_neg hx, if_neg hx]; norm_num

theorem lhs_product_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl

theorem lhs_product_1 (i : S128x128.Idx) (q : dot_S128x512_S512x128_S128x128_1_0_0_1_n_n.contr.Idx) :
    (dot_S128x512_S512x128_S128x128_1_0_0_1_n_n.lhsIdx i q 1).val = (q ⟨0, by decide⟩).val :=
  dot_S128x512_S512x128_S128x128_1_0_0_1_n_n.lhsIdx_val_of_single rfl i q

theorem rhs_product_0 (i : S128x128.Idx) (q : dot_S128x512_S512x128_S128x128_1_0_0_1_n_n.contr.Idx) :
    (dot_S128x512_S512x128_S128x128_1_0_0_1_n_n.rhsIdx i q 0).val = (q ⟨0, by decide⟩).val :=
  dot_S128x512_S512x128_S128x128_1_0_0_1_n_n.rhsIdx_val_of_single rfl i q

theorem rhs_product_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

theorem product_apply (a : FVec Ideal S128x512 .f32) (b : FVec Ideal S512x128 .f32) (r d : Fin 128) :
    matmul dot_S128x512_S512x128_S128x128_1_0_0_1_n_n (some .fp32) a b (constant (F := Ideal) S128x128 .f32 0x00000000#32) (ix2 r d)
      = ∑ k : Fin 512, a (ix2 r k) * b (ix2 k d) := by
  simp only [matmul]
  rw [Ideal.matmul_constant_zero_apply, ← Equiv.sum_comp (contrEquiv1 dot_S128x512_S512x128_S128x128_1_0_0_1_n_n 512 rfl rfl).symm]
  refine Finset.sum_congr rfl fun k _ => ?_
  have hk := contrEquiv1_symm_val dot_S128x512_S512x128_S128x128_1_0_0_1_n_n 512 rfl rfl k
  have el : dot_S128x512_S512x128_S128x128_1_0_0_1_n_n.lhsIdx (ix2 r d) ((contrEquiv1 dot_S128x512_S512x128_S128x128_1_0_0_1_n_n 512 rfl rfl).symm k) = ix2 r k := funext fun a => Fin.ext (by
    match a with
    | ⟨0, _⟩ => exact lhs_product_0 _ _
    | ⟨1, _⟩ => exact (lhs_product_1 _ _).trans hk)
  have er : dot_S128x512_S512x128_S128x128_1_0_0_1_n_n.rhsIdx (ix2 r d) ((contrEquiv1 dot_S128x512_S512x128_S128x128_1_0_0_1_n_n 512 rfl rfl).symm k) = ix2 k d := funext fun a => Fin.ext (by
    match a with
    | ⟨0, _⟩ => exact (rhs_product_0 _ _).trans hk
    | ⟨1, _⟩ => exact rhs_product_1 _ _)
  rw [el, er]

theorem pay1_apply (ent : FVec Ideal S128x128 .f32) (rel : FVec Ideal S512x128 .f32) (et : IVec S128 32)
    (r d : Fin 128) (h : (et (ix1 r)).toNat < 512) :
    Gen.k0_pay1 (F := Ideal) ent (Gen.k0_pay2 (F := Ideal) et) rel (ix2 r d)
      = ent (ix2 r d) * rel (ix2 (⟨(et (ix1 r)).toNat, h⟩ : Fin 512) d) := by
  unfold Gen.k0_pay1
  show ent (ix2 r d) * matmul dot_S128x512_S512x128_S128x128_1_0_0_1_n_n (some .fp32) (Gen.k0_pay2 (F := Ideal) et)
      (shapeCast S512x128 rel _) (constant (F := Ideal) S128x128 .f32 0x00000000#32) (ix2 r d) = _
  rw [shapeCast_self, product_apply]
  congr 1
  rw [Finset.sum_eq_single (⟨(et (ix1 r)).toNat, h⟩ : Fin 512)]
  · rw [onehot_apply, if_pos rfl, one_mul]
  · intro k _ hk
    rw [onehot_apply, if_neg (fun e => hk (Fin.ext e.symm)), zero_mul]
  · intro hn
    exact absurd (Finset.mem_univ _) hn

end Cert.Proof.KI.Msg
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![100000, 128]⟩
abbrev SR : Shape := ⟨2, ![500, 128]⟩
abbrev SE2 : Shape := ⟨2, ![2, 600000]⟩
abbrev SE : Shape := ⟨1, ![600000]⟩
abbrev SM : Shape := ⟨2, ![600000, 128]⟩
abbrev SW : Shape := ⟨2, ![128, 128]⟩
abbrev SD : Shape := ⟨1, ![128]⟩

def SrcOk (a2 : IVec SE2 32) : Prop :=
  ∀ e : Fin 600000, 0 ≤ (a2 (ix2 (0 : Fin 2) e)).toInt ∧ (a2 (ix2 (0 : Fin 2) e)).toInt < 100000

def TypeOk (a3 : IVec SE 32) : Prop :=
  ∀ e : Fin 600000, 0 ≤ (a3 (ix1 e)).toInt ∧ (a3 (ix1 e)).toInt < 500

def srcRow (a2 : IVec SE2 32) (e : Fin 600000) : Fin 100000 :=
  ⟨min (a2 (ix2 (0 : Fin 2) e)).toNat 99999, by omega⟩

def relRow (a3 : IVec SE 32) (e : Fin 600000) : Fin 500 :=
  ⟨min (a3 (ix1 e)).toNat 499, by omega⟩

-- The message of edge e: the source node's row times the relation's row, entry by entry.
def msg (ent : FVec Ideal SN .f32) (rel : FVec Ideal SR .f32) (a2 : IVec SE2 32) (a3 : IVec SE 32) : FVec Ideal SM .f32 :=
  fun i => ent (ix2 (srcRow a2 (i 0)) (i 1)) * rel (ix2 (relRow a3 (i 0)) (i 1))

def c128 : EReal := Ideal.ofBits .f32 0x43000000#32
def eps : EReal := Ideal.ofBits .f32 0x3727C5AC#32

section LN
variable (agg ent : FVec Ideal SN .f32) (W : FVec Ideal SW .f32) (b gamma beta : FVec Ideal SD .f32)

def pre (n : Fin 100000) (j : Fin 128) : EReal :=
  (∑ k : Fin 128, agg (ix2 n k) * W (ix2 j k)) + b (ix1 j) + ent (ix2 n j)

def mean (n : Fin 100000) : EReal := Ideal.div (∑ j : Fin 128, pre agg ent W b n j) c128

def var (n : Fin 100000) : EReal :=
  Ideal.div (∑ j : Fin 128, (pre agg ent W b n j - mean agg ent W b n) * (pre agg ent W b n j - mean agg ent W b n)) c128

-- The layer's result: agg · Wᵀ + b + ent, normalised along each row, scaled by gamma and shifted by beta.
def lnOut : FVec Ideal SN .f32 := fun i =>
  (pre agg ent W b (i 0) (i 1) - mean agg ent W b (i 0)) * Ideal.rsqrt (var agg ent W b (i 0) + eps) * gamma (ix1 (i 1)) + beta (ix1 (i 1))

end LN

end Cert.Spec

end
-- ==== Proof.HostChain.lean ====
import proofs.«421265_j15204184228262_2_alg».proof.Proof.Gen.KernelIdeal.Regions
import proofs.«421265_j15204184228262_2_alg».proof.Proof.Spec
import Idealize.ShloMosaic.Lib.KernelVsHost
import Idealize.ShloMosaic.Lib.ValueIdx

noncomputable section

namespace Cert.HostChain

open Idealize.ShloMosaic Idealize.ShloMosaic.TcCoe Idealize.ShloMosaic.ValueIdx
open Idealize.SL.Sem
open Cert.KernelIdeal Cert.KernelIdeal.Gen

variable {F : FTy → Type} [FloatOps F]
variable (m : (ℓ : Loc nD τ sig) → Buf (Elt F) ℓ)

abbrev ent (c : Dev nD) : FVec F S100000x128 .f32 := m ((c : Thread nD τ).loc main_arg0)
abbrev rel (c : Dev nD) : FVec F S500x128 .f32 := m ((c : Thread nD τ).loc main_arg1)
abbrev edges (c : Dev nD) : IVec S2x600000 32 := m ((c : Thread nD τ).loc main_arg2)
abbrev etype (c : Dev nD) : IVec S600000 32 := m ((c : Thread nD τ).loc main_arg3)

theorem V6_main_v4 (c : Dev nD) : (V6 m c main_v4 : IVec S606208 32)
    = pad S606208 ![0] ![6208] ![0]
        (shapeCast S600000 (extractStridedSlice S1x600000 ![0, 0] (edges m c) slices_S2x600000_S1x600000_0_0) shapeCasts_S1x600000_S600000)
        (constantI S_ 32 0#32) pads_S600000_S606208_062080 h_S_ := by
  dsimp only [V6, V5, V4, V3, V2, V1, V0]
  simp only [hostOps0, hostOps0_1, hostOps0_2, hostOps0_3, hostOps0_4, hostOps0_5]
  after_results
  rfl

theorem V6_main_v5 (c : Dev nD) : (V6 m c main_v5 : IVec S606208 32)
    = pad S606208 ![0] ![6208] ![0] (etype m c) (constantI S_ 32 0#32) pads_S600000_S606208_062080 h_S_ := by
  dsimp only [V6, V5, V4, V3, V2, V1, V0]
  simp only [hostOps0, hostOps0_1, hostOps0_2, hostOps0_3, hostOps0_4, hostOps0_5]
  after_results
  rfl

theorem V6_main_v6 (c : Dev nD) : (V6 m c main_v6 : FVec F S512x128 .f32)
    = pad S512x128 ![0, 0] ![12, 0] ![0, 0] (rel m c) (sitofp .f32 (constantI S_ 32 0#32) : FVec F S_ .f32)
        pads_S500x128_S512x128_0120_000 h_S_ := by
  dsimp only [V6, V5, V4, V3, V2, V1, V0]
  simp only [hostOps0, hostOps0_1, hostOps0_2, hostOps0_3, hostOps0_4, hostOps0_5]
  after_results
  rfl

theorem V6_main_arg0 (c : Dev nD) : V6 m c main_arg0 = m ((c : Thread nD τ).loc main_arg0) :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl

theorem v4_at (c : Dev nD) (j : Fin 606208) : (V6 m c main_v4 : IVec S606208 32) (ix1 j)
    = if h : j.val < 600000 then edges m c (ix2 (0 : Fin 2) (⟨j.val, h⟩ : Fin 600000)) else 0#32 := by
  refine (congrFun (V6_main_v4 m c) (ix1 j)).trans ?_
  by_cases h : j.val < 600000
  · rw [dif_pos h]
    refine (pad_apply_of_inside ![0] ![6208] ![0] _ _ pads_S600000_S606208_062080 h_S_ (ix1 j)
      (ix1 (⟨j.val, h⟩ : Fin 600000)) (fun a => by
        obtain rfl : a = 0 := Subsingleton.elim _ _
        show j.val = 0 + j.val * (0 + 1); omega)).trans ?_
    refine (shapeCast_apply _ shapeCasts_S1x600000_S600000 (ix1 (⟨j.val, h⟩ : Fin 600000))
      (ix2 (0 : Fin 1) (⟨j.val, h⟩ : Fin 600000)) (by
        rw [Shape.rowMajor_val_two, Shape.rowMajor_val_one]; show 0 * 600000 + j.val = j.val; omega)).trans ?_
    exact extractStridedSlice_apply ![0, 0] _ slices_S2x600000_S1x600000_0_0 (ix2 (0 : Fin 1) (⟨j.val, h⟩ : Fin 600000))
      (ix2 (0 : Fin 2) (⟨j.val, h⟩ : Fin 600000)) (fun a => match a with
        | ⟨0, _⟩ => rfl
        | ⟨1, _⟩ => (Nat.zero_add _).symm)
  · rw [dif_neg h]
    exact pad_apply_of_not_inside (s := S600000) (t := S606208) ![0] ![6208] ![0] _ _ pads_S600000_S606208_062080 h_S_ (ix1 j) (0 : Fin 1) (by
      show ¬(0 ≤ j.val ∧ (j.val - 0) % (0 + 1) = 0 ∧ (j.val - 0) / (0 + 1) < 600000); omega)

theorem v5_at (c : Dev nD) (j : Fin 606208) : (V6 m c main_v5 : IVec S606208 32) (ix1 j)
    = if h : j.val < 600000 then etype m c (ix1 (⟨j.val, h⟩ : Fin 600000)) else 0#32 := by
  refine (congrFun (V6_main_v5 m c) (ix1 j)).trans ?_
  by_cases h : j.val < 600000
  · rw [dif_pos h]
    exact pad_apply_of_inside ![0] ![6208] ![0] _ _ pads_S600000_S606208_062080 h_S_ (ix1 j)
      (ix1 (⟨j.val, h⟩ : Fin 600000)) (fun a => by
        obtain rfl : a = 0 := Subsingleton.elim _ _
        show j.val = 0 + j.val * (0 + 1); omega)
  · rw [dif_neg h]
    exact pad_apply_of_not_inside (s := S600000) (t := S606208) ![0] ![6208] ![0] _ _ pads_S600000_S606208_062080 h_S_ (ix1 j) (0 : Fin 1) (by
      show ¬(0 ≤ j.val ∧ (j.val - 0) % (0 + 1) = 0 ∧ (j.val - 0) / (0 + 1) < 600000); omega)

theorem v6_at (c : Dev nD) (r : Fin 512) (d : Fin 128) : (V6 m c main_v6 : FVec F S512x128 .f32) (ix2 r d)
    = if h : r.val < 500 then rel m c (ix2 (⟨r.val, h⟩ : Fin 500) d) else FloatOps.sitofp .f32 (0#32 : BitVec 32) := by
  refine (congrFun (V6_main_v6 m c) (ix2 r d)).trans ?_
  by_cases h : r.val < 500
  · rw [dif_pos h]
    exact pad_apply_of_inside ![0, 0] ![12, 0] ![0, 0] _ _ pads_S500x128_S512x128_0120_000 h_S_ (ix2 r d)
      (ix2 (⟨r.val, h⟩ : Fin 500) d) (fun a => match a with
        | ⟨0, _⟩ => by show r.val = 0 + r.val * (0 + 1); omega
        | ⟨1, _⟩ => by show d.val = 0 + d.val * (0 + 1); omega)
  · rw [dif_neg h]
    exact pad_apply_of_not_inside (s := S500x128) (t := S512x128) ![0, 0] ![12, 0] ![0, 0] _ _ pads_S500x128_S512x128_0120_000 h_S_ (ix2 r d) (0 : Fin 2) (by
      show ¬(0 ≤ r.val ∧ (r.val - 0) % (0 + 1) = 0 ∧ (r.val - 0) / (0 + 1) < 500); omega)

theorem toNat_lt_of_toInt {x : BitVec 32} {n : Nat} (h0 : 0 ≤ x.toInt) (h1 : x.toInt < n) : x.toNat < n := by
  have hx := x.isLt
  rw [BitVec.toInt_eq_toNat_cond] at h0 h1
  split at h0
  · rename_i hc; rw [if_pos hc] at h1; omega
  · omega

theorem v4_bound (c : Dev nD) (h : Cert.Spec.SrcOk (edges m c)) (j : Fin 606208) :
    ((V6 m c main_v4 : IVec S606208 32) (ix1 j)).toNat + 1 ≤ 100000 := by
  rw [v4_at]
  by_cases hj : j.val < 600000
  · rw [dif_pos hj]
    exact toNat_lt_of_toInt (h ⟨j.val, hj⟩).1 (h ⟨j.val, hj⟩).2
  · rw [dif_neg hj]; decide

theorem v5_bound (c : Dev nD) (h : Cert.Spec.TypeOk (etype m c)) (j : Fin 606208) :
    ((V6 m c main_v5 : IVec S606208 32) (ix1 j)).toNat < 500 := by
  rw [v5_at]
  by_cases hj : j.val < 600000
  · rw [dif_pos hj]
    exact toNat_lt_of_toInt (h ⟨j.val, hj⟩).1 (h ⟨j.val, hj⟩).2
  · rw [dif_neg hj]; decide

end Cert.HostChain

end
-- ==== Proof.HostChain2.lean ====
import proofs.«421265_j15204184228262_2_alg».proof.Proof.Gen.KernelIdeal.Regions
import Idealize.ShloMosaic.Lib.Pipeline.Value
import Idealize.ShloMosaic.Lib.ValueIdx

noncomputable section

namespace Cert.HostChain

open Idealize.ShloMosaic Idealize.ShloMosaic.TcCoe Idealize.ShloMosaic.ValueIdx
open Idealize.SL.Sem
open Cert.KernelIdeal Cert.KernelIdeal.Gen

variable {F : FTy → Type} [FloatOps F]

section Between
variable (W7 : Valuation τ sig (Elt F))

abbrev W8 : Valuation τ sig (Elt F) := StableHlo.after hostOps1 W7

theorem W8_main_v11 : (W8 W7 main_v11 : FVec F S100000x128 .f32)
    = Host.scatterAdd scatter_S100000x128_S600000x1_S600000x128_1_0_0_1
        (broadcastInDim S100000x128 ![] bcast_S_S100000x128 (constant S_ .f32 0x00000000#32 : FVec F S_ .f32))
        (broadcastInDim S600000x1 ![0] bcast_S600000_S600000x1_0 (W7 main_v3 : IVec S600000 32))
        (extractStridedSlice S600000x128 ![0, 0] (W7 main_v7 : FVec F S606208x128 .f32) slices_S606208x128_S600000x128_0_0) := by
  show StableHlo.after hostOps1 W7 (Proc.devRef .tc main_v11) = _
  simp only [hostOps1]
  after_results

theorem W8_main_v12 : (W8 W7 main_v12 : FVec F S128x128 .f32)
    = transpose S128x128 [1, 0] (W7 main_arg4 : FVec F S128x128 .f32) transposes_S128x128_S128x128_1_0 := by
  show StableHlo.after hostOps1 W7 (Proc.devRef .tc main_v12) = _
  simp only [hostOps1]
  after_results

theorem W8_of (r : Ref sig .tc) (h : r ∉ hostOps1_W) : W8 W7 r = W7 r :=
  StableHlo.after_of_writes_sub hostOps1 _ hostOps1_writes h

theorem W8_main_arg0 : W8 W7 main_arg0 = W7 main_arg0 := W8_of W7 main_arg0 (by decide)
theorem W8_main_arg5 : W8 W7 main_arg5 = W7 main_arg5 := W8_of W7 main_arg5 (by decide)
theorem W8_main_arg6 : W8 W7 main_arg6 = W7 main_arg6 := W8_of W7 main_arg6 (by decide)
theorem W8_main_arg7 : W8 W7 main_arg7 = W7 main_arg7 := W8_of W7 main_arg7 (by decide)

end Between

theorem slice_rows_at {α : Type} (x : S606208x128.Idx → α) (e : Fin 600000) (d : Fin 128) :
    extractStridedSlice S600000x128 ![0, 0] x slices_S606208x128_S600000x128_0_0 (ix2 e d)
      = x (ix2 (⟨e.val, Nat.lt_trans e.isLt (by decide)⟩ : Fin 606208) d) := by
  exact extractStridedSlice_apply ![0, 0] x slices_S606208x128_S600000x128_0_0 (ix2 e d) _ (fun a => match a with
    | ⟨0, _⟩ => (Nat.zero_add _).symm
    | ⟨1, _⟩ => (Nat.zero_add _).symm)

theorem transpose_at {α : Type} (w : S128x128.Idx → α) (k j : Fin 128) :
    transpose S128x128 [1, 0] w transposes_S128x128_S128x128_1_0 (ix2 k j) = w (ix2 j k) := by
  exact transpose_apply [1, 0] w transposes_S128x128_S128x128_1_0 (ix2 k j) (ix2 j k) (fun b => match b with
    | ⟨0, _⟩ => rfl
    | ⟨1, _⟩ => rfl)

variable (m : (ℓ : Loc nD τ sig) → Buf (Elt F) ℓ)

theorem V6_main_v3 (c : Dev nD) : (V6 m c main_v3 : IVec S600000 32)
    = shapeCast S600000 (extractStridedSlice S1x600000 ![1, 0] (m ((c : Thread nD τ).loc main_arg2) : IVec S2x600000 32)
        slices_S2x600000_S1x600000_1_0) shapeCasts_S1x600000_S600000 := by
  dsimp only [V6, V5, V4, V3, V2, V1, V0]
  simp only [hostOps0, hostOps0_1, hostOps0_2, hostOps0_3, hostOps0_4, hostOps0_5]
  after_results
  rfl

end Cert.HostChain

end
-- ==== Proof.BlockWords.lean ====
import proofs.«421265_j15204184228262_2_alg».proof.Proof.HostChain
import proofs.«421265_j15204184228262_2_alg».proof.Proof.Gen.KernelIdeal.Points

noncomputable section

namespace Cert.HostChain

open Idealize.ShloMosaic Idealize.ShloMosaic.TcCoe Idealize.ShloMosaic.ValueIdx
open Idealize.SL.Sem
open Cert.KernelIdeal Cert.KernelIdeal.Gen

variable {F : FTy → Type} [FloatOps F]

variable (m : (ℓ : Loc nD τ sig) → Buf (Elt F) ℓ)

theorem blk0_bound (c : Dev nD) (h : Cert.Spec.SrcOk (edges m c)) (t : Fin cfg0.N) (j : (cfg0.win 0).block.Idx) :
    ((((cfg0.win 0).blk t).view.read (Elt F) (V6 m c main_v4) j : Elt F .i32) : BitVec 32).toNat + 1 ≤ 100000 := by
  have e : (((cfg0.win 0).blk t).view.read (Elt F) (V6 m c main_v4) j : Elt F .i32)
      = (V6 m c main_v4 : IVec S606208 32) (ix1 ((((cfg0.win 0).blk t).view.emb j : S606208.Idx) 0)) := by
    show (V6 m c main_v4 : IVec S606208 32) (((cfg0.win 0).blk t).view.emb j) = _
    exact congrArg _ (eq_ix1 _)
  rw [e]
  exact v4_bound m c h _

theorem blk1_bound (c : Dev nD) (h : Cert.Spec.TypeOk (etype m c)) (t : Fin cfg0.N) (j : (cfg0.win 1).block.Idx) :
    ((((cfg0.win 1).blk t).view.read (Elt F) (V6 m c main_v5) j : Elt F .i32) : BitVec 32).toNat < 500 := by
  have e : (((cfg0.win 1).blk t).view.read (Elt F) (V6 m c main_v5) j : Elt F .i32)
      = (V6 m c main_v5 : IVec S606208 32) (ix1 ((((cfg0.win 1).blk t).view.emb j : S606208.Idx) 0)) := by
    show (V6 m c main_v5 : IVec S606208 32) (((cfg0.win 1).blk t).view.emb j) = _
    exact congrArg _ (eq_ix1 _)
  rw [e]
  exact v5_bound m c h _

end Cert.HostChain

end
-- ==== Proof.KIValue0.lean ====
import proofs.«421265_j15204184228262_2_alg».proof.Proof.R0Spec
import proofs.«421265_j15204184228262_2_alg».proof.Proof.MsgValue
import proofs.«421265_j15204184228262_2_alg».proof.Proof.HostChain
import proofs.«421265_j15204184228262_2_alg».proof.Proof.HostChain2
import proofs.«421265_j15204184228262_2_alg».proof.Proof.BlockWords
import proofs.«421265_j15204184228262_2_alg».proof.Proof.Spec
import proofs.«421265_j15204184228262_2_alg».proof.Proof.Gen.KernelIdeal.Points

noncomputable section

namespace Cert.Proof.KI.Val0

open Idealize.ShloMosaic Idealize.ShloMosaic.TcCoe Idealize.ShloMosaic.ValueIdx
open Idealize.SL.Sem
open Cert.KernelIdeal Cert.KernelIdeal.Gen
open Cert.Proof.KI Cert.HostChain

theorem tripOut_apply (s e : IVec S8192 32) (rel : FVec Ideal S512x128 .f32) (ent : FVec Ideal S100000x128 .f32)
    (k : Fin 64) (r d : Fin 128) (q : Fin 8192) (hq : R0Spec.edgeAt k r = q) (h : (e (ix1 q)).toNat < 512) :
    R0Spec.tripOut (F := Ideal) s e rel ent k (ix2 r d)
      = ent (ix2 (R0Spec.entRow (s (ix1 q))) d) * rel (ix2 (⟨(e (ix1 q)).toNat, h⟩ : Fin 512) d) := by
  subst hq
  exact Msg.pay1_apply (R0Spec.gathered (F := Ideal) s ent k) rel (R0Spec.chunk (F := Ideal) e k) r d h

theorem blockOut_apply (s e : IVec S8192 32) (rel : FVec Ideal S512x128 .f32) (ent : FVec Ideal S100000x128 .f32)
    (q : Fin 8192) (d : Fin 128) (h : (e (ix1 q)).toNat < 512) :
    R0Spec.blockOut (F := Ideal) s e rel ent (ix2 q d)
      = ent (ix2 (R0Spec.entRow (s (ix1 q))) d) * rel (ix2 (⟨(e (ix1 q)).toNat, h⟩ : Fin 512) d) := by
  exact tripOut_apply s e rel ent ⟨q.val / 128, by have := q.isLt; omega⟩ ⟨q.val % 128, Nat.mod_lt _ (by decide)⟩ d q
    (Fin.ext (by show 128 * (q.val / 128) + q.val % 128 = q.val; omega)) h

variable (m : (ℓ : Loc nD τ sig) → Buf (Elt Ideal) ℓ)

abbrev pointOut (c : Dev nD) (t : Fin cfg0.N) : FVec Ideal S8192x128 .f32 :=
  R0Spec.blockOut (F := Ideal)
    (((cfg0.win 0).blk t).view.read (Elt Ideal) (V6 m c main_v4))
    (((cfg0.win 1).blk t).view.read (Elt Ideal) (V6 m c main_v5))
    (V6 m c main_v6) (V6 m c main_arg0)

def ptOf (P : Fin 606208) : Fin cfg0.N :=
  ⟨P.val / 8192, by have h74 : cfg0.N = 74 := N_0; have := P.isLt; rw [h74]; omega⟩

def rowIn (P : Fin 606208) : Fin 8192 := ⟨P.val % 8192, Nat.mod_lt _ (by decide)⟩

def msgFull (c : Dev nD) : FVec Ideal S606208x128 .f32 :=
  fun idx => pointOut m c (ptOf (idx 0)) (ix2 (rowIn (idx 0)) (idx 1))

theorem index_facts : ∀ t : Fin cfg0.N, win0_0.index t (0 : Fin 1) = t.val ∧ win0_1.index t (0 : Fin 1) = t.val
    ∧ win0_3.index t (0 : Fin 2) = t.val ∧ win0_3.index t (1 : Fin 2) = 0 :=
  (by decide +kernel : ∀ t : Fin grid0.N, win0_0.index t (0 : Fin 1) = t.val ∧ win0_1.index t (0 : Fin 1) = t.val
    ∧ win0_3.index t (0 : Fin 2) = t.val ∧ win0_3.index t (1 : Fin 2) = 0)

theorem msgFull_apply (c : Dev nD) (P : Fin 606208) (d : Fin 128) (t : Fin cfg0.N) (q : Fin 8192)
    (hP : P.val = t.val * 8192 + q.val) : msgFull m c (ix2 P d) = pointOut m c t (ix2 q d) := by
  have ht : ptOf P = t := Fin.ext (by show P.val / 8192 = t.val; have := q.isLt; omega)
  have hq : rowIn P = q := Fin.ext (by show P.val % 8192 = q.val; have := q.isLt; omega)
  show pointOut m c (ptOf P) (ix2 (rowIn P) d) = _
  rw [ht, hq]

theorem msgFull_block (c : Dev nD) (t : Fin cfg0.N) :
    ((cfg0.win 3).blk t).view.read (Elt Ideal) (msgFull m c) = pointOut m c t := by
  funext j
  obtain ⟨q, d, rfl⟩ : ∃ (q : Fin 8192) (d : Fin 128), j = ix2 q d := ⟨j 0, j 1, eq_ix2 j⟩
  obtain ⟨-, -, e0, e1⟩ := index_facts t
  have ht : t.val < 74 := Nat.lt_of_lt_of_eq t.isLt N_0
  show msgFull m c (((cfg0.win 3).blk t).view.emb (ix2 q d)) = pointOut m c t (ix2 q d)
  have hemb : (((cfg0.win 3).blk t).view.emb (ix2 q d) : S606208x128.Idx)
      = ix2 (⟨t.val * 8192 + q.val, by have := q.isLt; omega⟩ : Fin 606208) d := by
    funext a; apply Fin.ext
    match a with
    | ⟨0, _⟩ => show win0_3.index t (0 : Fin 2) * 8192 + 1 * q.val = t.val * 8192 + q.val; rw [e0]; omega
    | ⟨1, _⟩ => show win0_3.index t (1 : Fin 2) * 128 + 1 * d.val = d.val; rw [e1]; omega
  rw [hemb]
  exact msgFull_apply m c _ d t q rfl

theorem msgFull_at (c : Dev nD) (h3 : Cert.Spec.TypeOk (etype m c)) (p : Fin 600000) (d : Fin 128) :
    msgFull m c (ix2 (⟨p.val, Nat.lt_trans p.isLt (by decide)⟩ : Fin 606208) d)
      = ent m c (ix2 (Cert.Spec.srcRow (edges m c) p) d) * rel m c (ix2 (Cert.Spec.relRow (etype m c) p) d) := by
  have hP : (⟨p.val, Nat.lt_trans p.isLt (by decide)⟩ : Fin 606208).val = p.val := rfl
  generalize hPdef : (⟨p.val, Nat.lt_trans p.isLt (by decide)⟩ : Fin 606208) = P at hP
  obtain ⟨e0, e1, -, -⟩ := index_facts (ptOf P)
  show pointOut m c (ptOf P) (ix2 (rowIn P) d) = _
  have hS : (((cfg0.win 0).blk (ptOf P)).view.read (Elt Ideal) (V6 m c main_v4) : IVec S8192 32) (ix1 (rowIn P))
      = edges m c (ix2 (0 : Fin 2) p) := by
    show (V6 m c main_v4 : IVec S606208 32) (((cfg0.win 0).blk (ptOf P)).view.emb (ix1 (rowIn P))) = _
    have hemb : (((cfg0.win 0).blk (ptOf P)).view.emb (ix1 (rowIn P)) : S606208.Idx) = ix1 P := by
      funext a; apply Fin.ext
      match a with
      | ⟨0, _⟩ =>
        show win0_0.index (ptOf P) (0 : Fin 1) * 8192 + 1 * (P.val % 8192) = P.val
        rw [e0]; show (P.val / 8192) * 8192 + 1 * (P.val % 8192) = P.val; omega
    rw [hemb, v4_at, dif_pos (show P.val < 600000 by rw [hP]; exact p.isLt)]
    exact congrArg (fun x => edges m c (ix2 (0 : Fin 2) x)) (Fin.ext hP)
  have hE : (((cfg0.win 1).blk (ptOf P)).view.read (Elt Ideal) (V6 m c main_v5) : IVec S8192 32) (ix1 (rowIn P))
      = etype m c (ix1 p) := by
    show (V6 m c main_v5 : IVec S606208 32) (((cfg0.win 1).blk (ptOf P)).view.emb (ix1 (rowIn P))) = _
    have hemb : (((cfg0.win 1).blk (ptOf P)).view.emb (ix1 (rowIn P)) : S606208.Idx) = ix1 P := by
      funext a; apply Fin.ext
      match a with
      | ⟨0, _⟩ =>
        show win0_1.index (ptOf P) (0 : Fin 1) * 8192 + 1 * (P.val % 8192) = P.val
        rw [e1]; show (P.val / 8192) * 8192 + 1 * (P.val % 8192) = P.val; omega
    rw [hemb, v5_at, dif_pos (show P.val < 600000 by rw [hP]; exact p.isLt)]
    exact congrArg (fun x => etype m c (ix1 x)) (Fin.ext hP)
  have hlt : ((((cfg0.win 1).blk (ptOf P)).view.read (Elt Ideal) (V6 m c main_v5) : IVec S8192 32) (ix1 (rowIn P))).toNat < 500 :=
    blk1_bound m c h3 (ptOf P) (ix1 (rowIn P))
  unfold pointOut
  rw [blockOut_apply _ _ _ _ (rowIn P) d (Nat.lt_trans hlt (by decide)), V6_main_arg0, v6_at, dif_pos hlt]
  have h1 : R0Spec.entRow ((((cfg0.win 0).blk (ptOf P)).view.read (Elt Ideal) (V6 m c main_v4) : IVec S8192 32) (ix1 (rowIn P)))
      = Cert.Spec.srcRow (edges m c) p := by rw [hS]; rfl
  have h2 : (⟨((((cfg0.win 1).blk (ptOf P)).view.read (Elt Ideal) (V6 m c main_v5) : IVec S8192 32) (ix1 (rowIn P))).toNat, hlt⟩ : Fin 500)
      = Cert.Spec.relRow (etype m c) p := by
    apply Fin.ext
    show ((((cfg0.win 1).blk (ptOf P)).view.read (Elt Ideal) (V6 m c main_v5) : IVec S8192 32) (ix1 (rowIn P))).toNat
      = min (etype m c (ix1 p)).toNat 499
    rw [← hE]; omega
  rw [h1, h2]

theorem msg_slice (c : Dev nD) (h2 : Cert.Spec.SrcOk (edges m c)) (h3 : Cert.Spec.TypeOk (etype m c)) :
    extractStridedSlice S600000x128 ![0, 0] (msgFull m c) slices_S606208x128_S600000x128_0_0
      = Cert.Spec.msg (ent m c) (rel m c) (edges m c) (etype m c) := by
  have _ := h2
  funext i
  obtain ⟨p, d, rfl⟩ : ∃ (p : Fin 600000) (d : Fin 128), i = ix2 p d := ⟨i 0, i 1, eq_ix2 i⟩
  rw [slice_rows_at]
  exact msgFull_at m c h3 p d

end Cert.Proof.KI.Val0

end
-- ==== Proof.R1Value.lean ====
import proofs.«421265_j15204184228262_2_alg».proof.Proof.Spec
import proofs.«421265_j15204184228262_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Proof.KI.R1

open Cert.KernelIdeal Cert.KernelIdeal.Gen
open Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rsqrt_apply {s : Shape} {φ : FTy} (a : FVec Ideal s φ) (i : s.Idx) : rsqrt a i = Ideal.rsqrt (a i) := rfl

theorem rowSum_apply (x : FVec Ideal S2000x128 .f32) (h : S2000x128.Reduces [1] S2000) (hφ : FKind.Formats .f32)
    (hacc : (0x00000000#32 : BitVec 32) = 0x00000000#32) (r : Fin 2000) :
    multiReduction (F := Ideal) .add [1] S2000 x 0x00000000#32 h hφ hacc (ix1 r) = ∑ j : Fin 128, x (ix2 r j) := by
  refine (Ideal.multiReduction_add_single x 0x00000000#32 h hφ hacc (ix1 r)).trans ?_
  refine Finset.sum_congr rfl fun j _ => congrArg x (funext fun a => Fin.ext ?_)
  match a with
  | ⟨0, _⟩ => rfl
  | ⟨1, _⟩ => rfl

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm_apply (x : FVec Ideal S2000x128 .bf16) (w : FVec Ideal S128x128 .bf16) (r : Fin 2000) (j : Fin 128) :
    matmul dot_S2000x128_S128x128_S2000x128_1_0_0_1_n_n none x w (constant (F := Ideal) S2000x128 .f32 0x00000000#32) (ix2 r j)
      = ∑ k : Fin 128, x (ix2 r k) * w (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

section Blk
variable (agg ent : FVec Ideal S2000x128 .f32) (wt : FVec Ideal S128x128 .f32) (b gamma beta : FVec Ideal S128 .f32)

def preB (r : Fin 2000) (j : Fin 128) : EReal :=
  (∑ k : Fin 128, agg (ix2 r k) * wt (ix2 k j)) + b (ix1 j) + ent (ix2 r j)

def meanB (r : Fin 2000) : EReal := Ideal.div (∑ j : Fin 128, preB agg ent wt b r j) Cert.Spec.c128

def varB (r : Fin 2000) : EReal :=
  Ideal.div (∑ j : Fin 128, (preB agg ent wt b r j - meanB agg ent wt b r) * (preB agg ent wt b r j - meanB agg ent wt b r)) Cert.Spec.c128

def lnB (r : Fin 2000) (j : Fin 128) : EReal :=
  (preB agg ent wt b r j - meanB agg ent wt b r) * Ideal.rsqrt (varB agg ent wt b r + Cert.Spec.eps) * gamma (ix1 j) + beta (ix1 j)

theorem k1_pay1_apply (r : Fin 2000) (j : Fin 128) :
    k1_pay1 (F := Ideal) agg wt b ent gamma beta (ix2 r j) = lnB agg ent wt b gamma beta r j := by
  unfold k1_pay1

  simp only [addf_apply, mulf_apply, subf_apply, divf_apply, broadcast_apply, broadcastTo_a1_ab_apply, broadcastTo_1b_ab_apply,
    shapeCast_a_a1_apply, shapeCast_a_1a_apply, mm_apply, shapeCast_self, truncf_apply, rsqrt_apply]

  rw [rowSum_apply, rowSum_apply]
  simp only [addf_apply, mulf_apply, subf_apply, divf_apply, broadcast_apply, broadcastTo_a1_ab_apply, broadcastTo_1b_ab_apply,
    shapeCast_a_a1_apply, shapeCast_a_1a_apply, mm_apply, shapeCast_self, truncf_apply, rsqrt_apply]
  rw [rowSum_apply]
  simp only [addf_apply, mulf_apply, subf_apply, divf_apply, broadcast_apply, broadcastTo_a1_ab_apply, broadcastTo_1b_ab_apply,
    shapeCast_a_a1_apply, shapeCast_a_1a_apply, mm_apply, shapeCast_self, truncf_apply, rsqrt_apply]
  unfold lnB varB meanB preB Cert.Spec.c128 Cert.Spec.eps
  rfl

end Blk

theorem lnB_eq_lnOut (Agg Ent : FVec Ideal Cert.Spec.SN .f32) (W : FVec Ideal Cert.Spec.SW .f32)
    (b gamma beta : FVec Ideal S128 .f32) (agg ent : FVec Ideal S2000x128 .f32) (wt : FVec Ideal S128x128 .f32)
    (r : Fin 2000) (n : Fin 100000)
    (hagg : ∀ k : Fin 128, agg (ix2 r k) = Agg (ix2 n k)) (hent : ∀ k : Fin 128, ent (ix2 r k) = Ent (ix2 n k))
    (hwt : ∀ k j : Fin 128, wt (ix2 k j) = W (ix2 j k)) (j : Fin 128) :
    lnB agg ent wt b gamma beta r j = Cert.Spec.lnOut Agg Ent W b gamma beta (ix2 n j) := by
  have hpre : ∀ j' : Fin 128, preB agg ent wt b r j' = Cert.Spec.pre Agg Ent W b n j' := fun j' => by
    unfold preB Cert.Spec.pre
    simp only [hagg, hent, hwt]
  unfold lnB varB meanB Cert.Spec.lnOut Cert.Spec.var Cert.Spec.mean
  simp only [hpre]

end Cert.Proof.KI.R1

end
-- ==== Proof.KIValue1.lean ====
import proofs.«421265_j15204184228262_2_alg».proof.Proof.KIRegion1
import proofs.«421265_j15204184228262_2_alg».proof.Proof.R1Value
import Idealize.ShloMosaic.Lib.Pipeline.Value
import Idealize.ShloMosaic.Lib.ValueIdx

noncomputable section

namespace Cert.Proof.KI.Val1

open Cert.KernelIdeal Cert.KernelIdeal.Gen
open Idealize.ShloMosaic Idealize.ShloMosaic.TcCoe Idealize.SL.Sem Idealize.ShloMosaic.ValueIdx
open Idealize.ShloMosaic.Pipeline (Dat)
open Cert.Proof.KI.Reg1 (iblk dat)
open Cert.Proof.KI.R1 (k1_pay1_apply lnB_eq_lnOut)

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

def rowOf (t : Fin cfg1.N) (r : Fin 2000) : Fin 100000 :=
  ⟨2000 * t.val + r.val, by have h : t.val < 50 := lt_of_lt_of_eq t.isLt N_1; have := r.isLt; omega⟩

section Reads
variable {F : FTy → Type} [FloatOps F] (c : Dev nD)

theorem blk0_apply (X : Buf (Elt F) ((c : Thread nD τ).loc main_v11)) (t : Fin cfg1.N) (r : Fin 2000) (k : Fin 128) :
    (((cfg1.win 0).blk t).view.read (Elt F) X : S2000x128.Idx → Elt F .f32) (ix2 r k)
      = (X : S100000x128.Idx → Elt F .f32) (ix2 (rowOf t r) k) := by
  obtain ⟨e0, e1, -⟩ := idx_facts t
  rw [View.read_apply]
  show X _ = X _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 128 + 1 * k.val = k.val; rw [e1]; omega

theorem blk1_apply (X : Buf (Elt F) ((c : Thread nD τ).loc main_arg0)) (t : Fin cfg1.N) (r : Fin 2000) (k : Fin 128) :
    (((cfg1.win 1).blk t).view.read (Elt F) X : S2000x128.Idx → Elt F .f32) (ix2 r k)
      = (X : S100000x128.Idx → Elt F .f32) (ix2 (rowOf t r) k) := by
  obtain ⟨-, -, e0, e1, -⟩ := idx_facts t
  rw [View.read_apply]
  show X _ = X _
  congr 1
  funext a
  apply Fin.ext
  match a with
  | ⟨0, _⟩ => show win1_1.index t (0 : Fin 2) * 2000 + 1 * r.val = 2000 * t.val + r.val; rw [e0]; omega
  | ⟨1, _⟩ => show win1_1.index t (1 : Fin 2) * 128 + 1 * k.val = k.val; rw [e1]; omega

theorem blk6_apply (X : Buf (Elt F) ((c : Thread nD τ).loc main_v13)) (t : Fin cfg1.N) (r : Fin 2000) (k : Fin 128) :
    (((cfg1.win 6).blk t).view.read (Elt F) X : S2000x128.Idx → Elt F .f32) (ix2 r k)
      = (X : S100000x128.Idx → Elt F .f32) (ix2 (rowOf t r) k) := by
  obtain ⟨-, -, -, -, -, -, -, -, -, e0, e1⟩ := idx_facts t
  rw [View.read_apply]
  show X _ = X _
  congr 1
  funext a
  apply Fin.ext
  match a with
  | ⟨0, _⟩ => show win1_6.index t (0 : Fin 2) * 2000 + 1 * r.val = 2000 * t.val + r.val; rw [e0]; omega
  | ⟨1, _⟩ => show win1_6.index t (1 : Fin 2) * 128 + 1 * k.val = k.val; rw [e1]; omega

theorem blk2_apply (X : Buf (Elt F) ((c : Thread nD τ).loc main_v12)) (t : Fin cfg1.N) (k j : Fin 128) :
    (((cfg1.win 2).blk t).view.read (Elt F) X : S128x128.Idx → Elt F .f32) (ix2 k j)
      = (X : S128x128.Idx → Elt F .f32) (ix2 k j) := by
  obtain ⟨-, -, -, -, e0, e1, -⟩ := idx_facts t
  rw [View.read_apply]
  show X _ = X _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * j.val = j.val; rw [e1]; omega

theorem blk3_eq (X : Buf (Elt F) ((c : Thread nD τ).loc main_arg5)) (t : Fin cfg1.N) :
    (((cfg1.win 3).blk t).view.read (Elt F) X : S128.Idx → Elt F .f32) = (X : S128.Idx → Elt F .f32) := by
  obtain ⟨-, -, -, -, -, -, e0, -⟩ := idx_facts t
  funext y
  rw [View.read_apply]
  show X _ = X _
  congr 1
  funext a
  apply Fin.ext
  match a with
  | ⟨0, _⟩ => show win1_3.index t (0 : Fin 1) * 128 + 1 * (y 0).val = (y 0).val; rw [e0]; omega

theorem blk4_eq (X : Buf (Elt F) ((c : Thread nD τ).loc main_arg6)) (t : Fin cfg1.N) :
    (((cfg1.win 4).blk t).view.read (Elt F) X : S128.Idx → Elt F .f32) = (X : S128.Idx → Elt F .f32) := by
  obtain ⟨-, -, -, -, -, -, -, e0, -⟩ := idx_facts t
  funext y
  rw [View.read_apply]
  show X _ = X _
  congr 1
  funext a
  apply Fin.ext
  match a with
  | ⟨0, _⟩ => show win1_4.index t (0 : Fin 1) * 128 + 1 * (y 0).val = (y 0).val; rw [e0]; omega

theorem blk5_eq (X : Buf (Elt F) ((c : Thread nD τ).loc main_arg7)) (t : Fin cfg1.N) :
    (((cfg1.win 5).blk t).view.read (Elt F) X : S128.Idx → Elt F .f32) = (X : S128.Idx → Elt F .f32) := by
  obtain ⟨-, -, -, -, -, -, -, -, e0, -⟩ := idx_facts t
  funext y
  rw [View.read_apply]
  show X _ = X _
  congr 1
  funext a
  apply Fin.ext
  match a with
  | ⟨0, _⟩ => show win1_5.index t (0 : Fin 1) * 128 + 1 * (y 0).val = (y 0).val; rw [e0]; omega

end Reads

theorem pay_at (Agg Ent : FVec Ideal Cert.Spec.SN .f32) (W : FVec Ideal Cert.Spec.SW .f32) (b gamma beta : FVec Ideal S128 .f32)
    (agg ent : FVec Ideal S2000x128 .f32) (wt : FVec Ideal S128x128 .f32) (b' gamma' beta' : FVec Ideal S128 .f32)
    (r : Fin 2000) (n : Fin 100000)
    (hagg : ∀ k : Fin 128, agg (ix2 r k) = Agg (ix2 n k)) (hent : ∀ k : Fin 128, ent (ix2 r k) = Ent (ix2 n k))
    (hwt : ∀ k j : Fin 128, wt (ix2 k j) = W (ix2 j k)) (hb : b' = b) (hg : gamma' = gamma) (hbeta : beta' = beta) (j : Fin 128) :
    k1_pay1 (F := Ideal) agg wt b' ent gamma' beta' (ix2 r j) = Cert.Spec.lnOut Agg Ent W b gamma beta (ix2 n j) := by
  subst hb hg hbeta
  exact (k1_pay1_apply agg ent wt b' gamma' beta' r j).trans (lnB_eq_lnOut Agg Ent W b' gamma' beta' agg ent wt r n hagg hent hwt j)

variable (V : (c : Dev nD) → (b : Ref sig .tc) → Buf (Elt Ideal) ((c : Thread nD τ).loc b))

abbrev G1 (c : Dev nD) (W : FVec Ideal Cert.Spec.SW .f32) : Buf (Elt Ideal) ((c : Thread nD τ).loc main_v13) :=
  Cert.Spec.lnOut (V c main_v11) (V c main_arg0) W (V c main_arg5) (V c main_arg6) (V c main_arg7)

theorem flushed_eq (c : Dev nD) (W : FVec Ideal Cert.Spec.SW .f32)
    (hwt : ∀ k j : Fin 128, (V c main_v12 : S128x128.Idx → EReal) (ix2 k j) = W (ix2 j k)) (t : Fin cfg1.N) :
    (dat V c).flushed 6 t = ((cfg1.win 6).blk t).view.read (Elt Ideal) (G1 V c W) := by
  show (cfg1.win 6).cut (grid1.coords t) ((dat V c).after 6 t) = _
  show (k1_pay1 (F := Ideal) (iblk V c 0 t) (iblk V c 2 t) (iblk V c 3 t) (iblk V c 1 t) (iblk V c 4 t) (iblk V c 5 t) : S2000x128.Idx → EReal)
      = (((cfg1.win 6).blk t).view.read (Elt Ideal) (G1 V c W) : S2000x128.Idx → EReal)
  funext y
  obtain ⟨r, j, rfl⟩ : ∃ (r : Fin 2000) (j : Fin 128), y = ix2 r j := ⟨y 0, y 1, eq_ix2 y⟩
  refine Eq.trans ?_ (blk6_apply c (G1 V c W) t r j).symm
  exact pay_at (V c main_v11) (V c main_arg0) W (V c main_arg5) (V c main_arg6) (V c main_arg7)
    (iblk V c 0 t) (iblk V c 1 t) (iblk V c 2 t) (iblk V c 3 t) (iblk V c 4 t) (iblk V c 5 t) r (rowOf t r)
    (fun k => blk0_apply c (V c main_v11) t r k) (fun k => blk1_apply c (V c main_arg0) t r k)
    (fun k j => (blk2_apply c (V c main_v12) t k j).trans (hwt k j))
    (blk3_eq c (V c main_arg5) t) (blk4_eq c (V c main_arg6) t) (blk5_eq c (V c main_arg7) t) j

theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v13).slice (win1_6.rect t)).set ↔ _
  rw [View.set_slice_whole, Rect.mem_set_unit]
  exact Iff.rfl

theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  refine ⟨t, flush1_6 t, ?_⟩
  obtain ⟨-, -, -, -, -, -, -, -, -, e0, e1⟩ := idx_facts t
  rw [mem_blk]
  intro a
  match a with
  | ⟨0, _⟩ => show win1_6.index t (0 : Fin 2) * 2000 ≤ (i 0).val ∧ (i 0).val < win1_6.index t (0 : Fin 2) * 2000 + 2000
              rw [e0]; show (i 0).val / 2000 * 2000 ≤ (i 0).val ∧ (i 0).val < (i 0).val / 2000 * 2000 + 2000; omega
  | ⟨1, _⟩ => show win1_6.index t (1 : Fin 2) * 128 ≤ (i 1).val ∧ (i 1).val < win1_6.index t (1 : Fin 2) * 128 + 128
              rw [e1]; omega

theorem arr1_eq (c : Dev nD) (W : FVec Ideal Cert.Spec.SW .f32)
    (hwt : ∀ k j : Fin 128, (V c main_v12 : S128x128.Idx → EReal) (ix2 k j) = W (ix2 j k)) :
    (dat V c).arrAt 6 cfg1.N = G1 V c W :=
  (dat V c).arrAt_eq_of_cover 6 (G1 V c W) (fun t _ => flushed_eq V c W hwt t) cover

end Cert.Proof.KI.Val1

end
-- ==== Proof.KIValue.lean ====
import proofs.«421265_j15204184228262_2_alg».proof.Proof.KIRegion0
import proofs.«421265_j15204184228262_2_alg».proof.Proof.KIValue0
import proofs.«421265_j15204184228262_2_alg».proof.Proof.KIValue1
import proofs.«421265_j15204184228262_2_alg».proof.Proof.HostChain
import proofs.«421265_j15204184228262_2_alg».proof.Proof.HostChain2
import proofs.«421265_j15204184228262_2_alg».proof.Proof.Spec

noncomputable section

namespace Cert.Proof.KI.Val

open Cert.KernelIdeal Cert.KernelIdeal.Gen
open Idealize.ShloMosaic Idealize.ShloMosaic.TcCoe Idealize.SL.Sem Idealize.ShloMosaic.ValueIdx
open Idealize.ShloMosaic.Pipeline (Dat)
open Cert.HostChain

theorem idx_facts0 : ∀ t : Fin cfg0.N, win0_3.index t (0 : Fin 2) = t.val ∧ win0_3.index t (1 : Fin 2) = 0 :=
  (by decide +kernel : ∀ t : Fin grid0.N, _)

theorem mem_blk0 (t : Fin cfg0.N) (i : S606208x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v7).slice (win0_3.rect t)).set ↔ _
  rw [View.set_slice_whole, Rect.mem_set_unit]
  exact Iff.rfl

theorem cover0 (i : S606208x128.Idx) : ∃ t : Fin cfg0.N, (cfg0.win 3).flush t = true ∧ i ∈ ((cfg0.win 3).blk t).view.set := by
  have hi0 : (i 0).val < 606208 := (i 0).isLt
  have hi1 : (i 1).val < 128 := (i 1).isLt
  have hN : cfg0.N = 74 := N_0
  let t : Fin cfg0.N := ⟨(i 0).val / 8192, by rw [hN]; omega⟩
  refine ⟨t, flush0_3 t, ?_⟩
  obtain ⟨e0, e1⟩ := idx_facts0 t
  rw [mem_blk0]
  intro a
  match a with
  | ⟨0, _⟩ => show win0_3.index t (0 : Fin 2) * 8192 ≤ (i 0).val ∧ (i 0).val < win0_3.index t (0 : Fin 2) * 8192 + 8192
              rw [e0]; show (i 0).val / 8192 * 8192 ≤ (i 0).val ∧ (i 0).val < (i 0).val / 8192 * 8192 + 8192; omega
  | ⟨1, _⟩ => show win0_3.index t (1 : Fin 2) * 128 ≤ (i 1).val ∧ (i 1).val < win0_3.index t (1 : Fin 2) * 128 + 128
              rw [e1]; omega

variable (m : (ℓ : Loc nD τ sig) → Buf (Elt Ideal) ℓ)

theorem flushed0_eq (c : Dev nD) (t : Fin cfg0.N) :
    (Reg0.dat (Reg0.V6r m) c).flushed 3 t = ((cfg0.win 3).blk t).view.read (Elt Ideal) (Val0.msgFull m c) := by
  rw [Val0.msgFull_block]
  show (cfg0.win 3).cut (grid0.coords t) ((Reg0.dat (Reg0.V6r m) c).after 3 t) = _
  rfl

theorem arr0_eq (c : Dev nD) : (Reg0.dat (Reg0.V6r m) c).arrAt 3 cfg0.N = Val0.msgFull m c :=
  (Reg0.dat (Reg0.V6r m) c).arrAt_eq_of_cover 3 (Val0.msgFull m c) (fun t _ => flushed0_eq m c t) cover0

abbrev aggOf (c : Dev nD) : FVec Ideal S100000x128 .f32 :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 (V6 m c main_v3 : IVec S600000 32))
    (Cert.Spec.msg (ent m c) (rel m c) (edges m c) (etype m c))

abbrev resultOf (c : Dev nD) : FVec Ideal S100000x128 .f32 :=
  Cert.Spec.lnOut (aggOf m c) (ent m c) (m ((c : Thread nD τ).loc main_arg4)) (m ((c : Thread nD τ).loc main_arg5))
    (m ((c : Thread nD τ).loc main_arg6)) (m ((c : Thread nD τ).loc main_arg7))

theorem resultOf_eq (c : Dev nD) : resultOf m c
    = Cert.Spec.lnOut (Host.scatterAdd (F := Ideal) scatter_S100000x128_S600000x1_S600000x128_1_0_0_1
        (broadcastInDim S100000x128 ![] bcast_S_S100000x128 (constant (F := Ideal) S_ .f32 0x00000000#32))
        (broadcastInDim S600000x1 ![0] bcast_S600000_S600000x1_0
          (shapeCast S600000 (extractStridedSlice S1x600000 ![1, 0] (edges m c) slices_S2x600000_S1x600000_1_0) shapeCasts_S1x600000_S600000))
        (Cert.Spec.msg (ent m c) (rel m c) (edges m c) (etype m c)))
      (ent m c) (m ((c : Thread nD τ).loc main_arg4)) (m ((c : Thread nD τ).loc main_arg5))
      (m ((c : Thread nD τ).loc main_arg6)) (m ((c : Thread nD τ).loc main_arg7)) := by
  show Cert.Spec.lnOut (Host.scatterAdd (F := Ideal) scatter_S100000x128_S600000x1_S600000x128_1_0_0_1 _
      (broadcastInDim S600000x1 ![0] bcast_S600000_S600000x1_0 (V6 m c main_v3 : IVec S600000 32)) _) _ _ _ _ _ = _
  rw [V6_main_v3]

theorem second_launch (W7 : Valuation τ sig (Elt Ideal)) (c : Dev nD)
    (hmsg : extractStridedSlice S600000x128 ![0, 0] (W7 main_v7 : FVec Ideal S606208x128 .f32) slices_S606208x128_S600000x128_0_0
      = Cert.Spec.msg (ent m c) (rel m c) (edges m c) (etype m c))
    (hv3 : W7 main_v3 = V6 m c main_v3)
    (h0 : W7 main_arg0 = m ((c : Thread nD τ).loc main_arg0)) (h4 : W7 main_arg4 = m ((c : Thread nD τ).loc main_arg4))
    (h5 : W7 main_arg5 = m ((c : Thread nD τ).loc main_arg5)) (h6 : W7 main_arg6 = m ((c : Thread nD τ).loc main_arg6))
    (h7 : W7 main_arg7 = m ((c : Thread nD τ).loc main_arg7))
    (V : (c : Dev nD) → (b : Ref sig .tc) → Buf (Elt Ideal) ((c : Thread nD τ).loc b)) (hV : ∀ b : Ref sig .tc, V c b = W8 W7 b) :
    (Reg1.dat V c).arrAt 6 cfg1.N = resultOf m c := by
  have hwt : ∀ k j : Fin 128, (V c main_v12 : S128x128.Idx → EReal) (ix2 k j)
      = (m ((c : Thread nD τ).loc main_arg4) : FVec Ideal Cert.Spec.SW .f32) (ix2 j k) := fun k j => by
    rw [hV main_v12, W8_main_v12, transpose_at, h4]
  rw [Val1.arr1_eq V c (m ((c : Thread nD τ).loc main_arg4)) hwt]
  show Cert.Spec.lnOut (V c main_v11) (V c main_arg0) _ (V c main_arg5) (V c main_arg6) (V c main_arg7) = _
  rw [hV main_v11, hV main_arg0, hV main_arg5, hV main_arg6, hV main_arg7, W8_main_v11, W8_main_arg0, W8_main_arg5,
    W8_main_arg6, W8_main_arg7, hmsg, hv3, h0, h5, h6, h7]

theorem V6_kept (c : Dev nD) (r : Ref sig .tc) (h6 : r ∉ hostOps0_5_W) (h5 : r ∉ hostOps0_4_W) (h4 : r ∉ hostOps0_3_W)
    (h3 : r ∉ hostOps0_2_W) (h2 : r ∉ hostOps0_1_W) (h1 : r ∉ hostOps0_W) : V6 m c r = m ((c : Thread nD τ).loc r) :=
  (V6_of m c r h6).trans <| (V5_of m c r h5).trans <| (V4_of m c r h4).trans <| (V3_of m c r h3).trans <|
    (V2_of m c r h2).trans <| (V1_of m c r h1).trans rfl

abbrev upd7 (c : Dev nD) (X : Buf (Elt Ideal) ((c : Thread nD τ).loc main_v7)) : Valuation τ sig (Elt Ideal) :=
  Function.update (V6 m c) main_v7 X

theorem upd7_of_ne (c : Dev nD) (X : Buf (Elt Ideal) ((c : Thread nD τ).loc main_v7)) (r : Ref sig .tc) (h : r ≠ main_v7) :
    upd7 m c X r = V6 m c r :=
  Function.update_of_ne (StableHlo.devRef_ne_of_ne h : (Proc.devRef .tc r : DevRef τ sig) ≠ Proc.devRef .tc main_v7) _ _

theorem value_after (c : Dev nD) (X : Buf (Elt Ideal) ((c : Thread nD τ).loc main_v7))
    (hX : X = (Reg0.dat (Reg0.V6r m) c).arrAt 3 cfg0.N)
    (h2 : Cert.Spec.SrcOk (edges m c)) (h3 : Cert.Spec.TypeOk (etype m c))
    (V : (c : Dev nD) → (b : Ref sig .tc) → Buf (Elt Ideal) ((c : Thread nD τ).loc b))
    (hV : ∀ b : Ref sig .tc, V c b = W8 (upd7 m c X) b) :
    (Reg1.dat V c).arrAt 6 cfg1.N = resultOf m c := by
  refine second_launch m (upd7 m c X) c ?_ (upd7_of_ne m c X main_v3 (by decide))
    ((upd7_of_ne m c X main_arg0 (by decide)).trans (V6_kept m c main_arg0 (by decide) (by decide) (by decide) (by decide) (by decide) (by decide)))
    ((upd7_of_ne m c X main_arg4 (by decide)).trans (V6_kept m c main_arg4 (by decide) (by decide) (by decide) (by decide) (by decide) (by decide)))
    ((upd7_of_ne m c X main_arg5 (by decide)).trans (V6_kept m c main_arg5 (by decide) (by decide) (by decide) (by decide) (by decide) (by decide)))
    ((upd7_of_ne m c X main_arg6 (by decide)).trans (V6_kept m c main_arg6 (by decide) (by decide) (by decide) (by decide) (by decide) (by decide)))
    ((upd7_of_ne m c X main_arg7 (by decide)).trans (V6_kept m c main_arg7 (by decide) (by decide) (by decide) (by decide) (by decide) (by decide)))
    V hV
  have e7 : (upd7 m c X main_v7 : FVec Ideal S606208x128 .f32) = Val0.msgFull m c := by
    show Function.update (V6 m c) (Proc.devRef .tc main_v7) X (Proc.devRef .tc main_v7) = _
    rw [Function.update_self, hX, arr0_eq]
  rw [e7]
  exact Val0.msg_slice m c h2 h3

theorem kernel_value_outs (outs : Outs (F := Ideal)) (c : Dev nD)
    (hout7 : outs 7 main_v7 c = (Reg0.dat (Reg0.V6r m) c).arrAt 3 cfg0.N)
    (h2 : Cert.Spec.SrcOk (edges m c)) (h3 : Cert.Spec.TypeOk (etype m c)) :
    (Reg1.dat (Reg1.V8r m outs) c).arrAt 6 cfg1.N = resultOf m c :=
  value_after m c (outs 7 main_v7 c) hout7 h2 h3 (Reg1.V8r m outs) (fun _ => rfl)

def o7 (c : Dev nD) : Buf (Elt Ideal) ((c : Thread nD τ).loc main_v7) := (Reg0.dat (Reg0.V6r m) c).arrAt 3 cfg0.N

abbrev W7 (c : Dev nD) : Valuation τ sig (Elt Ideal) := Function.update (V6 m c) main_v7 (o7 m c)

abbrev W8v (c : Dev nD) : Valuation τ sig (Elt Ideal) := StableHlo.after hostOps1 (W7 m c)
abbrev W8r (c : Dev nD) (b : Ref sig .tc) : Buf (Elt Ideal) ((c : Thread nD τ).loc b) := W8v m c b

def o13 (c : Dev nD) : Buf (Elt Ideal) ((c : Thread nD τ).loc main_v13) := (Reg1.dat (W8r m) c).arrAt 6 cfg1.N

abbrev W9 (c : Dev nD) : Valuation τ sig (Elt Ideal) := Function.update (W8v m c) main_v13 (o13 m c)

theorem kernel_value (c : Dev nD) (h2 : Cert.Spec.SrcOk (edges m c)) (h3 : Cert.Spec.TypeOk (etype m c)) :
    o13 m c = resultOf m c :=
  value_after m c (o7 m c) rfl h2 h3 (W8r m) (fun _ => rfl)

end Cert.Proof.KI.Val

end
-- ==== Proof.RefBase.lean ====
import proofs.«421265_j15204184228262_2_alg».proof.Proof.Gen.ReferenceIdeal.Run
import proofs.«421265_j15204184228262_2_alg».proof.Proof.Gen.ReferenceIdeal.Read
-- ==== Proof.LibRowIndexed.lean ====
import Idealize.ShloMosaic.PureOps
import Idealize.ShloMosaic.Lib.ValueIdx
import Idealize.ShloMosaic.Lib.StableHlo.Predicate

namespace Idealize.ShloMosaic.RowIndexed

open Idealize.ShloMosaic Idealize.ShloMosaic.ValueIdx Idealize.ShloMosaic.StableHlo.Predicate

abbrev rowGather (N C n : Nat) (sb : List (Fin 2)) (ss : Fin 2 → Nat)
    (wf : GatherDims.WF ⟨2, ![N, C]⟩ ⟨2, ![n, 1]⟩ ⟨2, ![n, C]⟩ [1] [0] [] [0] sb 1 ss) :
    GatherDims ⟨2, ![N, C]⟩ ⟨2, ![n, 1]⟩ ⟨2, ![n, C]⟩ :=
  ⟨[1], [0], [], sb, [0], 1, ss, wf⟩

theorem rowGather_apply {α : Type} {N C n w : Nat} (sb : List (Fin 2)) (ss : Fin 2 → Nat)
    (wf : GatherDims.WF ⟨2, ![N, C]⟩ ⟨2, ![n, 1]⟩ ⟨2, ![n, C]⟩ [1] [0] [] [0] sb 1 ss)
    (x : (⟨2, ![N, C]⟩ : Shape).Idx → α) (idx : IVec ⟨2, ![n, 1]⟩ w) (p : Fin n) (q : Fin C) (hN : 0 < N) :
    Host.gather (rowGather N C n sb ss wf) x idx (ix2 p q) = x (ix2 ⟨min (idx (ixP p)).toInt.toNat (N - 1), by omega⟩ q) := by
  unfold Host.gather
  congr 1
  funext a
  apply Fin.ext
  match a with
  | ⟨0, h0⟩ =>
    show (rowGather N C n sb ss wf).start (ix2 p q) idx ⟨0, h0⟩ + (rowGather N C n sb ss wf).batchCoord (ix2 p q) ⟨0, h0⟩
      + (rowGather N C n sb ss wf).offCoord (ix2 p q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N C n sb ss wf).startIndexMap from List.mem_singleton.mpr rfl)]
    have hsl : ss 0 = 1 := (rowGather N C n sb ss wf).slice_collapsed 0 (List.mem_singleton.mpr rfl)
    have hsi : (rowGather N C n sb ss wf).siIdx (ix2 p q) ⟨List.idxOf (⟨0, h0⟩ : Fin 2) (rowGather N C n sb ss wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    show min (idx (ixP p)).toInt.toNat (N - ss 0) = _
    rw [hsl]
  | ⟨1, h1⟩ =>
    show (rowGather N C n sb ss wf).start (ix2 p q) idx ⟨1, h1⟩ + (rowGather N C n sb ss wf).batchCoord (ix2 p q) ⟨1, h1⟩
      + (rowGather N C n sb ss wf).offCoord (ix2 p q) ⟨1, h1⟩ = _
    rw [GatherDims.batchCoord_eq_zero _ _ _ List.not_mem_nil]
    unfold GatherDims.start
    rw [dif_neg (fun h => absurd (congrArg Fin.val (List.mem_singleton.mp h)) Nat.one_ne_zero)]
    simp only [Nat.zero_add, Nat.add_zero]
    rfl

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  obtain ⟨od, cd, ob, sb, sim, ivd, ss, wf⟩ := d
  dsimp only at hoff hcoll hob hsim hivd
  subst hoff hcoll hob hsim hivd
  exact rowGather_apply sb ss wf x idx p q hN

end Idealize.ShloMosaic.RowIndexed
-- ==== Proof.RefValue.lean ====
import proofs.«421265_j15204184228262_2_alg».proof.Proof.RefBase
import proofs.«421265_j15204184228262_2_alg».proof.Proof.Spec
import proofs.«421265_j15204184228262_2_alg».proof.Proof.LibRowIndexed

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section
variable (a0 : FVec Ideal Cert.Spec.SN .f32) (a1 : FVec Ideal Cert.Spec.SR .f32) (a2 : IVec Cert.Spec.SE2 32)
  (a3 : IVec Cert.Spec.SE 32) (a4 : FVec Ideal Cert.Spec.SW .f32) (a5 a6 a7 : FVec Ideal Cert.Spec.SD .f32)

theorem wrap_id (x N : BitVec 32) (h0 : 0 ≤ x.toInt) :
    Scalar.select (IntOp.cmpi .slt x 0#32) (IntOp.addi x N) x = x := by
  have hz : (0#32 : BitVec 32).toInt = 0 := by decide
  have hs : x.slt 0#32 = false := by
    unfold BitVec.slt
    rw [hz]
    exact decide_eq_false (by omega)
  have hc : IntOp.cmpi .slt x 0#32 = 0#1 := by
    show BitVec.ofBool (x.slt 0#32) = 0#1
    rw [hs]
    rfl
  rw [hc]
  exact select_zero _ _

theorem toNat_of_nonneg (x : BitVec 32) (h0 : 0 ≤ x.toInt) : x.toInt.toNat = x.toNat := by
  have h := BitVec.toInt_eq_toNat_cond x
  have hl := x.isLt
  by_cases hc : 2 * x.toNat < 2 ^ 32
  · rw [if_pos hc] at h; omega
  · rw [if_neg hc] at h; omega

theorem src_word (e : Fin 600000) : val_main_v1 (F := Ideal) a2 (ix1 e) = a2 (ix2 (0 : Fin 2) e) := by
  rw [val_main_v1_apply, val_main_v0_apply]
  congr 1
  funext a
  match a with
  | ⟨0, _⟩ => exact Fin.ext rfl
  | ⟨1, _⟩ => exact Fin.ext (Nat.mod_eq_of_lt e.isLt)

theorem start_src (h2 : Cert.Spec.SrcOk a2) (e : Fin 600000) :
    val_main_v9 (F := Ideal) a2 (StableHlo.Predicate.ixP e) = a2 (ix2 (0 : Fin 2) e) := by
  have hi : idx_main_v9 (StableHlo.Predicate.ixP e) = ix1 e := by
    funext a; match a with | ⟨0, _⟩ => rfl
  rw [val_main_v9_apply, hi, val_main_v8_apply, val_main_v5_apply, val_main_v7_apply, val_main_v4_apply,
    val_main_c_apply, src_word]
  exact wrap_id _ _ (h2 e).1

theorem start_type (h3 : Cert.Spec.TypeOk a3) (e : Fin 600000) :
    val_main_v16 (F := Ideal) a3 (StableHlo.Predicate.ixP e) = a3 (ix1 e) := by
  have hi : idx_main_v16 (StableHlo.Predicate.ixP e) = ix1 e := by
    funext a; match a with | ⟨0, _⟩ => rfl
  rw [val_main_v16_apply, hi, val_main_v15_apply, val_main_v12_apply, val_main_v14_apply, val_main_v11_apply,
    val_main_c_1_apply]
  exact wrap_id _ _ (h3 e).1

theorem ref_msg (h2 : Cert.Spec.SrcOk a2) (h3 : Cert.Spec.TypeOk a3) :
    val_main_v18 (F := Ideal) a0 a1 a2 a3 = Cert.Spec.msg a0 a1 a2 a3 := by
  funext i
  obtain ⟨e, d, rfl⟩ : ∃ (e : Fin 600000) (d : Fin 128), i = ix2 e d := ⟨i 0, i 1, eq_ix2 i⟩
  have g0 : val_main_v10 (F := Ideal) a0 a2 (ix2 e d) = a0 (ix2 (Cert.Spec.srcRow a2 e) d) := by
    unfold val_main_v10
    rw [RowIndexed.gather_rows _ rfl rfl rfl rfl rfl a0 (val_main_v9 (F := Ideal) a2) e d (by decide)]
    refine congrArg (fun r : Fin 100000 => a0 (ix2 r d)) (Fin.ext ?_)
    show min (val_main_v9 (F := Ideal) a2 (StableHlo.Predicate.ixP e)).toInt.toNat (100000 - 1)
      = min (a2 (ix2 (0 : Fin 2) e)).toNat 99999
    rw [start_src a2 h2 e, toNat_of_nonneg _ (h2 e).1]
  have g1 : val_main_v17 (F := Ideal) a1 a3 (ix2 e d) = a1 (ix2 (Cert.Spec.relRow a3 e) d) := by
    unfold val_main_v17
    rw [RowIndexed.gather_rows _ rfl rfl rfl rfl rfl a1 (val_main_v16 (F := Ideal) a3) e d (by decide)]
    refine congrArg (fun r : Fin 500 => a1 (ix2 r d)) (Fin.ext ?_)
    show min (val_main_v16 (F := Ideal) a3 (StableHlo.Predicate.ixP e)).toInt.toNat (500 - 1)
      = min (a3 (ix1 e)).toNat 499
    rw [start_type a3 h3 e, toNat_of_nonneg _ (h3 e).1]
  rw [val_main_v18_apply, g0, g1]
  rfl

theorem pre_eq (n : Fin 100000) (j : Fin 128) :
    val_main_v27 (F := Ideal) a0 a1 a2 a3 a4 a5 (ix2 n j)
      = Cert.Spec.pre (val_main_v21 (F := Ideal) a0 a1 a2 a3) a0 a4 a5 n j := by
  rw [val_main_v27_apply, val_main_v26_apply, val_main_v23_apply, val_main_v25_apply, val_main_v24_apply]
  have e1 : ∀ k : Fin 128, lidx_main_v23 (ix2 n j) k = ix2 n k := fun k => by
    funext a; match a with | ⟨0, _⟩ => rfl | ⟨1, _⟩ => rfl
  have e2 : ∀ k : Fin 128, idx_main_v22 (ridx_main_v23 (ix2 n j) k) = ix2 j k := fun k => by
    funext a; match a with | ⟨0, _⟩ => rfl | ⟨1, _⟩ => rfl
  have e3 : idx_main_v24 (idx_main_v25 (ix2 n j)) = ix1 j := by
    funext a; match a with | ⟨0, _⟩ => rfl
  simp only [Ideal.addf_def, val_main_v22_apply, e1, e2, e3]
  rfl

theorem mean_eq (n : Fin 100000) :
    val_main_v31 (F := Ideal) a0 a1 a2 a3 a4 a5 (ix2 n (0 : Fin 1))
      = Cert.Spec.mean (val_main_v21 (F := Ideal) a0 a1 a2 a3) a0 a4 a5 n := by
  rw [val_main_v31_apply, val_main_v29_apply, val_main_v28_apply, val_main_v30_apply, val_main_cst_3_apply,
    val_main_cst_4_apply]
  have e : ∀ j : Fin 128, idx_main_v28 (idx_main_v29 (ix2 n (0 : Fin 1))) j = ix2 n j := fun j => by
    funext a; match a with | ⟨0, _⟩ => rfl | ⟨1, _⟩ => rfl
  simp only [Ideal.hostDivf_def, Ideal.ofBits_def, Ideal.ofBits_zero_f32, zero_add, e, pre_eq]
  rfl

theorem var_eq (n : Fin 100000) :
    val_main_v38 (F := Ideal) a0 a1 a2 a3 a4 a5 (ix2 n (0 : Fin 1))
      = Cert.Spec.var (val_main_v21 (F := Ideal) a0 a1 a2 a3) a0 a4 a5 n := by
  rw [val_main_v38_apply, val_main_v36_apply, val_main_v35_apply, val_main_v37_apply, val_main_cst_5_apply,
    val_main_cst_6_apply]
  have e : ∀ j : Fin 128, idx_main_v35 (idx_main_v36 (ix2 n (0 : Fin 1))) j = ix2 n j := fun j => by
    funext a; match a with | ⟨0, _⟩ => rfl | ⟨1, _⟩ => rfl
  have e' : ∀ j : Fin 128, idx_main_v32 (ix2 n j) = ix2 n (0 : Fin 1) := fun j => by
    funext a; match a with | ⟨0, _⟩ => rfl | ⟨1, _⟩ => rfl
  simp only [Ideal.hostDivf_def, Ideal.ofBits_def, Ideal.ofBits_zero_f32, zero_add, e, val_main_v34_apply,
    val_main_v33_apply, val_main_v32_apply, e', Ideal.mulf_def, Ideal.subf_def, pre_eq, mean_eq]
  rfl

theorem ref_ln :
    val_main_v51 (F := Ideal) a0 a1 a2 a3 a4 a5 a6 a7
      = Cert.Spec.lnOut (val_main_v21 (F := Ideal) a0 a1 a2 a3) a0 a4 a5 a6 a7 := by
  funext i
  obtain ⟨n, j, rfl⟩ : ∃ (n : Fin 100000) (j : Fin 128), i = ix2 n j := ⟨i 0, i 1, eq_ix2 i⟩
  rw [val_main_v51_apply, val_main_v48_apply, val_main_v45_apply, val_main_v40_apply, val_main_v39_apply,
    val_main_v44_apply, val_main_v43_apply, val_main_v42_apply, val_main_v41_apply, val_main_cst_7_apply,
    val_main_v47_apply, val_main_v46_apply, val_main_v50_apply, val_main_v49_apply]
  have e39 : idx_main_v39 (ix2 n j) = ix2 n (0 : Fin 1) := by
    funext a; match a with | ⟨0, _⟩ => rfl | ⟨1, _⟩ => rfl
  have e44 : idx_main_v44 (ix2 n j) = ix2 n (0 : Fin 1) := by
    funext a; match a with | ⟨0, _⟩ => rfl | ⟨1, _⟩ => rfl
  have e47 : idx_main_v46 (idx_main_v47 (ix2 n j)) = ix1 j := by
    funext a; match a with | ⟨0, _⟩ => rfl
  have e50 : idx_main_v49 (idx_main_v50 (ix2 n j)) = ix1 j := by
    funext a; match a with | ⟨0, _⟩ => rfl
  rw [e39, e44, e47, e50, pre_eq, mean_eq, var_eq]
  simp only [Ideal.addf_def, Ideal.mulf_def, Ideal.subf_def, Ideal.hostUnary_rsqrt_def, Ideal.ofBits_def]
  rfl

theorem ref_value (h2 : Cert.Spec.SrcOk a2) (h3 : Cert.Spec.TypeOk a3) :
    val_main_v51 (F := Ideal) a0 a1 a2 a3 a4 a5 a6 a7
      = Cert.Spec.lnOut (Host.scatterAdd (F := Ideal) scatter_S100000x128_S600000x1_S600000x128_1_0_0_1
          (val_main_v19 (F := Ideal)) (val_main_v20 (F := Ideal) a2) (Cert.Spec.msg a0 a1 a2 a3)) a0 a4 a5 a6 a7 := by
  rw [ref_ln, ← ref_msg a0 a1 a2 a3 h2 h3]
  rfl
end

theorem ref_result (m : (ℓ : Loc nD τ sig) → Buf (Elt Ideal) ℓ) (c : Dev nD)
    (h2 : Cert.Spec.SrcOk (m ((c.tc : Thread nD τ).loc main_arg2)))
    (h3 : Cert.Spec.TypeOk (m ((c.tc : Thread nD τ).loc main_arg3))) :
    Cert.ReferenceIdeal.Value.res_out0 m c
      = Cert.Spec.lnOut (Host.scatterAdd (F := Ideal) scatter_S100000x128_S600000x1_S600000x128_1_0_0_1
          (val_main_v19 (F := Ideal)) (val_main_v20 (F := Ideal) (m ((c.tc : Thread nD τ).loc main_arg2)))
          (Cert.Spec.msg (m ((c.tc : Thread nD τ).loc main_arg0)) (m ((c.tc : Thread nD τ).loc main_arg1))
            (m ((c.tc : Thread nD τ).loc main_arg2)) (m ((c.tc : Thread nD τ).loc main_arg3))))
          (m ((c.tc : Thread nD τ).loc main_arg0)) (m ((c.tc : Thread nD τ).loc main_arg4))
          (m ((c.tc : Thread nD τ).loc main_arg5)) (m ((c.tc : Thread nD τ).loc main_arg6))
          (m ((c.tc : Thread nD τ).loc main_arg7)) :=
  (val_main_v51_eq m c).trans (ref_value _ _ _ _ _ _ _ _ h2 h3)

end Cert.RefValue

end
-- ==== Proof.PreFacts.lean ====
import proofs.«421265_j15204184228262_2_alg».proof.Pre_finite_inputs
import proofs.«421265_j15204184228262_2_alg».proof.Proof.Gen.Pre_finite_inputs
import proofs.«421265_j15204184228262_2_alg».proof.Proof.Spec
import Idealize.ShloMosaic.Lib.ReduceAll
import Idealize.ShloMosaic.Lib.StableHlo.Predicate
import Idealize.ShloMosaic.Lib.ValueIdx

namespace Cert.PreFacts

open Idealize.ShloMosaic Idealize.ShloMosaic.ValueIdx
open Cert.Pre_finite_inputs

variable {F : FTy → Type} [FloatOps F]

instance subsingleton_S_ : Subsingleton S_.Idx := ⟨fun a b => funext fun d => d.elim0⟩

theorem slice_row0 (a2 : IVec S2x600000 32) (hs : S2x600000.Slices ![0, 0] S1x600000) (e : Fin 600000) :
    extractStridedSlice S1x600000 ![0, 0] a2 hs (ix2 (0 : Fin 1) e) = a2 (ix2 (0 : Fin 2) e) := by
  unfold extractStridedSlice
  refine congrArg a2 (funext fun a => ?_)
  match a with
  | ⟨0, _⟩ => exact Fin.ext rfl
  | ⟨1, _⟩ => exact Fin.ext (Nat.zero_add _)

theorem bcast_const {t : Shape} {w : Nat} (hb : S_.BroadcastsInDim t (![] : Fin 0 → Fin t.rank)) (b : BitVec w) (j : t.Idx) :
    broadcastInDim t ![] hb (constantI S_ w b) j = b := rfl

theorem toInt_zero32 : (0#32 : BitVec 32).toInt = 0 := by decide
theorem toInt_100000 : (100000#32 : BitVec 32).toInt = 100000 := by decide
theorem toInt_500 : (500#32 : BitVec 32).toInt = 500 := by decide

theorem srcOk_of_pre [Facts] (a0 : FVec F S100000x128 .f32) (a1 : FVec F S500x128 .f32) (a2 : IVec S2x600000 32)
    (a3 : IVec S600000 32) (a4 : FVec F S128x128 .f32) (a5 a6 a7 : FVec F S128 .f32)
    (h : fn (F := F) a0 a1 a2 a3 a4 a5 a6 a7 = fun _ => 1#1) : Cert.Spec.SrcOk a2 := by
  have h0 := congrFun h ix0
  dsimp only [fn, fn_part1, fn_part2] at h0
  obtain ⟨h37, -⟩ := IntOp.andi_eq_one.1 h0
  obtain ⟨-, h36⟩ := IntOp.andi_eq_one.1 h37
  intro e
  have hb := Host.reduce_andi_all _ _ _ _ _ h36 (ix2 (0 : Fin 1) e)
  obtain ⟨hge, hlt⟩ := IntOp.andi_eq_one.1 hb
  have hge' := IntOp.cmpi_sge.1 hge
  have hlt' := IntOp.cmpi_slt.1 hlt
  rw [slice_row0, bcast_const] at hge' hlt'
  rw [toInt_zero32] at hge'
  rw [toInt_100000] at hlt'
  exact ⟨hge', hlt'⟩

theorem typeOk_of_pre [Facts] (a0 : FVec F S100000x128 .f32) (a1 : FVec F S500x128 .f32) (a2 : IVec S2x600000 32)
    (a3 : IVec S600000 32) (a4 : FVec F S128x128 .f32) (a5 a6 a7 : FVec F S128 .f32)
    (h : fn (F := F) a0 a1 a2 a3 a4 a5 a6 a7 = fun _ => 1#1) : Cert.Spec.TypeOk a3 := by
  have h0 := congrFun h ix0
  dsimp only [fn, fn_part1, fn_part2] at h0
  obtain ⟨-, h43⟩ := IntOp.andi_eq_one.1 h0
  intro e
  have hb := Host.reduce_andi_all _ _ _ _ _ h43 (ix1 e)
  obtain ⟨hge, hlt⟩ := IntOp.andi_eq_one.1 hb
  have hge' := IntOp.cmpi_sge.1 hge
  have hlt' := IntOp.cmpi_slt.1 hlt
  rw [bcast_const] at hge' hlt'
  rw [toInt_zero32] at hge'
  rw [toInt_500] at hlt'
  exact ⟨hge', hlt'⟩

end Cert.PreFacts
-- ==== Proof.Claims.lean ====
import proofs.«421265_j15204184228262_2_alg».proof.Defs
import proofs.«421265_j15204184228262_2_alg».proof.Proof.KIFrame
import proofs.«421265_j15204184228262_2_alg».proof.Proof.KIFrameVal
import proofs.«421265_j15204184228262_2_alg».proof.Proof.KIValue
import proofs.«421265_j15204184228262_2_alg».proof.Proof.RefValue
import proofs.«421265_j15204184228262_2_alg».proof.Proof.PreFacts
import proofs.«421265_j15204184228262_2_alg».proof.Proof.BlockWords
import proofs.«421265_j15204184228262_2_alg».proof.Proof.Gen.KernelIdeal
import proofs.«421265_j15204184228262_2_alg».proof.Proof.Gen.ReferenceIdeal
import proofs.«421265_j15204184228262_2_alg».proof.Proof.Gen.Pre_finite_inputs

noncomputable section

namespace Cert.Proof.Claims

open Idealize.ShloMosaic Idealize.ShloMosaic.TcCoe Idealize.SL.Sem Idealize.ShloMosaic.ValueIdx
open Cert.Proof.KI

section Pre
open Cert.KernelIdeal Cert.KernelIdeal.Gen

variable (m : (ℓ : Loc nD τ sig) → Buf (Elt Ideal) ℓ)

theorem srcOk (hpre : Cert.Pre_KernelIdeal m) (c : Dev nD) : Cert.Spec.SrcOk (Cert.HostChain.edges m c) :=
  Cert.PreFacts.srcOk_of_pre _ _ _ _ _ _ _ _ (hpre c)

theorem typeOk (hpre : Cert.Pre_KernelIdeal m) (c : Dev nD) : Cert.Spec.TypeOk (Cert.HostChain.etype m c) :=
  Cert.PreFacts.typeOk_of_pre _ _ _ _ _ _ _ _ (hpre c)

theorem hblk0 (hpre : Cert.Pre_KernelIdeal m) (c : Dev nD) (t : Fin cfg0.N) (j : S8192.Idx) :
    ((Reg0.iblk (Reg0.V6r m) c 0 t j : Elt Ideal .i32) : BitVec 32).toNat + 1 ≤ 100000 :=
  Cert.HostChain.blk0_bound m c (srcOk m hpre c) t j

end Pre

theorem frame_ri : Cert.frame_ReferenceIdeal := fun m ρ _ =>
  (θ_run Cert.ReferenceIdeal.defs _ _).mono (fun _ h c => (h c).2.2) (Cert.ReferenceIdeal.Value.run (F := Ideal) m ρ)

theorem ref_side (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hs : Cert.Spec.SrcOk (Cert.HostChain.edges m c)) (ht : Cert.Spec.TypeOk (Cert.HostChain.etype m c)) :
    Cert.ReferenceIdeal.Value.res_main_v51 m' c = Val.resultOf m c := by
  have hs' : Cert.Spec.SrcOk (m' ((c.tc : Thread Cert.ReferenceIdeal.nD Cert.ReferenceIdeal.τ).loc Cert.ReferenceIdeal.main_arg2)) := by
    rw [h2]; exact hs
  have ht' : Cert.Spec.TypeOk (m' ((c.tc : Thread Cert.ReferenceIdeal.nD Cert.ReferenceIdeal.τ).loc Cert.ReferenceIdeal.main_arg3)) := by
    rw [h3]; exact ht
  refine (Cert.RefValue.ref_result m' c hs' ht').trans ?_
  rw [h0, h1, h2, h3, h4, h5, h6, h7, Val.resultOf_eq]
  rfl

theorem frame_ki : Cert.frame_KernelIdeal := fun m ρ hpre =>
  Frame.frame (F := Ideal) m ρ (hblk0 m hpre)

theorem preserves : Cert.preserves_Kernel_KernelIdeal := trivial

-- Both programs end at lnOut of the messages scatter-added by destination: the kernel by its two launches' values, the reference by its run.
theorem algebraic : Cert.algebraic_KernelIdeal_ReferenceIdeal := by
  intro m ρ m' ρ' hpre hagree
  refine ⟨fun c => Val.resultOf m c,
    fun c => m ((c.tc : Thread Cert.KernelIdeal.nD Cert.KernelIdeal.τ).loc Cert.KernelIdeal.main_arg1), ?_, ?_⟩
  · refine (θ_run Cert.KernelIdeal.defs _ _).mono (fun r h c => ?_) (Frame.frame_val (F := Ideal) m ρ (hblk0 m hpre))
    obtain ⟨a0, a1, a2, a3, a4, a5, a6, a7, a13⟩ := h c
    refine ⟨a13.trans ?_, a1, a0, a1, a2, a3, a4, a5, a6, a7⟩
    rw [Frame.hout13 m c]
    exact Val.kernel_value_outs m (Frame.outs m) c (Frame.hout7 m c) (srcOk m hpre c) (typeOk m hpre c)
  · refine (θ_run Cert.ReferenceIdeal.defs _ _).mono (fun r h c => ?_) (Cert.ReferenceIdeal.Value.run (F := Ideal) m' ρ')
    obtain ⟨b51, b1, brest⟩ := h c
    obtain ⟨g0, g1, g2, g3, g4, g5, g6, g7⟩ := hagree c
    exact ⟨b51.trans (ref_side m m' c g0 g1 g2 g3 g4 g5 g6 g7 (srcOk m hpre c) (typeOk m hpre c)), b1.trans g1, brest⟩

end Cert.Proof.Claims

end
-- ==== Proof.W_R1Body.lean ====
import proofs.«421265_j15204184228262_2_alg».proof.Proof.Gen.Kernel.Launch
import proofs.«421265_j15204184228262_2_alg».proof.Proof.Gen.Kernel.Skeleton
import Idealize.ShloMosaic.Lib.Transfers
import Idealize.ShloMosaic.Lib.Tactic
import Idealize.ShloMosaic.Lib.Pipeline.Kit
import Idealize.ShloMosaic.Lib.Pipeline.Value
import Idealize.ShloMosaic.Lib.Pipeline.Routed

noncomputable section

namespace Cert.Proof.KW.R1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def lnRun (c : Dev nD) (i : grid1.Coords)
    (M1 : Memref sig .tc .vmem S2000x128 .f32) (h1 : M1.IsWhole) (M2 : Memref sig .tc .vmem S2000x128 .f32) (h2 : M2.IsWhole)
    (M3 : Memref sig .tc .vmem S128x128 .f32) (h3 : M3.IsWhole) (M4 : Memref sig .tc .vmem S128 .f32) (h4 : M4.IsWhole)
    (M5 : Memref sig .tc .vmem S128 .f32) (h5 : M5.IsWhole) (M6 : Memref sig .tc .vmem S128 .f32) (h6 : M6.IsWhole)
    (M7 : Memref sig .tc .vmem S2000x128 .f32) (h7 : M7.IsWhole)
    (f1 : Bf (F := F) c M1) (f2 : Bf (F := F) c M2) (f3 : Bf (F := F) c M3) (f4 : Bf (F := F) c M4)
    (f5 : Bf (F := F) c M5) (f6 : Bf (F := F) c M6) :
    { W : Bf (F := F) c M7 // ∀ (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7
            ∗ (iprop(pt c M1 f1 ∗ pt c M2 f2 ∗ pt c M3 f3 ∗ pt c M4 f4 ∗ pt c M5 f5 ∗ pt c M6 f6 ∗ pt c M7 W) -∗ Q ⟨⟩))
          ⊢ wp frame (wpE (defs₀ (F := F)) Variants.none c none) E (cc1__linear_norm_kernel i M1 h1 M2 h2 M3 h3 M4 h4 M5 h5 M6 h6 M7 h7) Q } := by
  refine ⟨?_, fun f7 E Q => ?run⟩
  case run =>
    iintro ⟨H1, H2, H3, H4, H5, H6, H7, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    iexact H7

theorem hz2 : (![0, 0] : Fin 2 → Nat) = fun _ => 0 := funext fun a => by fin_cases a <;> rfl
theorem hz1 : (![0] : Fin 1 → Nat) = fun _ => 0 := funext fun a => by fin_cases a; rfl

theorem lnRun_val (c : Dev nD) (i : grid1.Coords)
    (M1 : Memref sig .tc .vmem S2000x128 .f32) (h1 : M1.IsWhole) (M2 : Memref sig .tc .vmem S2000x128 .f32) (h2 : M2.IsWhole)
    (M3 : Memref sig .tc .vmem S128x128 .f32) (h3 : M3.IsWhole) (M4 : Memref sig .tc .vmem S128 .f32) (h4 : M4.IsWhole)
    (M5 : Memref sig .tc .vmem S128 .f32) (h5 : M5.IsWhole) (M6 : Memref sig .tc .vmem S128 .f32) (h6 : M6.IsWhole)
    (M7 : Memref sig .tc .vmem S2000x128 .f32) (h7 : M7.IsWhole)
    (f1 : Bf (F := F) c M1) (f2 : Bf (F := F) c M2) (f3 : Bf (F := F) c M3) (f4 : Bf (F := F) c M4)
    (f5 : Bf (F := F) c M5) (f6 : Bf (F := F) c M6) :
    M7.view.read (Elt F) (lnRun c i M1 h1 M2 h2 M3 h3 M4 h4 M5 h5 M6 h6 M7 h7 f1 f2 f3 f4 f5 f6).1
      = k1_pay1 (F := F) (M1.view.read (Elt F) f1) (M3.view.read (Elt F) f3) (M4.view.read (Elt F) f4)
          (M2.view.read (Elt F) f2) (M5.view.read (Elt F) f5) (M6.view.read (Elt F) f6) := by
  unfold lnRun
  dsimp only
  rw [View.read_writes_junk_eq_canon]
  sl_unfold_words
  rw [View.canon_unit_zero hz2]
  simp only [View.readAt_eq_ld, View.ld_unit_zero (S := S2000x128) hz2, View.ld_unit_zero (S := S128x128) hz2,
    View.ld_unit_zero (S := S128) hz1]

end Cert.Proof.KW.R1

end
-- ==== Proof.W_KIRegion1.lean ====
import proofs.«421265_j15204184228262_2_alg».proof.Proof.Gen.Kernel.Regions
import proofs.«421265_j15204184228262_2_alg».proof.Proof.Gen.Kernel.Points
import proofs.«421265_j15204184228262_2_alg».proof.Proof.W_R1Body
import Idealize.ShloMosaic.Lib.Pipeline.RegionsLoop
import Idealize.ShloMosaic.Lib.Pipeline.FrameBody
import Idealize.ShloMosaic.Lib.Pipeline.Routed
import Idealize.ShloMosaic.Lib.Tactic

noncomputable section

namespace Cert.Proof.KW

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KW.R1 (Bf pt lnRun lnRun_val)

variable {F : FTy → Type} [FloatOps F]

local notation "𝕄" => MT nD τ sig Unit (Elt F) ℕ (Pipeline.UC sig nD τ) ℕ

abbrev L : GSem nD τ sig → Finset Unit := fun _ => ∅
abbrev lv : GSem nD τ sig → Unit → ℕ := fun _ _ => 0
abbrev 𝒱₀ : Variants := Variants.none

abbrev Eo (c : Dev nD) : sProp 𝕄 := iprop(∃ W, owes (c : Thread nD τ) (0 : CellTallies nD τ sig Unit) W)

theorem owns_elim {c : Dev nD} {sp : Space} {S : Shape} {e : EltTy} {M : Memref sig .tc sp S e} (h : M.IsWhole)
    (X : S.Idx → Elt F e) :
    (owns (c : Thread nD τ) M fullShare X : sProp 𝕄)
      ⊢ iprop(∃ f : Bf (F := F) c M, ⌜M.view.read (Elt F) f = X⌝ ∗ pt c M f) := by
  unfold owns; rw [h.set_eq_univ]

theorem owns_intro {c : Dev nD} {sp : Space} {S : Shape} {e : EltTy} {M : Memref sig .tc sp S e} (h : M.IsWhole)
    (f : Bf (F := F) c M) {X : S.Idx → Elt F e} (hX : M.view.read (Elt F) f = X) :
    (pt c M f : sProp 𝕄) ⊢ owns (c : Thread nD τ) M fullShare X := by
  unfold owns; rw [h.set_eq_univ]
  iintro H; iexists f; isplitr; · ipureintro; exact hX
  iexact H

end Cert.Proof.KW

namespace Cert.Proof.KW.Reg1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KW.R1 (Bf pt lnRun lnRun_val)
open Cert.Proof.KW (L lv 𝒱₀ Eo owns_elim owns_intro)

variable {F : FTy → Type} [FloatOps F]

local notation "𝕄" => MT nD τ sig Unit (Elt F) ℕ (Pipeline.UC sig nD τ) ℕ

variable (V : (c : Dev nD) → (b : Ref sig .tc) → Buf (Elt F) ((c : Thread nD τ).loc b))

def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

def dat (c : Dev nD) : Dat τ (Elt F) Unit ℕ (Pipeline.UC sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k1_pay1 (F := F) (iblk V c 0 t) (iblk V c 2 t) (iblk V c 3 t) (iblk V c 1 t) (iblk V c 4 t) (iblk V c 5 t)
  Φ _ := Pipeline.scopedRest (Ix := Unit) (Name := ℕ) (U := Pipeline.UC sig nD τ) (Lvl := ℕ) (Val := Elt F) spec1 c
  q _ := fullShare
  owed _ := 0

theorem before_0 (c : Dev nD) (t : Fin cfg1.N) (d) : (dat V c).before 0 t d = iblk V c 0 t :=
  ((dat V c).before_in_eq_fetched 0 rfl (fun _ => rfl) (fun _ _ _ => rfl)
    (fun t => by dsimp only [dat]; unfold Dat.blockOf iblk; rfl) t d).trans
    (by unfold Dat.fetched Dat.blockOf iblk; rfl)

theorem before_1 (c : Dev nD) (t : Fin cfg1.N) (d) : (dat V c).before 1 t d = iblk V c 1 t :=
  ((dat V c).before_in_eq_fetched 1 rfl (fun _ => rfl) (fun _ _ _ => rfl)
    (fun t => by dsimp only [dat]; unfold Dat.blockOf iblk; rfl) t d).trans
    (by unfold Dat.fetched Dat.blockOf iblk; rfl)

theorem before_2 (c : Dev nD) (t : Fin cfg1.N) (d) : (dat V c).before 2 t d = iblk V c 2 t :=
  ((dat V c).before_in_eq_fetched 2 rfl (fun _ => rfl) (fun _ _ _ => rfl)
    (fun t => by dsimp only [dat]; unfold Dat.blockOf iblk; rfl) t d).trans
    (by unfold Dat.fetched Dat.blockOf iblk; rfl)

theorem before_3 (c : Dev nD) (t : Fin cfg1.N) (d) : (dat V c).before 3 t d = iblk V c 3 t :=
  ((dat V c).before_in_eq_fetched 3 rfl (fun _ => rfl) (fun _ _ _ => rfl)
    (fun t => by dsimp only [dat]; unfold Dat.blockOf iblk; rfl) t d).trans
    (by unfold Dat.fetched Dat.blockOf iblk; rfl)

theorem before_4 (c : Dev nD) (t : Fin cfg1.N) (d) : (dat V c).before 4 t d = iblk V c 4 t :=
  ((dat V c).before_in_eq_fetched 4 rfl (fun _ => rfl) (fun _ _ _ => rfl)
    (fun t => by dsimp only [dat]; unfold Dat.blockOf iblk; rfl) t d).trans
    (by unfold Dat.fetched Dat.blockOf iblk; rfl)

theorem before_5 (c : Dev nD) (t : Fin cfg1.N) (d) : (dat V c).before 5 t d = iblk V c 5 t :=
  ((dat V c).before_in_eq_fetched 5 rfl (fun _ => rfl) (fun _ _ _ => rfl)
    (fun t => by dsimp only [dat]; unfold Dat.blockOf iblk; rfl) t d).trans
    (by unfold Dat.fetched Dat.blockOf iblk; rfl)

theorem hst (w : Fin cfg1.W) (t : Fin cfg1.N) : ((cfg1.win w).stage (cfg1.slots t w)).IsWhole :=
  stage_whole1 w (cfg1.slots t w)

abbrev K (c : Dev nD) (t : Fin cfg1.N) (f0 : Bf (F := F) c (st1_0 t)) (f1 : Bf (F := F) c (st1_1 t)) (f2 : Bf (F := F) c (st1_2 t))
    (f3 : Bf (F := F) c (st1_3 t)) (f4 : Bf (F := F) c (st1_4 t)) (f5 : Bf (F := F) c (st1_5 t)) :=
  lnRun (F := F) c (grid1.coords t) (st1_0 t) (hst 0 t) (st1_1 t) (hst 1 t) (st1_2 t) (hst 2 t) (st1_3 t) (hst 3 t)
    (st1_4 t) (hst 4 t) (st1_5 t) (hst 5 t) (st1_6 t) (hst 6 t) f0 f1 f2 f3 f4 f5

theorem body_obligation (c : Dev nD) : BodyObligation (dat V c) (defs₀ (F := F)) 𝒱₀ () Set.univ := fun t => by
  rw [bigSep_W1, bigSep_W1]
  rw [show (dat V c).Φ t.succ = (dat V c).Φ t.castSucc from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  ihave H0 := (owns_elim (hst 0 t) _) $$ H0; icases H0 with ⟨%f0, %hf0, H0⟩
  ihave H1 := (owns_elim (hst 1 t) _) $$ H1; icases H1 with ⟨%f1, %hf1, H1⟩
  ihave H2 := (owns_elim (hst 2 t) _) $$ H2; icases H2 with ⟨%f2, %hf2, H2⟩
  ihave H3 := (owns_elim (hst 3 t) _) $$ H3; icases H3 with ⟨%f3, %hf3, H3⟩
  ihave H4 := (owns_elim (hst 4 t) _) $$ H4; icases H4 with ⟨%f4, %hf4, H4⟩
  ihave H5 := (owns_elim (hst 5 t) _) $$ H5; icases H5 with ⟨%f5, %hf5, H5⟩
  ihave H6 := (owns_elim (hst 6 t) _) $$ H6; icases H6 with ⟨%f6, -, H6⟩
  rw [before_0] at hf0; rw [before_1] at hf1; rw [before_2] at hf2
  rw [before_3] at hf3; rw [before_4] at hf4; rw [before_5] at hf5
  have e0 : (st1_0 t).view.read (Elt F) f0 = (dat V c).after 0 t := by dsimp only [dat]; exact hf0
  have e1 : (st1_1 t).view.read (Elt F) f1 = (dat V c).after 1 t := by dsimp only [dat]; exact hf1
  have e2 : (st1_2 t).view.read (Elt F) f2 = (dat V c).after 2 t := by dsimp only [dat]; exact hf2
  have e3 : (st1_3 t).view.read (Elt F) f3 = (dat V c).after 3 t := by dsimp only [dat]; exact hf3
  have e4 : (st1_4 t).view.read (Elt F) f4 = (dat V c).after 4 t := by dsimp only [dat]; exact hf4
  have e5 : (st1_5 t).view.read (Elt F) f5 = (dat V c).after 5 t := by dsimp only [dat]; exact hf5
  have e6 : (st1_6 t).view.read (Elt F) (K c t f0 f1 f2 f3 f4 f5).1 = (dat V c).after 6 t := by
    dsimp only [dat]; rw [lnRun_val, hf0, hf1, hf2, hf3, hf4, hf5]
  iapply ((K c t f0 f1 f2 f3 f4 f5).2 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iapply (owns_intro (hst 0 t) f0 e0); iexact H0
  isplitl [H1]; · iapply (owns_intro (hst 1 t) f1 e1); iexact H1
  isplitl [H2]; · iapply (owns_intro (hst 2 t) f2 e2); iexact H2
  isplitl [H3]; · iapply (owns_intro (hst 3 t) f3 e3); iexact H3
  isplitl [H4]; · iapply (owns_intro (hst 4 t) f4 e4); iexact H4
  isplitl [H5]; · iapply (owns_intro (hst 5 t) f5 e5); iexact H5
  iapply (owns_intro (hst 6 t) _ e6); iexact H6

theorem owesAt_intro (c : Dev nD) (t : Fin (cfg1.N + 1)) :
    (Eo c : sProp 𝕄) ⊢ (dat V c).owesAt () t := by
  unfold Pipeline.Dat.owesAt Pipeline.owesWithin
  iintro ⟨%W, HO⟩; iexists W
  isplitr; · ipureintro; exact fun _ _ => Or.inl trivial
  iexact HO

theorem owesAt_elim (c : Dev nD) (t : Fin (cfg1.N + 1)) :
    ((dat V c).owesAt () t : sProp 𝕄) ⊢ Eo c := by
  unfold Pipeline.Dat.owesAt Pipeline.owesWithin
  iintro ⟨%W, -, HO⟩; iexists W; iexact HO

variable (m : (ℓ : Loc nD τ sig) → Buf (Elt F) ℓ) (outs : Outs (F := F))

abbrev V8r (c : Dev nD) (b : Ref sig .tc) : Buf (Elt F) ((c : Thread nD τ).loc b) := V8 m outs c b
abbrev V9r (c : Dev nD) (b : Ref sig .tc) : Buf (Elt F) ((c : Thread nD τ).loc b) := V9 m outs c b

theorem V9_main_v13 (c : Dev nD) : V9 m outs c main_v13 = outs 9 main_v13 c := by
  simp only [V9, Function.update_self]

variable (d0 : (c : Dev nD) → Dat τ (Elt F) Unit ℕ (Pipeline.UC sig nD τ) ℕ cfg0 c)

def pdats : (p : Fin 2) → (c : Dev nD) → Dat τ (Elt F) Unit ℕ (Pipeline.UC sig nD τ) ℕ (cfgs p) c
  | ⟨0, _⟩ => fun c => d0 c
  | ⟨1, _⟩ => fun c => dat V c

set_option backward.isDefEq.respectTransparency.types false in
def reg1 (hout13 : ∀ c, outs 9 main_v13 c = (dat (V8r m outs) c).arrAt 6 cfg1.N) :
    Pipeline.RegionSeg (pcfgs (F := F)) adm (pdats (V8r m outs) d0) () defs₀ 𝒱₀ L lv 1 where
  win := launch1.win.to₀
  block_pos := launch1.block_pos
  stage_whole := launch1.stage_whole
  K := PEmpty
  osem k := k.elim
  ho := Pipeline.OwnSemFacts.none _
  hbody c := (body_obligation (V8r m outs) c).loose
  hwaits := Pipeline.hwaits_of_owed_zero _ _ _ _ L lv 1 fun _ _ => rfl
  pre c := iprop(StableHlo.held (c : Thread nD τ) (Pipeline.ucRefs τ sig) (V8 m outs c) ∗ Eo c)
  post c := iprop(StableHlo.held (c : Thread nD τ) (Pipeline.ucRefs τ sig) (V9 m outs c) ∗ Eo c)
  X _ := BI.emp
  Y _ := BI.emp
  Z c := Pipeline.unscopedRest (Ix := Unit) (Name := ℕ) (U := Pipeline.UC sig nD τ) (Lvl := ℕ) spec1 c (V8r m outs c)
  hentry c := by
    rw [Pipeline.ownSems0_none,
      ← Pipeline.unscopedBufs_held (Ix := Unit) (Name := ℕ) (U := Pipeline.UC sig nD τ) (Lvl := ℕ) c (V8 m outs c)]
    have hsplit := Pipeline.arrays_of_unscopedBufs (p := 1) (pcfgs (F := F)) adm (pdats (V8r m outs) d0) launch1.win launch1.arr_whole c
      ((pdats (V8r m outs) d0 1 c).share_full fun _ => rfl) (V8r m outs c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]; · iapply (owesAt_intro (V8r m outs) c 0); iexact HO
    isplitr; · iempintro
    iexact Hrest
  hin c := by
    rw [show (pdats (V8r m outs) d0 1 c).Φ 0 = Pipeline.scopedRest (Ix := Unit) (Name := ℕ) (U := Pipeline.UC sig nD τ) (Lvl := ℕ) (Val := Elt F) spec1 c from rfl]
    iintro ⟨-, -, Hr⟩; iexact Hr
  hout c := by
    rw [Pipeline.ownSems0_none,
      show (pdats (V8r m outs) d0 1 c).Φ (Fin.last _) = Pipeline.scopedRest (Ix := Unit) (Name := ℕ) (U := Pipeline.UC sig nD τ) (Lvl := ℕ) (Val := Elt F) spec1 c from rfl]
    iintro Hr
    isplitr; · iempintro
    isplitr; · iempintro
    iexact Hr
  hexit c := by
    rw [← Pipeline.unscopedBufs_held (Ix := Unit) (Name := ℕ) (U := Pipeline.UC sig nD τ) (Lvl := ℕ) c (V9 m outs c)]
    have hjoin := Pipeline.unscopedBufs_of_arrays (p := 1) (pcfgs (F := F)) adm (Ix := Unit) (Name := ℕ) (U := Pipeline.UC sig nD τ) (Lvl := ℕ) launch1.win launch1.arr_whole c
      (pdats (V8r m outs) d0) ((pdats (V8r m outs) d0 1 c).share_full fun _ => rfl) (V8r m outs c) (V9r m outs c)
      ((pdats (V8r m outs) d0 1 c).arrAt · cfg1.N)
      (fun w => by
        fin_cases w
        · exact ((pdats (V8r m outs) d0 1 c).arrAt_in 0 rfl _).trans (V9_of m outs c (Pipeline.arrRef spec1 0) (by decide)).symm
        · exact ((pdats (V8r m outs) d0 1 c).arrAt_in 1 rfl _).trans (V9_of m outs c (Pipeline.arrRef spec1 1) (by decide)).symm
        · exact ((pdats (V8r m outs) d0 1 c).arrAt_in 2 rfl _).trans (V9_of m outs c (Pipeline.arrRef spec1 2) (by decide)).symm
        · exact ((pdats (V8r m outs) d0 1 c).arrAt_in 3 rfl _).trans (V9_of m outs c (Pipeline.arrRef spec1 3) (by decide)).symm
        · exact ((pdats (V8r m outs) d0 1 c).arrAt_in 4 rfl _).trans (V9_of m outs c (Pipeline.arrRef spec1 4) (by decide)).symm
        · exact ((pdats (V8r m outs) d0 1 c).arrAt_in 5 rfl _).trans (V9_of m outs c (Pipeline.arrRef spec1 5) (by decide)).symm
        · exact (hout13 c).symm.trans (V9_main_v13 m outs c).symm)
      (fun b hb => V9_of m outs c b fun h =>
        hb (List.mem_singleton.mp h ▸ Finset.mem_image.mpr ⟨6, Finset.mem_univ _, rfl⟩))
    iintro ⟨Ha, HO, -, Hrest⟩
    imodintro
    isplitl [Ha Hrest]
    · iapply hjoin; isplitl [Ha] <;> iassumption
    iapply (owesAt_elim (V8r m outs) c (Fin.last _)); iexact HO

end Cert.Proof.KW.Reg1

end
-- ==== Proof.W_R0Spec.lean ====
import proofs.«421265_j15204184228262_2_alg».proof.Proof.Gen.Kernel.Skeleton
import Idealize.ShloMosaic.Lib.ValueIdx

noncomputable section

namespace Cert.Proof.KW.R0Spec

open Cert.Kernel Cert.Kernel.Gen
open Idealize.ShloMosaic Idealize.ShloMosaic.ValueIdx

variable {F : FTy → Type} [FloatOps F]

def entRow (w : BitVec 32) : Fin 100000 := ⟨min w.toNat 99999, by omega⟩

def edgeAt (k : Fin 64) (j : Fin 128) : Fin 8192 := ⟨128 * k.val + j.val, by omega⟩

def gathered (s : IVec S8192 32) (ent : Vec F S100000x128 .f32) (k : Fin 64) : Vec F S128x128 .f32 :=
  fun j => ent (ix2 (entRow (s (ix1 (edgeAt k (j 0))))) (j 1))

def chunk (e : IVec S8192 32) (k : Fin 64) : Vec F S128 .i32 :=
  fun j => e (ix1 (edgeAt k (j 0)))

def tripOut (s e : IVec S8192 32) (rel : Vec F S512x128 .f32) (ent : Vec F S100000x128 .f32) (k : Fin 64) : FVec F S128x128 .f32 :=
  k0_pay1 (F := F) (gathered s ent k) (k0_pay2 (F := F) (chunk (F := F) e k)) rel

def blockOut (s e : IVec S8192 32) (rel : Vec F S512x128 .f32) (ent : Vec F S100000x128 .f32) : Vec F S8192x128 .f32 :=
  fun idx => tripOut s e rel ent ⟨(idx 0).val / 128, by have h : (idx 0).val < 8192 := (idx 0).isLt; omega⟩
    (ix2 (⟨(idx 0).val % 128, Nat.mod_lt _ (by decide)⟩ : Fin 128) (⟨(idx 1).val, (idx 1).isLt⟩ : Fin 128))

end Cert.Proof.KW.R0Spec

end
-- ==== Proof.W_RowsWritten.lean ====
import proofs.«421265_j15204184228262_2_alg».proof.Proof.Gen.Kernel.Launch
import Idealize.ShloMosaic.Lib.ValueIdx
import Idealize.ShloMosaic.Lib.Pipeline.Value

noncomputable section

namespace Cert.Proof.KW.Rows

open Idealize.ShloMosaic Idealize.SL.Sem Idealize.ShloMosaic.ValueIdx
open Cert.Kernel Cert.Kernel.Facts₀

variable {F : FTy → Type} [FloatOps F]

section General
variable {sig : RefSig} {κ : Kind} {Val : EltTy → Type} {sp : Space} {s s3 : Shape} {e : EltTy}

theorem read_write_reshaped_mem (v : View sig κ sp s e) (R : Rect s) (hn : s3.numel = R.shape.numel)
    (f : v.ty.Contents Val) (w : s3.Idx → Val e) (y : s3.Idx) :
    v.read Val (((v.slice R).reshape s3 hn).write Val f w Finset.univ) (R.emb (Shape.reshapeEquiv hn y)) = w y := by
  rw [View.read_apply, show v.emb (R.emb (Shape.reshapeEquiv hn y)) = ((v.slice R).reshape s3 hn).emb y from rfl,
    View.write_emb_of_mem _ _ (Finset.mem_univ y), cast_cast, cast_eq]

theorem read_write_reshaped_not_mem (v : View sig κ sp s e) (R : Rect s) (hn : s3.numel = R.shape.numel)
    (f : v.ty.Contents Val) (w : s3.Idx → Val e) {x : s.Idx} (hx : x ∉ R.set) :
    v.read Val (((v.slice R).reshape s3 hn).write Val f w Finset.univ) x = v.read Val f x := by
  rw [View.read_apply, View.read_apply, View.write_of_not_mem]
  intro hm
  obtain ⟨y, -, hy⟩ := Finset.mem_map.mp hm
  have hxy : R.emb (Shape.reshapeEquiv hn y) = x := v.emb.injective hy
  exact hx (hxy ▸ R.idx_mem _)

end General

theorem row_inb (j : Fin 128) : ∀ a, (![j.val, 0] : Fin 2 → Nat) a + S1x128.size a ≤ S128x128.size a :=
  Rect.inb₂ (show j.val + 1 ≤ 128 from j.isLt) (show 0 + 128 ≤ 128 from Nat.le_refl _)

abbrev rowView (M : Memref sig .tc .vmem S128x128 .f32) (j : Fin 128) : View sig .tc .vmem S128 .f32 :=
  ((M.slice (Rect.unit (s := S128x128) ![j.val, 0] S1x128.size (row_inb j)) (fun _ => rfl)).squeeze S128 squeezes_S1x128_S128).view

def rowsWritten (M : Memref sig .tc .vmem S128x128 .f32) (P : Fin 128 → S128.Idx → Elt F .f32)
    (f : M.view.ty.Contents (Elt F)) : ℕ → M.view.ty.Contents (Elt F)
  | 0 => f
  | n + 1 => if h : n < 128 then View.write (Elt F) (rowView M ⟨n, h⟩) (rowsWritten M P f n) (P ⟨n, h⟩) Finset.univ
      else rowsWritten M P f n

theorem rowsWritten_succ (M : Memref sig .tc .vmem S128x128 .f32) (P : Fin 128 → S128.Idx → Elt F .f32)
    (f : M.view.ty.Contents (Elt F)) {n : ℕ} (h : n < 128) :
    rowsWritten M P f (n + 1) = View.write (Elt F) (rowView M ⟨n, h⟩) (rowsWritten M P f n) (P ⟨n, h⟩) Finset.univ := by
  rw [rowsWritten, dif_pos h]

theorem row_emb (j d : Fin 128) :
    (Rect.unit (s := S128x128) ![j.val, 0] S1x128.size (row_inb j)).emb
      (Shape.reshapeEquiv (squeezes_S1x128_S128 : S1x128.Squeezes S128).numel_eq (ix1 d)) = ix2 j d := by
  have e : Shape.reshapeEquiv (squeezes_S1x128_S128 : S1x128.Squeezes S128).numel_eq (ix1 d) = ix2 (0 : Fin 1) d :=
    Shape.reshapeEquiv_eq_of_rowMajor _ (by
      rw [Shape.rowMajor_val_two, Shape.rowMajor_val_one]
      show 0 * 128 + d.val = d.val
      rw [Nat.zero_mul, Nat.zero_add])
  rw [e]
  exact Shape.idx_ext₂ (show j.val + 1 * 0 = j.val by rw [Nat.mul_zero, Nat.add_zero])
    (show 0 + 1 * d.val = d.val by rw [Nat.one_mul, Nat.zero_add])

theorem not_mem_row {j r : Fin 128} (d : Fin 128) (h : r ≠ j) :
    ix2 r d ∉ (Rect.unit (s := S128x128) ![j.val, 0] S1x128.size (row_inb j)).set := by
  intro hm
  have h0 := (Rect.mem_set_unit.mp hm) 0
  have h1 : j.val ≤ r.val ∧ r.val < j.val + 1 := h0
  exact h (Fin.ext (by omega))

theorem read_row_self (M : Memref sig .tc .vmem S128x128 .f32) (g : M.view.ty.Contents (Elt F))
    (w : S128.Idx → Elt F .f32) (j d : Fin 128) :
    M.view.read (Elt F) (View.write (Elt F) (rowView M j) g w Finset.univ) (ix2 j d) = w (ix1 d) := by
  rw [← row_emb j d]
  exact read_write_reshaped_mem M.view _ _ g w (ix1 d)

theorem read_row_other (M : Memref sig .tc .vmem S128x128 .f32) (g : M.view.ty.Contents (Elt F))
    (w : S128.Idx → Elt F .f32) {j r : Fin 128} (d : Fin 128) (h : r ≠ j) :
    M.view.read (Elt F) (View.write (Elt F) (rowView M j) g w Finset.univ) (ix2 r d) = M.view.read (Elt F) g (ix2 r d) :=
  read_write_reshaped_not_mem M.view _ _ g w (not_mem_row d h)

theorem rows_below (M : Memref sig .tc .vmem S128x128 .f32) (P : Fin 128 → S128.Idx → Elt F .f32)
    (f : M.view.ty.Contents (Elt F)) : ∀ n : ℕ, n ≤ 128 → ∀ r d : Fin 128, r.val < n →
      M.view.read (Elt F) (rowsWritten M P f n) (ix2 r d) = P r (ix1 d)
  | 0, _, r, _, h => absurd h (Nat.not_lt_zero _)
  | n + 1, hn, r, d, h => by
    have hlt : n < 128 := hn
    rw [rowsWritten_succ M P f hlt]
    by_cases hr : r = ⟨n, hlt⟩
    · rw [hr]; exact read_row_self M _ _ _ d
    · rw [read_row_other M _ _ d hr]
      exact rows_below M P f n (Nat.le_of_lt hlt) r d (by
        have : r.val ≠ n := fun e => hr (Fin.ext e)
        omega)

-- Rows are disjoint, so after all 128 are written entry (r, d) of the buffer is entry d of row r's payload.
theorem rows_read (M : Memref sig .tc .vmem S128x128 .f32) (P : Fin 128 → S128.Idx → Elt F .f32)
    (f : M.view.ty.Contents (Elt F)) (r d : Fin 128) :
    M.view.readAt (Elt F) (Rect.unit (s := S128x128) ![0, 0] S128x128.size inb_S128x128_S128x128_0_0).toLoadRect
      (rowsWritten M P f 128) (ix2 r d) = P r (ix1 d) := by
  rw [View.readAt_apply]
  have e : (Rect.unit (s := S128x128) ![0, 0] S128x128.size inb_S128x128_S128x128_0_0).toLoadRect.idx (ix2 r d) = ix2 r d :=
    Shape.idx_ext₂ (show 0 + 1 * r.val = r.val by rw [Nat.one_mul, Nat.zero_add])
      (show 0 + 1 * d.val = d.val by rw [Nat.one_mul, Nat.zero_add])
  rw [e]
  exact rows_below M P f 128 (Nat.le_refl _) r d r.isLt

end Cert.Proof.KW.Rows
-- ==== Proof.W_RowsSep.lean ====
import proofs.«421265_j15204184228262_2_alg».proof.Proof.W_RowsWritten
import Idealize.ShloMosaic.Lib.Transfers
import Idealize.ShloMosaic.Lib.Pipeline.Kit
import Idealize.ShloMosaic.Lib.Pipeline.Routed

noncomputable section

namespace Cert.Proof.KW.Rows

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel Cert.Kernel.Facts₀

variable {F : FTy → Type} [FloatOps F]

local notation "𝕄" => MT nD τ sig Unit (Elt F) ℕ (Pipeline.UC sig nD τ) ℕ

-- Row n of the buffer, held outright by its own entries at the contents g (only g's entries on that row matter).
abbrev rowPt (M : Memref sig .tc .vmem S128x128 .f32) (c : Dev nD) (n : ℕ) (h : n < 128) (g : M.view.ty.Contents (Elt F)) : sProp 𝕄 :=
  ((M.slice (Rect.unit (s := S128x128) ![n, 0] S1x128.size (row_inb ⟨n, h⟩)) (fun _ => rfl)).squeeze S128 squeezes_S1x128_S128).view.loc (c : Thread nD τ)
    ↦[((M.slice (Rect.unit (s := S128x128) ![n, 0] S1x128.size (row_inb ⟨n, h⟩)) (fun _ => rfl)).squeeze S128 squeezes_S1x128_S128).view.set]{fullShare} g

-- Rows 0, …, n-1 held outright, row r at the contents G r; row n-1 first.
def rowsAll (M : Memref sig .tc .vmem S128x128 .f32) (c : Dev nD) (G : Fin 128 → M.view.ty.Contents (Elt F)) : ℕ → sProp 𝕄
  | 0 => iprop(emp)
  | n + 1 => iprop((if h : n < 128 then rowPt M c n h (G ⟨n, h⟩) else iprop(emp)) ∗ rowsAll M c G n)

abbrev rowRect (r : Fin 128) : Rect S128x128 := Rect.unit (s := S128x128) ![r.val, 0] S1x128.size (row_inb r)

theorem mem_rowRect (r : Fin 128) (x : S128x128.Idx) : x ∈ (rowRect r).set ↔ (x 0).val = r.val := by
  rw [Rect.mem_set_unit]
  constructor
  · intro h
    have h0 : r.val ≤ (x 0).val ∧ (x 0).val < r.val + 1 := h 0
    omega
  · intro h a
    match a with
    | ⟨0, _⟩ =>
      show r.val ≤ (x 0).val ∧ (x 0).val < r.val + 1
      omega
    | ⟨1, _⟩ =>
      show 0 ≤ (x 1).val ∧ (x 1).val < 0 + 128
      have := idx2_lt1 x
      omega

def belowIdx (n : ℕ) : Finset S128x128.Idx := Finset.univ.filter fun x => (x 0).val < n

theorem mem_belowIdx {n : ℕ} {x : S128x128.Idx} : x ∈ belowIdx n ↔ (x 0).val < n := by
  rw [belowIdx, Finset.mem_filter]
  exact ⟨fun h => h.2, fun h => ⟨Finset.mem_univ _, h⟩⟩

theorem belowIdx_zero : belowIdx 0 = ∅ :=
  Finset.eq_empty_of_forall_notMem fun x hx => Nat.not_lt_zero _ (mem_belowIdx.mp hx)

theorem belowIdx_succ {n : ℕ} (h : n < 128) : belowIdx (n + 1) = (rowRect ⟨n, h⟩).set ∪ belowIdx n := by
  ext x
  rw [Finset.mem_union, mem_belowIdx, mem_belowIdx, mem_rowRect]
  show (x 0).val < n + 1 ↔ (x 0).val = n ∨ (x 0).val < n
  omega

theorem disjoint_row_below {n : ℕ} (h : n < 128) : Disjoint (rowRect ⟨n, h⟩).set (belowIdx n) :=
  Finset.disjoint_left.mpr fun x hx hb => by
    have h1 : (x 0).val = n := (mem_rowRect ⟨n, h⟩ x).mp hx
    have h2 := mem_belowIdx.mp hb
    omega

theorem belowIdx_all : belowIdx 128 = Finset.univ :=
  Finset.eq_univ_of_forall fun x => mem_belowIdx.mpr (idx2_lt0 x)

theorem rowView_set (M : Memref sig .tc .vmem S128x128 .f32) (r : Fin 128) :
    (rowView M r).set = (rowRect r).set.map M.view.emb := by
  show ((M.view.slice (rowRect r)).reshape S128 _).set = _
  rw [View.set_reshape, View.set_slice]

theorem rowsAll_zero (M : Memref sig .tc .vmem S128x128 .f32) (c : Dev nD) (G : Fin 128 → M.view.ty.Contents (Elt F)) :
    rowsAll M c G 0 = iprop(emp) := rfl

theorem rowsAll_succ (M : Memref sig .tc .vmem S128x128 .f32) (c : Dev nD) (G : Fin 128 → M.view.ty.Contents (Elt F))
    {n : ℕ} (h : n < 128) : rowsAll M c G (n + 1) = iprop(rowPt M c n h (G ⟨n, h⟩) ∗ rowsAll M c G n) := by
  rw [rowsAll, dif_pos h]

theorem rowPt_eq (M : Memref sig .tc .vmem S128x128 .f32) (c : Dev nD) (r : Fin 128) (g : M.view.ty.Contents (Elt F)) :
    rowPt M c r.val r.isLt g = (M.view.loc (c : Thread nD τ) ↦[(rowRect r).set.map M.view.emb]{fullShare} g : sProp 𝕄) := by
  show ((rowView M r).loc (c : Thread nD τ) ↦[(rowView M r).set]{fullShare} g : sProp 𝕄) = _
  rw [rowView_set]

theorem write_row_on (M : Memref sig .tc .vmem S128x128 .f32) (r : Fin 128) (g g' : M.view.ty.Contents (Elt F))
    (w : S128.Idx → Elt F .f32) {i : M.view.ty.Idx} (hi : i ∈ (rowRect r).set.map M.view.emb) :
    View.write (Elt F) (rowView M r) g w Finset.univ i = View.write (Elt F) (rowView M r) g' w Finset.univ i := by
  rw [← rowView_set] at hi
  obtain ⟨y, -, rfl⟩ := Finset.mem_map.mp hi
  rw [View.write_emb_of_mem _ _ (Finset.mem_univ y), View.write_emb_of_mem _ _ (Finset.mem_univ y)]

theorem write_row_off (M : Memref sig .tc .vmem S128x128 .f32) (r : Fin 128) (g : M.view.ty.Contents (Elt F))
    (w : S128.Idx → Elt F .f32) {i : M.view.ty.Idx} (hi : i ∉ (rowRect r).set.map M.view.emb) :
    View.write (Elt F) (rowView M r) g w Finset.univ i = g i :=
  View.write_of_not_mem _ _ _ (by rw [View.setOn_univ, rowView_set]; exact hi)

theorem split_below (M : Memref sig .tc .vmem S128x128 .f32) (c : Dev nD) (f : M.view.ty.Contents (Elt F)) :
    ∀ n : ℕ, n ≤ 128 →
      (M.view.loc (c : Thread nD τ) ↦[(belowIdx n).map M.view.emb]{fullShare} f : sProp 𝕄) ⊢ rowsAll M c (fun _ => f) n
  | 0, _ => by
    rw [belowIdx_zero, Finset.map_empty, pointsTo_empty, rowsAll_zero]
  | n + 1, hn => by
    have h : n < 128 := hn
    rw [belowIdx_succ h, Finset.map_union, rowsAll_succ M c _ h, rowPt_eq M c ⟨n, h⟩]
    exact (pointsTo_union ((Finset.disjoint_map _).mpr (disjoint_row_below h))).1.trans
      (sep_mono .rfl (split_below M c f n (Nat.le_of_lt h)))

theorem join_below (M : Memref sig .tc .vmem S128x128 .f32) (c : Dev nD) (f : M.view.ty.Contents (Elt F))
    (P : Fin 128 → S128.Idx → Elt F .f32) :
    ∀ n : ℕ, n ≤ 128 →
      rowsAll M c (fun r => (rowView M r).writes (Elt F) f [⟨Rect.whole S128, P r⟩]) n
        ⊢ (M.view.loc (c : Thread nD τ) ↦[(belowIdx n).map M.view.emb]{fullShare} rowsWritten M P f n : sProp 𝕄)
  | 0, _ => by
    rw [belowIdx_zero, Finset.map_empty, pointsTo_empty, rowsAll_zero]
  | n + 1, hn => by
    have h : n < 128 := hn
    have hd : Disjoint ((rowRect ⟨n, h⟩).set.map M.view.emb) ((belowIdx n).map M.view.emb) :=
      (Finset.disjoint_map _).mpr (disjoint_row_below h)
    rw [belowIdx_succ h, Finset.map_union, rowsAll_succ M c _ h, rowPt_eq M c ⟨n, h⟩, rowsWritten_succ M P f h]
    have hrow : (M.view.loc (c : Thread nD τ) ↦[(rowRect ⟨n, h⟩).set.map M.view.emb]{fullShare}
          (rowView M ⟨n, h⟩).writes (Elt F) f [⟨Rect.whole S128, P ⟨n, h⟩⟩] : sProp 𝕄)
        = M.view.loc (c : Thread nD τ) ↦[(rowRect ⟨n, h⟩).set.map M.view.emb]{fullShare}
          View.write (Elt F) (rowView M ⟨n, h⟩) (rowsWritten M P f n) (P ⟨n, h⟩) Finset.univ :=
      pointsTo_congr fun i hi => by
        rw [← View.write_univ_eq_writes_whole, View.writes_nil]
        exact write_row_on M ⟨n, h⟩ _ _ _ hi
    have hrest : (M.view.loc (c : Thread nD τ) ↦[(belowIdx n).map M.view.emb]{fullShare} rowsWritten M P f n : sProp 𝕄)
        = M.view.loc (c : Thread nD τ) ↦[(belowIdx n).map M.view.emb]{fullShare}
          View.write (Elt F) (rowView M ⟨n, h⟩) (rowsWritten M P f n) (P ⟨n, h⟩) Finset.univ :=
      pointsTo_congr fun i hi =>
        (write_row_off M ⟨n, h⟩ _ _ (Finset.disjoint_right.mp hd hi)).symm
    rw [hrow]
    exact (sep_mono .rfl ((join_below M c f P n (Nat.le_of_lt h)).trans (Entails.of_eq hrest))).trans
      (pointsTo_union hd).2

theorem below_all (M : Memref sig .tc .vmem S128x128 .f32) (hM : M.IsWhole) :
    (belowIdx 128).map M.view.emb = Finset.univ := by
  rw [belowIdx_all]
  exact hM.set_eq_univ

theorem rows_split (M : Memref sig .tc .vmem S128x128 .f32) (hM : M.IsWhole) (c : Dev nD) (f : M.view.ty.Contents (Elt F)) :
    (M.view.loc (c : Thread nD τ) ↦{fullShare} f : sProp 𝕄) ⊢ rowsAll M c (fun _ => f) 128 := by
  have h := split_below M c f 128 (Nat.le_refl _)
  rw [below_all M hM] at h
  exact h

theorem rows_join (M : Memref sig .tc .vmem S128x128 .f32) (hM : M.IsWhole) (c : Dev nD) (f : M.view.ty.Contents (Elt F))
    (P : Fin 128 → S128.Idx → Elt F .f32) :
    rowsAll M c (fun r => (rowView M r).writes (Elt F) f [⟨Rect.whole S128, P r⟩]) 128
      ⊢ (M.view.loc (c : Thread nD τ) ↦{fullShare} rowsWritten M P f 128 : sProp 𝕄) := by
  have h := join_below M c f P 128 (Nat.le_refl _)
  rw [below_all M hM] at h
  exact h

end Cert.Proof.KW.Rows
-- ==== Proof.W_GatherRows.lean ====
import proofs.«421265_j15204184228262_2_alg».proof.Proof.Gen.Kernel.Launch
import Idealize.ShloMosaic.Lib.ValueIdx

noncomputable section

namespace Cert.Proof.KW.Gather

open Cert.Kernel Cert.Kernel.Gen Idealize.ShloMosaic Idealize.ShloMosaic.ValueIdx

variable {F : FTy → Type} [FloatOps F]

-- The position, in the chunk of source indices, of the word trip k reads for row r: 128·k + r, in the program's own arithmetic.
def offW (r : Fin 128) (k : Fin k0_t1_loop.trips) : Fin 1 → ℕ :=
  ![(Scalar.indexCast (Scalar.addi (Scalar.muli (Scf.iv 0#32 1#32 k) 128#32) (BitVec.ofNat 32 r.val))).toNat]

theorem offW_eq (r : Fin 128) (k : Fin k0_t1_loop.trips) : offW r k = ![128 * k.val + r.val] := by
  have hk : k.val < 64 := Nat.lt_of_lt_of_le k.isLt k0_t1_abs.2.1
  have hr := r.isLt
  unfold offW
  congr 1
  simp only [Scalar.indexCast, Scalar.addi, Scalar.muli, IntOp.addi, IntOp.muli, Scf.iv, BitVec.toNat_add,
    BitVec.toNat_mul, BitVec.toNat_ofNat]
  omega

theorem offW_inb (r : Fin 128) (k : Fin k0_t1_loop.trips) : ∀ a, offW r k a + S1.size a ≤ S8192.size a := by
  intro a
  have hk : k.val < 64 := Nat.lt_of_lt_of_le k.isLt k0_t1_abs.2.1
  have hr := r.isLt
  rw [offW_eq]
  match a with
  | ⟨0, _⟩ =>
    show 128 * k.val + r.val + 1 ≤ 8192
    omega

def wordAt (M0 : Memref sig .tc .smem S8192 .i32) (X1 : M0.view.ty.Contents (Elt F)) (off : Fin 1 → ℕ)
    (hin : ∀ a, off a + S1.size a ≤ S8192.size a) : Elt F .i32 :=
  M0.view.readAt (Elt F) (Rect.unit (s := S8192) off S1.size hin).toLoadRect X1
    (Shape.Idx.first (numel1_S1.symm ▸ Nat.one_pos))

theorem wordAt_congr (M0 : Memref sig .tc .smem S8192 .i32) (X1 : M0.view.ty.Contents (Elt F)) {off off' : Fin 1 → ℕ}
    (h : off = off') (hin : ∀ a, off a + S1.size a ≤ S8192.size a) (hin' : ∀ a, off' a + S1.size a ≤ S8192.size a) :
    wordAt M0 X1 off hin = wordAt M0 X1 off' hin' := by
  subst h
  rfl

theorem wordAt_eq (M0 : Memref sig .tc .smem S8192 .i32) (X1 : M0.view.ty.Contents (Elt F)) (o : ℕ) (ho : o < 8192)
    (hin : ∀ a, (![o] : Fin 1 → ℕ) a + S1.size a ≤ S8192.size a) :
    wordAt M0 X1 ![o] hin = M0.view.read (Elt F) X1 (ix1 ⟨o, ho⟩) := by
  unfold wordAt
  rw [View.readAt_apply]
  congr 1
  funext a
  match a with
  | ⟨0, _⟩ => exact Fin.ext (by show o + 1 * 0 = o; omega)

theorem row_lt (w : BitVec 32)
    (hw : ∀ a, (![w.toNat, 0] : Fin 2 → ℕ) a + S1x128.size a ≤ S100000x128.size a) : w.toNat < 100000 := hw 0

def rowOf (M4 : Memref sig .tc .hbm S100000x128 .f32) (X4 : M4.view.ty.Contents (Elt F)) (w : BitVec 32)
    (hw : ∀ a, (![w.toNat, 0] : Fin 2 → ℕ) a + S1x128.size a ≤ S100000x128.size a) : S128.Idx → Elt F .f32 :=
  ReadAs.same.apply (((M4.slice (Rect.unit (s := S100000x128) ![w.toNat, 0] S1x128.size hw) (fun _ => rfl)).squeeze S128
    squeezes_S1x128_S128).view.read (Elt F) X4)

theorem rowOf_apply (M4 : Memref sig .tc .hbm S100000x128 .f32) (X4 : M4.view.ty.Contents (Elt F)) (w : BitVec 32)
    (hw : ∀ a, (![w.toNat, 0] : Fin 2 → ℕ) a + S1x128.size a ≤ S100000x128.size a) (d : Fin 128) :
    rowOf M4 X4 w hw (ix1 d) = M4.view.read (Elt F) X4 (ix2 ⟨w.toNat, row_lt w hw⟩ d) := by
  show M4.view.read (Elt F) X4 ((Rect.unit (s := S100000x128) ![w.toNat, 0] S1x128.size hw).emb
      (Shape.reshapeEquiv squeezes_S1x128_S128.numel_eq (ix1 d))) = _
  congr 1
  rw [Shape.reshapeEquiv_cons_one]
  funext a
  match a with
  | ⟨0, _⟩ => exact Fin.ext (by show w.toNat + 1 * 0 = w.toNat; omega)
  | ⟨1, _⟩ => exact Fin.ext (by show 0 + 1 * d.val = d.val; omega)

end Cert.Proof.KW.Gather

end
-- ==== Proof.W_R0Trip.lean ====
import proofs.«421265_j15204184228262_2_alg».proof.Proof.Gen.Kernel.Loops
import proofs.«421265_j15204184228262_2_alg».proof.Proof.Gen.Kernel.Launch
import proofs.«421265_j15204184228262_2_alg».proof.Proof.W_RowsSep
import proofs.«421265_j15204184228262_2_alg».proof.Proof.W_GatherRows
import Idealize.ShloMosaic.Lib.Transfers
import Idealize.ShloMosaic.Lib.Tactic
import Idealize.ShloMosaic.Lib.Pipeline.Kit
import Idealize.ShloMosaic.Lib.Pipeline.Routed

set_option maxRecDepth 8192
set_option maxHeartbeats 8000000

noncomputable section

namespace Cert.Proof.KW.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KW

variable {F : FTy → Type} [FloatOps F]

local notation "𝕄" => MT nD τ sig Unit (Elt F) ℕ (Pipeline.UC sig nD τ) ℕ

-- The kernel's 32 copy semaphores, each at zero.
abbrev cells0 (c : Dev nD) : sProp 𝕄 :=
  iprop(semVal ((c : Thread nD τ), SemLoc.dma (7 : DmaSem sig)) 0 ∗ semVal ((c : Thread nD τ), SemLoc.dma (8 : DmaSem sig)) 0 ∗ semVal ((c : Thread nD τ), SemLoc.dma (9 : DmaSem sig)) 0 ∗ semVal ((c : Thread nD τ), SemLoc.dma (10 : DmaSem sig)) 0 ∗ semVal ((c : Thread nD τ), SemLoc.dma (11 : DmaSem sig)) 0 ∗ semVal ((c : Thread nD τ), SemLoc.dma (12 : DmaSem sig)) 0 ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0 ∗ semVal ((c : Thread nD τ), SemLoc.dma (17 : DmaSem sig)) 0 ∗ semVal ((c : Thread nD τ), SemLoc.dma (18 : DmaSem sig)) 0 ∗ semVal ((c : Thread nD τ), SemLoc.dma (19 : DmaSem sig)) 0 ∗ semVal ((c : Thread nD τ), SemLoc.dma (20 : DmaSem sig)) 0 ∗ semVal ((c : Thread nD τ), SemLoc.dma (21 : DmaSem sig)) 0 ∗ semVal ((c : Thread nD τ), SemLoc.dma (22 : DmaSem sig)) 0 ∗ semVal ((c : Thread nD τ), SemLoc.dma (23 : DmaSem sig)) 0 ∗ semVal ((c : Thread nD τ), SemLoc.dma (24 : DmaSem sig)) 0 ∗ semVal ((c : Thread nD τ), SemLoc.dma (25 : DmaSem sig)) 0 ∗ semVal ((c : Thread nD τ), SemLoc.dma (26 : DmaSem sig)) 0 ∗ semVal ((c : Thread nD τ), SemLoc.dma (27 : DmaSem sig)) 0 ∗ semVal ((c : Thread nD τ), SemLoc.dma (28 : DmaSem sig)) 0 ∗ semVal ((c : Thread nD τ), SemLoc.dma (29 : DmaSem sig)) 0 ∗ semVal ((c : Thread nD τ), SemLoc.dma (30 : DmaSem sig)) 0 ∗ semVal ((c : Thread nD τ), SemLoc.dma (31 : DmaSem sig)) 0 ∗ semVal ((c : Thread nD τ), SemLoc.dma (32 : DmaSem sig)) 0 ∗ semVal ((c : Thread nD τ), SemLoc.dma (33 : DmaSem sig)) 0 ∗ semVal ((c : Thread nD τ), SemLoc.dma (34 : DmaSem sig)) 0 ∗ semVal ((c : Thread nD τ), SemLoc.dma (35 : DmaSem sig)) 0 ∗ semVal ((c : Thread nD τ), SemLoc.dma (36 : DmaSem sig)) 0 ∗ semVal ((c : Thread nD τ), SemLoc.dma (37 : DmaSem sig)) 0 ∗ semVal ((c : Thread nD τ), SemLoc.dma (38 : DmaSem sig)) 0)

-- The entity table held as 32 read shares, one per copy semaphore.
abbrev shares (c : Dev nD) (arg4 : Memref sig .tc .hbm S100000x128 .f32) (q : PosShare TreeShare) (X4 : BufTy.Contents (Elt F) arg4.view.ty) : sProp 𝕄 :=
  iprop((arg4.view.loc (c : Thread nD τ) ↦{Transfers.shareTokN q 7} X4) ∗ (arg4.view.loc (c : Thread nD τ) ↦{Transfers.shareTokN q 8} X4) ∗ (arg4.view.loc (c : Thread nD τ) ↦{Transfers.shareTokN q 9} X4) ∗ (arg4.view.loc (c : Thread nD τ) ↦{Transfers.shareTokN q 10} X4) ∗ (arg4.view.loc (c : Thread nD τ) ↦{Transfers.shareTokN q 11} X4) ∗ (arg4.view.loc (c : Thread nD τ) ↦{Transfers.shareTokN q 12} X4) ∗ (arg4.view.loc (c : Thread nD τ) ↦{Transfers.shareTokN q 13} X4) ∗ (arg4.view.loc (c : Thread nD τ) ↦{Transfers.shareTokN q 14} X4) ∗ (arg4.view.loc (c : Thread nD τ) ↦{Transfers.shareTokN q 15} X4) ∗ (arg4.view.loc (c : Thread nD τ) ↦{Transfers.shareTokN q 16} X4) ∗ (arg4.view.loc (c : Thread nD τ) ↦{Transfers.shareTokN q 17} X4) ∗ (arg4.view.loc (c : Thread nD τ) ↦{Transfers.shareTokN q 18} X4) ∗ (arg4.view.loc (c : Thread nD τ) ↦{Transfers.shareTokN q 19} X4) ∗ (arg4.view.loc (c : Thread nD τ) ↦{Transfers.shareTokN q 20} X4) ∗ (arg4.view.loc (c : Thread nD τ) ↦{Transfers.shareTokN q 21} X4) ∗ (arg4.view.loc (c : Thread nD τ) ↦{Transfers.shareTokN q 22} X4) ∗ (arg4.view.loc (c : Thread nD τ) ↦{Transfers.shareTokN q 23} X4) ∗ (arg4.view.loc (c : Thread nD τ) ↦{Transfers.shareTokN q 24} X4) ∗ (arg4.view.loc (c : Thread nD τ) ↦{Transfers.shareTokN q 25} X4) ∗ (arg4.view.loc (c : Thread nD τ) ↦{Transfers.shareTokN q 26} X4) ∗ (arg4.view.loc (c : Thread nD τ) ↦{Transfers.shareTokN q 27} X4) ∗ (arg4.view.loc (c : Thread nD τ) ↦{Transfers.shareTokN q 28} X4) ∗ (arg4.view.loc (c : Thread nD τ) ↦{Transfers.shareTokN q 29} X4) ∗ (arg4.view.loc (c : Thread nD τ) ↦{Transfers.shareTokN q 30} X4) ∗ (arg4.view.loc (c : Thread nD τ) ↦{Transfers.shareTokN q 31} X4) ∗ (arg4.view.loc (c : Thread nD τ) ↦{Transfers.shareTokN q 32} X4) ∗ (arg4.view.loc (c : Thread nD τ) ↦{Transfers.shareTokN q 33} X4) ∗ (arg4.view.loc (c : Thread nD τ) ↦{Transfers.shareTokN q 34} X4) ∗ (arg4.view.loc (c : Thread nD τ) ↦{Transfers.shareTokN q 35} X4) ∗ (arg4.view.loc (c : Thread nD τ) ↦{Transfers.shareTokN q 36} X4) ∗ (arg4.view.loc (c : Thread nD τ) ↦{Transfers.shareTokN q 37} X4) ∗ (arg4.view.loc (c : Thread nD τ) ↦{Transfers.shareTokN q 38} X4))

theorem chk_of (w : BitVec 32) (h : w.toNat + 1 ≤ 100000) :
    ∀ a : Fin 2, (![w.toNat, 0] : Fin 2 → Nat) a + S1x128.size a ≤ S100000x128.size a := by
  intro a; match a with | ⟨0, _⟩ => exact h | ⟨1, _⟩ => exact Nat.le_refl 128

def WordsIn (arg1 : Memref sig .tc .smem S8192 .i32) (X1 : BufTy.Contents (Elt F) arg1.view.ty) : Prop :=
  ∀ (off : Fin 1 → Nat) (hin : ∀ a, off a + S1.size a ≤ S8192.size a),
    (arg1.view.readAt (Elt F) (Rect.unit (s := S8192) off S1.size hin).toLoadRect X1 (Shape.Idx.first (numel1_S1.symm ▸ Nat.one_pos)) : BitVec 32).toNat + 1 ≤ 100000

abbrev rowIn (arg1 : Memref sig .tc .smem S8192 .i32) (X1 : BufTy.Contents (Elt F) arg1.view.ty)
    (arg4 : Memref sig .tc .hbm S100000x128 .f32) (X4 : BufTy.Contents (Elt F) arg4.view.ty)
    (k : Fin k0_t1_loop.trips) (hX1 : WordsIn arg1 X1) (r : Fin 128) : S128.Idx → Elt F .f32 :=
  Gather.rowOf arg4 X4 (Gather.wordAt arg1 X1 (Gather.offW r k) (Gather.offW_inb r k)) (chk_of _ (hX1 _ _))

abbrev tripStored (arg1 : Memref sig .tc .smem S8192 .i32) (X1 : BufTy.Contents (Elt F) arg1.view.ty)
    (arg2 : Memref sig .tc .vmem S8192 .i32) (X2 : BufTy.Contents (Elt F) arg2.view.ty)
    (arg3 : Memref sig .tc .vmem S512x128 .f32) (X3 : BufTy.Contents (Elt F) arg3.view.ty)
    (arg4 : Memref sig .tc .hbm S100000x128 .f32) (X4 : BufTy.Contents (Elt F) arg4.view.ty)
    (arg6 : Memref sig .tc .vmem S128x128 .f32) (f6 : BufTy.Contents (Elt F) arg6.view.ty)
    (k : Fin k0_t1_loop.trips) (hX1 : WordsIn arg1 X1) : FVec F S128x128 .f32 :=
  k0_pay1 (F := F)
    (arg6.view.readAt (Elt F) (Rect.unit (s := S128x128) ![0, 0] S128x128.size inb_S128x128_S128x128_0_0).toLoadRect
      (Rows.rowsWritten arg6 (rowIn arg1 X1 arg4 X4 k hX1) f6 128))
    (k0_pay2 (F := F) (arg2.view.readAt (Elt F) (Rect.unit (s := S8192) (k0_off257 k) S128.size (k0_off257_inb k)).toLoadRect X2))
    (arg3.view.readAt (Elt F) (Rect.unit (s := S512x128) ![0, 0] S512x128.size inb_S512x128_S512x128_0_0).toLoadRect X3)

-- One trip: 128 source words read, the rows they name copied into the scratch's 128 rows held one by one, the scratch read whole, the product stored.
theorem tripRun (c : Dev nD) (i : grid0.Coords) (arg1 : Memref sig .tc .smem S8192 .i32) (harg1 : arg1.IsWhole) (arg2 : Memref sig .tc .vmem S8192 .i32) (harg2 : arg2.IsWhole) (arg3 : Memref sig .tc .vmem S512x128 .f32) (harg3 : arg3.IsWhole) (arg4 : Memref sig .tc .hbm S100000x128 .f32) (harg4 : arg4.IsWhole) (arg5 : Memref sig .tc .vmem S8192x128 .f32) (harg5 : arg5.IsWhole) (arg6 : Memref sig .tc .vmem S128x128 .f32) (harg6 : arg6.IsWhole)
    (k : Fin k0_t1_loop.trips) (q : PosShare TreeShare)
    (X1 : BufTy.Contents (Elt F) arg1.view.ty) (X2 : BufTy.Contents (Elt F) arg2.view.ty) (X3 : BufTy.Contents (Elt F) arg3.view.ty) (X4 : BufTy.Contents (Elt F) arg4.view.ty)
    (hX1 : WordsIn arg1 X1)
    (f5 : BufTy.Contents (Elt F) arg5.view.ty) (f6 : BufTy.Contents (Elt F) arg6.view.ty) (W : Waits sig Unit) :
    (iprop((arg1.view.loc (c : Thread nD τ) ↦{fullShare} X1) ∗ (arg2.view.loc (c : Thread nD τ) ↦{fullShare} X2) ∗ (arg3.view.loc (c : Thread nD τ) ↦{fullShare} X3)
        ∗ shares c arg4 q X4
        ∗ (arg5.view.loc (c : Thread nD τ) ↦{fullShare} f5) ∗ (arg6.view.loc (c : Thread nD τ) ↦{fullShare} f6)
        ∗ cells0 c
        ∗ owes (c : Thread nD τ) 0 W) : sProp 𝕄)
      ⊢ wp frame (wpE (defs₀ (F := F)) Variants.none (c : Thread nD τ) none) Set.univ
          (k0_t1_body (F := F) i arg1 harg1 arg2 harg2 arg3 harg3 arg4 harg4 arg5 harg5 arg6 harg6 cc0_scratch1 k ())
          (fun _ => iprop((arg1.view.loc (c : Thread nD τ) ↦{fullShare} X1) ∗ (arg2.view.loc (c : Thread nD τ) ↦{fullShare} X2) ∗ (arg3.view.loc (c : Thread nD τ) ↦{fullShare} X3)
            ∗ shares c arg4 q X4
            ∗ (arg5.view.loc (c : Thread nD τ) ↦{fullShare} arg5.view.writes (Elt F) f5
                [⟨Rect.unit (s := S8192x128) (k0_off258 k) S128x128.size (k0_off258_inb k), tripStored arg1 X1 arg2 X2 arg3 X3 arg4 X4 arg6 f6 k hX1⟩])
            ∗ (∃ g, arg6.view.loc (c : Thread nD τ) ↦{fullShare} g)
            ∗ cells0 c
            ∗ ∃ W', owes (c : Thread nD τ) 0 W')) := by
  iintro ⟨H1, H2, H3, ⟨H4_0, H4_1, H4_2, H4_3, H4_4, H4_5, H4_6, H4_7, H4_8, H4_9, H4_10, H4_11, H4_12, H4_13, H4_14, H4_15, H4_16, H4_17, H4_18, H4_19, H4_20, H4_21, H4_22, H4_23, H4_24, H4_25, H4_26, H4_27, H4_28, H4_29, H4_30, H4_31⟩, H5, H6, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31⟩, HO⟩

  ihave HR := (Rows.rows_split arg6 harg6 c f6) $$ H6
  simp only [Rows.rowsAll, Nat.reduceLT, ↓reduceDIte]
  icases HR with ⟨R127, R126, R125, R124, R123, R122, R121, R120, R119, R118, R117, R116, R115, R114, R113, R112, R111, R110, R109, R108, R107, R106, R105, R104, R103, R102, R101, R100, R99, R98, R97, R96, R95, R94, R93, R92, R91, R90, R89, R88, R87, R86, R85, R84, R83, R82, R81, R80, R79, R78, R77, R76, R75, R74, R73, R72, R71, R70, R69, R68, R67, R66, R65, R64, R63, R62, R61, R60, R59, R58, R57, R56, R55, R54, R53, R52, R51, R50, R49, R48, R47, R46, R45, R44, R43, R42, R41, R40, R39, R38, R37, R36, R35, R34, R33, R32, R31, R30, R29, R28, R27, R26, R25, R24, R23, R22, R21, R20, R19, R18, R17, R16, R15, R14, R13, R12, R11, R10, R9, R8, R7, R6, R5, R4, R3, R2, R1, R0, -⟩
  unfold k0_t1_body

  sl_exec (disch := exact chk_of _ (hX1 _ _))

  ihave H6 := (Rows.rows_join arg6 harg6 c f6 (rowIn arg1 X1 arg4 X4 k hX1)) $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127]
  · simp only [Rows.rowsAll, Nat.reduceLT, ↓reduceDIte]
    isplitl [R127]; · iexact R127
    isplitl [R126]; · iexact R126
    isplitl [R125]; · iexact R125
    isplitl [R124]; · iexact R124
    isplitl [R123]; · iexact R123
    isplitl [R122]; · iexact R122
    isplitl [R121]; · iexact R121
    isplitl [R120]; · iexact R120
    isplitl [R119]; · iexact R119
    isplitl [R118]; · iexact R118
    isplitl [R117]; · iexact R117
    isplitl [R116]; · iexact R116
    isplitl [R115]; · iexact R115
    isplitl [R114]; · iexact R114
    isplitl [R113]; · iexact R113
    isplitl [R112]; · iexact R112
    isplitl [R111]; · iexact R111
    isplitl [R110]; · iexact R110
    isplitl [R109]; · iexact R109
    isplitl [R108]; · iexact R108
    isplitl [R107]; · iexact R107
    isplitl [R106]; · iexact R106
    isplitl [R105]; · iexact R105
    isplitl [R104]; · iexact R104
    isplitl [R103]; · iexact R103
    isplitl [R102]; · iexact R102
    isplitl [R101]; · iexact R101
    isplitl [R100]; · iexact R100
    isplitl [R99]; · iexact R99
    isplitl [R98]; · iexact R98
    isplitl [R97]; · iexact R97
    isplitl [R96]; · iexact R96
    isplitl [R95]; · iexact R95
    isplitl [R94]; · iexact R94
    isplitl [R93]; · iexact R93
    isplitl [R92]; · iexact R92
    isplitl [R91]; · iexact R91
    isplitl [R90]; · iexact R90
    isplitl [R89]; · iexact R89
    isplitl [R88]; · iexact R88
    isplitl [R87]; · iexact R87
    isplitl [R86]; · iexact R86
    isplitl [R85]; · iexact R85
    isplitl [R84]; · iexact R84
    isplitl [R83]; · iexact R83
    isplitl [R82]; · iexact R82
    isplitl [R81]; · iexact R81
    isplitl [R80]; · iexact R80
    isplitl [R79]; · iexact R79
    isplitl [R78]; · iexact R78
    isplitl [R77]; · iexact R77
    isplitl [R76]; · iexact R76
    isplitl [R75]; · iexact R75
    isplitl [R74]; · iexact R74
    isplitl [R73]; · iexact R73
    isplitl [R72]; · iexact R72
    isplitl [R71]; · iexact R71
    isplitl [R70]; · iexact R70
    isplitl [R69]; · iexact R69
    isplitl [R68]; · iexact R68
    isplitl [R67]; · iexact R67
    isplitl [R66]; · iexact R66
    isplitl [R65]; · iexact R65
    isplitl [R64]; · iexact R64
    isplitl [R63]; · iexact R63
    isplitl [R62]; · iexact R62
    isplitl [R61]; · iexact R61
    isplitl [R60]; · iexact R60
    isplitl [R59]; · iexact R59
    isplitl [R58]; · iexact R58
    isplitl [R57]; · iexact R57
    isplitl [R56]; · iexact R56
    isplitl [R55]; · iexact R55
    isplitl [R54]; · iexact R54
    isplitl [R53]; · iexact R53
    isplitl [R52]; · iexact R52
    isplitl [R51]; · iexact R51
    isplitl [R50]; · iexact R50
    isplitl [R49]; · iexact R49
    isplitl [R48]; · iexact R48
    isplitl [R47]; · iexact R47
    isplitl [R46]; · iexact R46
    isplitl [R45]; · iexact R45
    isplitl [R44]; · iexact R44
    isplitl [R43]; · iexact R43
    isplitl [R42]; · iexact R42
    isplitl [R41]; · iexact R41
    isplitl [R40]; · iexact R40
    isplitl [R39]; · iexact R39
    isplitl [R38]; · iexact R38
    isplitl [R37]; · iexact R37
    isplitl [R36]; · iexact R36
    isplitl [R35]; · iexact R35
    isplitl [R34]; · iexact R34
    isplitl [R33]; · iexact R33
    isplitl [R32]; · iexact R32
    isplitl [R31]; · iexact R31
    isplitl [R30]; · iexact R30
    isplitl [R29]; · iexact R29
    isplitl [R28]; · iexact R28
    isplitl [R27]; · iexact R27
    isplitl [R26]; · iexact R26
    isplitl [R25]; · iexact R25
    isplitl [R24]; · iexact R24
    isplitl [R23]; · iexact R23
    isplitl [R22]; · iexact R22
    isplitl [R21]; · iexact R21
    isplitl [R20]; · iexact R20
    isplitl [R19]; · iexact R19
    isplitl [R18]; · iexact R18
    isplitl [R17]; · iexact R17
    isplitl [R16]; · iexact R16
    isplitl [R15]; · iexact R15
    isplitl [R14]; · iexact R14
    isplitl [R13]; · iexact R13
    isplitl [R12]; · iexact R12
    isplitl [R11]; · iexact R11
    isplitl [R10]; · iexact R10
    isplitl [R9]; · iexact R9
    isplitl [R8]; · iexact R8
    isplitl [R7]; · iexact R7
    isplitl [R6]; · iexact R6
    isplitl [R5]; · iexact R5
    isplitl [R4]; · iexact R4
    isplitl [R3]; · iexact R3
    isplitl [R2]; · iexact R2
    isplitl [R1]; · iexact R1
    isplitl [R0]; · iexact R0
    iempintro
  sl_exec
  sl_step
  delta shares cells0
  iframe
  isplitl [H5]; · iexact H5
  isplitl [H6]; · iexists _; iexact H6
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    iexact Hc31
  iexists _; iexact HO

end Cert.Proof.KW.R0

end
-- ==== Proof.W_TripValue.lean ====
import proofs.«421265_j15204184228262_2_alg».proof.Proof.W_GatherRows
import proofs.«421265_j15204184228262_2_alg».proof.Proof.W_R0Spec
import Idealize.ShloMosaic.Lib.Writes
import Idealize.ShloMosaic.Lib.Pipeline.Frame

noncomputable section

namespace Cert.Proof.KW.Trip

open Cert.Kernel Cert.Kernel.Gen Cert.Proof.KW.Gather Idealize.ShloMosaic Idealize.ShloMosaic.ValueIdx

variable {F : FTy → Type} [FloatOps F]

abbrev k64 (k : Fin k0_t1_loop.trips) : Fin 64 := ⟨k.val, Nat.lt_of_lt_of_le k.isLt k0_t1_abs.2.1⟩

theorem off257_eq (k : Fin k0_t1_loop.trips) : k0_off257 k = ![128 * k.val] := by
  have hk : k.val < 64 := Nat.lt_of_lt_of_le k.isLt k0_t1_abs.2.1
  show ![(Scalar.indexCast (Scalar.muli (Scf.iv 0#32 1#32 k) 128#32)).toNat] = ![128 * k.val]
  congr 1
  simp only [Scalar.indexCast, Scalar.muli, IntOp.muli, Scf.iv, BitVec.toNat_add, BitVec.toNat_mul,
    BitVec.toNat_ofNat]
  omega

theorem off258_eq (k : Fin k0_t1_loop.trips) : k0_off258 k = ![128 * k.val, 0] := by
  have hk : k.val < 64 := Nat.lt_of_lt_of_le k.isLt k0_t1_abs.2.1
  show ![(Scalar.indexCast (Scalar.muli (Scf.iv 0#32 1#32 k) 128#32)).toNat, 0] = ![128 * k.val, 0]
  congr 1
  simp only [Scalar.indexCast, Scalar.muli, IntOp.muli, Scf.iv, BitVec.toNat_add, BitVec.toNat_mul,
    BitVec.toNat_ofNat]
  omega

theorem rel_read (M2 : Memref sig .tc .vmem S512x128 .f32) (X3 : M2.view.ty.Contents (Elt F)) :
    View.readAt (Elt F) M2.view (Rect.unit (s := S512x128) ![0, 0] S512x128.size inb_S512x128_S512x128_0_0).toLoadRect X3
      = M2.view.read (Elt F) X3 := by
  funext x
  rw [View.readAt_apply]
  congr 1
  funext a
  match a with
  | ⟨0, _⟩ => exact Fin.ext (by show 0 + 1 * (x 0).val = (x 0).val; omega)
  | ⟨1, _⟩ => exact Fin.ext (by show 0 + 1 * (x 1).val = (x 1).val; omega)

theorem chunk_eq (M1 : Memref sig .tc .vmem S8192 .i32) (X2 : M1.view.ty.Contents (Elt F)) (k : Fin k0_t1_loop.trips) :
    View.readAt (Elt F) M1.view (Rect.unit (s := S8192) (k0_off257 k) S128.size (k0_off257_inb k)).toLoadRect X2
      = R0Spec.chunk (F := F) (M1.view.read (Elt F) X2) (k64 k) := by
  funext x
  rw [View.readAt_apply]
  show M1.view.read (Elt F) X2 _ = M1.view.read (Elt F) X2 (ix1 (R0Spec.edgeAt (k64 k) (x 0)))
  congr 1
  funext a
  match a with
  | ⟨0, _⟩ =>
    refine Fin.ext ?_
    have e : k0_off257 k 0 = 128 * k.val := congrFun (off257_eq k) 0
    show k0_off257 k 0 + 1 * (x 0).val = 128 * k.val + (x 0).val
    omega

theorem row_inb (w : BitVec 32) (h : w.toNat + 1 ≤ 100000) :
    ∀ a, (![w.toNat, 0] : Fin 2 → ℕ) a + S1x128.size a ≤ S100000x128.size a := fun a =>
  match a with
  | ⟨0, _⟩ => h
  | ⟨1, _⟩ => Nat.le_refl 128

theorem gathered_eq (M0 : Memref sig .tc .smem S8192 .i32) (X1 : M0.view.ty.Contents (Elt F))
    (M4 : Memref sig .tc .hbm S100000x128 .f32) (X4 : M4.view.ty.Contents (Elt F)) (k : Fin k0_t1_loop.trips)
    (hw : ∀ (off : Fin 1 → ℕ) (hin : ∀ a, off a + S1.size a ≤ S8192.size a),
      (wordAt M0 X1 off hin : BitVec 32).toNat + 1 ≤ 100000) :
    (fun idx : S128x128.Idx => rowOf M4 X4 (wordAt M0 X1 (offW (idx 0) k) (offW_inb (idx 0) k))
        (row_inb _ (hw _ _)) (ix1 (idx 1)))
      = R0Spec.gathered (F := F) (M0.view.read (Elt F) X1) (M4.view.read (Elt F) X4) (k64 k) := by
  funext idx
  obtain ⟨r, d, rfl⟩ : ∃ (r d : Fin 128), idx = ix2 r d := ⟨idx 0, idx 1, eq_ix2 idx⟩
  show rowOf M4 X4 (wordAt M0 X1 (offW r k) (offW_inb r k)) (row_inb _ (hw _ _)) (ix1 d)
    = M4.view.read (Elt F) X4 (ix2 (R0Spec.entRow (M0.view.read (Elt F) X1 (ix1 (R0Spec.edgeAt (k64 k) r)))) d)
  have hk : k.val < 64 := Nat.lt_of_lt_of_le k.isLt k0_t1_abs.2.1
  have hr : r.val < 128 := r.isLt
  have hin : ∀ a, (![128 * k.val + r.val] : Fin 1 → ℕ) a + S1.size a ≤ S8192.size a := by
    rw [← offW_eq r k]
    exact offW_inb r k
  have hword : wordAt M0 X1 (offW r k) (offW_inb r k)
      = M0.view.read (Elt F) X1 (ix1 (R0Spec.edgeAt (k64 k) r)) :=
    (wordAt_congr M0 X1 (offW_eq r k) _ hin).trans (wordAt_eq M0 X1 _ (by omega) hin)
  have hlt := hw _ (offW_inb r k)
  refine (rowOf_apply M4 X4 _ _ d).trans ?_
  refine congrArg (fun t : Fin 100000 => M4.view.read (Elt F) X4 (ix2 t d)) (Fin.ext ?_)
  show (wordAt M0 X1 (offW r k) (offW_inb r k) : BitVec 32).toNat
    = min (M0.view.read (Elt F) X1 (ix1 (R0Spec.edgeAt (k64 k) r)) : BitVec 32).toNat 99999
  rw [← hword]
  omega

theorem store_read (M3 : Memref sig .tc .vmem S8192x128 .f32) (f5 : M3.view.ty.Contents (Elt F))
    (k : Fin k0_t1_loop.trips) (p : FVec F S128x128 .f32) (q : Fin 8192) (d : Fin 128) :
    M3.view.read (Elt F) (M3.view.writes (Elt F) f5
        [⟨Rect.unit (s := S8192x128) (k0_off258 k) S128x128.size (k0_off258_inb k), p⟩]) (ix2 q d)
      = if h : 128 * k.val ≤ q.val ∧ q.val < 128 * k.val + 128 then p (ix2 ⟨q.val - 128 * k.val, by omega⟩ d)
        else M3.view.read (Elt F) f5 (ix2 q d) := by
  have hk : k.val < 64 := Nat.lt_of_lt_of_le k.isLt k0_t1_abs.2.1
  have e0 : k0_off258 k 0 = 128 * k.val := congrFun (off258_eq k) 0
  have e1 : k0_off258 k 1 = 0 := congrFun (off258_eq k) 1
  rw [View.writes_singleton]
  by_cases h : 128 * k.val ≤ q.val ∧ q.val < 128 * k.val + 128
  · rw [dif_pos h]
    have hq : ix2 q d = (Rect.unit (s := S8192x128) (k0_off258 k) S128x128.size (k0_off258_inb k)).emb
        (ix2 (⟨q.val - 128 * k.val, by omega⟩ : Fin 128) d) := by
      funext a
      match a with
      | ⟨0, _⟩ =>
        refine Fin.ext ?_
        show q.val = k0_off258 k 0 + 1 * (q.val - 128 * k.val)
        omega
      | ⟨1, _⟩ =>
        refine Fin.ext ?_
        show d.val = k0_off258 k 1 + 1 * d.val
        omega
    rw [hq]
    exact View.read_slice_write_emb _ _ _ (Finset.mem_univ _)
  · rw [dif_neg h]
    refine View.read_slice_write_of_not_mem _ _ _ _ ?_
    intro hm
    obtain ⟨x, -, hx⟩ := Finset.mem_map.mp hm
    have h0 : k0_off258 k 0 + 1 * (x 0).val = q.val := congrArg (fun i : S8192x128.Idx => (i 0).val) hx
    have hx0 : (x 0).val < 128 := (x 0).isLt
    omega

def Done (M3 : Memref sig .tc .vmem S8192x128 .f32) (B : Vec F S8192x128 .f32) (n : ℕ)
    (f5 : M3.view.ty.Contents (Elt F)) : Prop :=
  ∀ (q : Fin 8192) (d : Fin 128), q.val < 128 * n → M3.view.read (Elt F) f5 (ix2 q d) = B (ix2 q d)

theorem done_zero (M3 : Memref sig .tc .vmem S8192x128 .f32) (B : Vec F S8192x128 .f32)
    (f5 : M3.view.ty.Contents (Elt F)) : Done M3 B 0 f5 := by
  intro q d hq
  omega

theorem done_step (M3 : Memref sig .tc .vmem S8192x128 .f32) (B : Vec F S8192x128 .f32)
    (f5 : M3.view.ty.Contents (Elt F)) (k : Fin k0_t1_loop.trips) (p : FVec F S128x128 .f32)
    (hB : ∀ (r : Fin 128) (d : Fin 128), B (ix2 (R0Spec.edgeAt (k64 k) r) d) = p (ix2 r d)) :
    Done M3 B k.val f5 → Done M3 B (k.val + 1) (M3.view.writes (Elt F) f5
      [⟨Rect.unit (s := S8192x128) (k0_off258 k) S128x128.size (k0_off258_inb k), p⟩]) := by
  intro hD q d hq
  have hk : k.val < 64 := Nat.lt_of_lt_of_le k.isLt k0_t1_abs.2.1
  rw [store_read]
  by_cases h : 128 * k.val ≤ q.val ∧ q.val < 128 * k.val + 128
  · rw [dif_pos h, ← hB]
    refine congrArg (fun r : Fin 8192 => B (ix2 r d)) (Fin.ext ?_)
    show 128 * k.val + (q.val - 128 * k.val) = q.val
    omega
  · rw [dif_neg h]
    exact hD q d (by omega)

theorem done_all (M3 : Memref sig .tc .vmem S8192x128 .f32) (B : Vec F S8192x128 .f32)
    (f5 : M3.view.ty.Contents (Elt F)) (h3 : M3.IsWhole) : Done M3 B 64 f5 → f5 = h3.unread B := by
  intro hD
  refine h3.eq_unread (funext fun i => ?_)
  have h0 : (i 0).val < 8192 := (i 0).isLt
  rw [eq_ix2 i]
  exact hD (i 0) (i 1) (by show (i 0).val < 128 * 64; omega)

theorem blockOut_row (s e : IVec S8192 32) (rel : Vec F S512x128 .f32) (ent : Vec F S100000x128 .f32) (k : Fin 64)
    (r : Fin 128) (d : Fin 128) :
    R0Spec.blockOut s e rel ent (ix2 (R0Spec.edgeAt k r) d) = R0Spec.tripOut s e rel ent k (ix2 r d) := by
  have hk := k.isLt
  have hr := r.isLt
  have key : ∀ (k' : Fin 64) (i i' : S128x128.Idx), k' = k → i' = i →
      R0Spec.tripOut s e rel ent k' i' = R0Spec.tripOut s e rel ent k i := by
    intro k' i i' h1 h2
    subst h1 h2
    rfl
  refine key _ _ _ (Fin.ext ?_) ?_
  · show (128 * k.val + r.val) / 128 = k.val
    omega
  · funext a
    match a with
    | ⟨0, _⟩ =>
      refine Fin.ext ?_
      show (128 * k.val + r.val) % 128 = r.val
      omega
    | ⟨1, _⟩ => rfl

end Cert.Proof.KW.Trip

end
-- ==== Proof.W_TokSep.lean ====
import proofs.«421265_j15204184228262_2_alg».proof.Proof.Gen.Kernel
import Idealize.ShloMosaic.Lib.Transfers
import Idealize.ShloMosaic.Lib.Pipeline.Routed

noncomputable section

namespace Cert.Proof.KW.Tok

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.Kernel

variable {F : FTy → Type} [FloatOps F]

local notation "𝕄" => MT nD τ sig Unit (Elt F) ℕ (Pipeline.UC sig nD τ) ℕ

def toksAll (ℓ : Loc nD τ sig) (f : Buf (Elt F) ℓ) (q : PosShare TreeShare) : ℕ → sProp 𝕄
  | 0 => iprop(emp)
  | n + 1 => iprop((ℓ ↦{Transfers.shareTokN q n} f) ∗ toksAll ℓ f q n)

theorem toksAll_eq (ℓ : Loc nD τ sig) (f : Buf (Elt F) ℓ) (q : PosShare TreeShare) (n : ℕ) :
    toksAll ℓ f q n = BI.bigSep (Finset.range n) (fun i => (ℓ ↦{Transfers.shareTokN q i} f : sProp 𝕄)) := by
  induction n with
  | zero => rw [Finset.range_zero, BI.bigSep_empty]; rfl
  | succ k ih => rw [Finset.range_add_one, BI.bigSep_insert Finset.notMem_range_self, ← ih]; rfl

-- A points-to at share q is n read tokens halved off it beside the remainder.
theorem toks_iff (ℓ : Loc nD τ sig) (f : Buf (Elt F) ℓ) (q : PosShare TreeShare) (n : ℕ) :
    (ℓ ↦{q} f : sProp 𝕄) ⊣⊢ iprop((ℓ ↦{Transfers.shareDrop q n} f) ∗ toksAll ℓ f q n) := by
  rw [toksAll_eq]
  exact Transfers.pointsTo_toks_range q n

end Cert.Proof.KW.Tok

end
-- ==== Proof.W_R0Body.lean ====
import proofs.«421265_j15204184228262_2_alg».proof.Proof.Gen.Kernel.Loops
import proofs.«421265_j15204184228262_2_alg».proof.Proof.Gen.Kernel.Launch
import proofs.«421265_j15204184228262_2_alg».proof.Proof.W_R0Spec
import Idealize.ShloMosaic.Lib.Transfers
import Idealize.ShloMosaic.Lib.Tactic
import Idealize.ShloMosaic.Lib.Pipeline.Kit
import Idealize.ShloMosaic.Lib.Pipeline.Routed
import proofs.«421265_j15204184228262_2_alg».proof.Proof.W_R0Trip
import proofs.«421265_j15204184228262_2_alg».proof.Proof.W_TripValue
import proofs.«421265_j15204184228262_2_alg».proof.Proof.W_TokSep

noncomputable section

namespace Cert.Proof.KW.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

def WordsOk (c : Dev nD) (M0 : Memref sig .tc .smem S8192 .i32) (f0 : Bf (F := F) c M0) : Prop :=
  ∀ (off : Fin 1 → Nat) (hin : ∀ a, off a + S1.size a ≤ S8192.size a),
    (M0.view.readAt (Elt F) (Rect.unit (s := S8192) off S1.size hin).toLoadRect f0 (Shape.Idx.first (numel1_S1.symm ▸ Nat.one_pos)) : BitVec 32).toNat + 1 ≤ 100000

abbrev outBlock (c : Dev nD) (M0 : Memref sig .tc .smem S8192 .i32) (M1 : Memref sig .tc .vmem S8192 .i32) (M2 : Memref sig .tc .vmem S512x128 .f32)
    (f0 : Bf (F := F) c M0) (f1 : Bf (F := F) c M1) (f2 : Bf (F := F) c M2) (ent : Bf (F := F) c (Memref.whole main_arg0)) : Vec F S8192x128 .f32 :=
  R0Spec.blockOut (F := F) (M0.view.read (Elt F) f0) (M1.view.read (Elt F) f1) (M2.view.read (Elt F) f2) ((Memref.whole main_arg0).view.read (Elt F) ent)

theorem trips64 : Scf.trips k0_t1_loop.lb k0_t1_loop.ub k0_t1_loop.st = 64 := by decide

theorem tripStored_eq (M0 : Memref sig .tc .smem S8192 .i32) (X1 : BufTy.Contents (Elt F) M0.view.ty)
    (M1 : Memref sig .tc .vmem S8192 .i32) (X2 : BufTy.Contents (Elt F) M1.view.ty)
    (M2 : Memref sig .tc .vmem S512x128 .f32) (X3 : BufTy.Contents (Elt F) M2.view.ty)
    (M4 : Memref sig .tc .hbm S100000x128 .f32) (X4 : BufTy.Contents (Elt F) M4.view.ty)
    (M6 : Memref sig .tc .vmem S128x128 .f32) (f6 : BufTy.Contents (Elt F) M6.view.ty)
    (k : Fin k0_t1_loop.trips) (hX1 : WordsIn M0 X1) :
    tripStored M0 X1 M1 X2 M2 X3 M4 X4 M6 f6 k hX1
      = R0Spec.tripOut (F := F) (M0.view.read (Elt F) X1) (M1.view.read (Elt F) X2) (M2.view.read (Elt F) X3)
          (M4.view.read (Elt F) X4) (Trip.k64 k) := by
  have hg : M6.view.readAt (Elt F) (Rect.unit (s := S128x128) ![0, 0] S128x128.size inb_S128x128_S128x128_0_0).toLoadRect
      (Rows.rowsWritten M6 (rowIn M0 X1 M4 X4 k hX1) f6 128)
      = R0Spec.gathered (F := F) (M0.view.read (Elt F) X1) (M4.view.read (Elt F) X4) (Trip.k64 k) := by
    rw [← Trip.gathered_eq M0 X1 M4 X4 k hX1]
    funext idx
    obtain ⟨r, d, rfl⟩ : ∃ (r d : Fin 128), idx = ValueIdx.ix2 r d := ⟨idx 0, idx 1, ValueIdx.eq_ix2 idx⟩
    exact Rows.rows_read M6 (rowIn M0 X1 M4 X4 k hX1) f6 r d
  show k0_pay1 (F := F) _ (k0_pay2 (F := F) _) _ = k0_pay1 (F := F) _ (k0_pay2 (F := F) _) _
  rw [hg, Trip.chunk_eq, Trip.rel_read]

abbrev tripRes (c : Dev nD) (M0 : Memref sig .tc .smem S8192 .i32) (M1 : Memref sig .tc .vmem S8192 .i32)
    (M2 : Memref sig .tc .vmem S512x128 .f32) (M3 : Memref sig .tc .vmem S8192x128 .f32)
    (f0 : Bf (F := F) c M0) (f1 : Bf (F := F) c M1) (f2 : Bf (F := F) c M2) (ent : Bf (F := F) c (Memref.whole main_arg0))
    (f5 : Bf (F := F) c M3) (g : Bf (F := F) c (Memref.whole cc0_scratch0)) (W : Waits sig Unit) : sProp 𝕄 :=
  iprop((M0.view.loc (c : Thread nD τ) ↦{fullShare} f0) ∗ (M1.view.loc (c : Thread nD τ) ↦{fullShare} f1) ∗ (M2.view.loc (c : Thread nD τ) ↦{fullShare} f2)
    ∗ shares c (Memref.whole main_arg0) fullShare ent
    ∗ (M3.view.loc (c : Thread nD τ) ↦{fullShare} f5) ∗ ((Memref.whole cc0_scratch0).view.loc (c : Thread nD τ) ↦{fullShare} g)
    ∗ cells0 c
    ∗ owes (c : Thread nD τ) 0 W)

def loopInv (c : Dev nD) (M0 : Memref sig .tc .smem S8192 .i32) (M1 : Memref sig .tc .vmem S8192 .i32)
    (M2 : Memref sig .tc .vmem S512x128 .f32) (M3 : Memref sig .tc .vmem S8192x128 .f32)
    (f0 : Bf (F := F) c M0) (f1 : Bf (F := F) c M1) (f2 : Bf (F := F) c M2) (ent : Bf (F := F) c (Memref.whole main_arg0)) (n : ℕ) (_ : Unit) : sProp 𝕄 :=
  iprop(∃ (f5 : Bf (F := F) c M3), ∃ (g : Bf (F := F) c (Memref.whole cc0_scratch0)), ∃ (W : Waits sig Unit),
    ⌜Trip.Done M3 (outBlock c M0 M1 M2 f0 f1 f2 ent) n f5⌝ ∗ tripRes c M0 M1 M2 M3 f0 f1 f2 ent f5 g W)

set_option maxRecDepth 8192 in
set_option maxHeartbeats 4000000 in
-- One trip keeps the invariant: it stores rows 128·k … 128·k + 127 of the specified block.
theorem loopStep (c : Dev nD) (i : grid0.Coords) (M0 : Memref sig .tc .smem S8192 .i32) (h0 : M0.IsWhole)
    (M1 : Memref sig .tc .vmem S8192 .i32) (h1 : M1.IsWhole) (M2 : Memref sig .tc .vmem S512x128 .f32) (h2 : M2.IsWhole)
    (M3 : Memref sig .tc .vmem S8192x128 .f32) (h3 : M3.IsWhole)
    (f0 : Bf (F := F) c M0) (f1 : Bf (F := F) c M1) (f2 : Bf (F := F) c M2) (ent : Bf (F := F) c (Memref.whole main_arg0))
    (hw : WordsOk c M0 f0) (k : Fin k0_t1_loop.trips) (acc : Unit) :
    loopInv c M0 M1 M2 M3 f0 f1 f2 ent k.val acc
      ⊢ wp frame (wpE (defs₀ (F := F)) Variants.none (c : Thread nD τ) none) Set.univ
          (k0_t1_body (F := F) i M0 h0 M1 h1 M2 h2 (Memref.whole main_arg0) (Memref.isWhole_whole _) M3 h3 (Memref.whole cc0_scratch0) (Memref.isWhole_whole _) cc0_scratch1 k acc)
          (loopInv c M0 M1 M2 M3 f0 f1 f2 ent (k.val + 1)) := by
  obtain ⟨⟩ := acc
  unfold loopInv
  iintro ⟨%f5, %g, %W, %hD, H⟩
  iapply (wp_wand_r frame (wpE (defs₀ (F := F)) Variants.none (c : Thread nD τ) none) Set.univ)
  isplitl [H]
  · iapply (tripRun c i M0 h0 M1 h1 M2 h2 (Memref.whole main_arg0) (Memref.isWhole_whole _) M3 h3 (Memref.whole cc0_scratch0) (Memref.isWhole_whole _) k fullShare f0 f1 f2 ent hw f5 g W)
    iexact H
  · iintro %u Hpost
    icases Hpost with ⟨H0, H1, H2, ⟨T7, T8, T9, T10, T11, T12, T13, T14, T15, T16, T17, T18, T19, T20, T21, T22, T23, T24, T25, T26, T27, T28, T29, T30, T31, T32, T33, T34, T35, T36, T37, T38⟩, H5, ⟨%g', H6⟩, ⟨C7, C8, C9, C10, C11, C12, C13, C14, C15, C16, C17, C18, C19, C20, C21, C22, C23, C24, C25, C26, C27, C28, C29, C30, C31, C32, C33, C34, C35, C36, C37, C38⟩, ⟨%W', HO⟩⟩
    iexists (M3.view.writes (Elt F) f5 [⟨Rect.unit (s := S8192x128) (k0_off258 k) S128x128.size (k0_off258_inb k), tripStored M0 f0 M1 f1 M2 f2 (Memref.whole main_arg0) ent (Memref.whole cc0_scratch0) g k hw⟩]), g', W'
    isplitr
    · ipureintro
      exact Trip.done_step M3 _ f5 k _ (fun r d => (Trip.blockOut_row _ _ _ _ (Trip.k64 k) r d).trans
        (congrFun (tripStored_eq M0 f0 M1 f1 M2 f2 (Memref.whole main_arg0) ent (Memref.whole cc0_scratch0) g k hw)
          (ValueIdx.ix2 r d)).symm) hD
    · delta tripRes shares cells0
      iframe

set_option maxRecDepth 65536 in
set_option maxHeartbeats 8000000 in
-- The gather kernel at one grid point: 64 trips under the invariant leave the specified block in the output buffer.
theorem gmRun (c : Dev nD) (i : grid0.Coords) (M0 : Memref sig .tc .smem S8192 .i32) (h0 : M0.IsWhole) (M1 : Memref sig .tc .vmem S8192 .i32) (h1 : M1.IsWhole)
    (M2 : Memref sig .tc .vmem S512x128 .f32) (h2 : M2.IsWhole) (M3 : Memref sig .tc .vmem S8192x128 .f32) (h3 : M3.IsWhole)
    (f0 : Bf (F := F) c M0) (f1 : Bf (F := F) c M1) (f2 : Bf (F := F) c M2) (ent : Bf (F := F) c (Memref.whole main_arg0)) (hw : WordsOk c M0 f0)
    (f3 : Bf (F := F) c M3) (g : Bf (F := F) c (Memref.whole cc0_scratch0)) (W₀ : Waits sig Unit) (Q : PUnit → sProp 𝕄) :
    iprop(pt c M0 f0 ∗ pt c M1 f1 ∗ pt c M2 f2 ∗ pt c M3 f3 ∗ pt c (Memref.whole main_arg0) ent ∗ pt c (Memref.whole cc0_scratch0) g ∗ cells0 c ∗ owes (c : Thread nD τ) 0 W₀
        ∗ (iprop(pt c M0 f0 ∗ pt c M1 f1 ∗ pt c M2 f2 ∗ pt c M3 (h3.unread (outBlock c M0 M1 M2 f0 f1 f2 ent)) ∗ pt c (Memref.whole main_arg0) ent
            ∗ (∃ g', pt c (Memref.whole cc0_scratch0) g') ∗ cells0 c ∗ ∃ W', owes (c : Thread nD τ) 0 W') -∗ Q ⟨⟩))
      ⊢ wp frame (wpE (defs₀ (F := F)) Variants.none (c : Thread nD τ) none) Set.univ
          (cc0__gather_mul_kernel (F := F) i M0 h0 M1 h1 M2 h2 (Memref.whole main_arg0) (Memref.isWhole_whole _) M3 h3 (Memref.whole cc0_scratch0) (Memref.isWhole_whole _) cc0_scratch1) Q := by
  iintro ⟨H0, H1, H2, H3, He, Hg, Hc, HO, Hk⟩
  icases Hc with ⟨C7, C8, C9, C10, C11, C12, C13, C14, C15, C16, C17, C18, C19, C20, C21, C22, C23, C24, C25, C26, C27, C28, C29, C30, C31, C32, C33, C34, C35, C36, C37, C38⟩
  ihave Ht := (Tok.toks_iff _ ent fullShare 39).1 $$ He
  simp only [Tok.toksAll]
  icases Ht with ⟨Hd, T38, T37, T36, T35, T34, T33, T32, T31, T30, T29, T28, T27, T26, T25, T24, T23, T22, T21, T20, T19, T18, T17, T16, T15, T14, T13, T12, T11, T10, T9, T8, T7, T6, T5, T4, T3, T2, T1, T0, -⟩
  simp only [cc0__gather_mul_kernel_eq_skeleton]
  unfold cc0__gather_mul_kernel_skel
  iapply (Scf.wp_for_bind frame (wpE (defs₀ (F := F)) Variants.none (c : Thread nD τ) none) Set.univ
    k0_t1_loop.lb k0_t1_loop.ub k0_t1_loop.st k0_t1_ok ⟨⟩
    (k0_t1_body (F := F) i M0 h0 M1 h1 M2 h2 (Memref.whole main_arg0) (Memref.isWhole_whole _) M3 h3 (Memref.whole cc0_scratch0) (Memref.isWhole_whole _) cc0_scratch1)
    (loopInv c M0 M1 M2 M3 f0 f1 f2 ent)
    (loopStep c i M0 h0 M1 h1 M2 h2 M3 h3 f0 f1 f2 ent hw)) $$ [H0 H1 H2 H3 Hg HO T7 T8 T9 T10 T11 T12 T13 T14 T15 T16 T17 T18 T19 T20 T21 T22 T23 T24 T25 T26 T27 T28 T29 T30 T31 T32 T33 T34 T35 T36 T37 T38 C7 C8 C9 C10 C11 C12 C13 C14 C15 C16 C17 C18 C19 C20 C21 C22 C23 C24 C25 C26 C27 C28 C29 C30 C31 C32 C33 C34 C35 C36 C37 C38]
  · unfold loopInv
    iexists f3, g, W₀
    isplitr
    · ipureintro
      exact Trip.done_zero M3 _ f3
    · delta tripRes shares cells0
      iframe
  iintro %acc Hinv
  unfold loopInv
  icases Hinv with ⟨%f5, %g', %W', %hD, H0, H1, H2, ⟨T7, T8, T9, T10, T11, T12, T13, T14, T15, T16, T17, T18, T19, T20, T21, T22, T23, T24, T25, T26, T27, T28, T29, T30, T31, T32, T33, T34, T35, T36, T37, T38⟩, H3, Hg, ⟨C7, C8, C9, C10, C11, C12, C13, C14, C15, C16, C17, C18, C19, C20, C21, C22, C23, C24, C25, C26, C27, C28, C29, C30, C31, C32, C33, C34, C35, C36, C37, C38⟩, HO⟩
  have hD' : Trip.Done M3 (outBlock c M0 M1 M2 f0 f1 f2 ent) 64 f5 :=
    Eq.mp (congrArg (fun n => Trip.Done M3 (outBlock c M0 M1 M2 f0 f1 f2 ent) n f5) trips64) hD
  obtain rfl := Trip.done_all M3 _ f5 h3 hD'
  ihave He := (Tok.toks_iff _ ent fullShare 39).2 $$ [Hd T38 T37 T36 T35 T34 T33 T32 T31 T30 T29 T28 T27 T26 T25 T24 T23 T22 T21 T20 T19 T18 T17 T16 T15 T14 T13 T12 T11 T10 T9 T8 T7 T6 T5 T4 T3 T2 T1 T0]
  · simp only [Tok.toksAll]
    iframe
  simp only [Prog.pure_eq_ret]
  rw [wp_ret]
  imodintro
  iapply Hk
  iframe
  isplitl [Hg]; · iexists g'; iexact Hg
  isplitl [C7 C8 C9 C10 C11 C12 C13 C14 C15 C16 C17 C18 C19 C20 C21 C22 C23 C24 C25 C26 C27 C28 C29 C30 C31 C32 C33 C34 C35 C36 C37 C38]
  · delta cells0
    iframe
  iexists W'; iexact HO

end Cert.Proof.KW.R0

end
-- ==== Proof.W_KIRegion0.lean ====
import proofs.«421265_j15204184228262_2_alg».proof.Proof.W_KIRegion1
import proofs.«421265_j15204184228262_2_alg».proof.Proof.W_R0Body

noncomputable section

namespace Cert.Proof.KW.Reg0

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KW.R1 (Bf pt)
open Cert.Proof.KW (L lv 𝒱₀ Eo owns_elim owns_intro)

variable {F : FTy → Type} [FloatOps F]

local notation "𝕄" => MT nD τ sig Unit (Elt F) ℕ (Pipeline.UC sig nD τ) ℕ

abbrev osem0 : Fin 32 → SemLoc sig := fun k => .dma ⟨7 + k.val, by have := k.isLt; show 7 + k.val < 49; omega⟩

theorem ownSemFacts0 : Pipeline.OwnSemFacts spec0 osem0 := by decide

abbrev sems0 (c : Dev nD) : sProp 𝕄 :=
  Pipeline.ownSems0 (Ix := Unit) (Name := ℕ) (U := Pipeline.UC sig nD τ) (Lvl := ℕ) (Val := Elt F) (τ := τ) osem0 c

omit [FloatOps F] in
theorem sems0_eq (c : Dev nD) : (sems0 c : sProp 𝕄) = R0.cells0 c :=
  Pipeline.ownSems0_eq_of_list c osem0
    [0, 1, 2, 3, 4, 5, 6, 7, 8, 9, 10, 11, 12, 13, 14, 15, 16, 17, 18, 19, 20, 21, 22, 23, 24, 25, 26, 27, 28, 29, 30, 31]
    (by decide) (by decide)

variable (V : (c : Dev nD) → (b : Ref sig .tc) → Buf (Elt F) ((c : Thread nD τ).loc b))

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev Φ0 (c : Dev nD) : sProp 𝕄 :=
  iprop(pt c (Memref.whole main_arg0) (V c main_arg0) ∗ sems0 c
    ∗ Pipeline.scopedRest (Ix := Unit) (Name := ℕ) (U := Pipeline.UC sig nD τ) (Lvl := ℕ) (Val := Elt F) spec0 c)

def dat (c : Dev nD) : Dat τ (Elt F) Unit ℕ (Pipeline.UC sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => R0Spec.blockOut (F := F) (((cfg0.win 0).blk t).view.read (Elt F) (V c main_v4))
        (((cfg0.win 1).blk t).view.read (Elt F) (V c main_v5)) (V c main_v6) (V c main_arg0)
  Φ _ := Φ0 V c
  q _ := fullShare
  owed _ := 0

theorem before_0 (c : Dev nD) (t : Fin cfg0.N) (d) : (dat V c).before 0 t d = iblk V c 0 t :=
  ((dat V c).before_in_eq_fetched 0 rfl (fun _ => rfl) (fun _ _ _ => rfl)
    (fun t => by dsimp only [dat]; unfold Dat.blockOf iblk; rfl) t d).trans
    (by unfold Dat.fetched Dat.blockOf iblk; rfl)

theorem before_1 (c : Dev nD) (t : Fin cfg0.N) (d) : (dat V c).before 1 t d = iblk V c 1 t :=
  ((dat V c).before_in_eq_fetched 1 rfl (fun _ => rfl) (fun _ _ _ => rfl)
    (fun t => by dsimp only [dat]; unfold Dat.blockOf iblk; rfl) t d).trans
    (by unfold Dat.fetched Dat.blockOf iblk; rfl)

theorem before_2 (c : Dev nD) (t : Fin cfg0.N) (d) : (dat V c).before 2 t d = iblk V c 2 t :=
  ((dat V c).before_in_eq_fetched 2 rfl (fun _ => rfl) (fun _ _ _ => rfl)
    (fun t => by dsimp only [dat]; unfold Dat.blockOf iblk; rfl) t d).trans
    (by unfold Dat.fetched Dat.blockOf iblk; rfl)

theorem before_3 (c : Dev nD) (t : Fin cfg0.N) (d) : (dat V c).before 3 t d = d :=
  (dat V c).before_out_reset 3 rfl t
    (if h0 : t.val = 0 then .inl h0 else .inr ⟨h0, flush0_3 _⟩) d

theorem hst (w : Fin cfg0.W) (t : Fin cfg0.N) : ((cfg0.win w).stage (cfg0.slots t w)).IsWhole :=
  stage_whole0 w (cfg0.slots t w)

theorem owesAt_intro (c : Dev nD) (t : Fin (cfg0.N + 1)) :
    (Eo c : sProp 𝕄) ⊢ (dat V c).owesAt () t := by
  unfold Pipeline.Dat.owesAt Pipeline.owesWithin
  iintro ⟨%W, HO⟩; iexists W
  isplitr; · ipureintro; exact fun _ _ => Or.inl trivial
  iexact HO

theorem owesAt_elim (c : Dev nD) (t : Fin (cfg0.N + 1)) :
    ((dat V c).owesAt () t : sProp 𝕄) ⊢ Eo c := by
  unfold Pipeline.Dat.owesAt Pipeline.owesWithin
  iintro ⟨%W, -, HO⟩; iexists W; iexact HO

theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem iblk_2 (c : Dev nD) (t : Fin cfg0.N) : iblk V c 2 t = V c main_v6 := by
  funext j
  show (V c main_v6 : Vec F S512x128 .f32) (((cfg0.win 2).blk t).view.emb j) = (V c main_v6 : Vec F S512x128 .f32) j
  congr 1
  funext a; apply Fin.ext
  obtain ⟨e0, e1⟩ := index_2 t
  match a with
  | ⟨0, _⟩ => show win0_2.index t (0 : Fin 2) * 512 + 1 * (j 0).val = (j 0).val; rw [e0]; omega
  | ⟨1, _⟩ => show win0_2.index t (1 : Fin 2) * 128 + 1 * (j 1).val = (j 1).val; rw [e1]; omega

theorem body_obligation (c : Dev nD)
    (hblk0 : ∀ (t : Fin cfg0.N) (j : S8192.Idx), ((iblk V c 0 t j : Elt F .i32) : BitVec 32).toNat + 1 ≤ 100000) :
    BodyObligation (dat V c) (defs₀ (F := F)) 𝒱₀ () Set.univ := fun t => by
  rw [bigSep_W0, bigSep_W0]
  rw [show (dat V c).Φ t.succ = Φ0 V c from rfl, show (dat V c).Φ t.castSucc = Φ0 V c from rfl]
  unfold Φ0
  rw [scopedRest0_eq, sems0_eq]
  iintro ⟨⟨Hent, Hsem, ⟨%g, Hg⟩, Hrest⟩, Howes, ⟨%d0, H0⟩, ⟨%d1, H1⟩, ⟨%d2, H2⟩, ⟨%d3, H3⟩⟩
  ihave G0 := (owns_elim (hst 0 t) _) $$ [H0]
  · iexact H0
  icases G0 with ⟨%f0, %hf0, H0⟩
  ihave G1 := (owns_elim (hst 1 t) _) $$ [H1]
  · iexact H1
  icases G1 with ⟨%f1, %hf1, H1⟩
  ihave G2 := (owns_elim (hst 2 t) _) $$ [H2]
  · iexact H2
  icases G2 with ⟨%f2, %hf2, H2⟩
  ihave G3 := (owns_elim (hst 3 t) _) $$ [H3]
  · iexact H3
  icases G3 with ⟨%f3, -, H3⟩
  ihave GO := (owesAt_elim V c t.castSucc) $$ [Howes]
  · iexact Howes
  icases GO with ⟨%W₀, HO⟩
  rw [before_0] at hf0; rw [before_1] at hf1; rw [before_2] at hf2
  have e0 : (st0_0 t).view.read (Elt F) f0 = (dat V c).after 0 t := by dsimp only [dat]; exact hf0
  have e1 : (st0_1 t).view.read (Elt F) f1 = (dat V c).after 1 t := by dsimp only [dat]; exact hf1
  have e2 : (st0_2 t).view.read (Elt F) f2 = (dat V c).after 2 t := by dsimp only [dat]; exact hf2
  have hall : ∀ j : S8192.Idx, (((st0_0 t).view.read (Elt F) f0 j : Elt F .i32) : BitVec 32).toNat + 1 ≤ 100000 :=
    fun j => by rw [hf0]; exact hblk0 t j
  have hw : R0.WordsOk c (st0_0 t) f0 := fun off hin => hall _
  have e3 : (st0_3 t).view.read (Elt F)
        ((hst 3 t).unread (R0.outBlock c (st0_0 t) (st0_1 t) (st0_2 t) f0 f1 f2 (V c main_arg0)))
      = (dat V c).after 3 t := by
    rw [Memref.IsWhole.read_unread]
    dsimp only [dat, R0.outBlock]
    rw [hf0, hf1, hf2, iblk_2]
    rfl
  iapply (R0.gmRun c (grid0.coords t) (st0_0 t) (hst 0 t) (st0_1 t) (hst 1 t) (st0_2 t) (hst 2 t) (st0_3 t) (hst 3 t)
    f0 f1 f2 (V c main_arg0) hw f3 g W₀ _)
  isplitl [H0]; · iexact H0
  isplitl [H1]; · iexact H1
  isplitl [H2]; · iexact H2
  isplitl [H3]; · iexact H3
  isplitl [Hent]; · iexact Hent
  isplitl [Hg]; · iexact Hg
  isplitl [Hsem]; · iexact Hsem
  isplitl [HO]; · iexact HO
  iintro ⟨H0, H1, H2, H3, Hent, Hg, Hsem, HO⟩
  isplitl [Hent Hsem Hg Hrest]
  · isplitl [Hent]; · iexact Hent
    isplitl [Hsem]; · iexact Hsem
    isplitl [Hg]; · iexact Hg
    iexact Hrest
  isplitl [HO]; · iapply (owesAt_intro V c t.succ); iexact HO
  isplitl [H0]; · iapply (owns_intro (hst 0 t) f0 e0); iexact H0
  isplitl [H1]; · iapply (owns_intro (hst 1 t) f1 e1); iexact H1
  isplitl [H2]; · iapply (owns_intro (hst 2 t) f2 e2); iexact H2
  iapply (owns_intro (hst 3 t) _ e3); iexact H3

variable (m : (ℓ : Loc nD τ sig) → Buf (Elt F) ℓ) (outs : Outs (F := F))

abbrev V6r (c : Dev nD) (b : Ref sig .tc) : Buf (Elt F) ((c : Thread nD τ).loc b) := V6 m c b
abbrev V7r (c : Dev nD) (b : Ref sig .tc) : Buf (Elt F) ((c : Thread nD τ).loc b) := V7 m outs c b

theorem V7_main_v7 (c : Dev nD) : V7 m outs c main_v7 = outs 7 main_v7 c := by
  simp only [V7, Function.update_self]

abbrev pdats := Reg1.pdats (F := F) (Reg1.V8r m outs) (dat (V6r m))

theorem hR : ({main_arg0} : Finset (Ref sig .tc)) ⊆ Pipeline.restRefs sig spec0 :=
  Finset.singleton_subset_iff.mpr (Pipeline.mem_restRefs_of main_arg0 rfl (by decide))

abbrev bypass (c : Dev nD) (W : (b : Ref sig .tc) → Buf (Elt F) ((c : Thread nD τ).loc b)) : sProp 𝕄 :=
  bigSep (Pipeline.restRefs sig spec0 \ {main_arg0}) fun b => (((c : Thread nD τ).loc b) ↦{fullShare} W b : sProp 𝕄)

theorem unscopedRest_split (c : Dev nD) (W : (b : Ref sig .tc) → Buf (Elt F) ((c : Thread nD τ).loc b)) :
    (Pipeline.unscopedRest (Ix := Unit) (Name := ℕ) (U := Pipeline.UC sig nD τ) (Lvl := ℕ) spec0 c W : sProp 𝕄)
      = iprop(pt c (Memref.whole main_arg0) (W main_arg0) ∗ bypass c W) := by
  unfold Pipeline.unscopedRest bypass
  rw [show ((Finset.univ.filter fun b : Ref sig .tc => ¬ b.isScoped) \ Finset.univ.image (Pipeline.arrRef spec0))
      = Pipeline.restRefs sig spec0 from rfl, BI.bigSep_sdiff_split hR, BI.bigSep_singleton]
  rfl

set_option backward.isDefEq.respectTransparency.types false in
def reg0 (hblk0 : ∀ (c : Dev nD) (t : Fin cfg0.N) (j : S8192.Idx), ((iblk (V6r m) c 0 t j : Elt F .i32) : BitVec 32).toNat + 1 ≤ 100000)
    (hout7 : ∀ c, outs 7 main_v7 c = (dat (V6r m) c).arrAt 3 cfg0.N) :
    Pipeline.RegionSeg (pcfgs (F := F)) adm (pdats m outs) () defs₀ 𝒱₀ L lv 0 where
  win := launch0.win.to₀
  block_pos := launch0.block_pos
  stage_whole := launch0.stage_whole
  K := Fin 32
  osem := osem0
  ho := ownSemFacts0
  hbody c := (body_obligation (V6r m) c (hblk0 c)).loose
  hwaits := Pipeline.hwaits_of_owed_zero _ _ _ _ L lv 0 fun _ _ => rfl
  pre c := iprop(StableHlo.held (c : Thread nD τ) (Pipeline.ucRefs τ sig) (V6 m c) ∗ Eo c)
  post c := iprop(StableHlo.held (c : Thread nD τ) (Pipeline.ucRefs τ sig) (V7 m outs c) ∗ Eo c)
  X c := iprop(pt c (Memref.whole main_arg0) (V6r m c main_arg0) ∗ sems0 c)
  Y c := pt c (Memref.whole main_arg0) (V6r m c main_arg0)
  Z c := bypass c (V6r m c)
  hentry c := by
    rw [← Pipeline.unscopedBufs_held (Ix := Unit) (Name := ℕ) (U := Pipeline.UC sig nD τ) (Lvl := ℕ) c (V6 m c)]
    have hsplit : (unscopedBufs c (V6r m c) : sProp 𝕄)
        ⊢ iprop((pdats m outs 0 c).arrays ((pdats m outs 0 c).arrAt · 0)
            ∗ Pipeline.unscopedRest (Ix := Unit) (Name := ℕ) (U := Pipeline.UC sig nD τ) (Lvl := ℕ) spec0 c (V6r m c)) :=
      Pipeline.arrays_of_unscopedBufs (p := 0) (pcfgs (F := F)) adm (pdats m outs) launch0.win launch0.arr_whole c
      ((pdats m outs 0 c).share_full fun _ => rfl) (V6r m c) fun _ => rfl
    rw [unscopedRest_split] at hsplit
    iintro ⟨⟨Hub, HO⟩, Hsem, -⟩
    ihave H := hsplit $$ [Hub]
    · iexact Hub
    icases H with ⟨Ha, Hent, Hby⟩
    imodintro
    isplitl [Ha]; · iexact Ha
    isplitr
    · unfold Pipeline.prefHeld; rw [show (Finset.univ : Finset (Fin 0)) = ∅ from rfl, BI.bigSep_empty]; iempintro
    isplitl [HO]; · iapply (owesAt_intro (V6r m) c 0); iexact HO
    isplitl [Hent Hsem]
    · isplitl [Hent]; · iexact Hent
      iexact Hsem
    iexact Hby
  hin c := by
    rw [show (pdats m outs 0 c).Φ 0 = Φ0 (V6r m) c from rfl]
    iintro ⟨⟨Hent, Hsem⟩, -, Hr⟩
    isplitl [Hent]; · iexact Hent
    isplitl [Hsem]; · iexact Hsem
    iexact Hr
  hout c := by
    rw [show (pdats m outs 0 c).Φ (Fin.last _) = Φ0 (V6r m) c from rfl]
    iintro ⟨Hent, Hsem, Hr⟩
    isplitl [Hent]; · iexact Hent
    isplitl [Hsem]; · iexact Hsem
    iexact Hr
  hexit c := by
    rw [← Pipeline.unscopedBufs_held (Ix := Unit) (Name := ℕ) (U := Pipeline.UC sig nD τ) (Lvl := ℕ) c (V7 m outs c)]
    have hjoin : iprop((pdats m outs 0 c).arrays ((pdats m outs 0 c).arrAt · cfg0.N)
          ∗ Pipeline.unscopedRest (Ix := Unit) (Name := ℕ) (U := Pipeline.UC sig nD τ) (Lvl := ℕ) spec0 c (V6r m c))
        ⊢ (unscopedBufs c (V7r m outs c) : sProp 𝕄) :=
      Pipeline.unscopedBufs_of_arrays (p := 0) (pcfgs (F := F)) adm (Ix := Unit) (Name := ℕ) (U := Pipeline.UC sig nD τ) (Lvl := ℕ) launch0.win launch0.arr_whole c
      (pdats m outs) ((pdats m outs 0 c).share_full fun _ => rfl) (V6r m c) (V7r m outs c)
      ((pdats m outs 0 c).arrAt · cfg0.N)
      (fun w => by
        fin_cases w
        · exact ((pdats m outs 0 c).arrAt_in 0 rfl _).trans (V7_of m outs c (Pipeline.arrRef spec0 0) (by decide)).symm
        · exact ((pdats m outs 0 c).arrAt_in 1 rfl _).trans (V7_of m outs c (Pipeline.arrRef spec0 1) (by decide)).symm
        · exact ((pdats m outs 0 c).arrAt_in 2 rfl _).trans (V7_of m outs c (Pipeline.arrRef spec0 2) (by decide)).symm
        · exact (hout7 c).symm.trans (V7_main_v7 m outs c).symm)
      (fun b hb => V7_of m outs c b fun h =>
        hb (List.mem_singleton.mp h ▸ Finset.mem_image.mpr ⟨3, Finset.mem_univ _, rfl⟩))
    rw [unscopedRest_split] at hjoin
    iintro ⟨Ha, HO, Hent, Hby⟩
    imodintro
    isplitl [Ha Hent Hby]
    · iapply hjoin
      isplitl [Ha]; · iexact Ha
      isplitl [Hent]; · iexact Hent
      iexact Hby
    iapply (owesAt_elim (V6r m) c (Fin.last _)); iexact HO

end Cert.Proof.KW.Reg0

end
-- ==== Proof.W_KIFrame.lean ====
import proofs.«421265_j15204184228262_2_alg».proof.Proof.W_KIRegion0

noncomputable section

namespace Cert.Proof.KW.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KW (L lv 𝒱₀ Eo)

variable {F : FTy → Type} [FloatOps F]

local notation "𝕄" => MT nD τ sig Unit (Elt F) ℕ (Pipeline.UC sig nD τ) ℕ

variable (m : (ℓ : Loc nD τ sig) → Buf (Elt F) ℓ)

def o7 (c : Dev nD) : Buf (Elt F) ((c : Thread nD τ).loc main_v7) := (Reg0.dat (Reg0.V6r m) c).arrAt 3 cfg0.N

def W7 (c : Dev nD) : Valuation τ sig (Elt F) := Function.update (V6 m c) main_v7 (o7 m c)

def W8 (c : Dev nD) : Valuation τ sig (Elt F) := StableHlo.after hostOps1 (W7 m c)

abbrev W8r (c : Dev nD) (b : Ref sig .tc) : Buf (Elt F) ((c : Thread nD τ).loc b) := W8 m c b

def o13 (c : Dev nD) : Buf (Elt F) ((c : Thread nD τ).loc main_v13) := (Reg1.dat (W8r m) c).arrAt 6 cfg1.N

def W9 (c : Dev nD) : Valuation τ sig (Elt F) := Function.update (W8 m c) main_v13 (o13 m c)

def outs : Outs (F := F) := fun _ r c => W9 m c r

theorem outs_v7 (c : Dev nD) : outs m 7 main_v7 c = o7 m c := by
  show W9 m c main_v7 = o7 m c
  unfold W9
  rw [Function.update_of_ne (StableHlo.devRef_ne_of_ne (by decide : main_v7 ≠ main_v13)
    : (Proc.devRef .tc main_v7 : DevRef τ sig) ≠ Proc.devRef .tc main_v13)]
  show StableHlo.after hostOps1 (W7 m c) main_v7 = o7 m c
  rw [StableHlo.after_of_writes_sub hostOps1 _ hostOps1_writes (by decide : main_v7 ∉ hostOps1_W)]
  exact Function.update_self ..

theorem outs_v13 (c : Dev nD) : outs m 9 main_v13 c = o13 m c := by
  show W9 m c main_v13 = o13 m c
  unfold W9
  exact Function.update_self ..

theorem V7_eq (c : Dev nD) : V7 m (outs m) c = W7 m c := by
  show Function.update (V6 m c) main_v7 (outs m 7 main_v7 c) = W7 m c
  rw [outs_v7]; rfl

theorem V8_eq (c : Dev nD) : V8 m (outs m) c = W8 m c := by
  show StableHlo.after hostOps1 (V7 m (outs m) c) = W8 m c
  rw [V7_eq]; rfl

theorem V8r_eq : Reg1.V8r m (outs m) = W8r m :=
  funext fun c => funext fun b => by
    show V8 m (outs m) c b = W8 m c b
    rw [V8_eq]

theorem hout7 (c : Dev nD) : outs m 7 main_v7 c = (Reg0.dat (Reg0.V6r m) c).arrAt 3 cfg0.N := outs_v7 m c

theorem hout13 (c : Dev nD) : outs m 9 main_v13 c = (Reg1.dat (Reg1.V8r m (outs m)) c).arrAt 6 cfg1.N := by
  rw [V8r_eq]; exact outs_v13 m c

abbrev u₀ : Pipeline.UC sig nD τ :=
  (initOf (Pipeline.cells cfgs cellOf_inj) (Pipeline.launchToks cfgs cellOf_inj), 1)

omit [FloatOps F] in
theorem hu₀ : (ownU (u₀ : Pipeline.UC sig nD τ) : sProp 𝕄)
    ⊢ |={Set.univ}=> iprop(BI.own (embL (initOf (Pipeline.cells cfgs cellOf_inj) (Pipeline.launchToks cfgs cellOf_inj)))
        ∗ bigSep Finset.univ fun _ : Dev nD => (iprop(emp) : sProp 𝕄)) := by
  iintro Hu
  ihave H := (ownU_pair _ _) $$ [Hu]
  · iexact Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

variable (ρ : Dev nD → PrngReg)

set_option backward.isDefEq.respectTransparency.types false in
-- The frame: the generated conditional frame at unknowns chosen without a cycle, first launch, host stretch, second launch.
theorem frame (hblk0 : ∀ (c : Dev nD) (t : Fin cfg0.N) (j : S8192.Idx),
      ((Reg0.iblk (Reg0.V6r m) c 0 t j : Elt F .i32) : BitVec 32).toNat + 1 ≤ 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (EP := embL) (ι := ()) (𝒱₀ := 𝒱₀) (L := L) (lv := lv) (hL := fun _ _ => rfl) (ρ := ρ)
    (outs := outs m) (pdats := Reg0.pdats m (outs m)) (O₀ := 0) (G := fun _ => iprop(emp)) (u₀ := u₀) (hu₀ := hu₀)
    (E := fun _ c => Eo c)
    (hE0 := by
      refine Pipeline.initEach L lv fun c => ?_
      iintro ⟨⟨-, HO, -, -, -⟩, -⟩
      imodintro
      iexists ∅; iexact HO)
    (hE2 := fun _ => .rfl)
    (R0 := Reg0.reg0 m (outs m) hblk0 (hout7 m)) (hpre0 := fun _ => .rfl) (hpost0 := fun _ => .rfl)
    (R1 := Reg1.reg1 m (outs m) (Reg0.dat (Reg0.V6r m)) (hout13 m)) (hpre1 := fun _ => .rfl) (hpost1 := fun _ => .rfl)

end Cert.Proof.KW.Frame

end
-- ==== Proof.W_HostChain.lean ====
import proofs.«421265_j15204184228262_2_alg».proof.Proof.Gen.Kernel.Regions
import proofs.«421265_j15204184228262_2_alg».proof.Proof.Spec
import Idealize.ShloMosaic.Lib.KernelVsHost
import Idealize.ShloMosaic.Lib.ValueIdx

noncomputable section

namespace Cert.HostChainW

open Idealize.ShloMosaic Idealize.ShloMosaic.TcCoe Idealize.ShloMosaic.ValueIdx
open Idealize.SL.Sem
open Cert.Kernel Cert.Kernel.Gen

variable {F : FTy → Type} [FloatOps F]
variable (m : (ℓ : Loc nD τ sig) → Buf (Elt F) ℓ)

abbrev ent (c : Dev nD) : FVec F S100000x128 .f32 := m ((c : Thread nD τ).loc main_arg0)
abbrev rel (c : Dev nD) : FVec F S500x128 .f32 := m ((c : Thread nD τ).loc main_arg1)
abbrev edges (c : Dev nD) : IVec S2x600000 32 := m ((c : Thread nD τ).loc main_arg2)
abbrev etype (c : Dev nD) : IVec S600000 32 := m ((c : Thread nD τ).loc main_arg3)

theorem V6_main_v4 (c : Dev nD) : (V6 m c main_v4 : IVec S606208 32)
    = pad S606208 ![0] ![6208] ![0]
        (shapeCast S600000 (extractStridedSlice S1x600000 ![0, 0] (edges m c) slices_S2x600000_S1x600000_0_0) shapeCasts_S1x600000_S600000)
        (constantI S_ 32 0#32) pads_S600000_S606208_062080 h_S_ := by
  dsimp only [V6, V5, V4, V3, V2, V1, V0]
  simp only [hostOps0, hostOps0_1, hostOps0_2, hostOps0_3, hostOps0_4, hostOps0_5]
  after_results
  rfl

theorem V6_main_v5 (c : Dev nD) : (V6 m c main_v5 : IVec S606208 32)
    = pad S606208 ![0] ![6208] ![0] (etype m c) (constantI S_ 32 0#32) pads_S600000_S606208_062080 h_S_ := by
  dsimp only [V6, V5, V4, V3, V2, V1, V0]
  simp only [hostOps0, hostOps0_1, hostOps0_2, hostOps0_3, hostOps0_4, hostOps0_5]
  after_results
  rfl

theorem V6_main_v6 (c : Dev nD) : (V6 m c main_v6 : FVec F S512x128 .f32)
    = pad S512x128 ![0, 0] ![12, 0] ![0, 0] (rel m c) (sitofp .f32 (constantI S_ 32 0#32) : FVec F S_ .f32)
        pads_S500x128_S512x128_0120_000 h_S_ := by
  dsimp only [V6, V5, V4, V3, V2, V1, V0]
  simp only [hostOps0, hostOps0_1, hostOps0_2, hostOps0_3, hostOps0_4, hostOps0_5]
  after_results
  rfl

theorem V6_main_arg0 (c : Dev nD) : V6 m c main_arg0 = m ((c : Thread nD τ).loc main_arg0) :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl

theorem v4_at (c : Dev nD) (j : Fin 606208) : (V6 m c main_v4 : IVec S606208 32) (ix1 j)
    = if h : j.val < 600000 then edges m c (ix2 (0 : Fin 2) (⟨j.val, h⟩ : Fin 600000)) else 0#32 := by
  refine (congrFun (V6_main_v4 m c) (ix1 j)).trans ?_
  by_cases h : j.val < 600000
  · rw [dif_pos h]
    refine (pad_apply_of_inside ![0] ![6208] ![0] _ _ pads_S600000_S606208_062080 h_S_ (ix1 j)
      (ix1 (⟨j.val, h⟩ : Fin 600000)) (fun a => by
        obtain rfl : a = 0 := Subsingleton.elim _ _
        show j.val = 0 + j.val * (0 + 1); omega)).trans ?_
    refine (shapeCast_apply _ shapeCasts_S1x600000_S600000 (ix1 (⟨j.val, h⟩ : Fin 600000))
      (ix2 (0 : Fin 1) (⟨j.val, h⟩ : Fin 600000)) (by
        rw [Shape.rowMajor_val_two, Shape.rowMajor_val_one]; show 0 * 600000 + j.val = j.val; omega)).trans ?_
    exact extractStridedSlice_apply ![0, 0] _ slices_S2x600000_S1x600000_0_0 (ix2 (0 : Fin 1) (⟨j.val, h⟩ : Fin 600000))
      (ix2 (0 : Fin 2) (⟨j.val, h⟩ : Fin 600000)) (fun a => match a with
        | ⟨0, _⟩ => rfl
        | ⟨1, _⟩ => (Nat.zero_add _).symm)
  · rw [dif_neg h]
    exact pad_apply_of_not_inside (s := S600000) (t := S606208) ![0] ![6208] ![0] _ _ pads_S600000_S606208_062080 h_S_ (ix1 j) (0 : Fin 1) (by
      show ¬(0 ≤ j.val ∧ (j.val - 0) % (0 + 1) = 0 ∧ (j.val - 0) / (0 + 1) < 600000); omega)

theorem v5_at (c : Dev nD) (j : Fin 606208) : (V6 m c main_v5 : IVec S606208 32) (ix1 j)
    = if h : j.val < 600000 then etype m c (ix1 (⟨j.val, h⟩ : Fin 600000)) else 0#32 := by
  refine (congrFun (V6_main_v5 m c) (ix1 j)).trans ?_
  by_cases h : j.val < 600000
  · rw [dif_pos h]
    exact pad_apply_of_inside ![0] ![6208] ![0] _ _ pads_S600000_S606208_062080 h_S_ (ix1 j)
      (ix1 (⟨j.val, h⟩ : Fin 600000)) (fun a => by
        obtain rfl : a = 0 := Subsingleton.elim _ _
        show j.val = 0 + j.val * (0 + 1); omega)
  · rw [dif_neg h]
    exact pad_apply_of_not_inside (s := S600000) (t := S606208) ![0] ![6208] ![0] _ _ pads_S600000_S606208_062080 h_S_ (ix1 j) (0 : Fin 1) (by
      show ¬(0 ≤ j.val ∧ (j.val - 0) % (0 + 1) = 0 ∧ (j.val - 0) / (0 + 1) < 600000); omega)

theorem v6_at (c : Dev nD) (r : Fin 512) (d : Fin 128) : (V6 m c main_v6 : FVec F S512x128 .f32) (ix2 r d)
    = if h : r.val < 500 then rel m c (ix2 (⟨r.val, h⟩ : Fin 500) d) else FloatOps.sitofp .f32 (0#32 : BitVec 32) := by
  refine (congrFun (V6_main_v6 m c) (ix2 r d)).trans ?_
  by_cases h : r.val < 500
  · rw [dif_pos h]
    exact pad_apply_of_inside ![0, 0] ![12, 0] ![0, 0] _ _ pads_S500x128_S512x128_0120_000 h_S_ (ix2 r d)
      (ix2 (⟨r.val, h⟩ : Fin 500) d) (fun a => match a with
        | ⟨0, _⟩ => by show r.val = 0 + r.val * (0 + 1); omega
        | ⟨1, _⟩ => by show d.val = 0 + d.val * (0 + 1); omega)
  · rw [dif_neg h]
    exact pad_apply_of_not_inside (s := S500x128) (t := S512x128) ![0, 0] ![12, 0] ![0, 0] _ _ pads_S500x128_S512x128_0120_000 h_S_ (ix2 r d) (0 : Fin 2) (by
      show ¬(0 ≤ r.val ∧ (r.val - 0) % (0 + 1) = 0 ∧ (r.val - 0) / (0 + 1) < 500); omega)

theorem toNat_lt_of_toInt {x : BitVec 32} {n : Nat} (h0 : 0 ≤ x.toInt) (h1 : x.toInt < n) : x.toNat < n := by
  have hx := x.isLt
  rw [BitVec.toInt_eq_toNat_cond] at h0 h1
  split at h0
  · rename_i hc; rw [if_pos hc] at h1; omega
  · omega

theorem v4_bound (c : Dev nD) (h : Cert.Spec.SrcOk (edges m c)) (j : Fin 606208) :
    ((V6 m c main_v4 : IVec S606208 32) (ix1 j)).toNat + 1 ≤ 100000 := by
  rw [v4_at]
  by_cases hj : j.val < 600000
  · rw [dif_pos hj]
    exact toNat_lt_of_toInt (h ⟨j.val, hj⟩).1 (h ⟨j.val, hj⟩).2
  · rw [dif_neg hj]; decide

theorem v5_bound (c : Dev nD) (h : Cert.Spec.TypeOk (etype m c)) (j : Fin 606208) :
    ((V6 m c main_v5 : IVec S606208 32) (ix1 j)).toNat < 500 := by
  rw [v5_at]
  by_cases hj : j.val < 600000
  · rw [dif_pos hj]
    exact toNat_lt_of_toInt (h ⟨j.val, hj⟩).1 (h ⟨j.val, hj⟩).2
  · rw [dif_neg hj]; decide

end Cert.HostChainW

end
-- ==== Proof.W_BlockWords.lean ====
import proofs.«421265_j15204184228262_2_alg».proof.Proof.W_HostChain
import proofs.«421265_j15204184228262_2_alg».proof.Proof.Gen.Kernel.Points

noncomputable section

namespace Cert.HostChainW

open Idealize.ShloMosaic Idealize.ShloMosaic.TcCoe Idealize.ShloMosaic.ValueIdx
open Idealize.SL.Sem
open Cert.Kernel Cert.Kernel.Gen

variable {F : FTy → Type} [FloatOps F]

variable (m : (ℓ : Loc nD τ sig) → Buf (Elt F) ℓ)

theorem blk0_bound (c : Dev nD) (h : Cert.Spec.SrcOk (edges m c)) (t : Fin cfg0.N) (j : (cfg0.win 0).block.Idx) :
    ((((cfg0.win 0).blk t).view.read (Elt F) (V6 m c main_v4) j : Elt F .i32) : BitVec 32).toNat + 1 ≤ 100000 := by
  have e : (((cfg0.win 0).blk t).view.read (Elt F) (V6 m c main_v4) j : Elt F .i32)
      = (V6 m c main_v4 : IVec S606208 32) (ix1 ((((cfg0.win 0).blk t).view.emb j : S606208.Idx) 0)) := by
    show (V6 m c main_v4 : IVec S606208 32) (((cfg0.win 0).blk t).view.emb j) = _
    exact congrArg _ (eq_ix1 _)
  rw [e]
  exact v4_bound m c h _

theorem blk1_bound (c : Dev nD) (h : Cert.Spec.TypeOk (etype m c)) (t : Fin cfg0.N) (j : (cfg0.win 1).block.Idx) :
    ((((cfg0.win 1).blk t).view.read (Elt F) (V6 m c main_v5) j : Elt F .i32) : BitVec 32).toNat < 500 := by
  have e : (((cfg0.win 1).blk t).view.read (Elt F) (V6 m c main_v5) j : Elt F .i32)
      = (V6 m c main_v5 : IVec S606208 32) (ix1 ((((cfg0.win 1).blk t).view.emb j : S606208.Idx) 0)) := by
    show (V6 m c main_v5 : IVec S606208 32) (((cfg0.win 1).blk t).view.emb j) = _
    exact congrArg _ (eq_ix1 _)
  rw [e]
  exact v5_bound m c h _

end Cert.HostChainW

end
-- ==== Proof.ClaimsW.lean ====
import proofs.«421265_j15204184228262_2_alg».proof.Defs
import proofs.«421265_j15204184228262_2_alg».proof.Proof.W_KIFrame
import proofs.«421265_j15204184228262_2_alg».proof.Proof.W_BlockWords
import proofs.«421265_j15204184228262_2_alg».proof.Proof.W_HostChain
import proofs.«421265_j15204184228262_2_alg».proof.Proof.PreFacts
import proofs.«421265_j15204184228262_2_alg».proof.Proof.Gen.Kernel
import proofs.«421265_j15204184228262_2_alg».proof.Proof.Gen.Pre_finite_inputs

noncomputable section

namespace Cert.Proof.ClaimsW

open Idealize.ShloMosaic Idealize.ShloMosaic.TcCoe Idealize.SL.Sem Idealize.ShloMosaic.ValueIdx
open Cert.Kernel Cert.Kernel.Gen

variable (m : (ℓ : Loc nD τ sig) → Buf (Elt Bits) ℓ)

theorem srcOk (hpre : Cert.Pre_Kernel m) (c : Dev nD) : Cert.Spec.SrcOk (Cert.HostChainW.edges m c) :=
  Cert.PreFacts.srcOk_of_pre _ _ _ _ _ _ _ _ (hpre c)

theorem hblk0 (hpre : Cert.Pre_Kernel m) (c : Dev nD) (t : Fin cfg0.N) (j : S8192.Idx) :
    ((Cert.Proof.KW.Reg0.iblk (Cert.Proof.KW.Reg0.V6r m) c 0 t j : Elt Bits .i32) : BitVec 32).toNat + 1 ≤ 100000 :=
  Cert.HostChainW.blk0_bound m c (srcOk m hpre c) t j

theorem frame_k : Cert.frame_Kernel := fun m ρ hpre =>
  Cert.Proof.KW.Frame.frame (F := Bits) m ρ (hblk0 m hpre)

end Cert.Proof.ClaimsW

end
-- ==== Proof.lean ====
import proofs.«421265_j15204184228262_2_alg».proof.Defs
import proofs.«421265_j15204184228262_2_alg».proof.Proof.Gen.Kernel
import proofs.«421265_j15204184228262_2_alg».proof.Proof.Gen.KernelIdeal
import proofs.«421265_j15204184228262_2_alg».proof.Proof.Gen.ReferenceIdeal
import proofs.«421265_j15204184228262_2_alg».proof.Proof.Gen.Pre_finite_inputs
import proofs.«421265_j15204184228262_2_alg».proof.Proof.Claims
import proofs.«421265_j15204184228262_2_alg».proof.Proof.ClaimsW

noncomputable section

namespace Cert.Proof

open Cert.Proof.Claims Cert.Proof.ClaimsW

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
